-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S128x128 : Shape := ⟨2, ![128, 128]⟩
abbrev S128x256 : Shape := ⟨2, ![128, 256]⟩
abbrev S256x128 : Shape := ⟨2, ![256, 128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256x128 .f32) (main_arg5 : FVec F S128x256 .f32) (main_arg6 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  main_v33

def fn {F : FTy → Type} [FloatOps F] (main_arg0 : FVec F S128x128 .f32) (main_arg1 : FVec F S128x256 .f32) (main_arg2 : FVec F S256x128 .f32) (main_arg3 : FVec F S128x256 .f32) (main_arg4 : FVec F S256x128 .f32) (main_arg5 : FVec F S128x256 .f32) (main_arg6 : FVec F S256x128 .f32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Pre_finite_inputs_ReferenceIdeal.lean ====
abbrev S128x128 : Shape := ⟨2, ![128, 128]⟩
abbrev S128x2048 : Shape := ⟨2, ![128, 2048]⟩
abbrev S2048x128 : Shape := ⟨2, ![2048, 128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S128x2048 : S_.BroadcastsInDim S128x2048 (![] : Fin 0 → Fin S128x2048.rank)
  reducesTo_S128x2048_S_d0_1 : S128x2048.ReducesTo [0, 1] S_
  bcast_S_S2048x128 : S_.BroadcastsInDim S2048x128 (![] : Fin 0 → Fin S2048x128.rank)
  reducesTo_S2048x128_S_d0_1 : S2048x128.ReducesTo [0, 1] S_

variable [Facts]

def fn_part1 {F : FTy → Type} [FloatOps F] (main_arg4 : FVec F S2048x128 .f32) (main_arg5 : FVec F S128x2048 .f32) (main_arg6 : FVec F S2048x128 .f32) (main_v13 : IVec S_ 1) (main_v16 : IVec S128x2048 1) : IVec S_ 1 :=
  let main_c_5 : IVec S_ 1 := constantI S_ 1 1#1
  let main_v17 : IVec S_ 1 := (fun x v => Host.reduce IntOp.andi x v reducesTo_S128x2048_S_d0_1 h_S_) main_v16 main_c_5
  let main_v18 : IVec S_ 1 := andi main_v13 main_v17
  let main_v19 : FVec F S2048x128 .f32 := Host.absf main_arg4
  let main_cst_6 : FVec F S_ .f32 := constant S_ .f32 0x7F800000#32
  let main_v20 : FVec F S2048x128 .f32 := broadcastInDim S2048x128 ![] bcast_S_S2048x128 main_cst_6
  let main_v21 : IVec S2048x128 1 := cmpf .olt main_v19 main_v20
  let main_c_7 : IVec S_ 1 := constantI S_ 1 1#1
  let main_v22 : IVec S_ 1 := (fun x v => Host.reduce IntOp.andi x v reducesTo_S2048x128_S_d0_1 h_S_) main_v21 main_c_7
  let main_v23 : IVec S_ 1 := andi main_v18 main_v22
  let main_v24 : FVec F S128x2048 .f32 := Host.absf main_arg5
  let main_cst_8 : FVec F S_ .f32 := constant S_ .f32 0x7F800000#32
  let main_v25 : FVec F S128x2048 .f32 := broadcastInDim S128x2048 ![] bcast_S_S128x2048 main_cst_8
  let main_v26 : IVec S128x2048 1 := cmpf .olt main_v24 main_v25
  let main_c_9 : IVec S_ 1 := constantI S_ 1 1#1
  let main_v27 : IVec S_ 1 := (fun x v => Host.reduce IntOp.andi x v reducesTo_S128x2048_S_d0_1 h_S_) main_v26 main_c_9
  let main_v28 : IVec S_ 1 := andi main_v23 main_v27
  let main_v29 : FVec F S2048x128 .f32 := Host.absf main_arg6
  let main_cst_10 : FVec F S_ .f32 := constant S_ .f32 0x7F800000#32
  let main_v30 : FVec F S2048x128 .f32 := broadcastInDim S2048x128 ![] bcast_S_S2048x128 main_cst_10
  let main_v31 : IVec S2048x128 1 := cmpf .olt main_v29 main_v30
  let main_c_11 : IVec S_ 1 := constantI S_ 1 1#1
  let main_v32 : IVec S_ 1 := (fun x v => Host.reduce IntOp.andi x v reducesTo_S2048x128_S_d0_1 h_S_) main_v31 main_c_11
  let main_v33 : IVec S_ 1 := andi main_v28 main_v32
  main_v33

def fn {F : FTy → Type} [FloatOps F] (main_arg0 : FVec F S128x128 .f32) (main_arg1 : FVec F S128x2048 .f32) (main_arg2 : FVec F S2048x128 .f32) (main_arg3 : FVec F S128x2048 .f32) (main_arg4 : FVec F S2048x128 .f32) (main_arg5 : FVec F S128x2048 .f32) (main_arg6 : FVec F S2048x128 .f32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S128x2048 .f32 := Host.absf main_arg1
  let main_cst_0 : FVec F S_ .f32 := constant S_ .f32 0x7F800000#32
  let main_v5 : FVec F S128x2048 .f32 := broadcastInDim S128x2048 ![] bcast_S_S128x2048 main_cst_0
  let main_v6 : IVec S128x2048 1 := cmpf .olt main_v4 main_v5
  let main_c_1 : IVec S_ 1 := constantI S_ 1 1#1
  let main_v7 : IVec S_ 1 := (fun x v => Host.reduce IntOp.andi x v reducesTo_S128x2048_S_d0_1 h_S_) main_v6 main_c_1
  let main_v8 : IVec S_ 1 := andi main_v3 main_v7
  let main_v9 : FVec F S2048x128 .f32 := Host.absf main_arg2
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_v14 : FVec F S128x2048 .f32 := Host.absf main_arg3
  let main_cst_4 : FVec F S_ .f32 := constant S_ .f32 0x7F800000#32
  let main_v15 : FVec F S128x2048 .f32 := broadcastInDim S128x2048 ![] bcast_S_S128x2048 main_cst_4
  let main_v16 : IVec S128x2048 1 := cmpf .olt main_v14 main_v15
  fn_part1 (F := F) main_arg4 main_arg5 main_arg6 main_v13 main_v16
-- ==== Kernel.lean ====
abbrev S128x128 : Shape := ⟨2, ![128, 128]⟩
abbrev S128x256 : Shape := ⟨2, ![128, 256]⟩
abbrev S256x128 : Shape := ⟨2, ![256, 128]⟩
abbrev S3x4x8x32x128 : Shape := ⟨5, ![3, 4, 8, 32, 128]⟩
abbrev S3x4x8 : Shape := ⟨3, ![3, 4, 8]⟩
abbrev S_ : Shape := ⟨0, ![]⟩
abbrev S32x128 : Shape := ⟨2, ![32, 128]⟩
abbrev S32x256 : Shape := ⟨2, ![32, 256]⟩
abbrev S1x1x1x32x128 : Shape := ⟨5, ![1, 1, 1, 32, 128]⟩
abbrev S1x1x1 : Shape := ⟨3, ![1, 1, 1]⟩

abbrev nBuf : Space → Nat
  | .hbm => 8
  | .vmem => 9
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S256x128, .f32⟩
  | .hbm, ⟨3, _⟩ => ⟨S128x256, .f32⟩
  | .hbm, ⟨4, _⟩ => ⟨S256x128, .f32⟩
  | .hbm, ⟨5, _⟩ => ⟨S128x256, .f32⟩
  | .hbm, ⟨6, _⟩ => ⟨S256x128, .f32⟩
  | .hbm, ⟨7, _⟩ => ⟨S128x128, .f32⟩
  | .local _ .vmem, ⟨0, _⟩ => ⟨S128x128, .f32⟩
  | .local _ .vmem, ⟨1, _⟩ => ⟨S128x256, .f32⟩
  | .local _ .vmem, ⟨2, _⟩ => ⟨S256x128, .f32⟩
  | .local _ .vmem, ⟨3, _⟩ => ⟨S128x256, .f32⟩
  | .local _ .vmem, ⟨4, _⟩ => ⟨S256x128, .f32⟩
  | .local _ .vmem, ⟨5, _⟩ => ⟨S128x256, .f32⟩
  | .local _ .vmem, ⟨6, _⟩ => ⟨S256x128, .f32⟩
  | .local _ .vmem, ⟨7, _⟩ => ⟨S128x128, .f32⟩
  | .local _ .vmem, ⟨8, _⟩ => ⟨S3x4x8x32x128, .bf16⟩
  | _, _ => ⟨S128x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 200 → Bool
  | ⟨i, _⟩ => dmaSemScopedAt i

abbrev sig : RefSig :=
  (ofTc nBuf bufTy 1 200 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_dev8 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_34 : BitVec 32 := 6#32
  let v39 : BitVec 32 := Scalar.xori v2 c6_i32_34
  let c1_i32_47 : BitVec 32 := 1#32
  let v40 : BitVec 32 := Scalar.muli v39 c1_i32_47
  let v41 : BitVec 32 := Scalar.addi c0_i32_48 v40
  v41.toNat
def k0_dev9 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_53 : BitVec 32 := 2#32
  let v50 : BitVec 32 := Scalar.xori v2 c2_i32_53
  let c1_i32_66 : BitVec 32 := 1#32
  let v51 : BitVec 32 := Scalar.muli v50 c1_i32_66
  let v52 : BitVec 32 := Scalar.addi c0_i32_67 v51
  v52.toNat
def k0_dev10 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_72 : BitVec 32 := 5#32
  let v61 : BitVec 32 := Scalar.xori v2 c5_i32_72
  let c1_i32_85 : BitVec 32 := 1#32
  let v62 : BitVec 32 := Scalar.muli v61 c1_i32_85
  let v63 : BitVec 32 := Scalar.addi c0_i32_86 v62
  v63.toNat
def k0_dev11 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_91 : BitVec 32 := 7#32
  let v72 : BitVec 32 := Scalar.xori v2 c7_i32_91
  let c1_i32_104 : BitVec 32 := 1#32
  let v73 : BitVec 32 := Scalar.muli v72 c1_i32_104
  let v74 : BitVec 32 := Scalar.addi c0_i32_105 v73
  v74.toNat
def k0_dev12 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v83 : BitVec 32 := Scalar.xori v2 c1_i32_110
  let c1_i32_123 : BitVec 32 := 1#32
  let v84 : BitVec 32 := Scalar.muli v83 c1_i32_123
  let v85 : BitVec 32 := Scalar.addi c0_i32_124 v84
  v85.toNat
def k0_dev13 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_129 : BitVec 32 := 3#32
  let v94 : BitVec 32 := Scalar.xori v2 c3_i32_129
  let c1_i32_142 : BitVec 32 := 1#32
  let v95 : BitVec 32 := Scalar.muli v94 c1_i32_142
  let v96 : BitVec 32 := Scalar.addi c0_i32_143 v95
  v96.toNat
def k0_dev14 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_148 : BitVec 32 := 4#32
  let v105 : BitVec 32 := Scalar.xori v2 c4_i32_148
  let c1_i32_161 : BitVec 32 := 1#32
  let v106 : BitVec 32 := Scalar.muli v105 c1_i32_161
  let v107 : BitVec 32 := Scalar.addi c0_i32_162 v106
  v107.toNat
def k0_dev15 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_179 : BitVec 32 := 6#32
  let v130 : BitVec 32 := Scalar.xori v2 c6_i32_179
  let c1_i32_192 : BitVec 32 := 1#32
  let v131 : BitVec 32 := Scalar.muli v130 c1_i32_192
  let v132 : BitVec 32 := Scalar.addi c0_i32_193 v131
  v132.toNat
def k0_dev16 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_198 : BitVec 32 := 2#32
  let v141 : BitVec 32 := Scalar.xori v2 c2_i32_198
  let c1_i32_211 : BitVec 32 := 1#32
  let v142 : BitVec 32 := Scalar.muli v141 c1_i32_211
  let v143 : BitVec 32 := Scalar.addi c0_i32_212 v142
  v143.toNat
def k0_dev17 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_217 : BitVec 32 := 5#32
  let v152 : BitVec 32 := Scalar.xori v2 c5_i32_217
  let c1_i32_230 : BitVec 32 := 1#32
  let v153 : BitVec 32 := Scalar.muli v152 c1_i32_230
  let v154 : BitVec 32 := Scalar.addi c0_i32_231 v153
  v154.toNat
def k0_dev18 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_236 : BitVec 32 := 7#32
  let v163 : BitVec 32 := Scalar.xori v2 c7_i32_236
  let c1_i32_249 : BitVec 32 := 1#32
  let v164 : BitVec 32 := Scalar.muli v163 c1_i32_249
  let v165 : BitVec 32 := Scalar.addi c0_i32_250 v164
  v165.toNat
def k0_dev19 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_255 : BitVec 32 := 1#32
  let v174 : BitVec 32 := Scalar.xori v2 c1_i32_255
  let c1_i32_268 : BitVec 32 := 1#32
  let v175 : BitVec 32 := Scalar.muli v174 c1_i32_268
  let v176 : BitVec 32 := Scalar.addi c0_i32_269 v175
  v176.toNat
def k0_dev20 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_274 : BitVec 32 := 3#32
  let v185 : BitVec 32 := Scalar.xori v2 c3_i32_274
  let c1_i32_287 : BitVec 32 := 1#32
  let v186 : BitVec 32 := Scalar.muli v185 c1_i32_287
  let v187 : BitVec 32 := Scalar.addi c0_i32_288 v186
  v187.toNat
def k0_dev21 (d0 : Dev nD) : Nat :=
  let c0_i32_307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_293 : BitVec 32 := 4#32
  let v196 : BitVec 32 := Scalar.xori v2 c4_i32_293
  let c1_i32_306 : BitVec 32 := 1#32
  let v197 : BitVec 32 := Scalar.muli v196 c1_i32_306
  let v198 : BitVec 32 := Scalar.addi c0_i32_307 v197
  v198.toNat
def k0_dev22 (d0 : Dev nD) : Nat :=
  let c0_i32_338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_324 : BitVec 32 := 6#32
  let v221 : BitVec 32 := Scalar.xori v2 c6_i32_324
  let c1_i32_337 : BitVec 32 := 1#32
  let v222 : BitVec 32 := Scalar.muli v221 c1_i32_337
  let v223 : BitVec 32 := Scalar.addi c0_i32_338 v222
  v223.toNat
def k0_dev23 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_343 : BitVec 32 := 2#32
  let v232 : BitVec 32 := Scalar.xori v2 c2_i32_343
  let c1_i32_356 : BitVec 32 := 1#32
  let v233 : BitVec 32 := Scalar.muli v232 c1_i32_356
  let v234 : BitVec 32 := Scalar.addi c0_i32_357 v233
  v234.toNat
def k0_dev24 (d0 : Dev nD) : Nat :=
  let c0_i32_376 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_362 : BitVec 32 := 5#32
  let v243 : BitVec 32 := Scalar.xori v2 c5_i32_362
  let c1_i32_375 : BitVec 32 := 1#32
  let v244 : BitVec 32 := Scalar.muli v243 c1_i32_375
  let v245 : BitVec 32 := Scalar.addi c0_i32_376 v244
  v245.toNat
def k0_dev25 (d0 : Dev nD) : Nat :=
  let c0_i32_395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_381 : BitVec 32 := 7#32
  let v254 : BitVec 32 := Scalar.xori v2 c7_i32_381
  let c1_i32_394 : BitVec 32 := 1#32
  let v255 : BitVec 32 := Scalar.muli v254 c1_i32_394
  let v256 : BitVec 32 := Scalar.addi c0_i32_395 v255
  v256.toNat
def k0_dev26 (d0 : Dev nD) : Nat :=
  let c0_i32_414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_400 : BitVec 32 := 1#32
  let v265 : BitVec 32 := Scalar.xori v2 c1_i32_400
  let c1_i32_413 : BitVec 32 := 1#32
  let v266 : BitVec 32 := Scalar.muli v265 c1_i32_413
  let v267 : BitVec 32 := Scalar.addi c0_i32_414 v266
  v267.toNat
def k0_dev27 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_419 : BitVec 32 := 3#32
  let v276 : BitVec 32 := Scalar.xori v2 c3_i32_419
  let c1_i32_432 : BitVec 32 := 1#32
  let v277 : BitVec 32 := Scalar.muli v276 c1_i32_432
  let v278 : BitVec 32 := Scalar.addi c0_i32_433 v277
  v278.toNat
def k0_dev28 (d0 : Dev nD) : Nat :=
  let c0_i32_452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_438 : BitVec 32 := 4#32
  let v287 : BitVec 32 := Scalar.xori v2 c4_i32_438
  let c1_i32_451 : BitVec 32 := 1#32
  let v288 : BitVec 32 := Scalar.muli v287 c1_i32_451
  let v289 : BitVec 32 := Scalar.addi c0_i32_452 v288
  v289.toNat
def k0_dev29 (d0 : Dev nD) : Nat :=
  let c0_i32_483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_469 : BitVec 32 := 6#32
  let v312 : BitVec 32 := Scalar.xori v2 c6_i32_469
  let c1_i32_482 : BitVec 32 := 1#32
  let v313 : BitVec 32 := Scalar.muli v312 c1_i32_482
  let v314 : BitVec 32 := Scalar.addi c0_i32_483 v313
  v314.toNat
def k0_dev30 (d0 : Dev nD) : Nat :=
  let c0_i32_502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_488 : BitVec 32 := 2#32
  let v323 : BitVec 32 := Scalar.xori v2 c2_i32_488
  let c1_i32_501 : BitVec 32 := 1#32
  let v324 : BitVec 32 := Scalar.muli v323 c1_i32_501
  let v325 : BitVec 32 := Scalar.addi c0_i32_502 v324
  v325.toNat
def k0_dev31 (d0 : Dev nD) : Nat :=
  let c0_i32_521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_507 : BitVec 32 := 5#32
  let v334 : BitVec 32 := Scalar.xori v2 c5_i32_507
  let c1_i32_520 : BitVec 32 := 1#32
  let v335 : BitVec 32 := Scalar.muli v334 c1_i32_520
  let v336 : BitVec 32 := Scalar.addi c0_i32_521 v335
  v336.toNat
def k0_dev32 (d0 : Dev nD) : Nat :=
  let c0_i32_540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_526 : BitVec 32 := 7#32
  let v345 : BitVec 32 := Scalar.xori v2 c7_i32_526
  let c1_i32_539 : BitVec 32 := 1#32
  let v346 : BitVec 32 := Scalar.muli v345 c1_i32_539
  let v347 : BitVec 32 := Scalar.addi c0_i32_540 v346
  v347.toNat
def k0_dev33 (d0 : Dev nD) : Nat :=
  let c0_i32_559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_545 : BitVec 32 := 1#32
  let v356 : BitVec 32 := Scalar.xori v2 c1_i32_545
  let c1_i32_558 : BitVec 32 := 1#32
  let v357 : BitVec 32 := Scalar.muli v356 c1_i32_558
  let v358 : BitVec 32 := Scalar.addi c0_i32_559 v357
  v358.toNat
def k0_dev34 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_564 : BitVec 32 := 3#32
  let v367 : BitVec 32 := Scalar.xori v2 c3_i32_564
  let c1_i32_577 : BitVec 32 := 1#32
  let v368 : BitVec 32 := Scalar.muli v367 c1_i32_577
  let v369 : BitVec 32 := Scalar.addi c0_i32_578 v368
  v369.toNat
def k0_dev35 (d0 : Dev nD) : Nat :=
  let c0_i32_597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_583 : BitVec 32 := 4#32
  let v378 : BitVec 32 := Scalar.xori v2 c4_i32_583
  let c1_i32_596 : BitVec 32 := 1#32
  let v379 : BitVec 32 := Scalar.muli v378 c1_i32_596
  let v380 : BitVec 32 := Scalar.addi c0_i32_597 v379
  v380.toNat
def k0_dev36 (d0 : Dev nD) : Nat :=
  let c0_i32_785 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_771 : BitVec 32 := 6#32
  let v485 : BitVec 32 := Scalar.xori v2 c6_i32_771
  let c1_i32_784 : BitVec 32 := 1#32
  let v486 : BitVec 32 := Scalar.muli v485 c1_i32_784
  let v487 : BitVec 32 := Scalar.addi c0_i32_785 v486
  v487.toNat
def k0_dev37 (d0 : Dev nD) : Nat :=
  let c0_i32_804 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_790 : BitVec 32 := 2#32
  let v496 : BitVec 32 := Scalar.xori v2 c2_i32_790
  let c1_i32_803 : BitVec 32 := 1#32
  let v497 : BitVec 32 := Scalar.muli v496 c1_i32_803
  let v498 : BitVec 32 := Scalar.addi c0_i32_804 v497
  v498.toNat
def k0_dev38 (d0 : Dev nD) : Nat :=
  let c0_i32_823 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_809 : BitVec 32 := 5#32
  let v507 : BitVec 32 := Scalar.xori v2 c5_i32_809
  let c1_i32_822 : BitVec 32 := 1#32
  let v508 : BitVec 32 := Scalar.muli v507 c1_i32_822
  let v509 : BitVec 32 := Scalar.addi c0_i32_823 v508
  v509.toNat
def k0_dev39 (d0 : Dev nD) : Nat :=
  let c0_i32_842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_828 : BitVec 32 := 7#32
  let v518 : BitVec 32 := Scalar.xori v2 c7_i32_828
  let c1_i32_841 : BitVec 32 := 1#32
  let v519 : BitVec 32 := Scalar.muli v518 c1_i32_841
  let v520 : BitVec 32 := Scalar.addi c0_i32_842 v519
  v520.toNat
def k0_dev40 (d0 : Dev nD) : Nat :=
  let c0_i32_861 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_847 : BitVec 32 := 1#32
  let v529 : BitVec 32 := Scalar.xori v2 c1_i32_847
  let c1_i32_860 : BitVec 32 := 1#32
  let v530 : BitVec 32 := Scalar.muli v529 c1_i32_860
  let v531 : BitVec 32 := Scalar.addi c0_i32_861 v530
  v531.toNat
def k0_dev41 (d0 : Dev nD) : Nat :=
  let c0_i32_880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_866 : BitVec 32 := 3#32
  let v540 : BitVec 32 := Scalar.xori v2 c3_i32_866
  let c1_i32_879 : BitVec 32 := 1#32
  let v541 : BitVec 32 := Scalar.muli v540 c1_i32_879
  let v542 : BitVec 32 := Scalar.addi c0_i32_880 v541
  v542.toNat
def k0_dev42 (d0 : Dev nD) : Nat :=
  let c0_i32_899 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_885 : BitVec 32 := 4#32
  let v551 : BitVec 32 := Scalar.xori v2 c4_i32_885
  let c1_i32_898 : BitVec 32 := 1#32
  let v552 : BitVec 32 := Scalar.muli v551 c1_i32_898
  let v553 : BitVec 32 := Scalar.addi c0_i32_899 v552
  v553.toNat
def k0_dev43 (d0 : Dev nD) : Nat :=
  let c0_i32_1091 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1077 : BitVec 32 := 6#32
  let v658 : BitVec 32 := Scalar.xori v2 c6_i32_1077
  let c1_i32_1090 : BitVec 32 := 1#32
  let v659 : BitVec 32 := Scalar.muli v658 c1_i32_1090
  let v660 : BitVec 32 := Scalar.addi c0_i32_1091 v659
  v660.toNat
def k0_dev44 (d0 : Dev nD) : Nat :=
  let c0_i32_1110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1096 : BitVec 32 := 2#32
  let v669 : BitVec 32 := Scalar.xori v2 c2_i32_1096
  let c1_i32_1109 : BitVec 32 := 1#32
  let v670 : BitVec 32 := Scalar.muli v669 c1_i32_1109
  let v671 : BitVec 32 := Scalar.addi c0_i32_1110 v670
  v671.toNat
def k0_dev45 (d0 : Dev nD) : Nat :=
  let c0_i32_1129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1115 : BitVec 32 := 5#32
  let v680 : BitVec 32 := Scalar.xori v2 c5_i32_1115
  let c1_i32_1128 : BitVec 32 := 1#32
  let v681 : BitVec 32 := Scalar.muli v680 c1_i32_1128
  let v682 : BitVec 32 := Scalar.addi c0_i32_1129 v681
  v682.toNat
def k0_dev46 (d0 : Dev nD) : Nat :=
  let c0_i32_1148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1134 : BitVec 32 := 7#32
  let v691 : BitVec 32 := Scalar.xori v2 c7_i32_1134
  let c1_i32_1147 : BitVec 32 := 1#32
  let v692 : BitVec 32 := Scalar.muli v691 c1_i32_1147
  let v693 : BitVec 32 := Scalar.addi c0_i32_1148 v692
  v693.toNat
def k0_dev47 (d0 : Dev nD) : Nat :=
  let c0_i32_1167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1153 : BitVec 32 := 1#32
  let v702 : BitVec 32 := Scalar.xori v2 c1_i32_1153
  let c1_i32_1166 : BitVec 32 := 1#32
  let v703 : BitVec 32 := Scalar.muli v702 c1_i32_1166
  let v704 : BitVec 32 := Scalar.addi c0_i32_1167 v703
  v704.toNat
def k0_dev48 (d0 : Dev nD) : Nat :=
  let c0_i32_1186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1172 : BitVec 32 := 3#32
  let v713 : BitVec 32 := Scalar.xori v2 c3_i32_1172
  let c1_i32_1185 : BitVec 32 := 1#32
  let v714 : BitVec 32 := Scalar.muli v713 c1_i32_1185
  let v715 : BitVec 32 := Scalar.addi c0_i32_1186 v714
  v715.toNat
def k0_dev49 (d0 : Dev nD) : Nat :=
  let c0_i32_1205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1191 : BitVec 32 := 4#32
  let v724 : BitVec 32 := Scalar.xori v2 c4_i32_1191
  let c1_i32_1204 : BitVec 32 := 1#32
  let v725 : BitVec 32 := Scalar.muli v724 c1_i32_1204
  let v726 : BitVec 32 := Scalar.addi c0_i32_1205 v725
  v726.toNat
def k0_dev50 (d0 : Dev nD) : Nat :=
  let c0_i32_1397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1383 : BitVec 32 := 6#32
  let v831 : BitVec 32 := Scalar.xori v2 c6_i32_1383
  let c1_i32_1396 : BitVec 32 := 1#32
  let v832 : BitVec 32 := Scalar.muli v831 c1_i32_1396
  let v833 : BitVec 32 := Scalar.addi c0_i32_1397 v832
  v833.toNat
def k0_dev51 (d0 : Dev nD) : Nat :=
  let c0_i32_1416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1402 : BitVec 32 := 2#32
  let v842 : BitVec 32 := Scalar.xori v2 c2_i32_1402
  let c1_i32_1415 : BitVec 32 := 1#32
  let v843 : BitVec 32 := Scalar.muli v842 c1_i32_1415
  let v844 : BitVec 32 := Scalar.addi c0_i32_1416 v843
  v844.toNat
def k0_dev52 (d0 : Dev nD) : Nat :=
  let c0_i32_1435 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1421 : BitVec 32 := 5#32
  let v853 : BitVec 32 := Scalar.xori v2 c5_i32_1421
  let c1_i32_1434 : BitVec 32 := 1#32
  let v854 : BitVec 32 := Scalar.muli v853 c1_i32_1434
  let v855 : BitVec 32 := Scalar.addi c0_i32_1435 v854
  v855.toNat
def k0_dev53 (d0 : Dev nD) : Nat :=
  let c0_i32_1454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1440 : BitVec 32 := 7#32
  let v864 : BitVec 32 := Scalar.xori v2 c7_i32_1440
  let c1_i32_1453 : BitVec 32 := 1#32
  let v865 : BitVec 32 := Scalar.muli v864 c1_i32_1453
  let v866 : BitVec 32 := Scalar.addi c0_i32_1454 v865
  v866.toNat
def k0_dev54 (d0 : Dev nD) : Nat :=
  let c0_i32_1473 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1459 : BitVec 32 := 1#32
  let v875 : BitVec 32 := Scalar.xori v2 c1_i32_1459
  let c1_i32_1472 : BitVec 32 := 1#32
  let v876 : BitVec 32 := Scalar.muli v875 c1_i32_1472
  let v877 : BitVec 32 := Scalar.addi c0_i32_1473 v876
  v877.toNat
def k0_dev55 (d0 : Dev nD) : Nat :=
  let c0_i32_1492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1478 : BitVec 32 := 3#32
  let v886 : BitVec 32 := Scalar.xori v2 c3_i32_1478
  let c1_i32_1491 : BitVec 32 := 1#32
  let v887 : BitVec 32 := Scalar.muli v886 c1_i32_1491
  let v888 : BitVec 32 := Scalar.addi c0_i32_1492 v887
  v888.toNat
def k0_dev56 (d0 : Dev nD) : Nat :=
  let c0_i32_1511 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1497 : BitVec 32 := 4#32
  let v897 : BitVec 32 := Scalar.xori v2 c4_i32_1497
  let c1_i32_1510 : BitVec 32 := 1#32
  let v898 : BitVec 32 := Scalar.muli v897 c1_i32_1510
  let v899 : BitVec 32 := Scalar.addi c0_i32_1511 v898
  v899.toNat
def k0_dev57 (d0 : Dev nD) : Nat :=
  let c0_i32_1703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1689 : BitVec 32 := 6#32
  let v1004 : BitVec 32 := Scalar.xori v2 c6_i32_1689
  let c1_i32_1702 : BitVec 32 := 1#32
  let v1005 : BitVec 32 := Scalar.muli v1004 c1_i32_1702
  let v1006 : BitVec 32 := Scalar.addi c0_i32_1703 v1005
  v1006.toNat
def k0_dev58 (d0 : Dev nD) : Nat :=
  let c0_i32_1722 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1708 : BitVec 32 := 2#32
  let v1015 : BitVec 32 := Scalar.xori v2 c2_i32_1708
  let c1_i32_1721 : BitVec 32 := 1#32
  let v1016 : BitVec 32 := Scalar.muli v1015 c1_i32_1721
  let v1017 : BitVec 32 := Scalar.addi c0_i32_1722 v1016
  v1017.toNat
def k0_dev59 (d0 : Dev nD) : Nat :=
  let c0_i32_1741 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1727 : BitVec 32 := 5#32
  let v1026 : BitVec 32 := Scalar.xori v2 c5_i32_1727
  let c1_i32_1740 : BitVec 32 := 1#32
  let v1027 : BitVec 32 := Scalar.muli v1026 c1_i32_1740
  let v1028 : BitVec 32 := Scalar.addi c0_i32_1741 v1027
  v1028.toNat
def k0_dev60 (d0 : Dev nD) : Nat :=
  let c0_i32_1760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1746 : BitVec 32 := 7#32
  let v1037 : BitVec 32 := Scalar.xori v2 c7_i32_1746
  let c1_i32_1759 : BitVec 32 := 1#32
  let v1038 : BitVec 32 := Scalar.muli v1037 c1_i32_1759
  let v1039 : BitVec 32 := Scalar.addi c0_i32_1760 v1038
  v1039.toNat
def k0_dev61 (d0 : Dev nD) : Nat :=
  let c0_i32_1779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1765 : BitVec 32 := 1#32
  let v1048 : BitVec 32 := Scalar.xori v2 c1_i32_1765
  let c1_i32_1778 : BitVec 32 := 1#32
  let v1049 : BitVec 32 := Scalar.muli v1048 c1_i32_1778
  let v1050 : BitVec 32 := Scalar.addi c0_i32_1779 v1049
  v1050.toNat
def k0_dev62 (d0 : Dev nD) : Nat :=
  let c0_i32_1798 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1784 : BitVec 32 := 3#32
  let v1059 : BitVec 32 := Scalar.xori v2 c3_i32_1784
  let c1_i32_1797 : BitVec 32 := 1#32
  let v1060 : BitVec 32 := Scalar.muli v1059 c1_i32_1797
  let v1061 : BitVec 32 := Scalar.addi c0_i32_1798 v1060
  v1061.toNat
def k0_dev63 (d0 : Dev nD) : Nat :=
  let c0_i32_1817 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1803 : BitVec 32 := 4#32
  let v1070 : BitVec 32 := Scalar.xori v2 c4_i32_1803
  let c1_i32_1816 : BitVec 32 := 1#32
  let v1071 : BitVec 32 := Scalar.muli v1070 c1_i32_1816
  let v1072 : BitVec 32 := Scalar.addi c0_i32_1817 v1071
  v1072.toNat
def k0_dev64 (d0 : Dev nD) : Nat :=
  let c0_i32_2009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1995 : BitVec 32 := 6#32
  let v1177 : BitVec 32 := Scalar.xori v2 c6_i32_1995
  let c1_i32_2008 : BitVec 32 := 1#32
  let v1178 : BitVec 32 := Scalar.muli v1177 c1_i32_2008
  let v1179 : BitVec 32 := Scalar.addi c0_i32_2009 v1178
  v1179.toNat
def k0_dev65 (d0 : Dev nD) : Nat :=
  let c0_i32_2028 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2014 : BitVec 32 := 2#32
  let v1188 : BitVec 32 := Scalar.xori v2 c2_i32_2014
  let c1_i32_2027 : BitVec 32 := 1#32
  let v1189 : BitVec 32 := Scalar.muli v1188 c1_i32_2027
  let v1190 : BitVec 32 := Scalar.addi c0_i32_2028 v1189
  v1190.toNat
def k0_dev66 (d0 : Dev nD) : Nat :=
  let c0_i32_2047 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2033 : BitVec 32 := 5#32
  let v1199 : BitVec 32 := Scalar.xori v2 c5_i32_2033
  let c1_i32_2046 : BitVec 32 := 1#32
  let v1200 : BitVec 32 := Scalar.muli v1199 c1_i32_2046
  let v1201 : BitVec 32 := Scalar.addi c0_i32_2047 v1200
  v1201.toNat
def k0_dev67 (d0 : Dev nD) : Nat :=
  let c0_i32_2066 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2052 : BitVec 32 := 7#32
  let v1210 : BitVec 32 := Scalar.xori v2 c7_i32_2052
  let c1_i32_2065 : BitVec 32 := 1#32
  let v1211 : BitVec 32 := Scalar.muli v1210 c1_i32_2065
  let v1212 : BitVec 32 := Scalar.addi c0_i32_2066 v1211
  v1212.toNat
def k0_dev68 (d0 : Dev nD) : Nat :=
  let c0_i32_2085 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2071 : BitVec 32 := 1#32
  let v1221 : BitVec 32 := Scalar.xori v2 c1_i32_2071
  let c1_i32_2084 : BitVec 32 := 1#32
  let v1222 : BitVec 32 := Scalar.muli v1221 c1_i32_2084
  let v1223 : BitVec 32 := Scalar.addi c0_i32_2085 v1222
  v1223.toNat
def k0_dev69 (d0 : Dev nD) : Nat :=
  let c0_i32_2104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2090 : BitVec 32 := 3#32
  let v1232 : BitVec 32 := Scalar.xori v2 c3_i32_2090
  let c1_i32_2103 : BitVec 32 := 1#32
  let v1233 : BitVec 32 := Scalar.muli v1232 c1_i32_2103
  let v1234 : BitVec 32 := Scalar.addi c0_i32_2104 v1233
  v1234.toNat
def k0_dev70 (d0 : Dev nD) : Nat :=
  let c0_i32_2123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2109 : BitVec 32 := 4#32
  let v1243 : BitVec 32 := Scalar.xori v2 c4_i32_2109
  let c1_i32_2122 : BitVec 32 := 1#32
  let v1244 : BitVec 32 := Scalar.muli v1243 c1_i32_2122
  let v1245 : BitVec 32 := Scalar.addi c0_i32_2123 v1244
  v1245.toNat
def k0_dev71 (d0 : Dev nD) : Nat :=
  let c0_i32_2315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2301 : BitVec 32 := 6#32
  let v1350 : BitVec 32 := Scalar.xori v2 c6_i32_2301
  let c1_i32_2314 : BitVec 32 := 1#32
  let v1351 : BitVec 32 := Scalar.muli v1350 c1_i32_2314
  let v1352 : BitVec 32 := Scalar.addi c0_i32_2315 v1351
  v1352.toNat
def k0_dev72 (d0 : Dev nD) : Nat :=
  let c0_i32_2334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2320 : BitVec 32 := 2#32
  let v1361 : BitVec 32 := Scalar.xori v2 c2_i32_2320
  let c1_i32_2333 : BitVec 32 := 1#32
  let v1362 : BitVec 32 := Scalar.muli v1361 c1_i32_2333
  let v1363 : BitVec 32 := Scalar.addi c0_i32_2334 v1362
  v1363.toNat
def k0_dev73 (d0 : Dev nD) : Nat :=
  let c0_i32_2353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2339 : BitVec 32 := 5#32
  let v1372 : BitVec 32 := Scalar.xori v2 c5_i32_2339
  let c1_i32_2352 : BitVec 32 := 1#32
  let v1373 : BitVec 32 := Scalar.muli v1372 c1_i32_2352
  let v1374 : BitVec 32 := Scalar.addi c0_i32_2353 v1373
  v1374.toNat
def k0_dev74 (d0 : Dev nD) : Nat :=
  let c0_i32_2372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2358 : BitVec 32 := 7#32
  let v1383 : BitVec 32 := Scalar.xori v2 c7_i32_2358
  let c1_i32_2371 : BitVec 32 := 1#32
  let v1384 : BitVec 32 := Scalar.muli v1383 c1_i32_2371
  let v1385 : BitVec 32 := Scalar.addi c0_i32_2372 v1384
  v1385.toNat
def k0_dev75 (d0 : Dev nD) : Nat :=
  let c0_i32_2391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2377 : BitVec 32 := 1#32
  let v1394 : BitVec 32 := Scalar.xori v2 c1_i32_2377
  let c1_i32_2390 : BitVec 32 := 1#32
  let v1395 : BitVec 32 := Scalar.muli v1394 c1_i32_2390
  let v1396 : BitVec 32 := Scalar.addi c0_i32_2391 v1395
  v1396.toNat
def k0_dev76 (d0 : Dev nD) : Nat :=
  let c0_i32_2410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2396 : BitVec 32 := 3#32
  let v1405 : BitVec 32 := Scalar.xori v2 c3_i32_2396
  let c1_i32_2409 : BitVec 32 := 1#32
  let v1406 : BitVec 32 := Scalar.muli v1405 c1_i32_2409
  let v1407 : BitVec 32 := Scalar.addi c0_i32_2410 v1406
  v1407.toNat
def k0_dev77 (d0 : Dev nD) : Nat :=
  let c0_i32_2429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2415 : BitVec 32 := 4#32
  let v1416 : BitVec 32 := Scalar.xori v2 c4_i32_2415
  let c1_i32_2428 : BitVec 32 := 1#32
  let v1417 : BitVec 32 := Scalar.muli v1416 c1_i32_2428
  let v1418 : BitVec 32 := Scalar.addi c0_i32_2429 v1417
  v1418.toNat
def k0_dev78 (d0 : Dev nD) : Nat :=
  let c0_i32_2621 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2607 : BitVec 32 := 6#32
  let v1523 : BitVec 32 := Scalar.xori v2 c6_i32_2607
  let c1_i32_2620 : BitVec 32 := 1#32
  let v1524 : BitVec 32 := Scalar.muli v1523 c1_i32_2620
  let v1525 : BitVec 32 := Scalar.addi c0_i32_2621 v1524
  v1525.toNat
def k0_dev79 (d0 : Dev nD) : Nat :=
  let c0_i32_2640 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2626 : BitVec 32 := 2#32
  let v1534 : BitVec 32 := Scalar.xori v2 c2_i32_2626
  let c1_i32_2639 : BitVec 32 := 1#32
  let v1535 : BitVec 32 := Scalar.muli v1534 c1_i32_2639
  let v1536 : BitVec 32 := Scalar.addi c0_i32_2640 v1535
  v1536.toNat
def k0_dev80 (d0 : Dev nD) : Nat :=
  let c0_i32_2659 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2645 : BitVec 32 := 5#32
  let v1545 : BitVec 32 := Scalar.xori v2 c5_i32_2645
  let c1_i32_2658 : BitVec 32 := 1#32
  let v1546 : BitVec 32 := Scalar.muli v1545 c1_i32_2658
  let v1547 : BitVec 32 := Scalar.addi c0_i32_2659 v1546
  v1547.toNat
def k0_dev81 (d0 : Dev nD) : Nat :=
  let c0_i32_2678 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2664 : BitVec 32 := 7#32
  let v1556 : BitVec 32 := Scalar.xori v2 c7_i32_2664
  let c1_i32_2677 : BitVec 32 := 1#32
  let v1557 : BitVec 32 := Scalar.muli v1556 c1_i32_2677
  let v1558 : BitVec 32 := Scalar.addi c0_i32_2678 v1557
  v1558.toNat
def k0_dev82 (d0 : Dev nD) : Nat :=
  let c0_i32_2697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2683 : BitVec 32 := 1#32
  let v1567 : BitVec 32 := Scalar.xori v2 c1_i32_2683
  let c1_i32_2696 : BitVec 32 := 1#32
  let v1568 : BitVec 32 := Scalar.muli v1567 c1_i32_2696
  let v1569 : BitVec 32 := Scalar.addi c0_i32_2697 v1568
  v1569.toNat
def k0_dev83 (d0 : Dev nD) : Nat :=
  let c0_i32_2716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2702 : BitVec 32 := 3#32
  let v1578 : BitVec 32 := Scalar.xori v2 c3_i32_2702
  let c1_i32_2715 : BitVec 32 := 1#32
  let v1579 : BitVec 32 := Scalar.muli v1578 c1_i32_2715
  let v1580 : BitVec 32 := Scalar.addi c0_i32_2716 v1579
  v1580.toNat
def k0_dev84 (d0 : Dev nD) : Nat :=
  let c0_i32_2735 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2721 : BitVec 32 := 4#32
  let v1589 : BitVec 32 := Scalar.xori v2 c4_i32_2721
  let c1_i32_2734 : BitVec 32 := 1#32
  let v1590 : BitVec 32 := Scalar.muli v1589 c1_i32_2734
  let v1591 : BitVec 32 := Scalar.addi c0_i32_2735 v1590
  v1591.toNat
def k0_dev85 (d0 : Dev nD) : Nat :=
  let c0_i32_2927 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2913 : BitVec 32 := 6#32
  let v1696 : BitVec 32 := Scalar.xori v2 c6_i32_2913
  let c1_i32_2926 : BitVec 32 := 1#32
  let v1697 : BitVec 32 := Scalar.muli v1696 c1_i32_2926
  let v1698 : BitVec 32 := Scalar.addi c0_i32_2927 v1697
  v1698.toNat
def k0_dev86 (d0 : Dev nD) : Nat :=
  let c0_i32_2946 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2932 : BitVec 32 := 2#32
  let v1707 : BitVec 32 := Scalar.xori v2 c2_i32_2932
  let c1_i32_2945 : BitVec 32 := 1#32
  let v1708 : BitVec 32 := Scalar.muli v1707 c1_i32_2945
  let v1709 : BitVec 32 := Scalar.addi c0_i32_2946 v1708
  v1709.toNat
def k0_dev87 (d0 : Dev nD) : Nat :=
  let c0_i32_2965 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2951 : BitVec 32 := 5#32
  let v1718 : BitVec 32 := Scalar.xori v2 c5_i32_2951
  let c1_i32_2964 : BitVec 32 := 1#32
  let v1719 : BitVec 32 := Scalar.muli v1718 c1_i32_2964
  let v1720 : BitVec 32 := Scalar.addi c0_i32_2965 v1719
  v1720.toNat
def k0_dev88 (d0 : Dev nD) : Nat :=
  let c0_i32_2984 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2970 : BitVec 32 := 7#32
  let v1729 : BitVec 32 := Scalar.xori v2 c7_i32_2970
  let c1_i32_2983 : BitVec 32 := 1#32
  let v1730 : BitVec 32 := Scalar.muli v1729 c1_i32_2983
  let v1731 : BitVec 32 := Scalar.addi c0_i32_2984 v1730
  v1731.toNat
def k0_dev89 (d0 : Dev nD) : Nat :=
  let c0_i32_3003 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2989 : BitVec 32 := 1#32
  let v1740 : BitVec 32 := Scalar.xori v2 c1_i32_2989
  let c1_i32_3002 : BitVec 32 := 1#32
  let v1741 : BitVec 32 := Scalar.muli v1740 c1_i32_3002
  let v1742 : BitVec 32 := Scalar.addi c0_i32_3003 v1741
  v1742.toNat
def k0_dev90 (d0 : Dev nD) : Nat :=
  let c0_i32_3022 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3008 : BitVec 32 := 3#32
  let v1751 : BitVec 32 := Scalar.xori v2 c3_i32_3008
  let c1_i32_3021 : BitVec 32 := 1#32
  let v1752 : BitVec 32 := Scalar.muli v1751 c1_i32_3021
  let v1753 : BitVec 32 := Scalar.addi c0_i32_3022 v1752
  v1753.toNat
def k0_dev91 (d0 : Dev nD) : Nat :=
  let c0_i32_3041 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3027 : BitVec 32 := 4#32
  let v1762 : BitVec 32 := Scalar.xori v2 c4_i32_3027
  let c1_i32_3040 : BitVec 32 := 1#32
  let v1763 : BitVec 32 := Scalar.muli v1762 c1_i32_3040
  let v1764 : BitVec 32 := Scalar.addi c0_i32_3041 v1763
  v1764.toNat
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  hamt_1 : (1#32 : BitVec 32).msb = false
  hamt_7 : (7#32 : BitVec 32).msb = false
  inb_S128x128_S32x128_0_0 : ∀ a, (![0, 0] : Fin 2 → Nat) a + S32x128.size a ≤ S128x128.size a
  h_S32x128 : 0 < S32x128.numel
  shapeCasts_S32x128_S32x128 : S32x128.ShapeCasts S32x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bitsLt_bf16_f32 : FTy.bits .bf16 < FTy.bits .f32
  inb_S3x4x8x32x128_S1x1x1x32x128_0_0_0_0_0 : ∀ a, (![0, 0, 0, 0, 0] : Fin 5 → Nat) a + S1x1x1x32x128.size a ≤ S3x4x8x32x128.size a
  h_S1x1x1x32x128 : 0 < S1x1x1x32x128.numel
  shapeCasts_S1x1x1x32x128_S32x128 : S1x1x1x32x128.ShapeCasts S32x128
  shapeCasts_S32x128_S1x1x1x32x128 : S32x128.ShapeCasts S1x1x1x32x128
  packedbf16_S3x4x8x32x128_S1x1x1x32x128_0_0_0_0_0 : (Rect.unit (s := S3x4x8x32x128) ![0, 0, 0, 0, 0] S1x1x1x32x128.size inb_S3x4x8x32x128_S1x1x1x32x128_0_0_0_0_0).PackedRows (EltTy.packing .bf16)
  inb_S3x4x8_S1x1x1_0_0_6 : ∀ a, (![0, 0, 6] : Fin 3 → Nat) a + S1x1x1.size a ≤ S3x4x8.size a
  squeezes_S1x1x1_S_ : S1x1x1.Squeezes S_
  inb_S3x4x8x32x128_S1x1x1x32x128_0_0_6_0_0 : ∀ a, (![0, 0, 6, 0, 0] : Fin 5 → Nat) a + S1x1x1x32x128.size a ≤ S3x4x8x32x128.size a
  squeezes_S1x1x1x32x128_S32x128 : S1x1x1x32x128.Squeezes S32x128
  wordsbf16_S3x4x8x32x128_S1x1x1x32x128_0_0_0_0_0 : (Rect.unit (s := S3x4x8x32x128) ![0, 0, 0, 0, 0] S1x1x1x32x128.size inb_S3x4x8x32x128_S1x1x1x32x128_0_0_0_0_0).WholeWords (EltTy.packing .bf16)
  wordsbf16_S3x4x8x32x128_S1x1x1x32x128_0_0_6_0_0 : (Rect.unit (s := S3x4x8x32x128) ![0, 0, 6, 0, 0] S1x1x1x32x128.size inb_S3x4x8x32x128_S1x1x1x32x128_0_0_6_0_0).WholeWords (EltTy.packing .bf16)
  inb_S3x4x8_S1x1x1_0_0_2 : ∀ a, (![0, 0, 2] : Fin 3 → Nat) a + S1x1x1.size a ≤ S3x4x8.size a
  inb_S3x4x8x32x128_S1x1x1x32x128_0_0_2_0_0 : ∀ a, (![0, 0, 2, 0, 0] : Fin 5 → Nat) a + S1x1x1x32x128.size a ≤ S3x4x8x32x128.size a
  wordsbf16_S3x4x8x32x128_S1x1x1x32x128_0_0_2_0_0 : (Rect.unit (s := S3x4x8x32x128) ![0, 0, 2, 0, 0] S1x1x1x32x128.size inb_S3x4x8x32x128_S1x1x1x32x128_0_0_2_0_0).WholeWords (EltTy.packing .bf16)
  inb_S3x4x8_S1x1x1_0_0_5 : ∀ a, (![0, 0, 5] : Fin 3 → Nat) a + S1x1x1.size a ≤ S3x4x8.size a
  inb_S3x4x8x32x128_S1x1x1x32x128_0_0_5_0_0 : ∀ a, (![0, 0, 5, 0, 0] : Fin 5 → Nat) a + S1x1x1x32x128.size a ≤ S3x4x8x32x128.size a
  wordsbf16_S3x4x8x32x128_S1x1x1x32x128_0_0_5_0_0 : (Rect.unit (s := S3x4x8x32x128) ![0, 0, 5, 0, 0] S1x1x1x32x128.size inb_S3x4x8x32x128_S1x1x1x32x128_0_0_5_0_0).WholeWords (EltTy.packing .bf16)
  inb_S3x4x8_S1x1x1_0_0_7 : ∀ a, (![0, 0, 7] : Fin 3 → Nat) a + S1x1x1.size a ≤ S3x4x8.size a
  inb_S3x4x8x32x128_S1x1x1x32x128_0_0_7_0_0 : ∀ a, (![0, 0, 7, 0, 0] : Fin 5 → Nat) a + S1x1x1x32x128.size a ≤ S3x4x8x32x128.size a
  wordsbf16_S3x4x8x32x128_S1x1x1x32x128_0_0_7_0_0 : (Rect.unit (s := S3x4x8x32x128) ![0, 0, 7, 0, 0] S1x1x1x32x128.size inb_S3x4x8x32x128_S1x1x1x32x128_0_0_7_0_0).WholeWords (EltTy.packing .bf16)
  inb_S3x4x8_S1x1x1_0_0_1 : ∀ a, (![0, 0, 1] : Fin 3 → Nat) a + S1x1x1.size a ≤ S3x4x8.size a
  inb_S3x4x8x32x128_S1x1x1x32x128_0_0_1_0_0 : ∀ a, (![0, 0, 1, 0, 0] : Fin 5 → Nat) a + S1x1x1x32x128.size a ≤ S3x4x8x32x128.size a
  wordsbf16_S3x4x8x32x128_S1x1x1x32x128_0_0_1_0_0 : (Rect.unit (s := S3x4x8x32x128) ![0, 0, 1, 0, 0] S1x1x1x32x128.size inb_S3x4x8x32x128_S1x1x1x32x128_0_0_1_0_0).WholeWords (EltTy.packing .bf16)
  inb_S3x4x8_S1x1x1_0_0_3 : ∀ a, (![0, 0, 3] : Fin 3 → Nat) a + S1x1x1.size a ≤ S3x4x8.size a
  inb_S3x4x8x32x128_S1x1x1x32x128_0_0_3_0_0 : ∀ a, (![0, 0, 3, 0, 0] : Fin 5 → Nat) a + S1x1x1x32x128.size a ≤ S3x4x8x32x128.size a
  wordsbf16_S3x4x8x32x128_S1x1x1x32x128_0_0_3_0_0 : (Rect.unit (s := S3x4x8x32x128) ![0, 0, 3, 0, 0] S1x1x1x32x128.size inb_S3x4x8x32x128_S1x1x1x32x128_0_0_3_0_0).WholeWords (EltTy.packing .bf16)
  inb_S3x4x8_S1x1x1_0_0_4 : ∀ a, (![0, 0, 4] : Fin 3 → Nat) a + S1x1x1.size a ≤ S3x4x8.size a
  inb_S3x4x8x32x128_S1x1x1x32x128_0_0_4_0_0 : ∀ a, (![0, 0, 4, 0, 0] : Fin 5 → Nat) a + S1x1x1x32x128.size a ≤ S3x4x8x32x128.size a
  wordsbf16_S3x4x8x32x128_S1x1x1x32x128_0_0_4_0_0 : (Rect.unit (s := S3x4x8x32x128) ![0, 0, 4, 0, 0] S1x1x1x32x128.size inb_S3x4x8x32x128_S1x1x1x32x128_0_0_4_0_0).WholeWords (EltTy.packing .bf16)
  inb_S128x128_S32x128_32_0 : ∀ a, (![32, 0] : Fin 2 → Nat) a + S32x128.size a ≤ S128x128.size a
  inb_S3x4x8x32x128_S1x1x1x32x128_0_1_0_0_0 : ∀ a, (![0, 1, 0, 0, 0] : Fin 5 → Nat) a + S1x1x1x32x128.size a ≤ S3x4x8x32x128.size a
  packedbf16_S3x4x8x32x128_S1x1x1x32x128_0_1_0_0_0 : (Rect.unit (s := S3x4x8x32x128) ![0, 1, 0, 0, 0] S1x1x1x32x128.size inb_S3x4x8x32x128_S1x1x1x32x128_0_1_0_0_0).PackedRows (EltTy.packing .bf16)
  inb_S3x4x8_S1x1x1_0_1_6 : ∀ a, (![0, 1, 6] : Fin 3 → Nat) a + S1x1x1.size a ≤ S3x4x8.size a
  inb_S3x4x8x32x128_S1x1x1x32x128_0_1_6_0_0 : ∀ a, (![0, 1, 6, 0, 0] : Fin 5 → Nat) a + S1x1x1x32x128.size a ≤ S3x4x8x32x128.size a
  wordsbf16_S3x4x8x32x128_S1x1x1x32x128_0_1_0_0_0 : (Rect.unit (s := S3x4x8x32x128) ![0, 1, 0, 0, 0] S1x1x1x32x128.size inb_S3x4x8x32x128_S1x1x1x32x128_0_1_0_0_0).WholeWords (EltTy.packing .bf16)
  wordsbf16_S3x4x8x32x128_S1x1x1x32x128_0_1_6_0_0 : (Rect.unit (s := S3x4x8x32x128) ![0, 1, 6, 0, 0] S1x1x1x32x128.size inb_S3x4x8x32x128_S1x1x1x32x128_0_1_6_0_0).WholeWords (EltTy.packing .bf16)
  inb_S3x4x8_S1x1x1_0_1_2 : ∀ a, (![0, 1, 2] : Fin 3 → Nat) a + S1x1x1.size a ≤ S3x4x8.size a
  inb_S3x4x8x32x128_S1x1x1x32x128_0_1_2_0_0 : ∀ a, (![0, 1, 2, 0, 0] : Fin 5 → Nat) a + S1x1x1x32x128.size a ≤ S3x4x8x32x128.size a
  wordsbf16_S3x4x8x32x128_S1x1x1x32x128_0_1_2_0_0 : (Rect.unit (s := S3x4x8x32x128) ![0, 1, 2, 0, 0] S1x1x1x32x128.size inb_S3x4x8x32x128_S1x1x1x32x128_0_1_2_0_0).WholeWords (EltTy.packing .bf16)
  inb_S3x4x8_S1x1x1_0_1_5 : ∀ a, (![0, 1, 5] : Fin 3 → Nat) a + S1x1x1.size a ≤ S3x4x8.size a
  inb_S3x4x8x32x128_S1x1x1x32x128_0_1_5_0_0 : ∀ a, (![0, 1, 5, 0, 0] : Fin 5 → Nat) a + S1x1x1x32x128.size a ≤ S3x4x8x32x128.size a
  wordsbf16_S3x4x8x32x128_S1x1x1x32x128_0_1_5_0_0 : (Rect.unit (s := S3x4x8x32x128) ![0, 1, 5, 0, 0] S1x1x1x32x128.size inb_S3x4x8x32x128_S1x1x1x32x128_0_1_5_0_0).WholeWords (EltTy.packing .bf16)
  inb_S3x4x8_S1x1x1_0_1_7 : ∀ a, (![0, 1, 7] : Fin 3 → Nat) a + S1x1x1.size a ≤ S3x4x8.size a
  inb_S3x4x8x32x128_S1x1x1x32x128_0_1_7_0_0 : ∀ a, (![0, 1, 7, 0, 0] : Fin 5 → Nat) a + S1x1x1x32x128.size a ≤ S3x4x8x32x128.size a
  wordsbf16_S3x4x8x32x128_S1x1x1x32x128_0_1_7_0_0 : (Rect.unit (s := S3x4x8x32x128) ![0, 1, 7, 0, 0] S1x1x1x32x128.size inb_S3x4x8x32x128_S1x1x1x32x128_0_1_7_0_0).WholeWords (EltTy.packing .bf16)
  inb_S3x4x8_S1x1x1_0_1_1 : ∀ a, (![0, 1, 1] : Fin 3 → Nat) a + S1x1x1.size a ≤ S3x4x8.size a
  inb_S3x4x8x32x128_S1x1x1x32x128_0_1_1_0_0 : ∀ a, (![0, 1, 1, 0, 0] : Fin 5 → Nat) a + S1x1x1x32x128.size a ≤ S3x4x8x32x128.size a
  wordsbf16_S3x4x8x32x128_S1x1x1x32x128_0_1_1_0_0 : (Rect.unit (s := S3x4x8x32x128) ![0, 1, 1, 0, 0] S1x1x1x32x128.size inb_S3x4x8x32x128_S1x1x1x32x128_0_1_1_0_0).WholeWords (EltTy.packing .bf16)
  inb_S3x4x8_S1x1x1_0_1_3 : ∀ a, (![0, 1, 3] : Fin 3 → Nat) a + S1x1x1.size a ≤ S3x4x8.size a
  inb_S3x4x8x32x128_S1x1x1x32x128_0_1_3_0_0 : ∀ a, (![0, 1, 3, 0, 0] : Fin 5 → Nat) a + S1x1x1x32x128.size a ≤ S3x4x8x32x128.size a
  wordsbf16_S3x4x8x32x128_S1x1x1x32x128_0_1_3_0_0 : (Rect.unit (s := S3x4x8x32x128) ![0, 1, 3, 0, 0] S1x1x1x32x128.size inb_S3x4x8x32x128_S1x1x1x32x128_0_1_3_0_0).WholeWords (EltTy.packing .bf16)
  inb_S3x4x8_S1x1x1_0_1_4 : ∀ a, (![0, 1, 4] : Fin 3 → Nat) a + S1x1x1.size a ≤ S3x4x8.size a
  inb_S3x4x8x32x128_S1x1x1x32x128_0_1_4_0_0 : ∀ a, (![0, 1, 4, 0, 0] : Fin 5 → Nat) a + S1x1x1x32x128.size a ≤ S3x4x8x32x128.size a
  wordsbf16_S3x4x8x32x128_S1x1x1x32x128_0_1_4_0_0 : (Rect.unit (s := S3x4x8x32x128) ![0, 1, 4, 0, 0] S1x1x1x32x128.size inb_S3x4x8x32x128_S1x1x1x32x128_0_1_4_0_0).WholeWords (EltTy.packing .bf16)
  inb_S128x128_S32x128_64_0 : ∀ a, (![64, 0] : Fin 2 → Nat) a + S32x128.size a ≤ S128x128.size a
  inb_S3x4x8x32x128_S1x1x1x32x128_0_2_0_0_0 : ∀ a, (![0, 2, 0, 0, 0] : Fin 5 → Nat) a + S1x1x1x32x128.size a ≤ S3x4x8x32x128.size a
  packedbf16_S3x4x8x32x128_S1x1x1x32x128_0_2_0_0_0 : (Rect.unit (s := S3x4x8x32x128) ![0, 2, 0, 0, 0] S1x1x1x32x128.size inb_S3x4x8x32x128_S1x1x1x32x128_0_2_0_0_0).PackedRows (EltTy.packing .bf16)
  inb_S3x4x8_S1x1x1_0_2_6 : ∀ a, (![0, 2, 6] : Fin 3 → Nat) a + S1x1x1.size a ≤ S3x4x8.size a
  inb_S3x4x8x32x128_S1x1x1x32x128_0_2_6_0_0 : ∀ a, (![0, 2, 6, 0, 0] : Fin 5 → Nat) a + S1x1x1x32x128.size a ≤ S3x4x8x32x128.size a
  wordsbf16_S3x4x8x32x128_S1x1x1x32x128_0_2_0_0_0 : (Rect.unit (s := S3x4x8x32x128) ![0, 2, 0, 0, 0] S1x1x1x32x128.size inb_S3x4x8x32x128_S1x1x1x32x128_0_2_0_0_0).WholeWords (EltTy.packing .bf16)
  wordsbf16_S3x4x8x32x128_S1x1x1x32x128_0_2_6_0_0 : (Rect.unit (s := S3x4x8x32x128) ![0, 2, 6, 0, 0] S1x1x1x32x128.size inb_S3x4x8x32x128_S1x1x1x32x128_0_2_6_0_0).WholeWords (EltTy.packing .bf16)
  inb_S3x4x8_S1x1x1_0_2_2 : ∀ a, (![0, 2, 2] : Fin 3 → Nat) a + S1x1x1.size a ≤ S3x4x8.size a
  inb_S3x4x8x32x128_S1x1x1x32x128_0_2_2_0_0 : ∀ a, (![0, 2, 2, 0, 0] : Fin 5 → Nat) a + S1x1x1x32x128.size a ≤ S3x4x8x32x128.size a
  wordsbf16_S3x4x8x32x128_S1x1x1x32x128_0_2_2_0_0 : (Rect.unit (s := S3x4x8x32x128) ![0, 2, 2, 0, 0] S1x1x1x32x128.size inb_S3x4x8x32x128_S1x1x1x32x128_0_2_2_0_0).WholeWords (EltTy.packing .bf16)
  inb_S3x4x8_S1x1x1_0_2_5 : ∀ a, (![0, 2, 5] : Fin 3 → Nat) a + S1x1x1.size a ≤ S3x4x8.size a
  inb_S3x4x8x32x128_S1x1x1x32x128_0_2_5_0_0 : ∀ a, (![0, 2, 5, 0, 0] : Fin 5 → Nat) a + S1x1x1x32x128.size a ≤ S3x4x8x32x128.size a
  wordsbf16_S3x4x8x32x128_S1x1x1x32x128_0_2_5_0_0 : (Rect.unit (s := S3x4x8x32x128) ![0, 2, 5, 0, 0] S1x1x1x32x128.size inb_S3x4x8x32x128_S1x1x1x32x128_0_2_5_0_0).WholeWords (EltTy.packing .bf16)
  inb_S3x4x8_S1x1x1_0_2_7 : ∀ a, (![0, 2, 7] : Fin 3 → Nat) a + S1x1x1.size a ≤ S3x4x8.size a
  inb_S3x4x8x32x128_S1x1x1x32x128_0_2_7_0_0 : ∀ a, (![0, 2, 7, 0, 0] : Fin 5 → Nat) a + S1x1x1x32x128.size a ≤ S3x4x8x32x128.size a
  wordsbf16_S3x4x8x32x128_S1x1x1x32x128_0_2_7_0_0 : (Rect.unit (s := S3x4x8x32x128) ![0, 2, 7, 0, 0] S1x1x1x32x128.size inb_S3x4x8x32x128_S1x1x1x32x128_0_2_7_0_0).WholeWords (EltTy.packing .bf16)
  inb_S3x4x8_S1x1x1_0_2_1 : ∀ a, (![0, 2, 1] : Fin 3 → Nat) a + S1x1x1.size a ≤ S3x4x8.size a
  inb_S3x4x8x32x128_S1x1x1x32x128_0_2_1_0_0 : ∀ a, (![0, 2, 1, 0, 0] : Fin 5 → Nat) a + S1x1x1x32x128.size a ≤ S3x4x8x32x128.size a
  wordsbf16_S3x4x8x32x128_S1x1x1x32x128_0_2_1_0_0 : (Rect.unit (s := S3x4x8x32x128) ![0, 2, 1, 0, 0] S1x1x1x32x128.size inb_S3x4x8x32x128_S1x1x1x32x128_0_2_1_0_0).WholeWords (EltTy.packing .bf16)
  inb_S3x4x8_S1x1x1_0_2_3 : ∀ a, (![0, 2, 3] : Fin 3 → Nat) a + S1x1x1.size a ≤ S3x4x8.size a
  inb_S3x4x8x32x128_S1x1x1x32x128_0_2_3_0_0 : ∀ a, (![0, 2, 3, 0, 0] : Fin 5 → Nat) a + S1x1x1x32x128.size a ≤ S3x4x8x32x128.size a
  wordsbf16_S3x4x8x32x128_S1x1x1x32x128_0_2_3_0_0 : (Rect.unit (s := S3x4x8x32x128) ![0, 2, 3, 0, 0] S1x1x1x32x128.size inb_S3x4x8x32x128_S1x1x1x32x128_0_2_3_0_0).WholeWords (EltTy.packing .bf16)
  inb_S3x4x8_S1x1x1_0_2_4 : ∀ a, (![0, 2, 4] : Fin 3 → Nat) a + S1x1x1.size a ≤ S3x4x8.size a
  inb_S3x4x8x32x128_S1x1x1x32x128_0_2_4_0_0 : ∀ a, (![0, 2, 4, 0, 0] : Fin 5 → Nat) a + S1x1x1x32x128.size a ≤ S3x4x8x32x128.size a
  wordsbf16_S3x4x8x32x128_S1x1x1x32x128_0_2_4_0_0 : (Rect.unit (s := S3x4x8x32x128) ![0, 2, 4, 0, 0] S1x1x1x32x128.size inb_S3x4x8x32x128_S1x1x1x32x128_0_2_4_0_0).WholeWords (EltTy.packing .bf16)
  inb_S128x128_S32x128_96_0 : ∀ a, (![96, 0] : Fin 2 → Nat) a + S32x128.size a ≤ S128x128.size a
  inb_S3x4x8x32x128_S1x1x1x32x128_0_3_0_0_0 : ∀ a, (![0, 3, 0, 0, 0] : Fin 5 → Nat) a + S1x1x1x32x128.size a ≤ S3x4x8x32x128.size a
  packedbf16_S3x4x8x32x128_S1x1x1x32x128_0_3_0_0_0 : (Rect.unit (s := S3x4x8x32x128) ![0, 3, 0, 0, 0] S1x1x1x32x128.size inb_S3x4x8x32x128_S1x1x1x32x128_0_3_0_0_0).PackedRows (EltTy.packing .bf16)
  inb_S3x4x8_S1x1x1_0_3_6 : ∀ a, (![0, 3, 6] : Fin 3 → Nat) a + S1x1x1.size a ≤ S3x4x8.size a
  inb_S3x4x8x32x128_S1x1x1x32x128_0_3_6_0_0 : ∀ a, (![0, 3, 6, 0, 0] : Fin 5 → Nat) a + S1x1x1x32x128.size a ≤ S3x4x8x32x128.size a
  wordsbf16_S3x4x8x32x128_S1x1x1x32x128_0_3_0_0_0 : (Rect.unit (s := S3x4x8x32x128) ![0, 3, 0, 0, 0] S1x1x1x32x128.size inb_S3x4x8x32x128_S1x1x1x32x128_0_3_0_0_0).WholeWords (EltTy.packing .bf16)
  wordsbf16_S3x4x8x32x128_S1x1x1x32x128_0_3_6_0_0 : (Rect.unit (s := S3x4x8x32x128) ![0, 3, 6, 0, 0] S1x1x1x32x128.size inb_S3x4x8x32x128_S1x1x1x32x128_0_3_6_0_0).WholeWords (EltTy.packing .bf16)
  inb_S3x4x8_S1x1x1_0_3_2 : ∀ a, (![0, 3, 2] : Fin 3 → Nat) a + S1x1x1.size a ≤ S3x4x8.size a
  inb_S3x4x8x32x128_S1x1x1x32x128_0_3_2_0_0 : ∀ a, (![0, 3, 2, 0, 0] : Fin 5 → Nat) a + S1x1x1x32x128.size a ≤ S3x4x8x32x128.size a
  wordsbf16_S3x4x8x32x128_S1x1x1x32x128_0_3_2_0_0 : (Rect.unit (s := S3x4x8x32x128) ![0, 3, 2, 0, 0] S1x1x1x32x128.size inb_S3x4x8x32x128_S1x1x1x32x128_0_3_2_0_0).WholeWords (EltTy.packing .bf16)
  inb_S3x4x8_S1x1x1_0_3_5 : ∀ a, (![0, 3, 5] : Fin 3 → Nat) a + S1x1x1.size a ≤ S3x4x8.size a
  inb_S3x4x8x32x128_S1x1x1x32x128_0_3_5_0_0 : ∀ a, (![0, 3, 5, 0, 0] : Fin 5 → Nat) a + S1x1x1x32x128.size a ≤ S3x4x8x32x128.size a
  wordsbf16_S3x4x8x32x128_S1x1x1x32x128_0_3_5_0_0 : (Rect.unit (s := S3x4x8x32x128) ![0, 3, 5, 0, 0] S1x1x1x32x128.size inb_S3x4x8x32x128_S1x1x1x32x128_0_3_5_0_0).WholeWords (EltTy.packing .bf16)
  inb_S3x4x8_S1x1x1_0_3_7 : ∀ a, (![0, 3, 7] : Fin 3 → Nat) a + S1x1x1.size a ≤ S3x4x8.size a
  inb_S3x4x8x32x128_S1x1x1x32x128_0_3_7_0_0 : ∀ a, (![0, 3, 7, 0, 0] : Fin 5 → Nat) a + S1x1x1x32x128.size a ≤ S3x4x8x32x128.size a
  wordsbf16_S3x4x8x32x128_S1x1x1x32x128_0_3_7_0_0 : (Rect.unit (s := S3x4x8x32x128) ![0, 3, 7, 0, 0] S1x1x1x32x128.size inb_S3x4x8x32x128_S1x1x1x32x128_0_3_7_0_0).WholeWords (EltTy.packing .bf16)
  inb_S3x4x8_S1x1x1_0_3_1 : ∀ a, (![0, 3, 1] : Fin 3 → Nat) a + S1x1x1.size a ≤ S3x4x8.size a
  inb_S3x4x8x32x128_S1x1x1x32x128_0_3_1_0_0 : ∀ a, (![0, 3, 1, 0, 0] : Fin 5 → Nat) a + S1x1x1x32x128.size a ≤ S3x4x8x32x128.size a
  wordsbf16_S3x4x8x32x128_S1x1x1x32x128_0_3_1_0_0 : (Rect.unit (s := S3x4x8x32x128) ![0, 3, 1, 0, 0] S1x1x1x32x128.size inb_S3x4x8x32x128_S1x1x1x32x128_0_3_1_0_0).WholeWords (EltTy.packing .bf16)
  inb_S3x4x8_S1x1x1_0_3_3 : ∀ a, (![0, 3, 3] : Fin 3 → Nat) a + S1x1x1.size a ≤ S3x4x8.size a
  inb_S3x4x8x32x128_S1x1x1x32x128_0_3_3_0_0 : ∀ a, (![0, 3, 3, 0, 0] : Fin 5 → Nat) a + S1x1x1x32x128.size a ≤ S3x4x8x32x128.size a
  wordsbf16_S3x4x8x32x128_S1x1x1x32x128_0_3_3_0_0 : (Rect.unit (s := S3x4x8x32x128) ![0, 3, 3, 0, 0] S1x1x1x32x128.size inb_S3x4x8x32x128_S1x1x1x32x128_0_3_3_0_0).WholeWords (EltTy.packing .bf16)
  inb_S3x4x8_S1x1x1_0_3_4 : ∀ a, (![0, 3, 4] : Fin 3 → Nat) a + S1x1x1.size a ≤ S3x4x8.size a
  inb_S3x4x8x32x128_S1x1x1x32x128_0_3_4_0_0 : ∀ a, (![0, 3, 4, 0, 0] : Fin 5 → Nat) a + S1x1x1x32x128.size a ≤ S3x4x8x32x128.size a
  wordsbf16_S3x4x8x32x128_S1x1x1x32x128_0_3_4_0_0 : (Rect.unit (s := S3x4x8x32x128) ![0, 3, 4, 0, 0] S1x1x1x32x128.size inb_S3x4x8x32x128_S1x1x1x32x128_0_3_4_0_0).WholeWords (EltTy.packing .bf16)
  inb_S3x4x8x32x128_S1x1x1x32x128_1_0_0_0_0 : ∀ a, (![1, 0, 0, 0, 0] : Fin 5 → Nat) a + S1x1x1x32x128.size a ≤ S3x4x8x32x128.size a
  packedbf16_S3x4x8x32x128_S1x1x1x32x128_1_0_0_0_0 : (Rect.unit (s := S3x4x8x32x128) ![1, 0, 0, 0, 0] S1x1x1x32x128.size inb_S3x4x8x32x128_S1x1x1x32x128_1_0_0_0_0).PackedRows (EltTy.packing .bf16)
  inb_S3x4x8_S1x1x1_1_0_6 : ∀ a, (![1, 0, 6] : Fin 3 → Nat) a + S1x1x1.size a ≤ S3x4x8.size a
  inb_S3x4x8x32x128_S1x1x1x32x128_1_0_6_0_0 : ∀ a, (![1, 0, 6, 0, 0] : Fin 5 → Nat) a + S1x1x1x32x128.size a ≤ S3x4x8x32x128.size a
  wordsbf16_S3x4x8x32x128_S1x1x1x32x128_1_0_0_0_0 : (Rect.unit (s := S3x4x8x32x128) ![1, 0, 0, 0, 0] S1x1x1x32x128.size inb_S3x4x8x32x128_S1x1x1x32x128_1_0_0_0_0).WholeWords (EltTy.packing .bf16)
  wordsbf16_S3x4x8x32x128_S1x1x1x32x128_1_0_6_0_0 : (Rect.unit (s := S3x4x8x32x128) ![1, 0, 6, 0, 0] S1x1x1x32x128.size inb_S3x4x8x32x128_S1x1x1x32x128_1_0_6_0_0).WholeWords (EltTy.packing .bf16)
  inb_S3x4x8_S1x1x1_1_0_2 : ∀ a, (![1, 0, 2] : Fin 3 → Nat) a + S1x1x1.size a ≤ S3x4x8.size a
  inb_S3x4x8x32x128_S1x1x1x32x128_1_0_2_0_0 : ∀ a, (![1, 0, 2, 0, 0] : Fin 5 → Nat) a + S1x1x1x32x128.size a ≤ S3x4x8x32x128.size a
  wordsbf16_S3x4x8x32x128_S1x1x1x32x128_1_0_2_0_0 : (Rect.unit (s := S3x4x8x32x128) ![1, 0, 2, 0, 0] S1x1x1x32x128.size inb_S3x4x8x32x128_S1x1x1x32x128_1_0_2_0_0).WholeWords (EltTy.packing .bf16)
  inb_S3x4x8_S1x1x1_1_0_5 : ∀ a, (![1, 0, 5] : Fin 3 → Nat) a + S1x1x1.size a ≤ S3x4x8.size a
  inb_S3x4x8x32x128_S1x1x1x32x128_1_0_5_0_0 : ∀ a, (![1, 0, 5, 0, 0] : Fin 5 → Nat) a + S1x1x1x32x128.size a ≤ S3x4x8x32x128.size a
  wordsbf16_S3x4x8x32x128_S1x1x1x32x128_1_0_5_0_0 : (Rect.unit (s := S3x4x8x32x128) ![1, 0, 5, 0, 0] S1x1x1x32x128.size inb_S3x4x8x32x128_S1x1x1x32x128_1_0_5_0_0).WholeWords (EltTy.packing .bf16)
  inb_S3x4x8_S1x1x1_1_0_7 : ∀ a, (![1, 0, 7] : Fin 3 → Nat) a + S1x1x1.size a ≤ S3x4x8.size a
  inb_S3x4x8x32x128_S1x1x1x32x128_1_0_7_0_0 : ∀ a, (![1, 0, 7, 0, 0] : Fin 5 → Nat) a + S1x1x1x32x128.size a ≤ S3x4x8x32x128.size a
  wordsbf16_S3x4x8x32x128_S1x1x1x32x128_1_0_7_0_0 : (Rect.unit (s := S3x4x8x32x128) ![1, 0, 7, 0, 0] S1x1x1x32x128.size inb_S3x4x8x32x128_S1x1x1x32x128_1_0_7_0_0).WholeWords (EltTy.packing .bf16)
  inb_S3x4x8_S1x1x1_1_0_1 : ∀ a, (![1, 0, 1] : Fin 3 → Nat) a + S1x1x1.size a ≤ S3x4x8.size a
  inb_S3x4x8x32x128_S1x1x1x32x128_1_0_1_0_0 : ∀ a, (![1, 0, 1, 0, 0] : Fin 5 → Nat) a + S1x1x1x32x128.size a ≤ S3x4x8x32x128.size a
  wordsbf16_S3x4x8x32x128_S1x1x1x32x128_1_0_1_0_0 : (Rect.unit (s := S3x4x8x32x128) ![1, 0, 1, 0, 0] S1x1x1x32x128.size inb_S3x4x8x32x128_S1x1x1x32x128_1_0_1_0_0).WholeWords (EltTy.packing .bf16)
  inb_S3x4x8_S1x1x1_1_0_3 : ∀ a, (![1, 0, 3] : Fin 3 → Nat) a + S1x1x1.size a ≤ S3x4x8.size a
  inb_S3x4x8x32x128_S1x1x1x32x128_1_0_3_0_0 : ∀ a, (![1, 0, 3, 0, 0] : Fin 5 → Nat) a + S1x1x1x32x128.size a ≤ S3x4x8x32x128.size a
  wordsbf16_S3x4x8x32x128_S1x1x1x32x128_1_0_3_0_0 : (Rect.unit (s := S3x4x8x32x128) ![1, 0, 3, 0, 0] S1x1x1x32x128.size inb_S3x4x8x32x128_S1x1x1x32x128_1_0_3_0_0).WholeWords (EltTy.packing .bf16)
  inb_S3x4x8_S1x1x1_1_0_4 : ∀ a, (![1, 0, 4] : Fin 3 → Nat) a + S1x1x1.size a ≤ S3x4x8.size a
  inb_S3x4x8x32x128_S1x1x1x32x128_1_0_4_0_0 : ∀ a, (![1, 0, 4, 0, 0] : Fin 5 → Nat) a + S1x1x1x32x128.size a ≤ S3x4x8x32x128.size a
  wordsbf16_S3x4x8x32x128_S1x1x1x32x128_1_0_4_0_0 : (Rect.unit (s := S3x4x8x32x128) ![1, 0, 4, 0, 0] S1x1x1x32x128.size inb_S3x4x8x32x128_S1x1x1x32x128_1_0_4_0_0).WholeWords (EltTy.packing .bf16)
  inb_S3x4x8x32x128_S1x1x1x32x128_1_1_0_0_0 : ∀ a, (![1, 1, 0, 0, 0] : Fin 5 → Nat) a + S1x1x1x32x128.size a ≤ S3x4x8x32x128.size a
  packedbf16_S3x4x8x32x128_S1x1x1x32x128_1_1_0_0_0 : (Rect.unit (s := S3x4x8x32x128) ![1, 1, 0, 0, 0] S1x1x1x32x128.size inb_S3x4x8x32x128_S1x1x1x32x128_1_1_0_0_0).PackedRows (EltTy.packing .bf16)
  inb_S3x4x8_S1x1x1_1_1_6 : ∀ a, (![1, 1, 6] : Fin 3 → Nat) a + S1x1x1.size a ≤ S3x4x8.size a
  inb_S3x4x8x32x128_S1x1x1x32x128_1_1_6_0_0 : ∀ a, (![1, 1, 6, 0, 0] : Fin 5 → Nat) a + S1x1x1x32x128.size a ≤ S3x4x8x32x128.size a
  wordsbf16_S3x4x8x32x128_S1x1x1x32x128_1_1_0_0_0 : (Rect.unit (s := S3x4x8x32x128) ![1, 1, 0, 0, 0] S1x1x1x32x128.size inb_S3x4x8x32x128_S1x1x1x32x128_1_1_0_0_0).WholeWords (EltTy.packing .bf16)
  wordsbf16_S3x4x8x32x128_S1x1x1x32x128_1_1_6_0_0 : (Rect.unit (s := S3x4x8x32x128) ![1, 1, 6, 0, 0] S1x1x1x32x128.size inb_S3x4x8x32x128_S1x1x1x32x128_1_1_6_0_0).WholeWords (EltTy.packing .bf16)
  inb_S3x4x8_S1x1x1_1_1_2 : ∀ a, (![1, 1, 2] : Fin 3 → Nat) a + S1x1x1.size a ≤ S3x4x8.size a
  inb_S3x4x8x32x128_S1x1x1x32x128_1_1_2_0_0 : ∀ a, (![1, 1, 2, 0, 0] : Fin 5 → Nat) a + S1x1x1x32x128.size a ≤ S3x4x8x32x128.size a
  wordsbf16_S3x4x8x32x128_S1x1x1x32x128_1_1_2_0_0 : (Rect.unit (s := S3x4x8x32x128) ![1, 1, 2, 0, 0] S1x1x1x32x128.size inb_S3x4x8x32x128_S1x1x1x32x128_1_1_2_0_0).WholeWords (EltTy.packing .bf16)
  inb_S3x4x8_S1x1x1_1_1_5 : ∀ a, (![1, 1, 5] : Fin 3 → Nat) a + S1x1x1.size a ≤ S3x4x8.size a
  inb_S3x4x8x32x128_S1x1x1x32x128_1_1_5_0_0 : ∀ a, (![1, 1, 5, 0, 0] : Fin 5 → Nat) a + S1x1x1x32x128.size a ≤ S3x4x8x32x128.size a
  wordsbf16_S3x4x8x32x128_S1x1x1x32x128_1_1_5_0_0 : (Rect.unit (s := S3x4x8x32x128) ![1, 1, 5, 0, 0] S1x1x1x32x128.size inb_S3x4x8x32x128_S1x1x1x32x128_1_1_5_0_0).WholeWords (EltTy.packing .bf16)
  inb_S3x4x8_S1x1x1_1_1_7 : ∀ a, (![1, 1, 7] : Fin 3 → Nat) a + S1x1x1.size a ≤ S3x4x8.size a
  inb_S3x4x8x32x128_S1x1x1x32x128_1_1_7_0_0 : ∀ a, (![1, 1, 7, 0, 0] : Fin 5 → Nat) a + S1x1x1x32x128.size a ≤ S3x4x8x32x128.size a
  wordsbf16_S3x4x8x32x128_S1x1x1x32x128_1_1_7_0_0 : (Rect.unit (s := S3x4x8x32x128) ![1, 1, 7, 0, 0] S1x1x1x32x128.size inb_S3x4x8x32x128_S1x1x1x32x128_1_1_7_0_0).WholeWords (EltTy.packing .bf16)
  inb_S3x4x8_S1x1x1_1_1_1 : ∀ a, (![1, 1, 1] : Fin 3 → Nat) a + S1x1x1.size a ≤ S3x4x8.size a
  inb_S3x4x8x32x128_S1x1x1x32x128_1_1_1_0_0 : ∀ a, (![1, 1, 1, 0, 0] : Fin 5 → Nat) a + S1x1x1x32x128.size a ≤ S3x4x8x32x128.size a
  wordsbf16_S3x4x8x32x128_S1x1x1x32x128_1_1_1_0_0 : (Rect.unit (s := S3x4x8x32x128) ![1, 1, 1, 0, 0] S1x1x1x32x128.size inb_S3x4x8x32x128_S1x1x1x32x128_1_1_1_0_0).WholeWords (EltTy.packing .bf16)
  inb_S3x4x8_S1x1x1_1_1_3 : ∀ a, (![1, 1, 3] : Fin 3 → Nat) a + S1x1x1.size a ≤ S3x4x8.size a
  inb_S3x4x8x32x128_S1x1x1x32x128_1_1_3_0_0 : ∀ a, (![1, 1, 3, 0, 0] : Fin 5 → Nat) a + S1x1x1x32x128.size a ≤ S3x4x8x32x128.size a
  wordsbf16_S3x4x8x32x128_S1x1x1x32x128_1_1_3_0_0 : (Rect.unit (s := S3x4x8x32x128) ![1, 1, 3, 0, 0] S1x1x1x32x128.size inb_S3x4x8x32x128_S1x1x1x32x128_1_1_3_0_0).WholeWords (EltTy.packing .bf16)
  inb_S3x4x8_S1x1x1_1_1_4 : ∀ a, (![1, 1, 4] : Fin 3 → Nat) a + S1x1x1.size a ≤ S3x4x8.size a
  inb_S3x4x8x32x128_S1x1x1x32x128_1_1_4_0_0 : ∀ a, (![1, 1, 4, 0, 0] : Fin 5 → Nat) a + S1x1x1x32x128.size a ≤ S3x4x8x32x128.size a
  wordsbf16_S3x4x8x32x128_S1x1x1x32x128_1_1_4_0_0 : (Rect.unit (s := S3x4x8x32x128) ![1, 1, 4, 0, 0] S1x1x1x32x128.size inb_S3x4x8x32x128_S1x1x1x32x128_1_1_4_0_0).WholeWords (EltTy.packing .bf16)
  inb_S3x4x8x32x128_S1x1x1x32x128_1_2_0_0_0 : ∀ a, (![1, 2, 0, 0, 0] : Fin 5 → Nat) a + S1x1x1x32x128.size a ≤ S3x4x8x32x128.size a
  packedbf16_S3x4x8x32x128_S1x1x1x32x128_1_2_0_0_0 : (Rect.unit (s := S3x4x8x32x128) ![1, 2, 0, 0, 0] S1x1x1x32x128.size inb_S3x4x8x32x128_S1x1x1x32x128_1_2_0_0_0).PackedRows (EltTy.packing .bf16)
  inb_S3x4x8_S1x1x1_1_2_6 : ∀ a, (![1, 2, 6] : Fin 3 → Nat) a + S1x1x1.size a ≤ S3x4x8.size a
  inb_S3x4x8x32x128_S1x1x1x32x128_1_2_6_0_0 : ∀ a, (![1, 2, 6, 0, 0] : Fin 5 → Nat) a + S1x1x1x32x128.size a ≤ S3x4x8x32x128.size a
  wordsbf16_S3x4x8x32x128_S1x1x1x32x128_1_2_0_0_0 : (Rect.unit (s := S3x4x8x32x128) ![1, 2, 0, 0, 0] S1x1x1x32x128.size inb_S3x4x8x32x128_S1x1x1x32x128_1_2_0_0_0).WholeWords (EltTy.packing .bf16)
  wordsbf16_S3x4x8x32x128_S1x1x1x32x128_1_2_6_0_0 : (Rect.unit (s := S3x4x8x32x128) ![1, 2, 6, 0, 0] S1x1x1x32x128.size inb_S3x4x8x32x128_S1x1x1x32x128_1_2_6_0_0).WholeWords (EltTy.packing .bf16)
  inb_S3x4x8_S1x1x1_1_2_2 : ∀ a, (![1, 2, 2] : Fin 3 → Nat) a + S1x1x1.size a ≤ S3x4x8.size a
  inb_S3x4x8x32x128_S1x1x1x32x128_1_2_2_0_0 : ∀ a, (![1, 2, 2, 0, 0] : Fin 5 → Nat) a + S1x1x1x32x128.size a ≤ S3x4x8x32x128.size a
  wordsbf16_S3x4x8x32x128_S1x1x1x32x128_1_2_2_0_0 : (Rect.unit (s := S3x4x8x32x128) ![1, 2, 2, 0, 0] S1x1x1x32x128.size inb_S3x4x8x32x128_S1x1x1x32x128_1_2_2_0_0).WholeWords (EltTy.packing .bf16)
  inb_S3x4x8_S1x1x1_1_2_5 : ∀ a, (![1, 2, 5] : Fin 3 → Nat) a + S1x1x1.size a ≤ S3x4x8.size a
  inb_S3x4x8x32x128_S1x1x1x32x128_1_2_5_0_0 : ∀ a, (![1, 2, 5, 0, 0] : Fin 5 → Nat) a + S1x1x1x32x128.size a ≤ S3x4x8x32x128.size a
  wordsbf16_S3x4x8x32x128_S1x1x1x32x128_1_2_5_0_0 : (Rect.unit (s := S3x4x8x32x128) ![1, 2, 5, 0, 0] S1x1x1x32x128.size inb_S3x4x8x32x128_S1x1x1x32x128_1_2_5_0_0).WholeWords (EltTy.packing .bf16)
  inb_S3x4x8_S1x1x1_1_2_7 : ∀ a, (![1, 2, 7] : Fin 3 → Nat) a + S1x1x1.size a ≤ S3x4x8.size a
  inb_S3x4x8x32x128_S1x1x1x32x128_1_2_7_0_0 : ∀ a, (![1, 2, 7, 0, 0] : Fin 5 → Nat) a + S1x1x1x32x128.size a ≤ S3x4x8x32x128.size a
  wordsbf16_S3x4x8x32x128_S1x1x1x32x128_1_2_7_0_0 : (Rect.unit (s := S3x4x8x32x128) ![1, 2, 7, 0, 0] S1x1x1x32x128.size inb_S3x4x8x32x128_S1x1x1x32x128_1_2_7_0_0).WholeWords (EltTy.packing .bf16)
  inb_S3x4x8_S1x1x1_1_2_1 : ∀ a, (![1, 2, 1] : Fin 3 → Nat) a + S1x1x1.size a ≤ S3x4x8.size a
  inb_S3x4x8x32x128_S1x1x1x32x128_1_2_1_0_0 : ∀ a, (![1, 2, 1, 0, 0] : Fin 5 → Nat) a + S1x1x1x32x128.size a ≤ S3x4x8x32x128.size a
  wordsbf16_S3x4x8x32x128_S1x1x1x32x128_1_2_1_0_0 : (Rect.unit (s := S3x4x8x32x128) ![1, 2, 1, 0, 0] S1x1x1x32x128.size inb_S3x4x8x32x128_S1x1x1x32x128_1_2_1_0_0).WholeWords (EltTy.packing .bf16)
  inb_S3x4x8_S1x1x1_1_2_3 : ∀ a, (![1, 2, 3] : Fin 3 → Nat) a + S1x1x1.size a ≤ S3x4x8.size a
  inb_S3x4x8x32x128_S1x1x1x32x128_1_2_3_0_0 : ∀ a, (![1, 2, 3, 0, 0] : Fin 5 → Nat) a + S1x1x1x32x128.size a ≤ S3x4x8x32x128.size a
  wordsbf16_S3x4x8x32x128_S1x1x1x32x128_1_2_3_0_0 : (Rect.unit (s := S3x4x8x32x128) ![1, 2, 3, 0, 0] S1x1x1x32x128.size inb_S3x4x8x32x128_S1x1x1x32x128_1_2_3_0_0).WholeWords (EltTy.packing .bf16)
  inb_S3x4x8_S1x1x1_1_2_4 : ∀ a, (![1, 2, 4] : Fin 3 → Nat) a + S1x1x1.size a ≤ S3x4x8.size a
  inb_S3x4x8x32x128_S1x1x1x32x128_1_2_4_0_0 : ∀ a, (![1, 2, 4, 0, 0] : Fin 5 → Nat) a + S1x1x1x32x128.size a ≤ S3x4x8x32x128.size a
  wordsbf16_S3x4x8x32x128_S1x1x1x32x128_1_2_4_0_0 : (Rect.unit (s := S3x4x8x32x128) ![1, 2, 4, 0, 0] S1x1x1x32x128.size inb_S3x4x8x32x128_S1x1x1x32x128_1_2_4_0_0).WholeWords (EltTy.packing .bf16)
  inb_S3x4x8x32x128_S1x1x1x32x128_1_3_0_0_0 : ∀ a, (![1, 3, 0, 0, 0] : Fin 5 → Nat) a + S1x1x1x32x128.size a ≤ S3x4x8x32x128.size a
  packedbf16_S3x4x8x32x128_S1x1x1x32x128_1_3_0_0_0 : (Rect.unit (s := S3x4x8x32x128) ![1, 3, 0, 0, 0] S1x1x1x32x128.size inb_S3x4x8x32x128_S1x1x1x32x128_1_3_0_0_0).PackedRows (EltTy.packing .bf16)
  inb_S3x4x8_S1x1x1_1_3_6 : ∀ a, (![1, 3, 6] : Fin 3 → Nat) a + S1x1x1.size a ≤ S3x4x8.size a
  inb_S3x4x8x32x128_S1x1x1x32x128_1_3_6_0_0 : ∀ a, (![1, 3, 6, 0, 0] : Fin 5 → Nat) a + S1x1x1x32x128.size a ≤ S3x4x8x32x128.size a
  wordsbf16_S3x4x8x32x128_S1x1x1x32x128_1_3_0_0_0 : (Rect.unit (s := S3x4x8x32x128) ![1, 3, 0, 0, 0] S1x1x1x32x128.size inb_S3x4x8x32x128_S1x1x1x32x128_1_3_0_0_0).WholeWords (EltTy.packing .bf16)
  wordsbf16_S3x4x8x32x128_S1x1x1x32x128_1_3_6_0_0 : (Rect.unit (s := S3x4x8x32x128) ![1, 3, 6, 0, 0] S1x1x1x32x128.size inb_S3x4x8x32x128_S1x1x1x32x128_1_3_6_0_0).WholeWords (EltTy.packing .bf16)
  inb_S3x4x8_S1x1x1_1_3_2 : ∀ a, (![1, 3, 2] : Fin 3 → Nat) a + S1x1x1.size a ≤ S3x4x8.size a
  inb_S3x4x8x32x128_S1x1x1x32x128_1_3_2_0_0 : ∀ a, (![1, 3, 2, 0, 0] : Fin 5 → Nat) a + S1x1x1x32x128.size a ≤ S3x4x8x32x128.size a
  wordsbf16_S3x4x8x32x128_S1x1x1x32x128_1_3_2_0_0 : (Rect.unit (s := S3x4x8x32x128) ![1, 3, 2, 0, 0] S1x1x1x32x128.size inb_S3x4x8x32x128_S1x1x1x32x128_1_3_2_0_0).WholeWords (EltTy.packing .bf16)
  inb_S3x4x8_S1x1x1_1_3_5 : ∀ a, (![1, 3, 5] : Fin 3 → Nat) a + S1x1x1.size a ≤ S3x4x8.size a
  inb_S3x4x8x32x128_S1x1x1x32x128_1_3_5_0_0 : ∀ a, (![1, 3, 5, 0, 0] : Fin 5 → Nat) a + S1x1x1x32x128.size a ≤ S3x4x8x32x128.size a
  wordsbf16_S3x4x8x32x128_S1x1x1x32x128_1_3_5_0_0 : (Rect.unit (s := S3x4x8x32x128) ![1, 3, 5, 0, 0] S1x1x1x32x128.size inb_S3x4x8x32x128_S1x1x1x32x128_1_3_5_0_0).WholeWords (EltTy.packing .bf16)
  inb_S3x4x8_S1x1x1_1_3_7 : ∀ a, (![1, 3, 7] : Fin 3 → Nat) a + S1x1x1.size a ≤ S3x4x8.size a
  inb_S3x4x8x32x128_S1x1x1x32x128_1_3_7_0_0 : ∀ a, (![1, 3, 7, 0, 0] : Fin 5 → Nat) a + S1x1x1x32x128.size a ≤ S3x4x8x32x128.size a
  wordsbf16_S3x4x8x32x128_S1x1x1x32x128_1_3_7_0_0 : (Rect.unit (s := S3x4x8x32x128) ![1, 3, 7, 0, 0] S1x1x1x32x128.size inb_S3x4x8x32x128_S1x1x1x32x128_1_3_7_0_0).WholeWords (EltTy.packing .bf16)
  inb_S3x4x8_S1x1x1_1_3_1 : ∀ a, (![1, 3, 1] : Fin 3 → Nat) a + S1x1x1.size a ≤ S3x4x8.size a
  inb_S3x4x8x32x128_S1x1x1x32x128_1_3_1_0_0 : ∀ a, (![1, 3, 1, 0, 0] : Fin 5 → Nat) a + S1x1x1x32x128.size a ≤ S3x4x8x32x128.size a
  wordsbf16_S3x4x8x32x128_S1x1x1x32x128_1_3_1_0_0 : (Rect.unit (s := S3x4x8x32x128) ![1, 3, 1, 0, 0] S1x1x1x32x128.size inb_S3x4x8x32x128_S1x1x1x32x128_1_3_1_0_0).WholeWords (EltTy.packing .bf16)
  inb_S3x4x8_S1x1x1_1_3_3 : ∀ a, (![1, 3, 3] : Fin 3 → Nat) a + S1x1x1.size a ≤ S3x4x8.size a
  inb_S3x4x8x32x128_S1x1x1x32x128_1_3_3_0_0 : ∀ a, (![1, 3, 3, 0, 0] : Fin 5 → Nat) a + S1x1x1x32x128.size a ≤ S3x4x8x32x128.size a
  wordsbf16_S3x4x8x32x128_S1x1x1x32x128_1_3_3_0_0 : (Rect.unit (s := S3x4x8x32x128) ![1, 3, 3, 0, 0] S1x1x1x32x128.size inb_S3x4x8x32x128_S1x1x1x32x128_1_3_3_0_0).WholeWords (EltTy.packing .bf16)
  inb_S3x4x8_S1x1x1_1_3_4 : ∀ a, (![1, 3, 4] : Fin 3 → Nat) a + S1x1x1.size a ≤ S3x4x8.size a
  inb_S3x4x8x32x128_S1x1x1x32x128_1_3_4_0_0 : ∀ a, (![1, 3, 4, 0, 0] : Fin 5 → Nat) a + S1x1x1x32x128.size a ≤ S3x4x8x32x128.size a
  wordsbf16_S3x4x8x32x128_S1x1x1x32x128_1_3_4_0_0 : (Rect.unit (s := S3x4x8x32x128) ![1, 3, 4, 0, 0] S1x1x1x32x128.size inb_S3x4x8x32x128_S1x1x1x32x128_1_3_4_0_0).WholeWords (EltTy.packing .bf16)
  inb_S3x4x8x32x128_S1x1x1x32x128_2_0_0_0_0 : ∀ a, (![2, 0, 0, 0, 0] : Fin 5 → Nat) a + S1x1x1x32x128.size a ≤ S3x4x8x32x128.size a
  packedbf16_S3x4x8x32x128_S1x1x1x32x128_2_0_0_0_0 : (Rect.unit (s := S3x4x8x32x128) ![2, 0, 0, 0, 0] S1x1x1x32x128.size inb_S3x4x8x32x128_S1x1x1x32x128_2_0_0_0_0).PackedRows (EltTy.packing .bf16)
  inb_S3x4x8_S1x1x1_2_0_6 : ∀ a, (![2, 0, 6] : Fin 3 → Nat) a + S1x1x1.size a ≤ S3x4x8.size a
  inb_S3x4x8x32x128_S1x1x1x32x128_2_0_6_0_0 : ∀ a, (![2, 0, 6, 0, 0] : Fin 5 → Nat) a + S1x1x1x32x128.size a ≤ S3x4x8x32x128.size a
  wordsbf16_S3x4x8x32x128_S1x1x1x32x128_2_0_0_0_0 : (Rect.unit (s := S3x4x8x32x128) ![2, 0, 0, 0, 0] S1x1x1x32x128.size inb_S3x4x8x32x128_S1x1x1x32x128_2_0_0_0_0).WholeWords (EltTy.packing .bf16)
  wordsbf16_S3x4x8x32x128_S1x1x1x32x128_2_0_6_0_0 : (Rect.unit (s := S3x4x8x32x128) ![2, 0, 6, 0, 0] S1x1x1x32x128.size inb_S3x4x8x32x128_S1x1x1x32x128_2_0_6_0_0).WholeWords (EltTy.packing .bf16)
  inb_S3x4x8_S1x1x1_2_0_2 : ∀ a, (![2, 0, 2] : Fin 3 → Nat) a + S1x1x1.size a ≤ S3x4x8.size a
  inb_S3x4x8x32x128_S1x1x1x32x128_2_0_2_0_0 : ∀ a, (![2, 0, 2, 0, 0] : Fin 5 → Nat) a + S1x1x1x32x128.size a ≤ S3x4x8x32x128.size a
  wordsbf16_S3x4x8x32x128_S1x1x1x32x128_2_0_2_0_0 : (Rect.unit (s := S3x4x8x32x128) ![2, 0, 2, 0, 0] S1x1x1x32x128.size inb_S3x4x8x32x128_S1x1x1x32x128_2_0_2_0_0).WholeWords (EltTy.packing .bf16)
  inb_S3x4x8_S1x1x1_2_0_5 : ∀ a, (![2, 0, 5] : Fin 3 → Nat) a + S1x1x1.size a ≤ S3x4x8.size a
  inb_S3x4x8x32x128_S1x1x1x32x128_2_0_5_0_0 : ∀ a, (![2, 0, 5, 0, 0] : Fin 5 → Nat) a + S1x1x1x32x128.size a ≤ S3x4x8x32x128.size a
  wordsbf16_S3x4x8x32x128_S1x1x1x32x128_2_0_5_0_0 : (Rect.unit (s := S3x4x8x32x128) ![2, 0, 5, 0, 0] S1x1x1x32x128.size inb_S3x4x8x32x128_S1x1x1x32x128_2_0_5_0_0).WholeWords (EltTy.packing .bf16)
  inb_S3x4x8_S1x1x1_2_0_7 : ∀ a, (![2, 0, 7] : Fin 3 → Nat) a + S1x1x1.size a ≤ S3x4x8.size a
  inb_S3x4x8x32x128_S1x1x1x32x128_2_0_7_0_0 : ∀ a, (![2, 0, 7, 0, 0] : Fin 5 → Nat) a + S1x1x1x32x128.size a ≤ S3x4x8x32x128.size a
  wordsbf16_S3x4x8x32x128_S1x1x1x32x128_2_0_7_0_0 : (Rect.unit (s := S3x4x8x32x128) ![2, 0, 7, 0, 0] S1x1x1x32x128.size inb_S3x4x8x32x128_S1x1x1x32x128_2_0_7_0_0).WholeWords (EltTy.packing .bf16)
  inb_S3x4x8_S1x1x1_2_0_1 : ∀ a, (![2, 0, 1] : Fin 3 → Nat) a + S1x1x1.size a ≤ S3x4x8.size a
  inb_S3x4x8x32x128_S1x1x1x32x128_2_0_1_0_0 : ∀ a, (![2, 0, 1, 0, 0] : Fin 5 → Nat) a + S1x1x1x32x128.size a ≤ S3x4x8x32x128.size a
  wordsbf16_S3x4x8x32x128_S1x1x1x32x128_2_0_1_0_0 : (Rect.unit (s := S3x4x8x32x128) ![2, 0, 1, 0, 0] S1x1x1x32x128.size inb_S3x4x8x32x128_S1x1x1x32x128_2_0_1_0_0).WholeWords (EltTy.packing .bf16)
  inb_S3x4x8_S1x1x1_2_0_3 : ∀ a, (![2, 0, 3] : Fin 3 → Nat) a + S1x1x1.size a ≤ S3x4x8.size a
  inb_S3x4x8x32x128_S1x1x1x32x128_2_0_3_0_0 : ∀ a, (![2, 0, 3, 0, 0] : Fin 5 → Nat) a + S1x1x1x32x128.size a ≤ S3x4x8x32x128.size a
  wordsbf16_S3x4x8x32x128_S1x1x1x32x128_2_0_3_0_0 : (Rect.unit (s := S3x4x8x32x128) ![2, 0, 3, 0, 0] S1x1x1x32x128.size inb_S3x4x8x32x128_S1x1x1x32x128_2_0_3_0_0).WholeWords (EltTy.packing .bf16)
  inb_S3x4x8_S1x1x1_2_0_4 : ∀ a, (![2, 0, 4] : Fin 3 → Nat) a + S1x1x1.size a ≤ S3x4x8.size a
  inb_S3x4x8x32x128_S1x1x1x32x128_2_0_4_0_0 : ∀ a, (![2, 0, 4, 0, 0] : Fin 5 → Nat) a + S1x1x1x32x128.size a ≤ S3x4x8x32x128.size a
  wordsbf16_S3x4x8x32x128_S1x1x1x32x128_2_0_4_0_0 : (Rect.unit (s := S3x4x8x32x128) ![2, 0, 4, 0, 0] S1x1x1x32x128.size inb_S3x4x8x32x128_S1x1x1x32x128_2_0_4_0_0).WholeWords (EltTy.packing .bf16)
  inb_S3x4x8x32x128_S1x1x1x32x128_2_1_0_0_0 : ∀ a, (![2, 1, 0, 0, 0] : Fin 5 → Nat) a + S1x1x1x32x128.size a ≤ S3x4x8x32x128.size a
  packedbf16_S3x4x8x32x128_S1x1x1x32x128_2_1_0_0_0 : (Rect.unit (s := S3x4x8x32x128) ![2, 1, 0, 0, 0] S1x1x1x32x128.size inb_S3x4x8x32x128_S1x1x1x32x128_2_1_0_0_0).PackedRows (EltTy.packing .bf16)
  inb_S3x4x8_S1x1x1_2_1_6 : ∀ a, (![2, 1, 6] : Fin 3 → Nat) a + S1x1x1.size a ≤ S3x4x8.size a
  inb_S3x4x8x32x128_S1x1x1x32x128_2_1_6_0_0 : ∀ a, (![2, 1, 6, 0, 0] : Fin 5 → Nat) a + S1x1x1x32x128.size a ≤ S3x4x8x32x128.size a
  wordsbf16_S3x4x8x32x128_S1x1x1x32x128_2_1_0_0_0 : (Rect.unit (s := S3x4x8x32x128) ![2, 1, 0, 0, 0] S1x1x1x32x128.size inb_S3x4x8x32x128_S1x1x1x32x128_2_1_0_0_0).WholeWords (EltTy.packing .bf16)
  wordsbf16_S3x4x8x32x128_S1x1x1x32x128_2_1_6_0_0 : (Rect.unit (s := S3x4x8x32x128) ![2, 1, 6, 0, 0] S1x1x1x32x128.size inb_S3x4x8x32x128_S1x1x1x32x128_2_1_6_0_0).WholeWords (EltTy.packing .bf16)
  inb_S3x4x8_S1x1x1_2_1_2 : ∀ a, (![2, 1, 2] : Fin 3 → Nat) a + S1x1x1.size a ≤ S3x4x8.size a
  inb_S3x4x8x32x128_S1x1x1x32x128_2_1_2_0_0 : ∀ a, (![2, 1, 2, 0, 0] : Fin 5 → Nat) a + S1x1x1x32x128.size a ≤ S3x4x8x32x128.size a
  wordsbf16_S3x4x8x32x128_S1x1x1x32x128_2_1_2_0_0 : (Rect.unit (s := S3x4x8x32x128) ![2, 1, 2, 0, 0] S1x1x1x32x128.size inb_S3x4x8x32x128_S1x1x1x32x128_2_1_2_0_0).WholeWords (EltTy.packing .bf16)
  inb_S3x4x8_S1x1x1_2_1_5 : ∀ a, (![2, 1, 5] : Fin 3 → Nat) a + S1x1x1.size a ≤ S3x4x8.size a
  inb_S3x4x8x32x128_S1x1x1x32x128_2_1_5_0_0 : ∀ a, (![2, 1, 5, 0, 0] : Fin 5 → Nat) a + S1x1x1x32x128.size a ≤ S3x4x8x32x128.size a
  wordsbf16_S3x4x8x32x128_S1x1x1x32x128_2_1_5_0_0 : (Rect.unit (s := S3x4x8x32x128) ![2, 1, 5, 0, 0] S1x1x1x32x128.size inb_S3x4x8x32x128_S1x1x1x32x128_2_1_5_0_0).WholeWords (EltTy.packing .bf16)
  inb_S3x4x8_S1x1x1_2_1_7 : ∀ a, (![2, 1, 7] : Fin 3 → Nat) a + S1x1x1.size a ≤ S3x4x8.size a
  inb_S3x4x8x32x128_S1x1x1x32x128_2_1_7_0_0 : ∀ a, (![2, 1, 7, 0, 0] : Fin 5 → Nat) a + S1x1x1x32x128.size a ≤ S3x4x8x32x128.size a
  wordsbf16_S3x4x8x32x128_S1x1x1x32x128_2_1_7_0_0 : (Rect.unit (s := S3x4x8x32x128) ![2, 1, 7, 0, 0] S1x1x1x32x128.size inb_S3x4x8x32x128_S1x1x1x32x128_2_1_7_0_0).WholeWords (EltTy.packing .bf16)
  inb_S3x4x8_S1x1x1_2_1_1 : ∀ a, (![2, 1, 1] : Fin 3 → Nat) a + S1x1x1.size a ≤ S3x4x8.size a
  inb_S3x4x8x32x128_S1x1x1x32x128_2_1_1_0_0 : ∀ a, (![2, 1, 1, 0, 0] : Fin 5 → Nat) a + S1x1x1x32x128.size a ≤ S3x4x8x32x128.size a
  wordsbf16_S3x4x8x32x128_S1x1x1x32x128_2_1_1_0_0 : (Rect.unit (s := S3x4x8x32x128) ![2, 1, 1, 0, 0] S1x1x1x32x128.size inb_S3x4x8x32x128_S1x1x1x32x128_2_1_1_0_0).WholeWords (EltTy.packing .bf16)
  inb_S3x4x8_S1x1x1_2_1_3 : ∀ a, (![2, 1, 3] : Fin 3 → Nat) a + S1x1x1.size a ≤ S3x4x8.size a
  inb_S3x4x8x32x128_S1x1x1x32x128_2_1_3_0_0 : ∀ a, (![2, 1, 3, 0, 0] : Fin 5 → Nat) a + S1x1x1x32x128.size a ≤ S3x4x8x32x128.size a
  wordsbf16_S3x4x8x32x128_S1x1x1x32x128_2_1_3_0_0 : (Rect.unit (s := S3x4x8x32x128) ![2, 1, 3, 0, 0] S1x1x1x32x128.size inb_S3x4x8x32x128_S1x1x1x32x128_2_1_3_0_0).WholeWords (EltTy.packing .bf16)
  inb_S3x4x8_S1x1x1_2_1_4 : ∀ a, (![2, 1, 4] : Fin 3 → Nat) a + S1x1x1.size a ≤ S3x4x8.size a
  inb_S3x4x8x32x128_S1x1x1x32x128_2_1_4_0_0 : ∀ a, (![2, 1, 4, 0, 0] : Fin 5 → Nat) a + S1x1x1x32x128.size a ≤ S3x4x8x32x128.size a
  wordsbf16_S3x4x8x32x128_S1x1x1x32x128_2_1_4_0_0 : (Rect.unit (s := S3x4x8x32x128) ![2, 1, 4, 0, 0] S1x1x1x32x128.size inb_S3x4x8x32x128_S1x1x1x32x128_2_1_4_0_0).WholeWords (EltTy.packing .bf16)
  inb_S3x4x8x32x128_S1x1x1x32x128_2_2_0_0_0 : ∀ a, (![2, 2, 0, 0, 0] : Fin 5 → Nat) a + S1x1x1x32x128.size a ≤ S3x4x8x32x128.size a
  packedbf16_S3x4x8x32x128_S1x1x1x32x128_2_2_0_0_0 : (Rect.unit (s := S3x4x8x32x128) ![2, 2, 0, 0, 0] S1x1x1x32x128.size inb_S3x4x8x32x128_S1x1x1x32x128_2_2_0_0_0).PackedRows (EltTy.packing .bf16)
  inb_S3x4x8_S1x1x1_2_2_6 : ∀ a, (![2, 2, 6] : Fin 3 → Nat) a + S1x1x1.size a ≤ S3x4x8.size a
  inb_S3x4x8x32x128_S1x1x1x32x128_2_2_6_0_0 : ∀ a, (![2, 2, 6, 0, 0] : Fin 5 → Nat) a + S1x1x1x32x128.size a ≤ S3x4x8x32x128.size a
  wordsbf16_S3x4x8x32x128_S1x1x1x32x128_2_2_0_0_0 : (Rect.unit (s := S3x4x8x32x128) ![2, 2, 0, 0, 0] S1x1x1x32x128.size inb_S3x4x8x32x128_S1x1x1x32x128_2_2_0_0_0).WholeWords (EltTy.packing .bf16)
  wordsbf16_S3x4x8x32x128_S1x1x1x32x128_2_2_6_0_0 : (Rect.unit (s := S3x4x8x32x128) ![2, 2, 6, 0, 0] S1x1x1x32x128.size inb_S3x4x8x32x128_S1x1x1x32x128_2_2_6_0_0).WholeWords (EltTy.packing .bf16)
  inb_S3x4x8_S1x1x1_2_2_2 : ∀ a, (![2, 2, 2] : Fin 3 → Nat) a + S1x1x1.size a ≤ S3x4x8.size a
  inb_S3x4x8x32x128_S1x1x1x32x128_2_2_2_0_0 : ∀ a, (![2, 2, 2, 0, 0] : Fin 5 → Nat) a + S1x1x1x32x128.size a ≤ S3x4x8x32x128.size a
  wordsbf16_S3x4x8x32x128_S1x1x1x32x128_2_2_2_0_0 : (Rect.unit (s := S3x4x8x32x128) ![2, 2, 2, 0, 0] S1x1x1x32x128.size inb_S3x4x8x32x128_S1x1x1x32x128_2_2_2_0_0).WholeWords (EltTy.packing .bf16)
  inb_S3x4x8_S1x1x1_2_2_5 : ∀ a, (![2, 2, 5] : Fin 3 → Nat) a + S1x1x1.size a ≤ S3x4x8.size a
  inb_S3x4x8x32x128_S1x1x1x32x128_2_2_5_0_0 : ∀ a, (![2, 2, 5, 0, 0] : Fin 5 → Nat) a + S1x1x1x32x128.size a ≤ S3x4x8x32x128.size a
  wordsbf16_S3x4x8x32x128_S1x1x1x32x128_2_2_5_0_0 : (Rect.unit (s := S3x4x8x32x128) ![2, 2, 5, 0, 0] S1x1x1x32x128.size inb_S3x4x8x32x128_S1x1x1x32x128_2_2_5_0_0).WholeWords (EltTy.packing .bf16)
  inb_S3x4x8_S1x1x1_2_2_7 : ∀ a, (![2, 2, 7] : Fin 3 → Nat) a + S1x1x1.size a ≤ S3x4x8.size a
  inb_S3x4x8x32x128_S1x1x1x32x128_2_2_7_0_0 : ∀ a, (![2, 2, 7, 0, 0] : Fin 5 → Nat) a + S1x1x1x32x128.size a ≤ S3x4x8x32x128.size a
  wordsbf16_S3x4x8x32x128_S1x1x1x32x128_2_2_7_0_0 : (Rect.unit (s := S3x4x8x32x128) ![2, 2, 7, 0, 0] S1x1x1x32x128.size inb_S3x4x8x32x128_S1x1x1x32x128_2_2_7_0_0).WholeWords (EltTy.packing .bf16)
  inb_S3x4x8_S1x1x1_2_2_1 : ∀ a, (![2, 2, 1] : Fin 3 → Nat) a + S1x1x1.size a ≤ S3x4x8.size a
  inb_S3x4x8x32x128_S1x1x1x32x128_2_2_1_0_0 : ∀ a, (![2, 2, 1, 0, 0] : Fin 5 → Nat) a + S1x1x1x32x128.size a ≤ S3x4x8x32x128.size a
  wordsbf16_S3x4x8x32x128_S1x1x1x32x128_2_2_1_0_0 : (Rect.unit (s := S3x4x8x32x128) ![2, 2, 1, 0, 0] S1x1x1x32x128.size inb_S3x4x8x32x128_S1x1x1x32x128_2_2_1_0_0).WholeWords (EltTy.packing .bf16)
  inb_S3x4x8_S1x1x1_2_2_3 : ∀ a, (![2, 2, 3] : Fin 3 → Nat) a + S1x1x1.size a ≤ S3x4x8.size a
  inb_S3x4x8x32x128_S1x1x1x32x128_2_2_3_0_0 : ∀ a, (![2, 2, 3, 0, 0] : Fin 5 → Nat) a + S1x1x1x32x128.size a ≤ S3x4x8x32x128.size a
  wordsbf16_S3x4x8x32x128_S1x1x1x32x128_2_2_3_0_0 : (Rect.unit (s := S3x4x8x32x128) ![2, 2, 3, 0, 0] S1x1x1x32x128.size inb_S3x4x8x32x128_S1x1x1x32x128_2_2_3_0_0).WholeWords (EltTy.packing .bf16)
  inb_S3x4x8_S1x1x1_2_2_4 : ∀ a, (![2, 2, 4] : Fin 3 → Nat) a + S1x1x1.size a ≤ S3x4x8.size a
  inb_S3x4x8x32x128_S1x1x1x32x128_2_2_4_0_0 : ∀ a, (![2, 2, 4, 0, 0] : Fin 5 → Nat) a + S1x1x1x32x128.size a ≤ S3x4x8x32x128.size a
  wordsbf16_S3x4x8x32x128_S1x1x1x32x128_2_2_4_0_0 : (Rect.unit (s := S3x4x8x32x128) ![2, 2, 4, 0, 0] S1x1x1x32x128.size inb_S3x4x8x32x128_S1x1x1x32x128_2_2_4_0_0).WholeWords (EltTy.packing .bf16)
  inb_S3x4x8x32x128_S1x1x1x32x128_2_3_0_0_0 : ∀ a, (![2, 3, 0, 0, 0] : Fin 5 → Nat) a + S1x1x1x32x128.size a ≤ S3x4x8x32x128.size a
  packedbf16_S3x4x8x32x128_S1x1x1x32x128_2_3_0_0_0 : (Rect.unit (s := S3x4x8x32x128) ![2, 3, 0, 0, 0] S1x1x1x32x128.size inb_S3x4x8x32x128_S1x1x1x32x128_2_3_0_0_0).PackedRows (EltTy.packing .bf16)
  inb_S3x4x8_S1x1x1_2_3_6 : ∀ a, (![2, 3, 6] : Fin 3 → Nat) a + S1x1x1.size a ≤ S3x4x8.size a
  inb_S3x4x8x32x128_S1x1x1x32x128_2_3_6_0_0 : ∀ a, (![2, 3, 6, 0, 0] : Fin 5 → Nat) a + S1x1x1x32x128.size a ≤ S3x4x8x32x128.size a
  wordsbf16_S3x4x8x32x128_S1x1x1x32x128_2_3_0_0_0 : (Rect.unit (s := S3x4x8x32x128) ![2, 3, 0, 0, 0] S1x1x1x32x128.size inb_S3x4x8x32x128_S1x1x1x32x128_2_3_0_0_0).WholeWords (EltTy.packing .bf16)
  wordsbf16_S3x4x8x32x128_S1x1x1x32x128_2_3_6_0_0 : (Rect.unit (s := S3x4x8x32x128) ![2, 3, 6, 0, 0] S1x1x1x32x128.size inb_S3x4x8x32x128_S1x1x1x32x128_2_3_6_0_0).WholeWords (EltTy.packing .bf16)
  inb_S3x4x8_S1x1x1_2_3_2 : ∀ a, (![2, 3, 2] : Fin 3 → Nat) a + S1x1x1.size a ≤ S3x4x8.size a
  inb_S3x4x8x32x128_S1x1x1x32x128_2_3_2_0_0 : ∀ a, (![2, 3, 2, 0, 0] : Fin 5 → Nat) a + S1x1x1x32x128.size a ≤ S3x4x8x32x128.size a
  wordsbf16_S3x4x8x32x128_S1x1x1x32x128_2_3_2_0_0 : (Rect.unit (s := S3x4x8x32x128) ![2, 3, 2, 0, 0] S1x1x1x32x128.size inb_S3x4x8x32x128_S1x1x1x32x128_2_3_2_0_0).WholeWords (EltTy.packing .bf16)
  inb_S3x4x8_S1x1x1_2_3_5 : ∀ a, (![2, 3, 5] : Fin 3 → Nat) a + S1x1x1.size a ≤ S3x4x8.size a
  inb_S3x4x8x32x128_S1x1x1x32x128_2_3_5_0_0 : ∀ a, (![2, 3, 5, 0, 0] : Fin 5 → Nat) a + S1x1x1x32x128.size a ≤ S3x4x8x32x128.size a
  wordsbf16_S3x4x8x32x128_S1x1x1x32x128_2_3_5_0_0 : (Rect.unit (s := S3x4x8x32x128) ![2, 3, 5, 0, 0] S1x1x1x32x128.size inb_S3x4x8x32x128_S1x1x1x32x128_2_3_5_0_0).WholeWords (EltTy.packing .bf16)
  inb_S3x4x8_S1x1x1_2_3_7 : ∀ a, (![2, 3, 7] : Fin 3 → Nat) a + S1x1x1.size a ≤ S3x4x8.size a
  inb_S3x4x8x32x128_S1x1x1x32x128_2_3_7_0_0 : ∀ a, (![2, 3, 7, 0, 0] : Fin 5 → Nat) a + S1x1x1x32x128.size a ≤ S3x4x8x32x128.size a
  wordsbf16_S3x4x8x32x128_S1x1x1x32x128_2_3_7_0_0 : (Rect.unit (s := S3x4x8x32x128) ![2, 3, 7, 0, 0] S1x1x1x32x128.size inb_S3x4x8x32x128_S1x1x1x32x128_2_3_7_0_0).WholeWords (EltTy.packing .bf16)
  inb_S3x4x8_S1x1x1_2_3_1 : ∀ a, (![2, 3, 1] : Fin 3 → Nat) a + S1x1x1.size a ≤ S3x4x8.size a
  inb_S3x4x8x32x128_S1x1x1x32x128_2_3_1_0_0 : ∀ a, (![2, 3, 1, 0, 0] : Fin 5 → Nat) a + S1x1x1x32x128.size a ≤ S3x4x8x32x128.size a
  wordsbf16_S3x4x8x32x128_S1x1x1x32x128_2_3_1_0_0 : (Rect.unit (s := S3x4x8x32x128) ![2, 3, 1, 0, 0] S1x1x1x32x128.size inb_S3x4x8x32x128_S1x1x1x32x128_2_3_1_0_0).WholeWords (EltTy.packing .bf16)
  inb_S3x4x8_S1x1x1_2_3_3 : ∀ a, (![2, 3, 3] : Fin 3 → Nat) a + S1x1x1.size a ≤ S3x4x8.size a
  inb_S3x4x8x32x128_S1x1x1x32x128_2_3_3_0_0 : ∀ a, (![2, 3, 3, 0, 0] : Fin 5 → Nat) a + S1x1x1x32x128.size a ≤ S3x4x8x32x128.size a
  wordsbf16_S3x4x8x32x128_S1x1x1x32x128_2_3_3_0_0 : (Rect.unit (s := S3x4x8x32x128) ![2, 3, 3, 0, 0] S1x1x1x32x128.size inb_S3x4x8x32x128_S1x1x1x32x128_2_3_3_0_0).WholeWords (EltTy.packing .bf16)
  inb_S3x4x8_S1x1x1_2_3_4 : ∀ a, (![2, 3, 4] : Fin 3 → Nat) a + S1x1x1.size a ≤ S3x4x8.size a
  inb_S3x4x8x32x128_S1x1x1x32x128_2_3_4_0_0 : ∀ a, (![2, 3, 4, 0, 0] : Fin 5 → Nat) a + S1x1x1x32x128.size a ≤ S3x4x8x32x128.size a
  wordsbf16_S3x4x8x32x128_S1x1x1x32x128_2_3_4_0_0 : (Rect.unit (s := S3x4x8x32x128) ![2, 3, 4, 0, 0] S1x1x1x32x128.size inb_S3x4x8x32x128_S1x1x1x32x128_2_3_4_0_0).WholeWords (EltTy.packing .bf16)
  dot_S32x128_S128x256_S32x256_1_0_0_1_n_n_wf : DotDims.WF S32x128 S128x256 S32x256 [1] [0] [0] [1] [] []
  dot_S32x256_S256x128_S32x128_1_0_0_1_n_n_wf : DotDims.WF S32x256 S256x128 S32x128 [1] [0] [0] [1] [] []
  hcc0_scratch1 : 8 + S3x4x8.numel ≤ 200
  hcc0_scratch2 : 104 + S3x4x8.numel ≤ 200
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_dev91_lt : ∀ d0 : Dev nD, (k0_dev91 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

abbrev cc0_scratch1 : DmaSems sig S3x4x8 := SemArray.consecutive 8 S3x4x8 hcc0_scratch1
abbrev cc0_scratch2 : DmaSems sig S3x4x8 := SemArray.consecutive 104 S3x4x8 hcc0_scratch2
def dot_S32x128_S128x256_S32x256_1_0_0_1_n_n : DotDims S32x128 S128x256 S32x256 where
  lhsContracting := [1]
  rhsContracting := [0]
  lhsNonContracting := [0]
  rhsNonContracting := [1]
  lhsBatch := []
  rhsBatch := []
  wf := dot_S32x128_S128x256_S32x256_1_0_0_1_n_n_wf
def dot_S32x256_S256x128_S32x128_1_0_0_1_n_n : DotDims S32x256 S256x128 S32x128 where
  lhsContracting := [1]
  rhsContracting := [0]
  lhsNonContracting := [0]
  rhsNonContracting := [1]
  lhsBatch := []
  rhsBatch := []
  wf := dot_S32x256_S256x128_S32x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v1) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S128x128 : Shape := ⟨2, ![128, 128]⟩
abbrev S128x2048 : Shape := ⟨2, ![128, 2048]⟩
abbrev S2048x128 : Shape := ⟨2, ![2048, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x2048, .f32⟩
  | .hbm, ⟨2, _⟩ => ⟨S2048x128, .f32⟩
  | .hbm, ⟨3, _⟩ => ⟨S128x2048, .f32⟩
  | .hbm, ⟨4, _⟩ => ⟨S2048x128, .f32⟩
  | .hbm, ⟨5, _⟩ => ⟨S128x2048, .f32⟩
  | .hbm, ⟨6, _⟩ => ⟨S2048x128, .f32⟩
  | .hbm, ⟨7, _⟩ => ⟨S128x2048, .f32⟩
  | .hbm, ⟨8, _⟩ => ⟨S_, .f32⟩
  | .hbm, ⟨9, _⟩ => ⟨S128x2048, .f32⟩
  | .hbm, ⟨10, _⟩ => ⟨S128x2048, .f32⟩
  | .hbm, ⟨11, _⟩ => ⟨S128x128, .f32⟩
  | .hbm, ⟨12, _⟩ => ⟨S128x2048, .f32⟩
  | .hbm, ⟨13, _⟩ => ⟨S_, .f32⟩
  | .hbm, ⟨14, _⟩ => ⟨S128x2048, .f32⟩
  | .hbm, ⟨15, _⟩ => ⟨S128x2048, .f32⟩
  | .hbm, ⟨16, _⟩ => ⟨S128x128, .f32⟩
  | .hbm, ⟨17, _⟩ => ⟨S128x2048, .f32⟩
  | .hbm, ⟨18, _⟩ => ⟨S_, .f32⟩
  | .hbm, ⟨19, _⟩ => ⟨S128x2048, .f32⟩
  | .hbm, ⟨20, _⟩ => ⟨S128x2048, .f32⟩
  | .hbm, ⟨21, _⟩ => ⟨S128x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S128x2048 : S_.BroadcastsInDim S128x2048 (![] : Fin 0 → Fin S128x2048.rank)
  dot_S128x128_S128x2048_S128x2048_1_0_0_1_n_n_wf : DotDims.WF S128x128 S128x2048 S128x2048 [1] [0] [0] [1] [] []
  dot_S128x2048_S2048x128_S128x128_1_0_0_1_n_n_wf : DotDims.WF S128x2048 S2048x128 S128x128 [1] [0] [0] [1] [] []

variable [Facts₀]

def dot_S128x128_S128x2048_S128x2048_1_0_0_1_n_n : DotDims S128x128 S128x2048 S128x2048 where
  lhsContracting := [1]
  rhsContracting := [0]
  lhsNonContracting := [0]
  rhsNonContracting := [1]
  lhsBatch := []
  rhsBatch := []
  wf := dot_S128x128_S128x2048_S128x2048_1_0_0_1_n_n_wf
def dot_S128x2048_S2048x128_S128x128_1_0_0_1_n_n : DotDims S128x2048 S2048x128 S128x128 where
  lhsContracting := [1]
  rhsContracting := [0]
  lhsNonContracting := [0]
  rhsNonContracting := [1]
  lhsBatch := []
  rhsBatch := []
  wf := dot_S128x2048_S2048x128_S128x128_1_0_0_1_n_n_wf

class Facts : Prop extends Facts₀ where

variable [Facts]
-- ==== Proof.Names.lean ====
import proofs.«900998_g7700000000000999_dist_mlpseq_tp1d_rep_rep_b128_d128_h256_v7x_i8_f32_1_alg».proof.Proof.Gen.KernelIdeal
import proofs.«900998_g7700000000000999_dist_mlpseq_tp1d_rep_rep_b128_d128_h256_v7x_i8_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

def peer (c : Dev nD) (m : Fin 8) : Dev nD := ⟨(c.val ^^^ m.val) % 8, Nat.mod_lt _ (by decide)⟩

theorem peer_peer (c : Dev nD) (m : Fin 8) : peer (peer c m) m = c := by revert c m; decide
theorem peer_zero (c : Dev nD) : peer c 0 = c := by revert c; decide
theorem peer_inj (c : Dev nD) (m m' : Fin 8) (h : peer c m = peer c m') : m = m' := by revert c m m'; decide

abbrev commM : Memref sig .tc .vmem S3x4x8x32x128 .bf16 := Memref.whole cc0_scratch0

theorem slot_inb (l : Fin 3) (ch : Fin 4) (m : Fin 8) :
    ∀ a, (![l.val, ch.val, m.val, 0, 0] : Fin 5 → Nat) a + S1x1x1x32x128.size a ≤ S3x4x8x32x128.size a := by
  revert l ch m; decide

abbrev slotR (l : Fin 3) (ch : Fin 4) (m : Fin 8) : Rect S3x4x8x32x128 :=
  Rect.unit (s := S3x4x8x32x128) ![l.val, ch.val, m.val, 0, 0] S1x1x1x32x128.size (slot_inb l ch m)

abbrev slotM (l : Fin 3) (ch : Fin 4) (m : Fin 8) : Memref sig .tc .vmem S32x128 .bf16 :=
  (commM.slice (slotR l ch m) (fun _ => rfl)).squeeze S32x128 squeezes_S1x1x1x32x128_S32x128

def slotPts (c : Dev nD) (l : Fin 3) (ch : Fin 4) (m : Fin 8) (q : PosShare TreeShare)
    (f : Buf (Elt F) ((slotM l ch m).view.loc (c : Thread nD τ))) : sProp 𝕄 :=
  (slotM l ch m).view.loc (c : Thread nD τ) ↦[(slotM l ch m).view.set]{q} f

theorem sem_inb (l : Fin 3) (ch : Fin 4) (m : Fin 8) :
    ∀ a, (![l.val, ch.val, m.val] : Fin 3 → Nat) a + S1x1x1.size a ≤ S3x4x8.size a := by
  revert l ch m; decide

abbrev barS : Sem sig := (SemArray.scalar (sig.barrier 0 rfl) : Sems sig S_).sem

abbrev sendSem (l : Fin 3) (ch : Fin 4) (m : Fin 8) : DmaSem sig :=
  ((cc0_scratch1.slice (Rect.unit (s := S3x4x8) ![l.val, ch.val, m.val] S1x1x1.size (sem_inb l ch m))).squeeze S_ squeezes_S1x1x1_S_).sem
abbrev recvSem (l : Fin 3) (ch : Fin 4) (m : Fin 8) : DmaSem sig :=
  ((cc0_scratch2.slice (Rect.unit (s := S3x4x8) ![l.val, ch.val, m.val] S1x1x1.size (sem_inb l ch m))).squeeze S_ squeezes_S1x1x1_S_).sem

theorem sendSem_val (l : Fin 3) (ch : Fin 4) (m : Fin 8) : (sendSem l ch m).val = 8 + (l.val * 32 + ch.val * 8 + m.val) := by
  revert l ch m; decide
theorem recvSem_val (l : Fin 3) (ch : Fin 4) (m : Fin 8) : (recvSem l ch m).val = 104 + (l.val * 32 + ch.val * 8 + m.val) := by
  revert l ch m; decide

abbrev barCell (c : Dev nD) : GSem nD τ sig := ((c : Thread nD τ), .reg barS)
abbrev sendCell (c : Dev nD) (l : Fin 3) (ch : Fin 4) (m : Fin 8) : GSem nD τ sig := ((c : Thread nD τ), .dma (sendSem l ch m))
abbrev recvCell (c : Dev nD) (l : Fin 3) (ch : Fin 4) (m : Fin 8) : GSem nD τ sig := ((c : Thread nD τ), .dma (recvSem l ch m))

abbrev N : ℕ := (slotM 0 0 1).view.dmaCredit
theorem N_pos : 0 < N := View.dmaCredit_pos _ (by decide)

def shareOf : Fin 8 → PosShare TreeShare
  | ⟨0, _⟩ => fullShare
  | ⟨1, _⟩ => fullShare.left
  | ⟨2, _⟩ => fullShare.right.left
  | ⟨3, _⟩ => fullShare.right.right.left
  | ⟨4, _⟩ => fullShare.right.right.right.left
  | ⟨5, _⟩ => fullShare.right.right.right.right.left
  | ⟨6, _⟩ => fullShare.right.right.right.right.right.left
  | ⟨7, _⟩ => fullShare.right.right.right.right.right.right

theorem bigSep_bool (Φ : Bool → sProp 𝕄) : bigSep Finset.univ Φ = iprop(Φ true ∗ Φ false) :=
  bigSep_univ_eq_bigSepL [true, false] (by decide) (by decide) Φ

theorem bigSep_option {α : Type} [Fintype α] (Φ : Option α → sProp 𝕄) :
    bigSep Finset.univ Φ = iprop(Φ none ∗ bigSep Finset.univ fun a => Φ (some a)) := by
  classical
  have h : (Finset.univ : Finset (Option α)) = insert none (Finset.univ.map Function.Embedding.some) := by
    ext o; cases o <;> simp
  rw [h, bigSep_insert (by simp), bigSep_map]; rfl

abbrev LA (l : Fin 3) (ch : Fin 4) (k : Fin 8) : Prop := commM.view.LoadsAt (slotR l ch k).toLoadRect
abbrev LV (F : FTy → Type) (l : Fin 3) (ch : Fin 4) (k : Fin 8) : Type := (slotR l ch k).toLoadRect.shape.Idx → Elt F .bf16
abbrev WX (l : Fin 3) (ch : Fin 4) (k : Fin 8) : Prop := (slotM l ch k : Memref sig .tc .vmem S32x128 .bf16).view.WordExact
abbrev NoSc (n : Dev nD) (l : Fin 3) (ch : Fin 4) (k : Fin 8) : Prop :=
  (slotM l ch k : Memref sig (Dev.tc n : Thread nD τ).2.kind .vmem S32x128 .bf16).view.ref.isScScratch = false
abbrev SemOk (n : Dev nD) (l : Fin 3) (ch : Fin 4) (k : Fin 8) (h : NoSc n l ch k) : Prop :=
  DmaTarget.Typed .vmem (.dma (recvSem l ch k))
    (.remote (Dev.tc n : Thread nD τ) (slotM l ch k : Memref sig .tc .vmem S32x128 .bf16) (.dma (sendSem l ch k)) h
      : DmaTarget nD τ sig (.tc : Proc τ) .vmem S32x128 .bf16)

/-- A function of a device's index that flips the bits of `k` in it names peer `k`: decided over the eight devices. -/
theorem dev_eq {f : Dev nD → ℕ} (h : ∀ d, f d < nD) (k : Fin 8) (c : Dev nD)
    (e : ∀ d : Dev nD, f d = (peer d k).val := by decide +kernel) : (⟨f c, h c⟩ : Dev nD) = peer c k :=
  Fin.ext (e c)

end Cert.KernelIdeal.Hand

end
-- ==== Proof.Vals.lean ====
import proofs.«900998_g7700000000000999_dist_mlpseq_tp1d_rep_rep_b128_d128_h256_v7x_i8_f32_1_alg».proof.Proof.Names
import proofs.«900998_g7700000000000999_dist_mlpseq_tp1d_rep_rep_b128_d128_h256_v7x_i8_f32_1_alg».proof.Proof.Gen.KernelIdeal.Frame
import Idealize.ShloMosaic.Lib.ValueIdx

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

def mlp' (a : Vec F S32x128 .f32) (wi : Vec F S128x256 .f32) (wo : Vec F S256x128 .f32) : FVec F S32x128 .f32 :=
  matmul dot_S32x256_S256x128_S32x128_1_0_0_1_n_n none
    (maximumf
      (matmul dot_S32x128_S128x256_S32x256_1_0_0_1_n_n none a
        (shapeCast S128x256 wi shapeCasts_S128x256_S128x256) (constant S32x256 .f32 0x00000000#32))
      (broadcast S32x256 (Scalar.ofBits .f32 0x00000000#32)))
    (shapeCast S256x128 wo shapeCasts_S256x128_S256x128) (constant S32x128 .f32 0x00000000#32)

def mlp (a : Vec F S32x128 .f32) (wi : Vec F S128x256 .f32) (wo : Vec F S256x128 .f32) : FVec F S32x128 .f32 :=
  mlp' (shapeCast S32x128 a shapeCasts_S32x128_S32x128) wi wo

theorem mlp_eq_mlp' (a : Vec F S32x128 .f32) (wi : Vec F S128x256 .f32) (wo : Vec F S256x128 .f32) :
    mlp a wi wo = mlp' (shapeCast S32x128 a shapeCasts_S32x128_S32x128) wi wo := rfl

def lay : ℕ → Vec F S32x128 .f32 → Vec F S128x256 .f32 → Vec F S256x128 .f32 → FVec F S32x128 .f32
  | 0 => mlp
  | _ + 1 => mlp'

def pack (p : FVec F S32x128 .f32) : FVec F S1x1x1x32x128 .bf16 :=
  shapeCast S1x1x1x32x128 (truncf .bf16 p bitsLt_bf16_f32) shapeCasts_S32x128_S1x1x1x32x128

def unpackAdd (a : FVec F S32x128 .f32) (s : Vec F S1x1x1x32x128 .bf16) : FVec F S32x128 .f32 :=
  addf a (extf .f32 (shapeCast S32x128 s shapeCasts_S1x1x1x32x128_S32x128) bitsLt_bf16_f32)

section
variable (m : (ℓ : Loc nD τ sig) → Buf (Elt F) ℓ)

theorem chunk_inb (ch : Fin 4) : ∀ a, (![32 * ch.val, 0] : Fin 2 → Nat) a + S32x128.size a ≤ S128x128.size a := by
  revert ch; decide

abbrev chunkR (ch : Fin 4) : Rect S128x128 := Rect.unit (s := S128x128) ![32 * ch.val, 0] S32x128.size (chunk_inb ch)

def xin (c : Dev nD) (ch : Fin 4) : Vec F S32x128 .f32 :=
  (Memref.whole cc0_stg0_0).view.readAt (Elt F) (chunkR ch).toLoadRect (iblk m c 0 t0_0)

def wiN (c : Dev nD) : ℕ → Vec F S128x256 .f32
  | 0 => iblk m c 1 t0_0
  | 1 => iblk m c 3 t0_0
  | _ => iblk m c 5 t0_0
def woN (c : Dev nD) : ℕ → Vec F S256x128 .f32
  | 0 => iblk m c 2 t0_0
  | 1 => iblk m c 4 t0_0
  | _ => iblk m c 6 t0_0

def waitOrder : List (Fin 8) := [1, 3, 4, 2, 5, 7, 6]

def act : ℕ → Dev nD → Fin 4 → FVec F S32x128 .f32
  | 0, c, ch => xin m c ch
  | l + 1, c, ch =>
    waitOrder.foldl (fun a k => unpackAdd a (pack (lay l (act l (peer c k) ch) (wiN m (peer c k) l) (woN m (peer c k) l))))
      (lay l (act l c ch) (wiN m c l) (woN m c l))

def part (l : ℕ) (c : Dev nD) (ch : Fin 4) : FVec F S32x128 .f32 := lay l (act m l c ch) (wiN m c l) (woN m c l)

theorem act_succ (l : ℕ) (c : Dev nD) (ch : Fin 4) :
    act m (l + 1) c ch = waitOrder.foldl (fun a k => unpackAdd a (pack (part m l (peer c k) ch))) (part m l c ch) := rfl

def outStg (c : Dev nD) : Vec F S128x128 .f32 := fun i =>
  act m 3 c ⟨(i 0).val / 32, by have := ValueIdx.idx2_lt0 (n0 := 128) (n1 := 128) i; omega⟩
    (ValueIdx.ix2 (n0 := 32) (n1 := 128) ⟨(i 0).val % 32, Nat.mod_lt _ (by decide)⟩ ⟨(i 1).val, ValueIdx.idx2_lt1 (n0 := 128) (n1 := 128) i⟩)

end

end Cert.KernelIdeal.Hand

end
-- ==== Proof.Sched.lean ====
import proofs.«900998_g7700000000000999_dist_mlpseq_tp1d_rep_rep_b128_d128_h256_v7x_i8_f32_1_alg».proof.Proof.Names
import proofs.«900998_g7700000000000999_dist_mlpseq_tp1d_rep_rep_b128_d128_h256_v7x_i8_f32_1_alg».proof.Proof.Vals

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

def tr (p : FVec F S32x128 .f32) : FVec F S32x128 .bf16 := truncf .bf16 p bitsLt_bf16_f32

instance : Nonempty ((cc0_scratch0 : Ref sig .tc).ty.Contents (Elt F)) := ⟨fun _ => Classical.choice inferInstance⟩

def slotBuf (l : Fin 3) (ch : Fin 4) (k : Fin 8) (v : Vec F S32x128 .bf16) : (cc0_scratch0 : Ref sig .tc).ty.Contents (Elt F) :=
  (slotM l ch k).view.write (Elt F) (Classical.choice inferInstance) v Finset.univ

def barPay (c : Dev nD) (k : Fin 8) : sProp 𝕄 :=
  bigSep (Finset.univ : Finset (Fin 3 × Fin 4)) fun lc => iprop(∃ f, slotPts (peer c k) lc.1 lc.2 k fullShare f)

def sendPay (c : Dev nD) (l : Fin 3) (ch : Fin 4) (k : Fin 8) : sProp 𝕄 :=
  slotPts c l ch 0 (shareOf k) (slotBuf l ch 0 (tr (part m l.val c ch)))

def recvPay (c : Dev nD) (l : Fin 3) (ch : Fin 4) (k : Fin 8) : sProp 𝕄 :=
  slotPts c l ch k fullShare (slotBuf l ch k (tr (part m l.val (peer c k) ch)))

def slotL (n : ℕ) : Fin 3 := ⟨n / 32 % 3, Nat.mod_lt _ (by decide)⟩
def slotC (n : ℕ) : Fin 4 := ⟨n / 8 % 4, Nat.mod_lt _ (by decide)⟩
def slotK (n : ℕ) : Fin 8 := ⟨n % 8, Nat.mod_lt _ (by decide)⟩

def Rd : Rounds.Schedule (GSem nD τ sig) (Fin 8) 𝕄 where
  duties g r :=
    if r = 0 ∧ g.1.2 = .tc then
      match g.2 with
      | .reg _ => Finset.univ.erase 0
      | .dma s => if 8 ≤ s.val ∧ s.val % 8 ≠ 0 then {0} else ∅
    else ∅
  unitless _ := False
  amount g _ _ := match g.2 with | .reg _ => 1 | .dma _ => N
  payload g _ d :=
    match g.2 with
    | .reg _ => barPay g.1.1 d
    | .dma s => if s.val < 104 then sendPay m g.1.1 (slotL (s.val - 8)) (slotC (s.val - 8)) (slotK (s.val - 8))
        else recvPay m g.1.1 (slotL (s.val - 104)) (slotC (s.val - 104)) (slotK (s.val - 104))
  amount_pos g _ _ _ := by
    cases g.2 with
    | reg _ => exact Nat.one_pos
    | dma _ => exact N_pos

instance Rd_payload_storable (g : GSem nD τ sig) (r : ℕ) (d : Fin 8) :
    BI.Storable (upEmb : UEmb _ 𝕄) ((Rd (F := F) m).payload g r d) := by
  show BI.Storable upEmb (match g.2 with
    | .reg _ => barPay g.1.1 d
    | .dma s => if s.val < 104 then sendPay m g.1.1 (slotL (s.val - 8)) (slotC (s.val - 8)) (slotK (s.val - 8))
        else recvPay m g.1.1 (slotL (s.val - 104)) (slotC (s.val - 104)) (slotK (s.val - 104)))
  unfold barPay sendPay recvPay slotPts
  cases g.2 with
  | reg _ => dsimp only; infer_instance
  | dma s => dsimp only; split <;> infer_instance

def L (g : GSem nD τ sig) : Finset Unit := if g.1.2 = .tc then {()} else ∅

def lv (g : GSem nD τ sig) (_ : Unit) : ℕ :=
  match g.2 with
  | .reg _ => 1
  | .dma s => if 104 ≤ s.val then 2 + 4 * ((s.val - 104) / 32) + (s.val - 104) / 8 % 4 else 0

end Cert.KernelIdeal.Hand

end
-- ==== Proof.Proto.lean ====
import proofs.«900998_g7700000000000999_dist_mlpseq_tp1d_rep_rep_b128_d128_h256_v7x_i8_f32_1_alg».proof.Proof.Sched

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem slotL_eq (l : Fin 3) (ch : Fin 4) (k : Fin 8) : slotL (l.val * 32 + ch.val * 8 + k.val) = l := by revert l ch k; decide
theorem slotC_eq (l : Fin 3) (ch : Fin 4) (k : Fin 8) : slotC (l.val * 32 + ch.val * 8 + k.val) = ch := by revert l ch k; decide
theorem slotK_eq (l : Fin 3) (ch : Fin 4) (k : Fin 8) : slotK (l.val * 32 + ch.val * 8 + k.val) = k := by revert l ch k; decide

section Tables
variable (c : Dev nD) (l : Fin 3) (ch : Fin 4) (k : Fin 8)

theorem duties_bar : (Rd (F := F) m).duties (barCell c) 0 = Finset.univ.erase 0 := by
  dsimp only [Rd]; exact if_pos ⟨rfl, rfl⟩
theorem duties_send (hk : k ≠ 0) : (Rd (F := F) m).duties (sendCell c l ch k) 0 = {0} := by
  dsimp only [Rd]; rw [if_pos ⟨rfl, rfl⟩]
  refine if_pos ⟨?_, ?_⟩
  · rw [sendSem_val]; omega
  · rw [sendSem_val]; intro h; apply hk; apply Fin.ext; have := k.isLt; show k.val = 0; omega
theorem duties_recv (hk : k ≠ 0) : (Rd (F := F) m).duties (recvCell c l ch k) 0 = {0} := by
  dsimp only [Rd]; rw [if_pos ⟨rfl, rfl⟩]
  refine if_pos ⟨?_, ?_⟩
  · rw [recvSem_val]; omega
  · rw [recvSem_val]; intro h; apply hk; apply Fin.ext; have := k.isLt; show k.val = 0; omega
theorem duties_later (g : GSem nD τ sig) : ∀ r, 1 ≤ r → (Rd (F := F) m).duties g r = ∅ :=
  fun r hr => by dsimp only [Rd]; rw [if_neg fun h => by omega]

theorem amount_bar (d : Fin 8) : (Rd (F := F) m).amount (barCell c) 0 d = 1 := rfl
theorem amount_send (d : Fin 8) : (Rd (F := F) m).amount (sendCell c l ch k) 0 d = N := rfl
theorem amount_recv (d : Fin 8) : (Rd (F := F) m).amount (recvCell c l ch k) 0 d = N := rfl

theorem expect_bar : (Rd (F := F) m).expect (barCell c) 0 = 7 := by
  unfold Schedule.expect Schedule.amountOf
  rw [duties_bar, Finset.sum_congr rfl fun d _ => amount_bar m c d, Finset.sum_const, smul_eq_mul, Nat.mul_one]
  decide
theorem expect_send (hk : k ≠ 0) : (Rd (F := F) m).expect (sendCell c l ch k) 0 = N := by
  unfold Schedule.expect Schedule.amountOf; rw [duties_send m c l ch k hk, Finset.sum_singleton, amount_send]
theorem expect_recv (hk : k ≠ 0) : (Rd (F := F) m).expect (recvCell c l ch k) 0 = N := by
  unfold Schedule.expect Schedule.amountOf; rw [duties_recv m c l ch k hk, Finset.sum_singleton, amount_recv]

theorem payload_bar (d : Fin 8) : (Rd (F := F) m).payload (barCell c) 0 d = barPay c d := rfl
theorem payload_send (d : Fin 8) : (Rd (F := F) m).payload (sendCell c l ch k) 0 d = sendPay m c l ch k := by
  dsimp only [Rd]
  rw [if_pos (by rw [sendSem_val]; have := l.isLt; have := ch.isLt; have := k.isLt; omega)]
  have e : (sendSem l ch k).val - 8 = l.val * 32 + ch.val * 8 + k.val := by rw [sendSem_val]; omega
  rw [e, slotL_eq, slotC_eq, slotK_eq]
theorem payload_recv (d : Fin 8) : (Rd (F := F) m).payload (recvCell c l ch k) 0 d = recvPay m c l ch k := by
  dsimp only [Rd]
  rw [if_neg (by rw [recvSem_val]; omega)]
  have e : (recvSem l ch k).val - 104 = l.val * 32 + ch.val * 8 + k.val := by rw [recvSem_val]; omega
  rw [e, slotL_eq, slotC_eq, slotK_eq]

theorem rest_send (hk : k ≠ 0) :
    bigSep ((Rd (F := F) m).duties (sendCell c l ch k) 0 \ ∅) (fun d => (Rd (F := F) m).payload (sendCell c l ch k) 0 d) = sendPay m c l ch k := by
  rw [Finset.sdiff_empty, duties_send m c l ch k hk, bigSep_singleton, payload_send]
theorem rest_recv (hk : k ≠ 0) :
    bigSep ((Rd (F := F) m).duties (recvCell c l ch k) 0 \ ∅) (fun d => (Rd (F := F) m).payload (recvCell c l ch k) 0 d) = recvPay m c l ch k := by
  rw [Finset.sdiff_empty, duties_recv m c l ch k hk, bigSep_singleton, payload_recv]

theorem rest_bar :
    bigSep ((Rd (F := F) m).duties (barCell c) 0 \ ∅) (fun d => (Rd (F := F) m).payload (barCell c) 0 d)
      = bigSep ((Finset.univ : Finset (Fin 8)).erase 0) (fun d => barPay (F := F) c d) := by
  rw [Finset.sdiff_empty, duties_bar]; rfl

end Tables

end Cert.KernelIdeal.Hand

end
-- ==== Proof.Ghost.lean ====
import proofs.«900998_g7700000000000999_dist_mlpseq_tp1d_rep_rep_b128_d128_h256_v7x_i8_f32_1_alg».proof.Proof.Proto

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev SlotCell : Type := Bool × Fin 3 × Fin 4 × Fin 8

abbrev CK : Type := Option SlotCell

def dcell (c : Dev nD) (i : SlotCell) : GSem nD τ sig :=
  if i.1 then recvCell c i.2.1 i.2.2.1 i.2.2.2 else sendCell c i.2.1 i.2.2.1 i.2.2.2
def gcell (c : Dev nD) : CK → GSem nD τ sig
  | none => barCell c
  | some i => dcell c i

def xfer : Finset (Fin 3 × Fin 4 × Fin 8) := Finset.univ.filter fun i => i.2.2 ≠ 0

def sendOrder : List (Fin 8) := [6, 2, 5, 7, 1, 3, 4]
def lcOrder : List (Fin 3 × Fin 4) := [(0, 0), (0, 1), (0, 2), (0, 3), (1, 0), (1, 1), (1, 2), (1, 3), (2, 0), (2, 1), (2, 2), (2, 3)]

def owedOf : List (CellTallies nD τ sig Unit) → CellTallies nD τ sig Unit
  | [] => 0
  | t :: L => owedOf L + t

def payBar (c : Dev nD) : List (CellTallies nD τ sig Unit) :=
  ([1, 2, 3, 4, 5, 6, 7] : List (Fin 8)).map fun k => tallyAt (barCell (peer c k)) () 1
def paySend (c : Dev nD) (lc : Fin 3 × Fin 4) : List (CellTallies nD τ sig Unit) :=
  sendOrder.map fun k => tallyAt (recvCell (peer c k) lc.1 lc.2 k) () N
def payAll (c : Dev nD) : List (CellTallies nD τ sig Unit) := payBar c ++ lcOrder.flatMap (paySend c)

def O₀ (c : Dev nD) : CellTallies nD τ sig Unit := owedOf (payAll c)

def records (K : Dev nD × CK → ℕ) : sProp 𝕄 :=
  iprop((bigSep Finset.univ fun x : Dev nD × CK => cellInv ER (Rd m) (K x) (gcell x.1 x.2))
    ∗ bigSep Finset.univ fun x : Dev nD × CK => reached ER (gcell x.1 x.2) 0)

instance records_persistent (K : Dev nD × CK → ℕ) : BI.Persistent (records m K) := by unfold records; infer_instance

def payToks (c : Dev nD) : sProp 𝕄 :=
  iprop((bigSep ((Finset.univ : Finset (Fin 8)).erase 0) fun k => dutyTok ER (barCell (peer c k)) 0 k)
    ∗ bigSep xfer fun i => iprop(dutyTok ER (recvCell (peer c i.2.2) i.1 i.2.1 i.2.2) 0 0 ∗ dutyTok ER (sendCell c i.1 i.2.1 i.2.2) 0 0))

def linear (c : Dev nD) : sProp 𝕄 := bigSep Finset.univ fun x : CK => atPos ER (gcell c x) 0 ∅ 0

def ghost (K : Dev nD × CK → ℕ) (c : Dev nD) : sProp 𝕄 := iprop(records m K ∗ linear c ∗ payToks c)

def creds (c : Dev nD) : sProp 𝕄 :=
  iprop(cred (tallyAt (barCell c) () 7) ∗ bigSep xfer fun i => cred (tallyAt (recvCell c i.1 i.2.1 i.2.2) () N))

def start (c : Dev nD) : sProp 𝕄 := iprop((∃ K, ghost m K c) ∗ creds c ∗ levAts L lv)

def commAny (c : Dev nD) : sProp 𝕄 :=
  iprop(∃ f : Buf (Elt F) ((c : Thread nD τ).loc cc0_scratch0), ((c : Thread nD τ).loc cc0_scratch0) ↦{fullShare} f)

def Φ₀ (c : Dev nD) : sProp 𝕄 := iprop(start m c ∗ commAny c)

def Φ₁ (c : Dev nD) : sProp 𝕄 := iprop(commAny c ∗ bigSep Finset.univ fun i : SlotCell => semVal (dcell c i) 0)

abbrev 𝒱₀ : Variants := Variants.none

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => iblk m c 0 t0_0
    | ⟨1, _⟩ => iblk m c 1 t0_0
    | ⟨2, _⟩ => iblk m c 2 t0_0
    | ⟨3, _⟩ => iblk m c 3 t0_0
    | ⟨4, _⟩ => iblk m c 4 t0_0
    | ⟨5, _⟩ => iblk m c 5 t0_0
    | ⟨6, _⟩ => iblk m c 6 t0_0
    | ⟨7, _⟩ => outStg m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.KernelIdeal.Hand

end
-- ==== Proof.Launch.lean ====
import proofs.«900998_g7700000000000999_dist_mlpseq_tp1d_rep_rep_b128_d128_h256_v7x_i8_f32_1_alg».proof.Proof.Ghost
import proofs.«900998_g7700000000000999_dist_mlpseq_tp1d_rep_rep_b128_d128_h256_v7x_i8_f32_1_alg».proof.Proof.Gen.KernelIdeal.Skeleton
import proofs.«900998_g7700000000000999_dist_mlpseq_tp1d_rep_rep_b128_d128_h256_v7x_i8_f32_1_alg».proof.Proof.Gen.KernelIdeal.Points

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def osem (i : SlotCell) : SemLoc sig :=
  if i.1 then .dma (recvSem i.2.1 i.2.2.1 i.2.2.2) else .dma (sendSem i.2.1 i.2.2.1 i.2.2.2)

theorem dcell_eq (c : Dev nD) (i : SlotCell) : dcell c i = ((c : Thread nD τ), osem i) := by
  unfold dcell osem; split <;> rfl

def osemNo (i : SlotCell) : ℕ := (if i.1 then 104 else 8) + (i.2.1.val * 32 + i.2.2.1.val * 8 + i.2.2.2.val)

theorem osem_eq (i : SlotCell) : ∃ s : DmaSem sig, osem i = .dma s ∧ s.val = osemNo i := by
  obtain ⟨b, l, ch, k⟩ := i
  cases b
  · exact ⟨sendSem l ch k, if_neg Bool.false_ne_true, (sendSem_val l ch k).trans (by unfold osemNo; rw [if_neg Bool.false_ne_true])⟩
  · exact ⟨recvSem l ch k, if_pos rfl, (recvSem_val l ch k).trans (by unfold osemNo; rw [if_pos rfl])⟩

theorem osemNo_injective : Function.Injective osemNo := by
  rintro ⟨b, l, ch, k⟩ ⟨b', l', ch', k'⟩ h
  unfold osemNo at h
  have := l.isLt; have := ch.isLt; have := k.isLt; have := l'.isLt; have := ch'.isLt; have := k'.isLt
  cases b <;> cases b' <;> simp only [Bool.false_eq_true, if_false, if_true] at h <;>
    first
    | (have h1 : l = l' := Fin.ext (by omega)
       have h2 : ch = ch' := Fin.ext (by omega)
       have h3 : k = k' := Fin.ext (by omega)
       subst h1 h2 h3; rfl)
    | (exfalso; omega)

theorem osem_injective : Function.Injective osem := fun i j h => by
  obtain ⟨s, hs, hv⟩ := osem_eq i
  obtain ⟨s', hs', hv'⟩ := osem_eq j
  rw [hs, hs'] at h
  have : s = s' := by cases h; rfl
  exact osemNo_injective (hv.symm.trans ((congrArg Fin.val this).trans hv'))

theorem osemNo_range (i : SlotCell) : 8 ≤ osemNo i ∧ osemNo i < 200 := by
  obtain ⟨b, l, ch, k⟩ := i
  unfold osemNo
  have := l.isLt; have := ch.isLt; have := k.isLt
  cases b <;> simp only [Bool.false_eq_true, if_false, if_true] <;> omega

theorem stage_sem_lt : ∀ (w : Fin 8) (s : Fin (spec0 w).nbuf), ((spec0 w).sem s).val < 8 := by decide

theorem scoped_from_8 : ∀ s : DmaSem sig, 8 ≤ s.val → (SemLoc.dma s : SemLoc sig).isScoped .tc = true := by decide

theorem ownSemFacts : Pipeline.OwnSemFacts cfg0.spec osem where
  isScoped i := by
    obtain ⟨s, hs, hv⟩ := osem_eq i
    rw [hs]; exact scoped_from_8 s (by rw [hv]; exact (osemNo_range i).1)
  inj := osem_injective
  disj i w s h := by
    obtain ⟨s', hs, hv⟩ := osem_eq i
    rw [hs] at h
    have e : s' = (cfg0.spec w).sem s := by cases h; rfl
    have h1 : ((cfg0.spec w).sem s).val < 8 := stage_sem_lt w s
    have h2 := (osemNo_range i).1
    rw [← hv, e] at h2
    exact absurd h1 (by omega)

theorem share_eq (c : Dev nD) (w : Fin cfg0.W) : (dats m ρ 0 c).share w = fullShare := by unfold Dat.share; split <;> rfl

def csem : CK → SemLoc sig
  | none => .reg barS
  | some i => osem i

theorem gcell_eq (c : Dev nD) (x : CK) : gcell c x = ((c : Thread nD τ), csem x) := by
  cases x with
  | none => rfl
  | some i => exact dcell_eq c i

theorem csem_injective : Function.Injective csem := by
  intro x y h
  cases x with
  | none =>
    cases y with
    | none => rfl
    | some j => obtain ⟨s, hs, -⟩ := osem_eq j; rw [show csem (some j) = osem j from rfl, hs] at h; cases h
  | some i =>
    cases y with
    | none => obtain ⟨s, hs, -⟩ := osem_eq i; rw [show csem (some i) = osem i from rfl, hs] at h; cases h
    | some j => exact congrArg some (osem_injective h)

theorem gcell_injective : Function.Injective (fun x : Dev nD × CK => gcell x.1 x.2) := by
  rintro ⟨c, x⟩ ⟨c', x'⟩ h
  simp only [gcell_eq] at h
  have h1 : c = c' := congrArg (fun g : GSem nD τ sig => g.1.1) h
  have h2 : csem x = csem x' := congrArg Prod.snd h
  rw [h1, csem_injective h2]

def protoCells : Finset (GSem nD τ sig) := Finset.univ.map ⟨fun x : Dev nD × CK => gcell x.1 x.2, gcell_injective⟩

abbrev XK : Type := {i : Fin 3 × Fin 4 × Fin 8 // i.2.2 ≠ 0}

abbrev TK : Type := {k : Fin 8 // k ≠ 0} ⊕ (Bool × XK)
def tokCell : TK → CK
  | .inl _ => none
  | .inr p => some (p.1, p.2.1)
def tokDuty : TK → Fin 8
  | .inl k => k.1
  | .inr _ => 0
def tokOf (x : Dev nD × TK) : GSem nD τ sig × ℕ × Fin 8 := (gcell x.1 (tokCell x.2), 0, tokDuty x.2)

theorem tokOf_injective : Function.Injective (tokOf : Dev nD × TK → GSem nD τ sig × ℕ × Fin 8) := by
  rintro ⟨c, t⟩ ⟨c', t'⟩ h
  have hg : (fun x : Dev nD × CK => gcell x.1 x.2) (c, tokCell t) = (fun x : Dev nD × CK => gcell x.1 x.2) (c', tokCell t') :=
    congrArg (fun y : GSem nD τ sig × ℕ × Fin 8 => y.1) h
  have hd : tokDuty t = tokDuty t' := congrArg (fun y : GSem nD τ sig × ℕ × Fin 8 => y.2.2) h
  have hx := gcell_injective hg
  have h1 : c = c' := congrArg Prod.fst hx
  have h2 : tokCell t = tokCell t' := congrArg Prod.snd hx
  subst h1
  have : t = t' := by
    rcases t with k | ⟨b, i⟩ <;> rcases t' with k' | ⟨b', i'⟩
    · exact congrArg Sum.inl (Subtype.ext hd)
    · cases h2
    · cases h2
    · have h3 : (b, i.1) = (b', i'.1) := Option.some.inj h2
      have h4 : b = b' := congrArg Prod.fst h3
      have h5 : i = i' := Subtype.ext (congrArg Prod.snd h3)
      rw [h4, h5]
  rw [this]

def protoToks : Finset (GSem nD τ sig × ℕ × Fin 8) := Finset.univ.map ⟨tokOf, tokOf_injective⟩

def u₀ : UU :=
  (initOf (Pipeline.cells cfgs cellOf_inj) (Pipeline.launchToks cfgs cellOf_inj), initOf protoCells protoToks)

def toks (c : Dev nD) : sProp 𝕄 :=
  iprop((bigSep ((Finset.univ : Finset (Fin 8)).erase 0) fun k => dutyTok ER (barCell c) 0 k)
    ∗ bigSep xfer fun i => iprop(dutyTok ER (recvCell c i.1 i.2.1 i.2.2) 0 0 ∗ dutyTok ER (sendCell c i.1 i.2.1 i.2.2) 0 0))

def G (c : Dev nD) : sProp 𝕄 :=
  iprop((bigSep Finset.univ fun x : CK => roundState ER (Rd m) (gcell c x) 0)
    ∗ (bigSep Finset.univ fun x : CK => iprop(atPos ER (gcell c x) 0 ∅ 0 ∗ reached ER (gcell c x) 0)) ∗ toks c)

def G' (c : Dev nD) : sProp 𝕄 := iprop(∃ K, ghost m K c)

theorem toks_eq (c : Dev nD) :
    (bigSep Finset.univ fun t : TK => (dutyTok ER (gcell c (tokCell t)) 0 (tokDuty t) : sProp 𝕄)) = toks c := by
  have e1 := bigSep_subtype_ne (0 : Fin 8) (fun k => (dutyTok ER (barCell c) 0 k : sProp 𝕄))
  have e2 := bigSep_subtype (fun i : Fin 3 × Fin 4 × Fin 8 => i.2.2 ≠ 0) (fun i => (dutyTok ER (recvCell c i.1 i.2.1 i.2.2) 0 0 : sProp 𝕄))
  have e3 := bigSep_subtype (fun i : Fin 3 × Fin 4 × Fin 8 => i.2.2 ≠ 0) (fun i => (dutyTok ER (sendCell c i.1 i.2.1 i.2.2) 0 0 : sProp 𝕄))
  unfold toks xfer
  rw [bigSep_univ_sum, bigSep_univ_prod, bigSep_bool, bigSep_sep', ← e1, ← e2, ← e3]
  rfl

def payer (c : Dev nD) : TK → Dev nD
  | .inl k => peer c k.1
  | .inr p => bif p.1 then peer c p.2.1.2.2 else c

theorem payer_payer (c : Dev nD) (t : TK) : payer (payer c t) t = c := by
  rcases t with k | ⟨b, i⟩
  · exact peer_peer c k.1
  · cases b
    · rfl
    · exact peer_peer c i.1.2.2

def payerEquiv (t : TK) : Dev nD ≃ Dev nD := ⟨fun c => payer c t, fun c => payer c t, fun c => payer_payer c t, fun c => payer_payer c t⟩

theorem payToks_eq (c : Dev nD) :
    (bigSep Finset.univ fun t : TK => (dutyTok ER (gcell (payer c t) (tokCell t)) 0 (tokDuty t) : sProp 𝕄)) = payToks c := by
  have e1 := bigSep_subtype_ne (0 : Fin 8) (fun k => (dutyTok ER (barCell (peer c k)) 0 k : sProp 𝕄))
  have e2 := bigSep_subtype (fun i : Fin 3 × Fin 4 × Fin 8 => i.2.2 ≠ 0) (fun i => (dutyTok ER (recvCell (peer c i.2.2) i.1 i.2.1 i.2.2) 0 0 : sProp 𝕄))
  have e3 := bigSep_subtype (fun i : Fin 3 × Fin 4 × Fin 8 => i.2.2 ≠ 0) (fun i => (dutyTok ER (sendCell c i.1 i.2.1 i.2.2) 0 0 : sProp 𝕄))
  unfold payToks xfer
  rw [bigSep_univ_sum, bigSep_univ_prod, bigSep_bool, bigSep_sep', ← e1, ← e2, ← e3]
  rfl

theorem toks_around : (bigSep Finset.univ fun c : Dev nD => (toks c : sProp 𝕄)) = bigSep Finset.univ fun c : Dev nD => payToks c := by
  rw [← bigSep_congr (s := Finset.univ) fun (c : Dev nD) _ => toks_eq (F := F) c,
    ← bigSep_congr (s := Finset.univ) fun (c : Dev nD) _ => payToks_eq (F := F) c,
    bigSep_univ_comm, bigSep_univ_comm (fun (c : Dev nD) (t : TK) => (dutyTok ER (gcell (payer c t) (tokCell t)) 0 (tokDuty t) : sProp 𝕄))]
  exact bigSep_congr fun t _ => bigSep_univ_equiv (payerEquiv t) (fun c : Dev nD => (dutyTok ER (gcell c (tokCell t)) 0 (tokDuty t) : sProp 𝕄))

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun x : CK => Φ (gcell c x) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => toks_eq c
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

theorem ownSems0_eq (c : Dev nD) : (Pipeline.ownSems0 (Ix := Unit) (Name := ℕ) (U := UU) (Lvl := ℕ) (Val := Elt F) (τ := τ) osem c : sProp 𝕄)
    = bigSep Finset.univ fun i : SlotCell => semVal (dcell c i) 0 := by
  unfold Pipeline.ownSems0
  exact bigSep_congr fun i _ => by rw [dcell_eq]

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CK => semVal (gcell c x) 0 : sProp 𝕄) := by
  rw [ownSems0_eq, unscopedSems0_eq, bigSep_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CK => iprop(∃ κ : ℕ, cellInv ER (Rd m) κ (gcell c x)))
          ∗ (bigSep Finset.univ fun x : CK => iprop(atPos ER (gcell c x) 0 ∅ 0 ∗ reached ER (gcell c x) 0)) ∗ toks c) := by
  unfold G
  iintro ⟨Hos, Hus, Hst, Hat, Htok⟩
  ihave Hv := (sems0_eq (F := F) c) $$ [Hos Hus]
  · iframe
  imod (show iprop((bigSep Finset.univ fun x : CK => semVal (gcell c x) 0) ∗ bigSep Finset.univ fun x : CK => roundState ER (Rd m) (gcell c x) 0)
      ⊢ (|={Set.univ}=> bigSep Finset.univ fun x : CK => iprop(∃ κ : ℕ, cellInv ER (Rd m) κ (gcell c x)) : sProp 𝕄) from by
        rw [← bigSep_sep']
        exact (bigSep_mono fun x _ => (Rounds.body_intro ER (Rd m) (gcell c x)).trans inv_alloc).trans (bigSep_fupd _ _)) $$ [Hv Hst] with Hinv
  · iframe
  imodintro
  iframe

theorem ghost_intro (K : Dev nD × CK → ℕ) (c : Dev nD) : iprop(records m K ∗ linear c ∗ payToks c) ⊢ G' m c := by
  unfold G' ghost
  iintro H; iexists K; iexact H

theorem regroup :
    (bigSep Finset.univ fun c : Dev nD => iprop((bigSep Finset.univ fun x : CK => iprop(∃ κ : ℕ, cellInv ER (Rd m) κ (gcell c x)))
          ∗ (bigSep Finset.univ fun x : CK => iprop(atPos ER (gcell c x) 0 ∅ 0 ∗ reached ER (gcell c x) 0)) ∗ toks c) : sProp 𝕄)
      ⊢ bigSep Finset.univ (G' m) := by
  rw [bigSep_sep', bigSep_sep', ← bigSep_univ_prod (fun x : Dev nD × CK => iprop(∃ κ : ℕ, cellInv ER (Rd m) κ (gcell x.1 x.2))),
    bigSep_congr (s := Finset.univ) (fun (c : Dev nD) _ => bigSep_sep' Finset.univ (fun x : CK => (atPos ER (gcell c x) 0 ∅ 0 : sProp 𝕄)) (fun x => reached ER (gcell c x) 0)),
    bigSep_sep', ← bigSep_univ_prod (fun x : Dev nD × CK => (reached ER (gcell x.1 x.2) 0 : sProp 𝕄)), toks_around]
  iintro ⟨HI, ⟨Hat, #HR⟩, Htok⟩
  ihave HK := (BI.bigSep_exists_pi Finset.univ (fun (x : Dev nD × CK) (κ : ℕ) => (cellInv ER (Rd m) κ (gcell x.1 x.2) : sProp 𝕄))) $$ HI
  icases HK with ⟨%K, #HI⟩
  iapply (bigSep_with_persistent (R := records m K) fun c _ => ghost_intro m K c)
  isplitr
  · unfold records; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem owedOf_append (A B : List (CellTallies nD τ sig Unit)) : owedOf (A ++ B) = owedOf A + owedOf B := by
  induction A with
  | nil => exact (zero_add _).symm
  | cons t A ih => show owedOf (A ++ B) + t = owedOf A + t + owedOf B; rw [ih, add_right_comm]

theorem owedOf_map {α : Type} [DecidableEq α] (l : List α) (hl : l.Nodup) (f : α → CellTallies nD τ sig Unit) :
    owedOf (l.map f) = ∑ x ∈ l.toFinset, f x := by
  induction l with
  | nil => rfl
  | cons a l ih =>
    obtain ⟨ha, hl⟩ := List.nodup_cons.mp hl
    show owedOf (l.map f) + f a = _
    rw [ih hl, List.toFinset_cons, Finset.sum_insert (fun h => ha (List.mem_toFinset.mp h)), add_comm]

theorem owedOf_flatMap {α : Type} [DecidableEq α] (l : List α) (hl : l.Nodup) (f : α → List (CellTallies nD τ sig Unit)) :
    owedOf (l.flatMap f) = ∑ x ∈ l.toFinset, owedOf (f x) := by
  induction l with
  | nil => rfl
  | cons a l ih =>
    obtain ⟨ha, hl⟩ := List.nodup_cons.mp hl
    rw [List.flatMap_cons, owedOf_append, ih hl, List.toFinset_cons, Finset.sum_insert (fun h => ha (List.mem_toFinset.mp h))]

theorem O₀_eq (d : Dev nD) :
    O₀ d = (∑ k ∈ (Finset.univ : Finset (Fin 8)).erase 0, tallyAt (barCell (peer d k)) () 1)
      + ∑ lc : Fin 3 × Fin 4, ∑ k ∈ (Finset.univ : Finset (Fin 8)).erase 0, tallyAt (recvCell (peer d k) lc.1 lc.2 k) () N := by
  unfold O₀ payAll payBar
  rw [owedOf_append, owedOf_map _ (by decide), owedOf_flatMap _ (by decide),
    show ([1, 2, 3, 4, 5, 6, 7] : List (Fin 8)).toFinset = (Finset.univ : Finset (Fin 8)).erase 0 from by decide,
    show lcOrder.toFinset = (Finset.univ : Finset (Fin 3 × Fin 4)) from by decide]
  refine congrArg₂ (· + ·) rfl (Finset.sum_congr rfl fun lc _ => ?_)
  unfold paySend
  rw [owedOf_map _ (by decide), show sendOrder.toFinset = (Finset.univ : Finset (Fin 8)).erase 0 from by decide]

def T₀ (c : Dev nD) : CellTallies nD τ sig Unit :=
  tallyAt (barCell c) () 7 + ∑ i ∈ xfer, tallyAt (recvCell c i.1 i.2.1 i.2.2) () N

def peerEquiv (k : Fin 8) : Dev nD ≃ Dev nD := ⟨fun c => peer c k, fun c => peer c k, fun c => peer_peer c k, fun c => peer_peer c k⟩

theorem nsmul_tallyAt (g : GSem nD τ sig) (n a : ℕ) : n • (tallyAt g () a : CellTallies nD τ sig Unit) = tallyAt g () (n * a) := by
  induction n with
  | zero => rw [zero_nsmul, Nat.zero_mul, tallyAt_zero]
  | succ n ih => rw [succ_nsmul, ih, tallyAt_add, Nat.succ_mul]

theorem sum_xfer {M : Type} [AddCommMonoid M] (h : Fin 3 × Fin 4 × Fin 8 → M) :
    ∑ i ∈ xfer, h i = ∑ lc : Fin 3 × Fin 4, ∑ k ∈ (Finset.univ : Finset (Fin 8)).erase 0, h (lc.1, lc.2, k) := by
  unfold xfer
  rw [Finset.sum_filter]
  simp only [Fintype.sum_prod_type]
  refine Finset.sum_congr rfl fun l _ => Finset.sum_congr rfl fun ch _ => ?_
  rw [← Finset.filter_ne' Finset.univ (0 : Fin 8), Finset.sum_filter]

theorem sum_O₀ : (∑ d : Dev nD, O₀ d) = ∑ d : Dev nD, T₀ d := by
  simp only [O₀_eq, T₀, Finset.sum_add_distrib]
  refine congrArg₂ (· + ·) ?_ ?_
  · calc (∑ d : Dev nD, ∑ k ∈ (Finset.univ : Finset (Fin 8)).erase 0, (tallyAt (barCell (peer d k)) () 1 : CellTallies nD τ sig Unit))
        = ∑ k ∈ (Finset.univ : Finset (Fin 8)).erase 0, ∑ d : Dev nD, tallyAt (barCell (peer d k)) () 1 := Finset.sum_comm
      _ = ∑ k ∈ (Finset.univ : Finset (Fin 8)).erase 0, ∑ d : Dev nD, tallyAt (barCell d) () 1 :=
          Finset.sum_congr rfl fun k _ => (peerEquiv k).sum_comp fun d : Dev nD => (tallyAt (barCell d) () 1 : CellTallies nD τ sig Unit)
      _ = ∑ d : Dev nD, ∑ k ∈ (Finset.univ : Finset (Fin 8)).erase 0, tallyAt (barCell d) () 1 := Finset.sum_comm
      _ = ∑ d : Dev nD, tallyAt (barCell d) () 7 := Finset.sum_congr rfl fun d _ => by
          rw [Finset.sum_const, nsmul_tallyAt, show ((Finset.univ : Finset (Fin 8)).erase 0).card * 1 = 7 from by decide]
  · let f : Dev nD → Fin 3 × Fin 4 → Fin 8 → CellTallies nD τ sig Unit := fun d lc k => tallyAt (recvCell d lc.1 lc.2 k) () N
    have swap : ∀ g : Dev nD → Fin 3 × Fin 4 → Fin 8 → CellTallies nD τ sig Unit,
        (∑ d : Dev nD, ∑ lc : Fin 3 × Fin 4, ∑ k ∈ (Finset.univ : Finset (Fin 8)).erase 0, g d lc k)
          = ∑ lc : Fin 3 × Fin 4, ∑ k ∈ (Finset.univ : Finset (Fin 8)).erase 0, ∑ d : Dev nD, g d lc k :=
      fun g => Finset.sum_comm.trans (Finset.sum_congr rfl fun lc _ => Finset.sum_comm)
    calc (∑ d : Dev nD, ∑ lc : Fin 3 × Fin 4, ∑ k ∈ (Finset.univ : Finset (Fin 8)).erase 0, f (peer d k) lc k)
        = ∑ lc : Fin 3 × Fin 4, ∑ k ∈ (Finset.univ : Finset (Fin 8)).erase 0, ∑ d : Dev nD, f (peer d k) lc k := swap fun d lc k => f (peer d k) lc k
      _ = ∑ lc : Fin 3 × Fin 4, ∑ k ∈ (Finset.univ : Finset (Fin 8)).erase 0, ∑ d : Dev nD, f d lc k :=
          Finset.sum_congr rfl fun lc _ => Finset.sum_congr rfl fun k _ => (peerEquiv k).sum_comp fun d : Dev nD => f d lc k
      _ = ∑ d : Dev nD, ∑ lc : Fin 3 × Fin 4, ∑ k ∈ (Finset.univ : Finset (Fin 8)).erase 0, f d lc k := (swap f).symm
      _ = ∑ d : Dev nD, ∑ i ∈ xfer, tallyAt (recvCell d i.1 i.2.1 i.2.2) () N :=
          Finset.sum_congr rfl fun d _ => (sum_xfer fun i => (tallyAt (recvCell d i.1 i.2.1 i.2.2) () N : CellTallies nD τ sig Unit)).symm

theorem T₀_core (d : Dev nD) (g : GSem nD τ sig) (h : T₀ d g ≠ 0) : g.1 = (d : Thread nD τ) := by
  by_contra hg
  apply h
  unfold T₀
  rw [Pi.add_apply, Finset.sum_apply, tallyAt_ne_cell (fun e => hg (congrArg Prod.fst e)), zero_add]
  exact Finset.sum_eq_zero fun i _ => tallyAt_ne_cell (fun e => hg (congrArg Prod.fst e)) () N

theorem creds_intro (c : Dev nD) : (Pipeline.launchCred O₀ c : sProp 𝕄) ⊢ creds c := by
  rw [Pipeline.launchCred_of_sum O₀ T₀ sum_O₀ T₀_core c]
  unfold T₀ creds
  exact (cred_add _ _).1.trans (sep_mono_right (Entails.of_eq (Pipeline.cred_finsetSum xfer _)))

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) : g.1.2 = .tc ∧ 0 < lv g u := by
  rw [O₀_eq] at h
  rcases Pipeline.add_pos_cases h with h | h
  · obtain ⟨k, -, hk⟩ := Pipeline.sum_pos_exists h
    obtain ⟨rfl, -⟩ := Pipeline.tallyAt_pos hk
    exact ⟨rfl, Nat.one_pos⟩
  · obtain ⟨lc, -, h⟩ := Pipeline.sum_pos_exists h
    obtain ⟨k, -, hk⟩ := Pipeline.sum_pos_exists h
    obtain ⟨rfl, -⟩ := Pipeline.tallyAt_pos hk
    refine ⟨rfl, ?_⟩
    show 0 < (if 104 ≤ (recvSem lc.1 lc.2 k).val then 2 + 4 * (((recvSem lc.1 lc.2 k).val - 104) / 32) + ((recvSem lc.1 lc.2 k).val - 104) / 8 % 4 else 0)
    rw [if_pos (by rw [recvSem_val]; omega)]; omega

theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by unfold L; rw [if_pos (O₀_pos hg).1]; exact Finset.mem_singleton_self _)
      (fun p hp => by
        rw [Finset.mem_singleton.mp hp]
        show (if 104 ≤ q.val then 2 + 4 * ((q.val - 104) / 32) + (q.val - 104) / 8 % 4 else 0) ≤ 0
        rw [if_neg (by omega)])
      (fun g u hg => (O₀_pos hg).2)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sem_lt w s) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    iframe
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ commAny
  iintro ⟨Hs, -, Hr⟩
  iframe

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ commAny
  iintro ⟨Hr, Hz⟩
  isplitr; · iempintro
  iframe

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.KernelIdeal.Hand

end
-- ==== Proof.Slots.lean ====
import proofs.«900998_g7700000000000999_dist_mlpseq_tp1d_rep_rep_b128_d128_h256_v7x_i8_f32_1_alg».proof.Proof.Sched
import Idealize.ShloMosaic.Lib.Pipeline.Value

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem read_slotBuf (l : Fin 3) (ch : Fin 4) (k : Fin 8) (v : Vec F S32x128 .bf16) :
    (slotM l ch k).view.read (Elt F) (slotBuf l ch k v) = v := by
  unfold slotBuf
  exact View.read_write_univ _ _

theorem slotPts_write (c : Dev nD) (l : Fin 3) (ch : Fin 4) (k : Fin 8) (q : PosShare TreeShare)
    (fd : Buf (Elt F) ((slotM l ch k).view.loc (c : Thread nD τ))) (v : Vec F S32x128 .bf16) :
    (slotPts c l ch k q ((slotM l ch k).view.write (Elt F) fd v Finset.univ) : sProp 𝕄) = slotPts c l ch k q (slotBuf l ch k v) := by
  unfold slotPts slotBuf
  refine pointsTo_congr fun i hi => ?_
  obtain ⟨y, rfl⟩ := View.exists_emb_of_mem_set _ hi
  rw [View.write_emb_of_mem _ _ (Finset.mem_univ y), View.write_emb_of_mem _ _ (Finset.mem_univ y)]

theorem slotPts_store (c : Dev nD) (l : Fin 3) (ch : Fin 4) (k : Fin 8) (q : PosShare TreeShare)
    (f : Buf (Elt F) ((slotM l ch k).view.loc (c : Thread nD τ))) (w : Vec F S1x1x1x32x128 .bf16) :
    (slotPts c l ch k q ((commM.access (slotR l ch k)).write (Elt F) f w Finset.univ) : sProp 𝕄)
      = slotPts c l ch k q (slotBuf l ch k (shapeCast S32x128 w shapeCasts_S1x1x1x32x128_S32x128)) := by
  unfold slotPts slotBuf
  refine pointsTo_congr fun i hi => ?_
  obtain ⟨y, rfl⟩ := View.exists_emb_of_mem_set _ hi
  rw [View.write_emb_of_mem _ _ (Finset.mem_univ y)]
  exact View.write_emb_of_mem (v := commM.access (slotR l ch k)) f w
    (Finset.mem_univ (Shape.reshapeEquiv squeezes_S1x1x1x32x128_S32x128.numel_eq y))

theorem readAt_slotBuf (l : Fin 3) (ch : Fin 4) (k : Fin 8) (v : Vec F S32x128 .bf16) :
    commM.view.readAt (Elt F) (slotR l ch k).toLoadRect (slotBuf l ch k v)
      = shapeCast S1x1x1x32x128 v shapeCasts_S32x128_S1x1x1x32x128 := by
  have h : v = shapeCast S32x128 (commM.view.readAt (Elt F) (slotR l ch k).toLoadRect (slotBuf l ch k v))
      shapeCasts_S1x1x1x32x128_S32x128 := (read_slotBuf l ch k v).symm
  calc commM.view.readAt (Elt F) (slotR l ch k).toLoadRect (slotBuf l ch k v)
      = shapeCast S1x1x1x32x128 (shapeCast S32x128 (commM.view.readAt (Elt F) (slotR l ch k).toLoadRect (slotBuf l ch k v))
          shapeCasts_S1x1x1x32x128_S32x128) shapeCasts_S32x128_S1x1x1x32x128 := (shapeCast_shapeCast _ _ _).symm
    _ = shapeCast S1x1x1x32x128 v shapeCasts_S32x128_S1x1x1x32x128 :=
        congrArg (fun u => shapeCast S1x1x1x32x128 u shapeCasts_S32x128_S1x1x1x32x128) h.symm

theorem slot_access_set (l : Fin 3) (ch : Fin 4) (k : Fin 8) : (commM.access (slotR l ch k)).set = (slotM l ch k).view.set :=
  (View.set_reshape _ _).symm
theorem slot_setOn (l : Fin 3) (ch : Fin 4) (k : Fin 8) :
    commM.view.setOn (slotR l ch k).toLoadRect.set ⊆ (slotM l ch k).view.set := by
  rw [← slot_access_set, View.set_slice]
  exact Finset.Subset.refl _

end Cert.KernelIdeal.Hand

end
-- ==== Proof.BodyDefs.lean ====
import proofs.«900998_g7700000000000999_dist_mlpseq_tp1d_rep_rep_b128_d128_h256_v7x_i8_f32_1_alg».proof.Proof.Ghost
import proofs.«900998_g7700000000000999_dist_mlpseq_tp1d_rep_rep_b128_d128_h256_v7x_i8_f32_1_alg».proof.Proof.Slots
import proofs.«900998_g7700000000000999_dist_mlpseq_tp1d_rep_rep_b128_d128_h256_v7x_i8_f32_1_alg».proof.Proof.Gen.KernelIdeal.Frame
import proofs.«900998_g7700000000000999_dist_mlpseq_tp1d_rep_rep_b128_d128_h256_v7x_i8_f32_1_alg».proof.Proof.Gen.KernelIdeal.Skeleton
import proofs.«900998_g7700000000000999_dist_mlpseq_tp1d_rep_rep_b128_d128_h256_v7x_i8_f32_1_alg».proof.Proof.Gen.KernelIdeal.Points

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyProg : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) cc0_scratch1 cc0_scratch2

def bodyPre (K : Dev nD × CK → ℕ) (c : Dev nD) : sProp 𝕄 :=
  iprop(ghost m K c ∗ creds c ∗ levAts L lv ∗ commAny c ∗ (dats m ρ 0 c).owesAt () t0_0.castSucc
    ∗ stg c cc0_stg0_0 (iblk m c 0 t0_0) ∗ stg c cc0_stg1_0 (iblk m c 1 t0_0) ∗ stg c cc0_stg2_0 (iblk m c 2 t0_0) ∗ stg c cc0_stg3_0 (iblk m c 3 t0_0) ∗ stg c cc0_stg4_0 (iblk m c 4 t0_0) ∗ stg c cc0_stg5_0 (iblk m c 5 t0_0) ∗ stg c cc0_stg6_0 (iblk m c 6 t0_0)
    ∗ (∃ X, stg c cc0_stg7_0 X))

def bodyPost (c : Dev nD) : sProp 𝕄 :=
  iprop(Φ₁ c ∗ (dats m ρ 0 c).owesAt () t0_0.succ
    ∗ stg c cc0_stg0_0 (iblk m c 0 t0_0) ∗ stg c cc0_stg1_0 (iblk m c 1 t0_0) ∗ stg c cc0_stg2_0 (iblk m c 2 t0_0) ∗ stg c cc0_stg3_0 (iblk m c 3 t0_0) ∗ stg c cc0_stg4_0 (iblk m c 4 t0_0) ∗ stg c cc0_stg5_0 (iblk m c 5 t0_0) ∗ stg c cc0_stg6_0 (iblk m c 6 t0_0)
    ∗ stg c cc0_stg7_0 (outStg m c))

omit [FloatOps F] in

theorem owns_whole_stg (c : Dev nD) (b : Ref sig .tc) (X : b.ty.Contents (Elt F)) :
    (owns (Ix := Unit) (Name := ℕ) (U := UU) (Lvl := ℕ) (c : Thread nD τ) (Memref.whole b) fullShare X : sProp 𝕄)
      = stg c b X := by
  unfold owns; simp only [Memref.view_whole, View.read_whole, View.set_whole]

theorem dats_before_0 (c : Dev nD) (d) : (dats (F := F) m ρ 0 c).before 0 t0_0 d = iblk m c 0 t0_0 := by
  unfold Dat.before; rw [if_pos (fetch0_0 t0_0)]; rfl

theorem dats_before_1 (c : Dev nD) (d) : (dats (F := F) m ρ 0 c).before 1 t0_0 d = iblk m c 1 t0_0 := by
  unfold Dat.before; rw [if_pos (fetch0_1 t0_0)]; rfl

theorem dats_before_2 (c : Dev nD) (d) : (dats (F := F) m ρ 0 c).before 2 t0_0 d = iblk m c 2 t0_0 := by
  unfold Dat.before; rw [if_pos (fetch0_2 t0_0)]; rfl

theorem dats_before_3 (c : Dev nD) (d) : (dats (F := F) m ρ 0 c).before 3 t0_0 d = iblk m c 3 t0_0 := by
  unfold Dat.before; rw [if_pos (fetch0_3 t0_0)]; rfl

theorem dats_before_4 (c : Dev nD) (d) : (dats (F := F) m ρ 0 c).before 4 t0_0 d = iblk m c 4 t0_0 := by
  unfold Dat.before; rw [if_pos (fetch0_4 t0_0)]; rfl

theorem dats_before_5 (c : Dev nD) (d) : (dats (F := F) m ρ 0 c).before 5 t0_0 d = iblk m c 5 t0_0 := by
  unfold Dat.before; rw [if_pos (fetch0_5 t0_0)]; rfl

theorem dats_before_6 (c : Dev nD) (d) : (dats (F := F) m ρ 0 c).before 6 t0_0 d = iblk m c 6 t0_0 := by
  unfold Dat.before; rw [if_pos (fetch0_6 t0_0)]; rfl

theorem bodyProg_eq : defs₀ (F := F) Proc.tc 0 (t0_0, cfg0.slots t0_0) = bodyProg (F := F) := by
  unfold bodyProg; rfl

theorem bodyPost_eq (c : Dev nD) : iprop((dats (F := F) m ρ 0 c).Φ t0_0.succ ∗
          (dats m ρ 0 c).owesAt () t0_0.succ ∗
            stg c cc0_stg0_0 ((dats m ρ 0 c).after 0 t0_0) ∗
              stg c cc0_stg1_0 ((dats m ρ 0 c).after 1 t0_0) ∗
                stg c cc0_stg2_0 ((dats m ρ 0 c).after 2 t0_0) ∗
                  stg c cc0_stg3_0 ((dats m ρ 0 c).after 3 t0_0) ∗
                    stg c cc0_stg4_0 ((dats m ρ 0 c).after 4 t0_0) ∗
                      stg c cc0_stg5_0 ((dats m ρ 0 c).after 5 t0_0) ∗
                        stg c cc0_stg6_0 ((dats m ρ 0 c).after 6 t0_0) ∗ stg c cc0_stg7_0 ((dats m ρ 0 c).after 7 t0_0))
    = bodyPost m ρ c := by
  unfold bodyPost; rfl

theorem body_obligation
    (hsound : ∀ (K : Dev nD × CK → ℕ) (c : Dev nD) (Kt : PUnit → sProp 𝕄),
      iprop(bodyPre m ρ K c ∗ (bodyPost m ρ c -∗ Kt ⟨⟩))
        ⊢ wp frame (wpE (defs₀ (F := F)) 𝒱₀ c none) Set.univ (bodyProg (F := F)) Kt)
    (c : Dev nD) : BodyObligation (dats (F := F) m ρ 0 c) (defs₀ (F := F)) 𝒱₀ () Set.univ := by
  intro t
  rw [fin_N0 t]
  rw [bigSep_W0, bigSep_W0]
  simp only [owns_whole_stg, dats_before_0, dats_before_1, dats_before_2, dats_before_3, dats_before_4, dats_before_5, dats_before_6]
  have hΦ : (dats (F := F) m ρ 0 c).Φ t0_0.castSucc = Φ₀ m c := rfl
  rw [bodyProg_eq, bodyPost_eq m ρ c, hΦ]
  unfold Φ₀ start
  iintro ⟨⟨⟨⟨%K, Hg⟩, Hcr, Hlv⟩, Hcomm⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (hsound K c fun _ => bodyPost m ρ c)
  unfold bodyPre
  isplitr []
  · isplitl [Hg]; · iexact Hg
    isplitl [Hcr]; · iexact Hcr
    isplitl [Hlv]; · iexact Hlv
    isplitl [Hcomm]; · iexact Hcomm
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · iintro H; iexact H

end Cert.KernelIdeal.Hand

end
-- ==== Proof.Levels.lean ====
import proofs.«900998_g7700000000000999_dist_mlpseq_tp1d_rep_rep_b128_d128_h256_v7x_i8_f32_1_alg».proof.Proof.Ghost

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem owedOf_pos {Lst : List (CellTallies nD τ sig Unit)} {g : GSem nD τ sig} {u : Unit} (h : 0 < owedOf Lst g u) :
    ∃ t ∈ Lst, 0 < t g u := by
  induction Lst with
  | nil => exact absurd h (Nat.lt_irrefl 0)
  | cons t Lst ih =>
    rw [show owedOf (t :: Lst) = owedOf Lst + t from rfl, Pi.add_apply, Finsupp.add_apply] at h
    rcases (by omega : 0 < owedOf Lst g u ∨ 0 < t g u) with h' | h'
    · obtain ⟨t', ht', hp⟩ := ih h'
      exact ⟨t', List.mem_cons_of_mem _ ht', hp⟩
    · exact ⟨t, List.mem_cons_self, h'⟩

theorem lcOrder_drop_pos (n : ℕ) : ∀ lc ∈ lcOrder.drop n, n ≤ 4 * lc.1.val + lc.2.val := by
  by_cases hn : n < 12
  · interval_cases n <;> decide
  · intro lc h
    rw [List.drop_eq_nil_of_le (show lcOrder.length ≤ n from Nat.le_of_not_lt hn)] at h
    exact absurd h List.not_mem_nil

theorem owed_drop_pos (c : Dev nD) (n : ℕ) {g : GSem nD τ sig} {u : Unit}
    (h : 0 < owedOf ((lcOrder.drop n).flatMap (paySend c)) g u) :
    ∃ (l' : Fin 3) (ch' : Fin 4) (k' : Fin 8), g = recvCell (peer c k') l' ch' k' ∧ n ≤ 4 * l'.val + ch'.val := by
  obtain ⟨t, ht, hpos⟩ := owedOf_pos h
  obtain ⟨lc, hlc, ht⟩ := List.mem_flatMap.mp ht
  obtain ⟨k', -, rfl⟩ := List.mem_map.mp ht
  rw [tallyAt_apply] at hpos
  by_cases hg : g = recvCell (peer c k') lc.1 lc.2 k' ∧ u = ()
  · exact ⟨lc.1, lc.2, k', hg.1, lcOrder_drop_pos n lc hlc⟩
  · rw [if_neg hg] at hpos; exact absurd hpos (Nat.lt_irrefl 0)

theorem lv_recv (c : Dev nD) (l : Fin 3) (ch : Fin 4) (k : Fin 8) : lv (recvCell c l ch k) () = 2 + 4 * l.val + ch.val := by
  show (if 104 ≤ (recvSem l ch k).val
      then 2 + 4 * (((recvSem l ch k).val - 104) / 32) + ((recvSem l ch k).val - 104) / 8 % 4 else 0) = _
  rw [recvSem_val]
  have := l.isLt; have := ch.isLt; have := k.isLt
  rw [if_pos (by omega)]
  omega

omit [FloatOps F] in

theorem mayWait_cut (c : Dev nD) (sm : SemLoc sig) (n : ℕ) (O : CellTallies nD τ sig Unit)
    (hsm : lv ((c : Thread nD τ), sm) () ≤ n) (hO : ∀ g u, 0 < O g u → g.1.2 = .tc ∧ n < lv g u) :
    (levAts L lv : sProp 𝕄) ⊢ MayWait (c : Thread nD τ) sm () O :=
  MayOwe.of_cut (L := L) (lev := lv) n
    (fun p hp => by rw [Finset.mem_singleton.mp hp]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

omit [FloatOps F] in

theorem mayWait_bar (c : Dev nD) :
    (levAts L lv : sProp 𝕄) ⊢ MayWait (c : Thread nD τ) (.reg barS) () (owedOf (lcOrder.flatMap (paySend c))) :=
  mayWait_cut c (.reg barS) 1 _ (Nat.le_refl 1) fun g u hg => by
    obtain ⟨l', ch', k', rfl, -⟩ := owed_drop_pos c 0 (by rw [List.drop_zero]; exact hg)
    refine ⟨rfl, ?_⟩
    rw [lv_recv]; omega

omit [FloatOps F] in

theorem mayWait_recv (c : Dev nD) (l : Fin 3) (ch : Fin 4) (k : Fin 8) (n : ℕ) (hn : 4 * (l.val + 1) + ch.val ≤ n) :
    (levAts L lv : sProp 𝕄)
      ⊢ MayWait (c : Thread nD τ) (.dma (recvSem l ch k)) () (owedOf ((lcOrder.drop n).flatMap (paySend c))) :=
  mayWait_cut c (.dma (recvSem l ch k)) (2 + 4 * l.val + ch.val) _ (Nat.le_of_eq (lv_recv c l ch k)) fun g u hg => by
    obtain ⟨l', ch', k', rfl, hle⟩ := owed_drop_pos c n hg
    refine ⟨rfl, ?_⟩
    rw [lv_recv]; omega

end Cert.KernelIdeal.Hand

end
-- ==== Proof.RulesBar.lean ====
import proofs.«900998_g7700000000000999_dist_mlpseq_tp1d_rep_rep_b128_d128_h256_v7x_i8_f32_1_alg».proof.Proof.Ghost
import proofs.«900998_g7700000000000999_dist_mlpseq_tp1d_rep_rep_b128_d128_h256_v7x_i8_f32_1_alg».proof.Proof.Slots
import proofs.«900998_g7700000000000999_dist_mlpseq_tp1d_rep_rep_b128_d128_h256_v7x_i8_f32_1_alg».proof.Proof.Levels

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

theorem inv_at (x : Dev nD × CK) : (records m K : sProp 𝕄) ⊢ cellInv ER (Rd m) (K x) (gcell x.1 x.2) := by
  unfold records
  exact (BI.sep_and.trans BI.and_elimL).trans (bigSep_elim (Finset.mem_univ x))
theorem reached_at (x : Dev nD × CK) : (records m K : sProp 𝕄) ⊢ reached ER (gcell x.1 x.2) 0 := by
  unfold records
  exact (BI.sep_and.trans BI.and_elimR).trans (bigSep_elim (Finset.mem_univ x))

theorem wp_sig (c : Dev nD) (k : Fin 8) (hk : k ≠ 0) (n : Dev nD) (hn : n = peer c k)
    (Lst : List (CellTallies nD τ sig Unit)) (W : Waits sig Unit)
    {α : Type} {Q : α → sProp 𝕄} {kont : PUnit → Prog (TpuEff nD τ sig (Elt F) Λ₀ .tc) α} :
    iprop(records m K ∗ owes (c : Thread nD τ) (owedOf (tallyAt (barCell (peer c k)) () 1 :: Lst)) W
        ∗ dutyTok ER (barCell (peer c k)) 0 k
        ∗ bigSep (Finset.univ : Finset (Fin 3 × Fin 4)) fun lc => iprop(∃ f, slotPts (F := F) c lc.1 lc.2 k fullShare f))
      ⊢ iprop((owes (c : Thread nD τ) (owedOf Lst) W -∗ WP c (kont ⟨⟩) Q)
          -∗ WP c
              (.op (.semSignal (Dev.tc n : Thread nD τ) barS (1#32 : BitVec 32).toNat) kont) Q) := by
  subst hn
  iintro ⟨#Hrec, HO, Htok, Hslots⟩
  iapply (Rounds.wp_signal 𝒱₀ ER (Rd m) (c : Thread nD τ) none (dst := (peer c k : Thread nD τ)) (sem := barS)
      (κ := K (peer c k, none)) (r := 0) (d := k)
      (by rw [duties_bar]; exact Finset.mem_erase.mpr ⟨hk, Finset.mem_univ _⟩)
      ((amount_bar m (peer c k) k).trans (by decide)) () (owedOf Lst) rfl) $$ [HO Htok Hslots]
  isplitr; · iapply (inv_at m K (peer c k, none)); iexact Hrec
  isplitl [HO]; · iexact HO
  isplitl [Htok]; · iexact Htok
  isplitl [Hslots]
  · rw [payload_bar]; unfold barPay; rw [peer_peer]; iexact Hslots
  · iapply (reached_at m K (peer c k, none)); iexact Hrec

theorem wp_barwait (c : Dev nD) (O : CellTallies nD τ sig Unit) (W : Waits sig Unit)
    {α : Type} {Q : α → sProp 𝕄} {kont : PUnit → Prog (TpuEff nD τ sig (Elt F) Λ₀ .tc) α} :
    iprop(records m K ∗ cred (tallyAt (barCell c) () 7) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0
              ∗ bigSep ((Finset.univ : Finset (Fin 8)).erase 0) (fun d => barPay (F := F) c d))
            -∗ WP c (kont ⟨⟩) Q)
          -∗ WP c
              (.op (.semWait barS (7#32 : BitVec 32).toNat) kont) Q) := by
  iintro ⟨#Hrec, Hc, HO, Hmw, Hat⟩ Hk
  iapply (Rounds.wp_wait_rest_token 𝒱₀ ER (Rd m) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hmw Hat]
  · isplitr; · iapply (inv_at m K (c, none)); iexact Hrec
    isplitl [Hc]; · iexact Hc
    isplitl [HO]; · iexact HO
    isplitl [Hmw]; · iexact Hmw
    iexact Hat
  iintro ⟨HO, Hat, -, Hpay⟩
  iapply Hk
  isplitl [HO]; · iexact HO
  isplitl [Hat]; · iexact Hat
  iapply (Entails.of_eq (rest_bar m c)); iexact Hpay

theorem duties_none_send (c : Dev nD) (l : Fin 3) (ch : Fin 4) (k : Fin 8) (hk : k = 0) :
    (Rd (F := F) m).duties (sendCell c l ch k) 0 = ∅ := by
  dsimp only [Rd]; rw [if_pos ⟨rfl, rfl⟩]
  refine if_neg fun h => h.2 ?_
  rw [sendSem_val]
  have h0 : k.val = 0 := by rw [hk]; rfl
  omega

theorem duties_none_recv (c : Dev nD) (l : Fin 3) (ch : Fin 4) (k : Fin 8) (hk : k = 0) :
    (Rd (F := F) m).duties (recvCell c l ch k) 0 = ∅ := by
  dsimp only [Rd]; rw [if_pos ⟨rfl, rfl⟩]
  refine if_neg fun h => h.2 ?_
  rw [recvSem_val]
  have h0 : k.val = 0 := by rw [hk]; rfl
  omega

theorem duties_dcell_done (c : Dev nD) (i : SlotCell) :
    ∀ r, (if i.2.2.2 = 0 then 0 else 1) ≤ r → (Rd (F := F) m).duties (dcell c i) r = ∅ := by
  intro r hr
  rcases Nat.eq_zero_or_pos r with rfl | hpos
  · have hk : i.2.2.2 = 0 := by
      by_contra h; rw [if_neg h] at hr; omega
    obtain ⟨b, l, ch, k⟩ := i
    cases b
    · exact duties_none_send m c l ch k hk
    · exact duties_none_recv m c l ch k hk
  · exact duties_later m _ r hpos

theorem close_all (c : Dev nD) :
    iprop(records m K ∗ bigSep Finset.univ fun i : SlotCell => atPos ER (dcell c i) (if i.2.2.2 = 0 then 0 else 1) ∅ 0)
      ⊢ (|={Set.univ}=> bigSep Finset.univ fun i : SlotCell => semVal (dcell c i) 0 : sProp 𝕄) := by
  refine (bigSep_with_persistent (R := records m K)
    (Ψ := fun i : SlotCell => iprop(|={Set.univ}=> semVal (dcell c i) 0)) fun i _ => ?_).trans (bigSep_fupd _ _)
  iintro ⟨#Hrec, Hat⟩
  iapply (Rounds.cell_close ER (Rd m) (Set.mem_univ (K (c, some i))) (fun h => h) (R := if i.2.2.2 = 0 then 0 else 1)
    (duties_dcell_done m c i))
  isplitr; · iapply (inv_at m K (c, some i)); iexact Hrec
  iexact Hat

end Cert.KernelIdeal.Hand

end
-- ==== Proof.RulesDma.lean ====
import proofs.«900998_g7700000000000999_dist_mlpseq_tp1d_rep_rep_b128_d128_h256_v7x_i8_f32_1_alg».proof.Proof.Ghost
import proofs.«900998_g7700000000000999_dist_mlpseq_tp1d_rep_rep_b128_d128_h256_v7x_i8_f32_1_alg».proof.Proof.Slots
import proofs.«900998_g7700000000000999_dist_mlpseq_tp1d_rep_rep_b128_d128_h256_v7x_i8_f32_1_alg».proof.Proof.Levels

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

theorem records_cell (x : Dev nD × CK) :
    records m K ⊢ iprop(cellInv ER (Rd m) (K x) (gcell x.1 x.2) ∗ reached ER (gcell x.1 x.2) 0) := by
  unfold records
  exact BI.sep_mono (BI.bigSep_elim (Finset.mem_univ x)) (BI.bigSep_elim (Finset.mem_univ x))

theorem records_send (c : Dev nD) (l : Fin 3) (ch : Fin 4) (k : Fin 8) :
    records m K ⊢ iprop(cellInv ER (Rd m) (K (c, some (false, l, ch, k))) (sendCell c l ch k) ∗ reached ER (sendCell c l ch k) 0) :=
  records_cell m K (c, some (false, l, ch, k))

theorem records_recv (c : Dev nD) (l : Fin 3) (ch : Fin 4) (k : Fin 8) :
    records m K ⊢ iprop(cellInv ER (Rd m) (K (c, some (true, l, ch, k))) (recvCell c l ch k) ∗ reached ER (recvCell c l ch k) 0) :=
  records_cell m K (c, some (true, l, ch, k))

theorem slot_credit (l : Fin 3) (ch : Fin 4) (k : Fin 8) : (slotM l ch k).view.dmaCredit = N := rfl

theorem wp_send_slot (c : Dev nD) (l : Fin 3) (ch : Fin 4) (k : Fin 8) (hk : k ≠ 0) (n : Dev nD) (hn : n = peer c k)
    (fn : Buf (Elt F) ((slotM l ch k).view.loc (peer c k : Thread nD τ)))
    (Lst : List (CellTallies nD τ sig Unit)) (W : Waits sig Unit)
    {hsc : NoSc n l ch k}
    {hsrc : WX l ch 0}
    {hdst : WX l ch k}
    {hsem : SemOk n l ch k hsc}
    {α : Type} {Q : α → sProp 𝕄} {kont : PUnit → Prog (TpuEff nD τ sig (Elt F) Λ₀ .tc) α} :
    iprop(records m K
        ∗ slotPts c l ch 0 (shareOf k) (slotBuf l ch 0 (tr (part m l.val c ch)))
        ∗ slotPts (peer c k) l ch k fullShare fn
        ∗ owes (c : Thread nD τ) (owedOf (tallyAt (recvCell (peer c k) l ch k) () N :: Lst)) W
        ∗ dutyTok ER (sendCell c l ch k) 0 0 ∗ dutyTok ER (recvCell (peer c k) l ch k) 0 0)
      ⊢ iprop(((cred (tallyAt (sendCell c l ch k) () N) ∗ owes (c : Thread nD τ) (owedOf Lst) W)
            -∗ WP c (kont ⟨⟩) Q)
          -∗ WP c
              (.op (.enqueueDma (slotM l ch 0) (.remote (Dev.tc n : Thread nD τ) (slotM l ch k) (.dma (sendSem l ch k)) hsc)
                (.dma (recvSem l ch k)) hsrc hdst hsem) kont) Q) := by
  subst hn
  have hpay₂ : ((slotM l ch k).view.loc (peer c k : Thread nD τ) ↦[(slotM l ch k).view.set]{fullShare}
        ((slotM l ch k).view.write (Elt F) fn ((slotM l ch 0).view.read (Elt F) (slotBuf l ch 0 (tr (part m l.val c ch)))) Finset.univ)
          : sProp 𝕄) ⊢ (Rd (F := F) m).payload (recvCell (peer c k) l ch k) 0 0 := by
    rw [payload_recv, read_slotBuf]
    unfold recvPay
    rw [peer_peer, ← slotPts_write (peer c k) l ch k fullShare fn]
    unfold slotPts
    exact BI.Entails.refl _
  have hpay₁ : ((slotM l ch 0).view.loc (c : Thread nD τ) ↦[(slotM l ch 0).view.set]{shareOf k}
        (slotBuf l ch 0 (tr (part m l.val c ch))) : sProp 𝕄) ⊢ (Rd (F := F) m).payload (sendCell c l ch k) 0 0 := by
    rw [payload_send]
    unfold sendPay slotPts
    exact BI.Entails.refl _
  iintro ⟨#Hrec, Hsrc, Hdst, Ho, Ht₁, Ht₂⟩
  ihave Hs := (records_send m K c l ch k) $$ Hrec
  icases Hs with ⟨Hi₁, Hr₁⟩
  ihave Hr := (records_recv m K (peer c k) l ch k) $$ Hrec
  icases Hr with ⟨Hi₂, Hr₂⟩
  unfold slotPts
  iapply (Rounds.wp_send_pointsTo 𝒱₀ ER (Rd (F := F) m) (c : Thread nD τ) none
    (c' := (peer c k : Thread nD τ)) (src := slotM l ch 0) (dst := slotM l ch k)
    (sS := .dma (sendSem l ch k)) (sem := .dma (recvSem l ch k))
    (q := shareOf k) (fs := slotBuf l ch 0 (tr (part m l.val c ch))) (fd := fn)
    (κ₁ := K (c, some (false, l, ch, k))) (κ₂ := K (peer c k, some (true, l, ch, k)))
    (r₁ := 0) (r₂ := 0) (d₁ := 0) (d₂ := 0)
    (by rw [duties_send m c l ch k hk]; exact Finset.mem_singleton_self _)
    (by rw [duties_recv m (peer c k) l ch k hk]; exact Finset.mem_singleton_self _)
    () () N (slot_credit l ch k) (amount_send m c l ch k 0) (amount_recv m (peer c k) l ch k 0)
    (owedOf Lst) rfl (W := W) hpay₁ hpay₂) $$ [Hsrc Hdst Ho Ht₁ Ht₂]
  isplitr; · iexact Hi₁
  isplitr; · iexact Hi₂
  isplitl [Hsrc]; · iexact Hsrc
  isplitl [Hdst]; · iexact Hdst
  isplitl [Ho]; · iexact Ho
  isplitl [Ht₁]; · iexact Ht₁
  isplitr; · iexact Hr₁
  isplitl [Ht₂]; · iexact Ht₂
  iexact Hr₂

theorem wp_recv_wait (c : Dev nD) (l : Fin 3) (ch : Fin 4) (k : Fin 8) (hk : k ≠ 0)
    (O : CellTallies nD τ sig Unit) (W : Waits sig Unit)
    {sp' : Space} {s' : Shape} {e' : EltTy} {src : Memref sig .tc sp' s' e'} {hs : src.view.WordExact}
    {hd : WX l ch k}
    {α : Type} {Q : α → sProp 𝕄} {kont : PUnit → Prog (TpuEff nD τ sig (Elt F) Λ₀ .tc) α} :
    iprop(records m K ∗ cred (tallyAt (recvCell c l ch k) () N) ∗ owes (c : Thread nD τ) O W
        ∗ MayWait (c : Thread nD τ) (.dma (recvSem l ch k)) () O ∗ atPos ER (recvCell c l ch k) 0 ∅ 0)
      ⊢ iprop(((owes (c : Thread nD τ) O (insert (SemLoc.dma (recvSem l ch k), ()) W) ∗ atPos ER (recvCell c l ch k) 1 ∅ 0
              ∗ recvPay m c l ch k)
            -∗ WP c (kont ⟨⟩) Q)
          -∗ WP c
              (.op (.waitDma2 (recvSem l ch k) src (slotM l ch k) hs hd) kont) Q) := by
  iintro ⟨#Hrec, Hc, Ho, Hmw, Hat⟩ Hk
  ihave Hr := (records_recv m K c l ch k) $$ Hrec
  icases Hr with ⟨Hi, -⟩
  iapply (Rounds.wp_wait_rest_token 𝒱₀ ER (Rd (F := F) m) (c : Thread nD τ) none (κ := K (c, some (true, l, ch, k)))
    (w := .waitDma2 (recvSem l ch k) src (slotM l ch k) hs hd) (wpE_waitDma2_eq 𝒱₀ (c : Thread nD τ) none Set.univ)
    (Set.mem_univ _) () (O := O) (W := W) (R := 0) (T := ∅) (m := 0)
    (by rw [expect_recv m c l ch k hk, Nat.zero_add, slot_credit])) $$ [Hc Ho Hmw Hat]
  · isplitr; · iexact Hi
    isplitl [Hc]; · rw [slot_credit]; iexact Hc
    iframe
  rw [rest_recv m c l ch k hk]
  iintro ⟨Ho, Hat, -, Hpay⟩
  iapply Hk
  iframe

theorem wp_send_wait (c : Dev nD) (l : Fin 3) (ch : Fin 4) (k : Fin 8) (hk : k ≠ 0) (W : Waits sig Unit)
    {sp' : Space} {s' : Shape} {e' : EltTy} {src : Memref sig .tc sp' s' e'} {hs : src.view.WordExact}
    {hd : WX l ch 0}
    {α : Type} {Q : α → sProp 𝕄} {kont : PUnit → Prog (TpuEff nD τ sig (Elt F) Λ₀ .tc) α} :
    iprop(records m K ∗ cred (tallyAt (sendCell c l ch k) () N) ∗ owes (c : Thread nD τ) 0 W
        ∗ atPos ER (sendCell c l ch k) 0 ∅ 0)
      ⊢ iprop(((owes (c : Thread nD τ) 0 (insert (SemLoc.dma (sendSem l ch k), ()) W) ∗ atPos ER (sendCell c l ch k) 1 ∅ 0
              ∗ sendPay m c l ch k)
            -∗ WP c (kont ⟨⟩) Q)
          -∗ WP c
              (.op (.waitDma2 (sendSem l ch k) src (slotM l ch 0) hs hd) kont) Q) := by
  iintro ⟨#Hrec, Hc, Ho, Hat⟩ Hk
  ihave Hs := (records_send m K c l ch k) $$ Hrec
  icases Hs with ⟨Hi, -⟩
  iapply (Rounds.wp_wait_rest_token 𝒱₀ ER (Rd (F := F) m) (c : Thread nD τ) none (κ := K (c, some (false, l, ch, k)))
    (w := .waitDma2 (sendSem l ch k) src (slotM l ch 0) hs hd) (wpE_waitDma2_eq 𝒱₀ (c : Thread nD τ) none Set.univ)
    (Set.mem_univ _) () (O := 0) (W := W) (R := 0) (T := ∅) (m := 0)
    (by rw [expect_send m c l ch k hk, Nat.zero_add, slot_credit])) $$ [Hc Ho Hat]
  · isplitr; · iexact Hi
    isplitl [Hc]; · rw [slot_credit]; iexact Hc
    isplitl [Ho]; · iexact Ho
    isplitr; · rw [MayWait_zero]; iempintro
    iexact Hat
  rw [rest_send m c l ch k hk]
  iintro ⟨Ho, Hat, -, Hpay⟩
  iapply Hk
  iframe

end Cert.KernelIdeal.Hand

end
-- ==== Proof.SlotSplit.lean ====
import proofs.«900998_g7700000000000999_dist_mlpseq_tp1d_rep_rep_b128_d128_h256_v7x_i8_f32_1_alg».proof.Proof.Sched
import Idealize.ShloMosaic.Lib.Pipeline.Value

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem pointsTo_left_right {ℓ : Loc nD τ sig} (I : Finset (Idx ℓ)) (q : PosShare TreeShare) (f : Buf (Elt F) ℓ) :
    (ℓ ↦[I]{q} f : sProp 𝕄) = iprop((ℓ ↦[I]{q.left} f) ∗ ℓ ↦[I]{q.right} f) :=
  BI.equiv_iff.mp ⟨(pointsTo_share (PosShare.mem_left_op_right q)).1, (pointsTo_share (PosShare.mem_left_op_right q)).2⟩

theorem slot_view_set (l : Fin 3) (ch : Fin 4) (k : Fin 8) : (slotM l ch k).view.set = (slotR l ch k).set := by
  rw [Memref.set_view_squeeze]
  exact View.set_slice_whole cc0_scratch0 (slotR l ch k)

theorem mem_slotR_iff (l : Fin 3) (ch : Fin 4) (k : Fin 8) (i : S3x4x8x32x128.Idx) :
    i ∈ (slotR l ch k).set ↔ ((i 0 : ℕ) = l.val ∧ (i 1 : ℕ) = ch.val ∧ (i 2 : ℕ) = k.val) := by
  rw [Rect.mem_set_unit]
  constructor
  · intro h
    have h0 : l.val ≤ (i 0 : ℕ) ∧ (i 0 : ℕ) < l.val + 1 := h 0
    have h1 : ch.val ≤ (i 1 : ℕ) ∧ (i 1 : ℕ) < ch.val + 1 := h 1
    have h2 : k.val ≤ (i 2 : ℕ) ∧ (i 2 : ℕ) < k.val + 1 := h 2
    omega
  · rintro ⟨e0, e1, e2⟩
    have h3 : (i 3 : ℕ) < 32 := (i 3).isLt
    have h4 : (i 4 : ℕ) < 128 := (i 4).isLt
    refine Fin.forall_fin_succ.mpr ⟨?_, Fin.forall_fin_succ.mpr ⟨?_, Fin.forall_fin_succ.mpr ⟨?_,
      Fin.forall_fin_succ.mpr ⟨?_, Fin.forall_fin_succ.mpr ⟨?_, fun a => a.elim0⟩⟩⟩⟩⟩
    · show l.val ≤ (i 0 : ℕ) ∧ (i 0 : ℕ) < l.val + 1; omega
    · show ch.val ≤ (i 1 : ℕ) ∧ (i 1 : ℕ) < ch.val + 1; omega
    · show k.val ≤ (i 2 : ℕ) ∧ (i 2 : ℕ) < k.val + 1; omega
    · show 0 ≤ (i 3 : ℕ) ∧ (i 3 : ℕ) < 0 + 32; omega
    · show 0 ≤ (i 4 : ℕ) ∧ (i 4 : ℕ) < 0 + 128; omega

theorem slotR_cover : (Finset.univ : Finset S3x4x8x32x128.Idx)
    = Finset.univ.biUnion fun t : Fin 3 × Fin 4 × Fin 8 => (slotR t.1 t.2.1 t.2.2).set := by
  symm; rw [Finset.eq_univ_iff_forall]; intro i
  rw [Finset.mem_biUnion]
  refine ⟨((i 0 : Fin 3), (i 1 : Fin 4), (i 2 : Fin 8)), Finset.mem_univ _, ?_⟩
  rw [mem_slotR_iff]; exact ⟨rfl, rfl, rfl⟩

theorem slotR_disjoint (t t' : Fin 3 × Fin 4 × Fin 8) (h : t ≠ t') :
    Disjoint (slotR t.1 t.2.1 t.2.2).set (slotR t'.1 t'.2.1 t'.2.2).set := by
  rw [Finset.disjoint_left]; intro i hi hi'
  have e := (mem_slotR_iff _ _ _ i).mp hi
  have e' := (mem_slotR_iff _ _ _ i).mp hi'
  apply h
  obtain ⟨l, ch, k⟩ := t; obtain ⟨l', ch', k'⟩ := t'
  have a : l = l' := Fin.ext (e.1.symm.trans e'.1)
  have b : ch = ch' := Fin.ext (e.2.1.symm.trans e'.2.1)
  have d : k = k' := Fin.ext (e.2.2.symm.trans e'.2.2)
  rw [a, b, d]

theorem comm_split (c : Dev nD) :
    (iprop(∃ f : Buf (Elt F) ((c : Thread nD τ).loc cc0_scratch0), ((c : Thread nD τ).loc cc0_scratch0) ↦{fullShare} f) : sProp 𝕄)
      ⊣⊢ bigSep (Finset.univ : Finset (Fin 3 × Fin 4 × Fin 8))
          fun i => iprop(∃ f, slotPts c i.1 i.2.1 i.2.2 fullShare f) := by
  have hd : ∀ t ∈ (Finset.univ : Finset (Fin 3 × Fin 4 × Fin 8)), ∀ t' ∈ (Finset.univ : Finset (Fin 3 × Fin 4 × Fin 8)), t ≠ t' →
      Disjoint (slotM t.1 t.2.1 t.2.2).view.set (slotM t'.1 t'.2.1 t'.2.2).view.set := fun t _ t' _ h => by
    rw [slot_view_set, slot_view_set]; exact slotR_disjoint t t' h
  have hc : (Finset.univ : Finset (Idx ((c : Thread nD τ).loc cc0_scratch0)))
      = Finset.univ.biUnion fun t : Fin 3 × Fin 4 × Fin 8 => (slotM t.1 t.2.1 t.2.2).view.set := by
    refine slotR_cover.trans (Finset.biUnion_congr rfl fun t _ => (slot_view_set _ _ _).symm)
  have e (f : Buf (Elt F) ((c : Thread nD τ).loc cc0_scratch0)) :
      (((c : Thread nD τ).loc cc0_scratch0) ↦{fullShare} f : sProp 𝕄)
        = bigSep (Finset.univ : Finset (Fin 3 × Fin 4 × Fin 8)) fun t => slotPts c t.1 t.2.1 t.2.2 fullShare f := by
    show (((c : Thread nD τ).loc cc0_scratch0) ↦[Finset.univ]{fullShare} f : sProp 𝕄) = _
    rw [hc]; exact pointsTo_biUnion _ _ hd
  haveI hne : Nonempty (Buf (Elt F) ((c : Thread nD τ).loc cc0_scratch0)) :=
    (inferInstance : Nonempty ((cc0_scratch0 : Ref sig .tc).ty.Contents (Elt F)))
  constructor
  ·
    refine exists_elim fun f => ?_
    rw [e f]
    exact bigSep_mono fun t _ => exists_intro (Φ := fun f => slotPts c t.1 t.2.1 t.2.2 fullShare f) f
  ·
    haveI : ∀ i : Fin 3 × Fin 4 × Fin 8, Nonempty (Buf (Elt F) ((slotM i.1 i.2.1 i.2.2).view.loc (c : Thread nD τ))) := fun _ => hne
    have hj (fs : (i : Fin 3 × Fin 4 × Fin 8) → Buf (Elt F) ((slotM i.1 i.2.1 i.2.2).view.loc (c : Thread nD τ))) :
        (bigSep (Finset.univ : Finset (Fin 3 × Fin 4 × Fin 8)) fun i => slotPts c i.1 i.2.1 i.2.2 fullShare (fs i) : sProp 𝕄)
          ⊢ iprop(∃ g : Buf (Elt F) ((c : Thread nD τ).loc cc0_scratch0), ((c : Thread nD τ).loc cc0_scratch0) ↦{fullShare} g) := by
      refine (pointsTo_biUnion_join (ℓ := (c : Thread nD τ).loc cc0_scratch0) (q := fullShare) (Finset.univ : Finset (Fin 3 × Fin 4 × Fin 8))
        (fun t => (slotM t.1 t.2.1 t.2.2).view.set) fs (Classical.choice hne) hd).trans ?_
      iintro ⟨%g, %hg, H⟩
      iexists g
      rw [← hc]
      iexact H
    exact (bigSep_exists_pi (Finset.univ : Finset (Fin 3 × Fin 4 × Fin 8))
      (fun i (f : Buf (Elt F) ((slotM i.1 i.2.1 i.2.2).view.loc (c : Thread nD τ))) => slotPts c i.1 i.2.1 i.2.2 fullShare f)).trans
      (exists_elim fun fs => hj fs)

theorem slot_shares (c : Dev nD) (l : Fin 3) (ch : Fin 4) (f : Buf (Elt F) ((slotM l ch 0).view.loc (c : Thread nD τ))) :
    (slotPts c l ch 0 fullShare f : sProp 𝕄)
      ⊣⊢ bigSep ((Finset.univ : Finset (Fin 8)).erase 0) fun k => slotPts c l ch 0 (shareOf k) f := by
  have e : ((Finset.univ : Finset (Fin 8)).erase 0) = {1, 2, 3, 4, 5, 6, 7} := by decide
  rw [e, bigSep_insert (by decide), bigSep_insert (by decide), bigSep_insert (by decide), bigSep_insert (by decide),
    bigSep_insert (by decide), bigSep_insert (by decide), bigSep_singleton]
  unfold slotPts
  have e1 : shareOf 1 = fullShare.left := rfl
  have e2 : shareOf 2 = fullShare.right.left := rfl
  have e3 : shareOf 3 = fullShare.right.right.left := rfl
  have e4 : shareOf 4 = fullShare.right.right.right.left := rfl
  have e5 : shareOf 5 = fullShare.right.right.right.right.left := rfl
  have e6 : shareOf 6 = fullShare.right.right.right.right.right.left := rfl
  have e7 : shareOf 7 = fullShare.right.right.right.right.right.right := rfl
  rw [e1, e2, e3, e4, e5, e6, e7,
    pointsTo_left_right _ fullShare f, pointsTo_left_right _ fullShare.right f, pointsTo_left_right _ fullShare.right.right f,
    pointsTo_left_right _ fullShare.right.right.right f, pointsTo_left_right _ fullShare.right.right.right.right f,
    pointsTo_left_right _ fullShare.right.right.right.right.right f]
  exact ⟨.rfl, .rfl⟩

end Cert.KernelIdeal.Hand

end
-- ==== Proof.Rejoin.lean ====
import proofs.«900998_g7700000000000999_dist_mlpseq_tp1d_rep_rep_b128_d128_h256_v7x_i8_f32_1_alg».proof.Proof.Ghost
import proofs.«900998_g7700000000000999_dist_mlpseq_tp1d_rep_rep_b128_d128_h256_v7x_i8_f32_1_alg».proof.Proof.Slots
import proofs.«900998_g7700000000000999_dist_mlpseq_tp1d_rep_rep_b128_d128_h256_v7x_i8_f32_1_alg».proof.Proof.SlotSplit

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

theorem bigSep_slots_by_peer (Φ : Fin 3 × Fin 4 × Fin 8 → sProp 𝕄) :
    bigSep Finset.univ Φ
      = bigSep (Finset.univ : Finset (Fin 8)) fun k => bigSep (Finset.univ : Finset (Fin 3 × Fin 4)) fun lc => Φ (lc.1, lc.2, k) := by
  rw [bigSep_univ_equiv ((Equiv.prodComm (Fin 8) (Fin 3 × Fin 4)).trans (Equiv.prodAssoc (Fin 3) (Fin 4) (Fin 8))) Φ,
    bigSep_univ_prod]
  rfl

theorem bigSep_slots_by_chunk (Φ : Fin 3 × Fin 4 × Fin 8 → sProp 𝕄) :
    bigSep Finset.univ Φ
      = bigSep (Finset.univ : Finset (Fin 3 × Fin 4)) fun lc => bigSep (Finset.univ : Finset (Fin 8)) fun k => Φ (lc.1, lc.2, k) := by
  rw [bigSep_univ_equiv (Equiv.prodAssoc (Fin 3) (Fin 4) (Fin 8)) Φ, bigSep_univ_prod]
  rfl

theorem bigSep_xfer (Φ : Fin 3 × Fin 4 × Fin 8 → sProp 𝕄) :
    bigSep xfer Φ
      = bigSep (Finset.univ : Finset (Fin 3 × Fin 4)) fun lc =>
          bigSep ((Finset.univ : Finset (Fin 8)).erase 0) fun k => Φ (lc.1, lc.2, k) := by
  unfold xfer
  rw [bigSep_filter, bigSep_slots_by_chunk]
  refine bigSep_congr fun lc _ => ?_
  rw [← Finset.filter_ne' Finset.univ (0 : Fin 8), bigSep_filter]

theorem comm_deal (c : Dev nD) :
    (commAny (F := F) c : sProp 𝕄)
      ⊢ iprop((bigSep (Finset.univ : Finset (Fin 3 × Fin 4)) fun lc => iprop(∃ f, slotPts (F := F) c lc.1 lc.2 0 fullShare f))
          ∗ bigSep ((Finset.univ : Finset (Fin 8)).erase 0) fun k =>
              bigSep (Finset.univ : Finset (Fin 3 × Fin 4)) fun lc => iprop(∃ f, slotPts (F := F) c lc.1 lc.2 k fullShare f)) := by
  have e := (bigSep_slots_by_peer (F := F) fun i => iprop(∃ f, slotPts (F := F) c i.1 i.2.1 i.2.2 fullShare f)).trans
    (bigSep_univ_at _ (0 : Fin 8))
  unfold commAny
  exact (comm_split c).1.trans (Entails.of_eq e)

theorem slots_collect (c : Dev nD) (l : Fin 3) (ch : Fin 4) :
    iprop((bigSep ((Finset.univ : Finset (Fin 8)).erase 0) fun k => sendPay m c l ch k)
        ∗ bigSep ((Finset.univ : Finset (Fin 8)).erase 0) fun k => recvPay m c l ch k)
      ⊢ bigSep (Finset.univ : Finset (Fin 8)) fun k => iprop(∃ f, slotPts (F := F) c l ch k fullShare f) := by
  rw [bigSep_univ_at _ (0 : Fin 8)]
  iintro ⟨Hs, Hr⟩
  isplitl [Hs]
  · unfold sendPay
    iexists (slotBuf l ch 0 (tr (part m l.val c ch)))
    iapply (slot_shares c l ch (slotBuf l ch 0 (tr (part m l.val c ch)))).2
    iexact Hs
  · have h : (bigSep ((Finset.univ : Finset (Fin 8)).erase 0) fun k => recvPay m c l ch k)
        ⊢ bigSep ((Finset.univ : Finset (Fin 8)).erase 0) fun k => iprop(∃ f, slotPts (F := F) c l ch k fullShare f) :=
      bigSep_mono fun k _ => by
        unfold recvPay
        exact exists_intro (Φ := fun f => slotPts (F := F) c l ch k fullShare f) (slotBuf l ch k (tr (part m l.val (peer c k) ch)))
    iapply h
    iexact Hr

theorem comm_collect (c : Dev nD) :
    iprop((bigSep xfer fun i => sendPay m c i.1 i.2.1 i.2.2) ∗ (bigSep xfer fun i => recvPay m c i.1 i.2.1 i.2.2))
      ⊢ (commAny (F := F) c : sProp 𝕄) := by
  rw [bigSep_xfer, bigSep_xfer, ← bigSep_sep']
  unfold commAny
  refine BIBase.Entails.trans ?_ (comm_split c).2
  rw [bigSep_slots_by_chunk]
  exact bigSep_mono fun lc _ => slots_collect m c lc.1 lc.2

end Cert.KernelIdeal.Hand

end
-- ==== Proof.Blocks.lean ====
import proofs.«900998_g7700000000000999_dist_mlpseq_tp1d_rep_rep_b128_d128_h256_v7x_i8_f32_1_alg».proof.Proof.Ghost
import proofs.«900998_g7700000000000999_dist_mlpseq_tp1d_rep_rep_b128_d128_h256_v7x_i8_f32_1_alg».proof.Proof.Slots
import proofs.«900998_g7700000000000999_dist_mlpseq_tp1d_rep_rep_b128_d128_h256_v7x_i8_f32_1_alg».proof.Proof.Levels
import proofs.«900998_g7700000000000999_dist_mlpseq_tp1d_rep_rep_b128_d128_h256_v7x_i8_f32_1_alg».proof.Proof.RulesBar
import proofs.«900998_g7700000000000999_dist_mlpseq_tp1d_rep_rep_b128_d128_h256_v7x_i8_f32_1_alg».proof.Proof.RulesDma
import proofs.«900998_g7700000000000999_dist_mlpseq_tp1d_rep_rep_b128_d128_h256_v7x_i8_f32_1_alg».proof.Proof.Rejoin

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

abbrev peers : Finset (Fin 8) := (Finset.univ : Finset (Fin 8)).erase 0

def sendToks (c : Dev nD) (l : Fin 3) (ch : Fin 4) : sProp 𝕄 :=
  bigSep peers fun k => iprop(dutyTok ER (sendCell c l ch k) 0 0 ∗ dutyTok ER (recvCell (peer c k) l ch k) 0 0)

def landing (c : Dev nD) (l : Fin 3) (ch : Fin 4) : sProp 𝕄 :=
  bigSep peers fun k => iprop(∃ f, slotPts (F := F) (peer c k) l ch k fullShare f)

def sendCreds (c : Dev nD) (l : Fin 3) (ch : Fin 4) : sProp 𝕄 :=
  bigSep peers fun k => cred (tallyAt (sendCell c l ch k) () N)

def recvRes (c : Dev nD) (l : Fin 3) (ch : Fin 4) : sProp 𝕄 :=
  bigSep peers fun k => iprop(cred (tallyAt (recvCell c l ch k) () N) ∗ atPos ER (recvCell c l ch k) 0 ∅ 0)

def recvDone (c : Dev nD) (l : Fin 3) (ch : Fin 4) : sProp 𝕄 :=
  bigSep peers fun k => iprop(atPos ER (recvCell c l ch k) 1 ∅ 0 ∗ recvPay m c l ch k)

def sendPos (c : Dev nD) (l : Fin 3) (ch : Fin 4) : sProp 𝕄 :=
  bigSep peers fun k => atPos ER (sendCell c l ch k) 0 ∅ 0

def sendDone (c : Dev nD) (l : Fin 3) (ch : Fin 4) : sProp 𝕄 :=
  bigSep peers fun k => iprop(atPos ER (sendCell c l ch k) 1 ∅ 0 ∗ sendPay m c l ch k)

def idlePos (c : Dev nD) (l : Fin 3) (ch : Fin 4) : sProp 𝕄 :=
  iprop(atPos ER (sendCell c l ch 0) 0 ∅ 0 ∗ atPos ER (recvCell c l ch 0) 0 ∅ 0)

def landedVal (c : Dev nD) (l : Fin 3) (ch : Fin 4) (k : Fin 8) : Vec F S1x1x1x32x128 .bf16 :=
  pack (part m l.val (peer c k) ch)

theorem bigSep_lc (Φ : Fin 3 × Fin 4 → sProp 𝕄) :
    bigSep (Finset.univ : Finset (Fin 3 × Fin 4)) Φ
      = iprop(Φ (0, 0) ∗ Φ (0, 1) ∗ Φ (0, 2) ∗ Φ (0, 3) ∗ Φ (1, 0) ∗ Φ (1, 1) ∗ Φ (1, 2) ∗ Φ (1, 3) ∗ Φ (2, 0) ∗ Φ (2, 1) ∗ Φ (2, 2) ∗ Φ (2, 3)) :=
  bigSep_univ_eq_bigSepL [((0 : Fin 3), (0 : Fin 4)), (0, 1), (0, 2), (0, 3), (1, 0), (1, 1), (1, 2), (1, 3), (2, 0), (2, 1), (2, 2), (2, 3)] (by decide) (by decide) Φ

theorem dcell_recv (c : Dev nD) (i : Fin 3 × Fin 4 × Fin 8) : dcell c (true, i) = recvCell c i.1 i.2.1 i.2.2 := by
  unfold dcell; exact if_pos rfl
theorem dcell_send (c : Dev nD) (i : Fin 3 × Fin 4 × Fin 8) : dcell c (false, i) = sendCell c i.1 i.2.1 i.2.2 := by
  unfold dcell; exact if_neg Bool.false_ne_true
theorem gcell_recv (c : Dev nD) (i : Fin 3 × Fin 4 × Fin 8) : gcell c (some (true, i)) = recvCell c i.1 i.2.1 i.2.2 := dcell_recv c i
theorem gcell_send (c : Dev nD) (i : Fin 3 × Fin 4 × Fin 8) : gcell c (some (false, i)) = sendCell c i.1 i.2.1 i.2.2 := dcell_send c i

theorem bigSep_cells (c : Dev nD) (Φ : GSem nD τ sig → sProp 𝕄) :
    (bigSep Finset.univ fun x : CK => Φ (gcell c x))
      = iprop(Φ (barCell c)
          ∗ (bigSep (Finset.univ : Finset (Fin 3 × Fin 4)) fun lc => iprop(Φ (recvCell c lc.1 lc.2 0) ∗ bigSep peers fun k => Φ (recvCell c lc.1 lc.2 k)))
          ∗ (bigSep (Finset.univ : Finset (Fin 3 × Fin 4)) fun lc => iprop(Φ (sendCell c lc.1 lc.2 0) ∗ bigSep peers fun k => Φ (sendCell c lc.1 lc.2 k)))) := by
  rw [bigSep_option, bigSep_univ_prod, bigSep_bool, bigSep_slots_by_chunk, bigSep_slots_by_chunk]
  refine congrArg₂ _ rfl (congrArg₂ _ (bigSep_congr fun lc _ => ?_) (bigSep_congr fun lc _ => ?_))
  · rw [bigSep_univ_at _ (0 : Fin 8)]
    simp only [gcell_recv]
  · rw [bigSep_univ_at _ (0 : Fin 8)]
    simp only [gcell_send]

theorem bigSep_comm_sets {A B : Type} (s : Finset A) (t : Finset B) (Φ : A → B → sProp 𝕄) :
    (bigSep s fun a => bigSep t fun b => Φ a b) = bigSep t fun b => bigSep s fun a => Φ a b := by
  classical
  induction s using Finset.induction_on with
  | empty => simp only [bigSep_empty]; exact (bigSep_emp_const t).symm
  | insert a s ha ih =>
    rw [bigSep_insert ha, ih, ← bigSep_sep]
    exact bigSep_congr fun b _ => (bigSep_insert (M := 𝕄) ha (Φ := fun a => Φ a b)).symm

theorem block_start (c : Dev nD) (l : Fin 3) (ch : Fin 4) :
    iprop((atPos ER (recvCell c l ch 0) 0 ∅ 0 ∗ bigSep peers fun k => atPos ER (recvCell c l ch k) 0 ∅ 0)
        ∗ (atPos ER (sendCell c l ch 0) 0 ∅ 0 ∗ bigSep peers fun k => atPos ER (sendCell c l ch k) 0 ∅ 0)
        ∗ (bigSep peers fun k => iprop(dutyTok ER (recvCell (peer c k) l ch k) 0 0 ∗ dutyTok ER (sendCell c l ch k) 0 0))
        ∗ (bigSep peers fun k => cred (tallyAt (recvCell c l ch k) () N)))
      ⊢ (iprop(sendToks (F := F) c l ch ∗ recvRes (F := F) c l ch ∗ sendPos (F := F) c l ch ∗ idlePos (F := F) c l ch) : sProp 𝕄) := by
  unfold sendToks recvRes sendPos idlePos
  simp only [bigSep_sep']
  iintro ⟨⟨Hr0, Hr⟩, ⟨Hs0, Hs⟩, ⟨HtR, HtS⟩, Hc⟩
  iframe

theorem start_regroup (c : Dev nD) :
    iprop(linear (F := F) c ∗ payToks (F := F) c ∗ creds (F := F) c)
      ⊢ iprop(atPos ER (barCell c) 0 ∅ 0 ∗ (bigSep peers fun k => dutyTok ER (barCell (peer c k)) 0 k)
          ∗ cred (tallyAt (barCell c) () 7)
          ∗ bigSep (Finset.univ : Finset (Fin 3 × Fin 4)) fun lc =>
              iprop(sendToks (F := F) c lc.1 lc.2 ∗ recvRes (F := F) c lc.1 lc.2 ∗ sendPos (F := F) c lc.1 lc.2 ∗ idlePos (F := F) c lc.1 lc.2)) := by
  unfold linear payToks creds
  rw [bigSep_cells c (fun g => (atPos ER g 0 ∅ 0 : sProp 𝕄)), bigSep_xfer, bigSep_xfer]
  refine BIBase.Entails.trans ?_ (sep_mono_right (sep_mono_right (sep_mono_right
    (bigSep_mono (s := (Finset.univ : Finset (Fin 3 × Fin 4))) fun lc _ => block_start (F := F) c lc.1 lc.2))))
  simp only [bigSep_sep']
  iintro ⟨⟨Hb, Hr, Hs⟩, ⟨Htb, Ht⟩, ⟨Hcb, Hc⟩⟩
  iframe

theorem bar_regroup (c : Dev nD) :
    (bigSep peers fun d => barPay (F := F) c d)
      ⊢ (bigSep (Finset.univ : Finset (Fin 3 × Fin 4)) fun lc => landing (F := F) c lc.1 lc.2) := by
  unfold barPay landing
  exact Entails.of_eq (bigSep_comm_sets peers Finset.univ fun d (lc : Fin 3 × Fin 4) => iprop(∃ f, slotPts (F := F) (peer c d) lc.1 lc.2 d fullShare f))

theorem block_end (c : Dev nD) (l : Fin 3) (ch : Fin 4) :
    iprop(recvDone m c l ch ∗ sendDone m c l ch ∗ idlePos (F := F) c l ch)
      ⊢ (iprop((atPos ER (recvCell c l ch 0) 0 ∅ 0 ∗ bigSep peers fun k => atPos ER (recvCell c l ch k) 1 ∅ 0)
          ∗ (atPos ER (sendCell c l ch 0) 0 ∅ 0 ∗ bigSep peers fun k => atPos ER (sendCell c l ch k) 1 ∅ 0)
          ∗ (bigSep peers fun k => sendPay m c l ch k) ∗ (bigSep peers fun k => recvPay m c l ch k)) : sProp 𝕄) := by
  unfold recvDone sendDone idlePos
  simp only [bigSep_sep']
  iintro ⟨⟨Hr, Hrp⟩, ⟨Hs, Hsp⟩, Hs0, Hr0⟩
  iframe

theorem bigSep_endPos (c : Dev nD) :
    (bigSep Finset.univ fun i : SlotCell => (atPos ER (dcell c i) (if i.2.2.2 = 0 then 0 else 1) ∅ 0 : sProp 𝕄))
      = iprop((bigSep (Finset.univ : Finset (Fin 3 × Fin 4)) fun lc =>
            iprop(atPos ER (recvCell c lc.1 lc.2 0) 0 ∅ 0 ∗ bigSep peers fun k => atPos ER (recvCell c lc.1 lc.2 k) 1 ∅ 0))
          ∗ (bigSep (Finset.univ : Finset (Fin 3 × Fin 4)) fun lc =>
            iprop(atPos ER (sendCell c lc.1 lc.2 0) 0 ∅ 0 ∗ bigSep peers fun k => atPos ER (sendCell c lc.1 lc.2 k) 1 ∅ 0))) := by
  rw [bigSep_univ_prod, bigSep_bool, bigSep_slots_by_chunk, bigSep_slots_by_chunk]
  refine congrArg₂ _ (bigSep_congr fun lc _ => ?_) (bigSep_congr fun lc _ => ?_)
  · rw [bigSep_univ_at _ (0 : Fin 8)]
    refine congrArg₂ _ ?_ (bigSep_congr fun k hk => ?_)
    · show (atPos ER (dcell c (true, lc.1, lc.2, 0)) (if (0 : Fin 8) = 0 then 0 else 1) ∅ 0 : sProp 𝕄) = _
      rw [if_pos rfl, dcell_recv]
    · show (atPos ER (dcell c (true, lc.1, lc.2, k)) (if k = 0 then 0 else 1) ∅ 0 : sProp 𝕄) = _
      rw [if_neg (Finset.ne_of_mem_erase hk), dcell_recv]
  · rw [bigSep_univ_at _ (0 : Fin 8)]
    refine congrArg₂ _ ?_ (bigSep_congr fun k hk => ?_)
    · show (atPos ER (dcell c (false, lc.1, lc.2, 0)) (if (0 : Fin 8) = 0 then 0 else 1) ∅ 0 : sProp 𝕄) = _
      rw [if_pos rfl, dcell_send]
    · show (atPos ER (dcell c (false, lc.1, lc.2, k)) (if k = 0 then 0 else 1) ∅ 0 : sProp 𝕄) = _
      rw [if_neg (Finset.ne_of_mem_erase hk), dcell_send]

theorem end_regroup (c : Dev nD) :
    (bigSep (Finset.univ : Finset (Fin 3 × Fin 4)) fun lc =>
        iprop(recvDone m c lc.1 lc.2 ∗ sendDone m c lc.1 lc.2 ∗ idlePos (F := F) c lc.1 lc.2))
      ⊢ iprop((bigSep Finset.univ fun i : SlotCell => atPos ER (dcell c i) (if i.2.2.2 = 0 then 0 else 1) ∅ 0)
          ∗ (bigSep xfer fun i => sendPay m c i.1 i.2.1 i.2.2) ∗ (bigSep xfer fun i => recvPay m c i.1 i.2.1 i.2.2)) := by
  rw [bigSep_endPos, bigSep_xfer, bigSep_xfer]
  refine BIBase.Entails.trans (bigSep_mono (s := (Finset.univ : Finset (Fin 3 × Fin 4))) fun lc _ => block_end m c lc.1 lc.2) ?_
  simp only [bigSep_sep']
  iintro ⟨Hr, Hs, Hsp, Hrp⟩
  iframe

end Cert.KernelIdeal.Hand

end
-- ==== Proof.BlockStepsA.lean ====
import proofs.«900998_g7700000000000999_dist_mlpseq_tp1d_rep_rep_b128_d128_h256_v7x_i8_f32_1_alg».proof.Proof.Ghost
import proofs.«900998_g7700000000000999_dist_mlpseq_tp1d_rep_rep_b128_d128_h256_v7x_i8_f32_1_alg».proof.Proof.Slots
import proofs.«900998_g7700000000000999_dist_mlpseq_tp1d_rep_rep_b128_d128_h256_v7x_i8_f32_1_alg».proof.Proof.Blocks

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

theorem bigSep_peers (Φ : Fin 8 → sProp 𝕄) :
    bigSep peers Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ

theorem bar_block (c : Dev nD) {n1 n2 n3 n4 n5 n6 n7 : Dev nD}
    (h1 : n1 = peer c 1) (h2 : n2 = peer c 2) (h3 : n3 = peer c 3) (h4 : n4 = peer c 4) (h5 : n5 = peer c 5) (h6 : n6 = peer c 6) (h7 : n7 = peer c 7)
    (Rest : List (CellTallies nD τ sig Unit)) (W : Waits sig Unit)
    {α : Type} {Q : α → sProp 𝕄} {kont : PUnit → Prog (TpuEff nD τ sig (Elt F) Λ₀ .tc) α} :
    iprop(records m K ∗ owes (c : Thread nD τ) (owedOf (payBar c ++ Rest)) W
        ∗ (bigSep peers fun k => dutyTok ER (barCell (peer c k)) 0 k)
        ∗ (bigSep peers fun k => bigSep (Finset.univ : Finset (Fin 3 × Fin 4)) fun lc => iprop(∃ f, slotPts (F := F) c lc.1 lc.2 k fullShare f))
        ∗ cred (tallyAt (barCell c) () 7) ∗ MayWait (c : Thread nD τ) (.reg barS) () (owedOf Rest) ∗ atPos ER (barCell c) 0 ∅ 0)
      ⊢ iprop(((owes (c : Thread nD τ) (owedOf Rest) (insert (SemLoc.reg barS, ()) W)
              ∗ bigSep (Finset.univ : Finset (Fin 3 × Fin 4)) fun lc => landing (F := F) c lc.1 lc.2)
            -∗ WP c (kont ⟨⟩) Q)
          -∗ WP c
              (.op (.semSignal (Dev.tc n1 : Thread nD τ) barS (1#32 : BitVec 32).toNat) fun _ =>
                .op (.semSignal (Dev.tc n2 : Thread nD τ) barS (1#32 : BitVec 32).toNat) fun _ =>
                .op (.semSignal (Dev.tc n3 : Thread nD τ) barS (1#32 : BitVec 32).toNat) fun _ =>
                .op (.semSignal (Dev.tc n4 : Thread nD τ) barS (1#32 : BitVec 32).toNat) fun _ =>
                .op (.semSignal (Dev.tc n5 : Thread nD τ) barS (1#32 : BitVec 32).toNat) fun _ =>
                .op (.semSignal (Dev.tc n6 : Thread nD τ) barS (1#32 : BitVec 32).toNat) fun _ =>
                .op (.semSignal (Dev.tc n7 : Thread nD τ) barS (1#32 : BitVec 32).toNat) fun _ =>
                .op (.semWait barS (7#32 : BitVec 32).toNat) kont) Q) := by
  subst h1 h2 h3 h4 h5 h6 h7
  rw [bigSep_peers, bigSep_peers]
  iintro ⟨#Hrec, HO, ⟨T1, T2, T3, T4, T5, T6, T7⟩, ⟨S1, S2, S3, S4, S5, S6, S7⟩, Hc, Hmw, Hat⟩ Hk
  iapply (wp_sig m K c 1 (by decide) (peer c 1) rfl _ W) $$ [HO T1 S1]
  · iframe # T1 S1
    iexact HO
  iintro HO
  iapply (wp_sig m K c 2 (by decide) (peer c 2) rfl _ W) $$ [HO T2 S2]
  · iframe # T2 S2
    iexact HO
  iintro HO
  iapply (wp_sig m K c 3 (by decide) (peer c 3) rfl _ W) $$ [HO T3 S3]
  · iframe # T3 S3
    iexact HO
  iintro HO
  iapply (wp_sig m K c 4 (by decide) (peer c 4) rfl _ W) $$ [HO T4 S4]
  · iframe # T4 S4
    iexact HO
  iintro HO
  iapply (wp_sig m K c 5 (by decide) (peer c 5) rfl _ W) $$ [HO T5 S5]
  · iframe # T5 S5
    iexact HO
  iintro HO
  iapply (wp_sig m K c 6 (by decide) (peer c 6) rfl _ W) $$ [HO T6 S6]
  · iframe # T6 S6
    iexact HO
  iintro HO
  iapply (wp_sig m K c 7 (by decide) (peer c 7) rfl _ W) $$ [HO T7 S7]
  · iframe # T7 S7
    iexact HO
  iintro HO
  iapply (wp_barwait m K c (owedOf Rest) W) $$ [Hc HO Hmw Hat]
  · iframe # Hc Hmw Hat
    iexact HO
  iintro ⟨HO, -, Hpay⟩
  iapply Hk
  isplitl [HO]; · iexact HO
  iapply (bar_regroup (F := F) c)
  iexact Hpay

theorem sendwait_block (c : Dev nD) (l : Fin 3) (ch : Fin 4) (W : Waits sig Unit)
    {hs1 : WX l ch 1} {hd1 : WX l ch 0}
    {hs3 : WX l ch 3} {hd3 : WX l ch 0}
    {hs4 : WX l ch 4} {hd4 : WX l ch 0}
    {hs2 : WX l ch 2} {hd2 : WX l ch 0}
    {hs5 : WX l ch 5} {hd5 : WX l ch 0}
    {hs7 : WX l ch 7} {hd7 : WX l ch 0}
    {hs6 : WX l ch 6} {hd6 : WX l ch 0}
    {α : Type} {Q : α → sProp 𝕄} {kont : PUnit → Prog (TpuEff nD τ sig (Elt F) Λ₀ .tc) α} :
    iprop(records m K ∗ sendCreds (F := F) c l ch ∗ sendPos (F := F) c l ch ∗ owes (c : Thread nD τ) 0 W)
      ⊢ iprop((((∃ W', owes (c : Thread nD τ) 0 W') ∗ sendDone m c l ch)
            -∗ WP c (kont ⟨⟩) Q)
          -∗ WP c
              (.op (.waitDma2 (sendSem l ch 1) (slotM l ch 1) (slotM l ch 0) hs1 hd1) fun _ =>
                .op (.waitDma2 (sendSem l ch 3) (slotM l ch 3) (slotM l ch 0) hs3 hd3) fun _ =>
                .op (.waitDma2 (sendSem l ch 4) (slotM l ch 4) (slotM l ch 0) hs4 hd4) fun _ =>
                .op (.waitDma2 (sendSem l ch 2) (slotM l ch 2) (slotM l ch 0) hs2 hd2) fun _ =>
                .op (.waitDma2 (sendSem l ch 5) (slotM l ch 5) (slotM l ch 0) hs5 hd5) fun _ =>
                .op (.waitDma2 (sendSem l ch 7) (slotM l ch 7) (slotM l ch 0) hs7 hd7) fun _ =>
                .op (.waitDma2 (sendSem l ch 6) (slotM l ch 6) (slotM l ch 0) hs6 hd6) kont) Q) := by
  unfold sendCreds sendPos
  rw [bigSep_peers, bigSep_peers]
  iintro ⟨#Hrec, ⟨C1, C2, C3, C4, C5, C6, C7⟩, ⟨P1, P2, P3, P4, P5, P6, P7⟩, HO⟩ Hk
  iapply (wp_send_wait m K c l ch 1 (by decide) _) $$ [C1 HO P1]
  · iframe # ∗
  iintro ⟨HO, A1, D1⟩
  iapply (wp_send_wait m K c l ch 3 (by decide) _) $$ [C3 HO P3]
  · iframe # ∗
  iintro ⟨HO, A3, D3⟩
  iapply (wp_send_wait m K c l ch 4 (by decide) _) $$ [C4 HO P4]
  · iframe # ∗
  iintro ⟨HO, A4, D4⟩
  iapply (wp_send_wait m K c l ch 2 (by decide) _) $$ [C2 HO P2]
  · iframe # ∗
  iintro ⟨HO, A2, D2⟩
  iapply (wp_send_wait m K c l ch 5 (by decide) _) $$ [C5 HO P5]
  · iframe # ∗
  iintro ⟨HO, A5, D5⟩
  iapply (wp_send_wait m K c l ch 7 (by decide) _) $$ [C7 HO P7]
  · iframe # ∗
  iintro ⟨HO, A7, D7⟩
  iapply (wp_send_wait m K c l ch 6 (by decide) _) $$ [C6 HO P6]
  · iframe # ∗
  iintro ⟨HO, A6, D6⟩
  iapply Hk
  isplitl [HO]; · iexists _; iexact HO
  unfold sendDone
  rw [bigSep_peers]
  iframe

end Cert.KernelIdeal.Hand

end
-- ==== Proof.BlockStepsB.lean ====
import proofs.«900998_g7700000000000999_dist_mlpseq_tp1d_rep_rep_b128_d128_h256_v7x_i8_f32_1_alg».proof.Proof.Ghost
import proofs.«900998_g7700000000000999_dist_mlpseq_tp1d_rep_rep_b128_d128_h256_v7x_i8_f32_1_alg».proof.Proof.Slots
import proofs.«900998_g7700000000000999_dist_mlpseq_tp1d_rep_rep_b128_d128_h256_v7x_i8_f32_1_alg».proof.Proof.Blocks
import proofs.«900998_g7700000000000999_dist_mlpseq_tp1d_rep_rep_b128_d128_h256_v7x_i8_f32_1_alg».proof.Proof.SlotSplit

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

omit [FloatOps F] in

theorem peers_send (Φ : Fin 8 → sProp 𝕄) : bigSep peers Φ = iprop(Φ 6 ∗ Φ 2 ∗ Φ 5 ∗ Φ 7 ∗ Φ 1 ∗ Φ 3 ∗ Φ 4) := by
  rw [bigSep_eq_bigSepL_of_eq [6, 2, 5, 7, 1, 3, 4] (by decide) (by decide)]; rfl

omit [FloatOps F] in

theorem peers_recv (Φ : Fin 8 → sProp 𝕄) : bigSep peers Φ = iprop(Φ 1 ∗ Φ 3 ∗ Φ 4 ∗ Φ 2 ∗ Φ 5 ∗ Φ 7 ∗ Φ 6) := by
  rw [bigSep_eq_bigSepL_of_eq [1, 3, 4, 2, 5, 7, 6] (by decide) (by decide)]; rfl

theorem own_shares (c : Dev nD) (l : Fin 3) (ch : Fin 4) (f : Buf (Elt F) ((slotM l ch 0).view.loc (c : Thread nD τ))) :
    (slotPts c l ch 0 fullShare f : sProp 𝕄)
      ⊢ iprop(slotPts c l ch 0 (shareOf 6) f ∗ slotPts c l ch 0 (shareOf 2) f ∗ slotPts c l ch 0 (shareOf 5) f
          ∗ slotPts c l ch 0 (shareOf 7) f ∗ slotPts c l ch 0 (shareOf 1) f ∗ slotPts c l ch 0 (shareOf 3) f
          ∗ slotPts c l ch 0 (shareOf 4) f) := by
  rw [← peers_send (fun k => slotPts c l ch 0 (shareOf k) f)]
  exact (slot_shares c l ch f).1

abbrev due (c : Dev nD) (l : Fin 3) (ch : Fin 4) (k : Fin 8) : CellTallies nD τ sig Unit :=
  tallyAt (recvCell (peer c k) l ch k) () N

theorem owed_block (c : Dev nD) (l : Fin 3) (ch : Fin 4) (Rest : List (CellTallies nD τ sig Unit)) :
    owedOf (paySend c (l, ch) ++ Rest)
      = owedOf (due c l ch 6 :: due c l ch 2 :: due c l ch 5 :: due c l ch 7 :: due c l ch 1 :: due c l ch 3 :: due c l ch 4 :: Rest) := rfl

theorem wp_load_slot (c : Dev nD) (l : Fin 3) (ch : Fin 4) (k : Fin 8) {hl : LA l ch k}
    {α : Type} {Q : α → sProp 𝕄}
    {kont : LV F l ch k → Prog (TpuEff nD τ sig (Elt F) Λ₀ .tc) α} :
    recvPay m c l ch k
      ⊢ iprop((recvPay m c l ch k -∗ WP c (kont (landedVal m c l ch k)) Q)
          -∗ WP c (.op (.load commM (slotR l ch k).toLoadRect hl) kont) Q) := by
  have h := wp_load (defs := defs₀ (F := F)) 𝒱₀ (c : Thread nD τ) none (Γ := .empty) Set.univ (Q := Q) (m := commM)
    (r := (slotR l ch k).toLoadRect) (hl := hl) (k := kont) (q := fullShare)
    (f := slotBuf l ch k (tr (part m l.val (peer c k) ch))) (S := (slotM l ch k).view.set) (slot_setOn l ch k)
  rw [readAt_slotBuf] at h
  exact h

theorem wp_recv_load (c : Dev nD) (l : Fin 3) (ch : Fin 4) (k : Fin 8) (hk : k ≠ 0) (n : ℕ) (hn : 4 * (l.val + 1) + ch.val ≤ n)
    (W : Waits sig Unit)
    {hs : WX l ch 0}
    {hd : WX l ch k}
    {hl : LA l ch k}
    {α : Type} {Q : α → sProp 𝕄}
    {kont : LV F l ch k → Prog (TpuEff nD τ sig (Elt F) Λ₀ .tc) α} :
    iprop(records m K ∗ levAts L lv ∗ cred (tallyAt (recvCell c l ch k) () N) ∗ atPos ER (recvCell c l ch k) 0 ∅ 0
        ∗ owes (c : Thread nD τ) (owedOf ((lcOrder.drop n).flatMap (paySend c))) W)
      ⊢ iprop(((owes (c : Thread nD τ) (owedOf ((lcOrder.drop n).flatMap (paySend c))) (insert (SemLoc.dma (recvSem l ch k), ()) W)
              ∗ atPos ER (recvCell c l ch k) 1 ∅ 0 ∗ recvPay m c l ch k)
            -∗ WP c (kont (landedVal m c l ch k)) Q)
          -∗ WP c
              (.op (.waitDma2 (recvSem l ch k) (slotM l ch 0) (slotM l ch k) hs hd) fun _ =>
                .op (.load commM (slotR l ch k).toLoadRect hl) kont) Q) := by
  iintro ⟨#Hrec, #Hlev, Hc, Hat, Ho⟩ Hk
  ihave Hmw := (mayWait_recv c l ch k n hn) $$ Hlev
  iapply (wp_recv_wait m K c l ch k hk (owedOf ((lcOrder.drop n).flatMap (paySend c))) W) $$ [Hc Hat Ho Hmw]
  · iframe # ∗
  iintro ⟨Ho, Hat, Hpay⟩
  iapply (wp_load_slot m c l ch k) $$ Hpay
  iintro Hpay
  iapply Hk
  iframe

theorem send_block (c : Dev nD) (l : Fin 3) (ch : Fin 4) {n6 n2 n5 n7 n1 n3 n4 : Dev nD}
    (h6 : n6 = peer c 6) (h2 : n2 = peer c 2) (h5 : n5 = peer c 5) (h7 : n7 = peer c 7) (h1 : n1 = peer c 1) (h3 : n3 = peer c 3) (h4 : n4 = peer c 4)
    (Rest : List (CellTallies nD τ sig Unit)) (W : Waits sig Unit)
    {hsc6 : NoSc n6 l ch 6}
    {hsrc6 : WX l ch 0} {hdst6 : WX l ch 6}
    {hsem6 : SemOk n6 l ch 6 hsc6}
    {hsc2 : NoSc n2 l ch 2}
    {hsrc2 : WX l ch 0} {hdst2 : WX l ch 2}
    {hsem2 : SemOk n2 l ch 2 hsc2}
    {hsc5 : NoSc n5 l ch 5}
    {hsrc5 : WX l ch 0} {hdst5 : WX l ch 5}
    {hsem5 : SemOk n5 l ch 5 hsc5}
    {hsc7 : NoSc n7 l ch 7}
    {hsrc7 : WX l ch 0} {hdst7 : WX l ch 7}
    {hsem7 : SemOk n7 l ch 7 hsc7}
    {hsc1 : NoSc n1 l ch 1}
    {hsrc1 : WX l ch 0} {hdst1 : WX l ch 1}
    {hsem1 : SemOk n1 l ch 1 hsc1}
    {hsc3 : NoSc n3 l ch 3}
    {hsrc3 : WX l ch 0} {hdst3 : WX l ch 3}
    {hsem3 : SemOk n3 l ch 3 hsc3}
    {hsc4 : NoSc n4 l ch 4}
    {hsrc4 : WX l ch 0} {hdst4 : WX l ch 4}
    {hsem4 : SemOk n4 l ch 4 hsc4}
    {α : Type} {Q : α → sProp 𝕄} {kont : PUnit → Prog (TpuEff nD τ sig (Elt F) Λ₀ .tc) α} :
    iprop(records m K ∗ slotPts c l ch 0 fullShare (slotBuf l ch 0 (tr (part m l.val c ch)))
        ∗ sendToks (F := F) c l ch ∗ landing (F := F) c l ch
        ∗ owes (c : Thread nD τ) (owedOf (paySend c (l, ch) ++ Rest)) W)
      ⊢ iprop(((sendCreds (F := F) c l ch ∗ owes (c : Thread nD τ) (owedOf Rest) W)
            -∗ WP c (kont ⟨⟩) Q)
          -∗ WP c
              (.op (.enqueueDma (slotM l ch 0) (.remote (Dev.tc n6 : Thread nD τ) (slotM l ch 6) (.dma (sendSem l ch 6)) hsc6) (.dma (recvSem l ch 6)) hsrc6 hdst6 hsem6) fun _ =>
                .op (.enqueueDma (slotM l ch 0) (.remote (Dev.tc n2 : Thread nD τ) (slotM l ch 2) (.dma (sendSem l ch 2)) hsc2) (.dma (recvSem l ch 2)) hsrc2 hdst2 hsem2) fun _ =>
                .op (.enqueueDma (slotM l ch 0) (.remote (Dev.tc n5 : Thread nD τ) (slotM l ch 5) (.dma (sendSem l ch 5)) hsc5) (.dma (recvSem l ch 5)) hsrc5 hdst5 hsem5) fun _ =>
                .op (.enqueueDma (slotM l ch 0) (.remote (Dev.tc n7 : Thread nD τ) (slotM l ch 7) (.dma (sendSem l ch 7)) hsc7) (.dma (recvSem l ch 7)) hsrc7 hdst7 hsem7) fun _ =>
                .op (.enqueueDma (slotM l ch 0) (.remote (Dev.tc n1 : Thread nD τ) (slotM l ch 1) (.dma (sendSem l ch 1)) hsc1) (.dma (recvSem l ch 1)) hsrc1 hdst1 hsem1) fun _ =>
                .op (.enqueueDma (slotM l ch 0) (.remote (Dev.tc n3 : Thread nD τ) (slotM l ch 3) (.dma (sendSem l ch 3)) hsc3) (.dma (recvSem l ch 3)) hsrc3 hdst3 hsem3) fun _ =>
                .op (.enqueueDma (slotM l ch 0) (.remote (Dev.tc n4 : Thread nD τ) (slotM l ch 4) (.dma (sendSem l ch 4)) hsc4) (.dma (recvSem l ch 4)) hsrc4 hdst4 hsem4) kont) Q) := by
  subst h6 h2 h5 h7 h1 h3 h4
  unfold sendToks landing sendCreds
  rw [peers_send, peers_send, peers_send, owed_block]
  iintro ⟨#Hrec, Hown, ⟨⟨Hs6, Hr6⟩, ⟨Hs2, Hr2⟩, ⟨Hs5, Hr5⟩, ⟨Hs7, Hr7⟩, ⟨Hs1, Hr1⟩, ⟨Hs3, Hr3⟩, ⟨Hs4, Hr4⟩⟩,
    ⟨⟨%f6, Hl6⟩, ⟨%f2, Hl2⟩, ⟨%f5, Hl5⟩, ⟨%f7, Hl7⟩, ⟨%f1, Hl1⟩, ⟨%f3, Hl3⟩, ⟨%f4, Hl4⟩⟩, Ho⟩ Hk
  ihave Hsh := (own_shares c l ch _) $$ Hown
  icases Hsh with ⟨Hq6, Hq2, Hq5, Hq7, Hq1, Hq3, Hq4⟩
  iapply (wp_send_slot m K c l ch 6 (by decide) (peer c 6) rfl f6 _ W) $$ [Hq6 Hl6 Ho Hs6 Hr6]
  · iframe # ∗
  iintro ⟨Hc6, Ho⟩
  iapply (wp_send_slot m K c l ch 2 (by decide) (peer c 2) rfl f2 _ W) $$ [Hq2 Hl2 Ho Hs2 Hr2]
  · iframe # ∗
  iintro ⟨Hc2, Ho⟩
  iapply (wp_send_slot m K c l ch 5 (by decide) (peer c 5) rfl f5 _ W) $$ [Hq5 Hl5 Ho Hs5 Hr5]
  · iframe # ∗
  iintro ⟨Hc5, Ho⟩
  iapply (wp_send_slot m K c l ch 7 (by decide) (peer c 7) rfl f7 _ W) $$ [Hq7 Hl7 Ho Hs7 Hr7]
  · iframe # ∗
  iintro ⟨Hc7, Ho⟩
  iapply (wp_send_slot m K c l ch 1 (by decide) (peer c 1) rfl f1 _ W) $$ [Hq1 Hl1 Ho Hs1 Hr1]
  · iframe # ∗
  iintro ⟨Hc1, Ho⟩
  iapply (wp_send_slot m K c l ch 3 (by decide) (peer c 3) rfl f3 _ W) $$ [Hq3 Hl3 Ho Hs3 Hr3]
  · iframe # ∗
  iintro ⟨Hc3, Ho⟩
  iapply (wp_send_slot m K c l ch 4 (by decide) (peer c 4) rfl f4 _ W) $$ [Hq4 Hl4 Ho Hs4 Hr4]
  · iframe # ∗
  iintro ⟨Hc4, Ho⟩
  iapply Hk
  iframe

theorem recv_block (c : Dev nD) (l : Fin 3) (ch : Fin 4) (O : CellTallies nD τ sig Unit) (W : Waits sig Unit)
    (n : ℕ) (hn : 4 * (l.val + 1) + ch.val ≤ n) (hO : O = owedOf ((lcOrder.drop n).flatMap (paySend c)))
    {hs1 : WX l ch 0} {hd1 : WX l ch 1}
    {hl1 : LA l ch 1}
    {hs3 : WX l ch 0} {hd3 : WX l ch 3}
    {hl3 : LA l ch 3}
    {hs4 : WX l ch 0} {hd4 : WX l ch 4}
    {hl4 : LA l ch 4}
    {hs2 : WX l ch 0} {hd2 : WX l ch 2}
    {hl2 : LA l ch 2}
    {hs5 : WX l ch 0} {hd5 : WX l ch 5}
    {hl5 : LA l ch 5}
    {hs7 : WX l ch 0} {hd7 : WX l ch 7}
    {hl7 : LA l ch 7}
    {hs6 : WX l ch 0} {hd6 : WX l ch 6}
    {hl6 : LA l ch 6}
    {α : Type} {Q : α → sProp 𝕄}
    {kont : LV F l ch 1 → LV F l ch 3 → LV F l ch 4 → LV F l ch 2 → LV F l ch 5 → LV F l ch 7 → LV F l ch 6 → Prog (TpuEff nD τ sig (Elt F) Λ₀ .tc) α} :
    iprop(records m K ∗ levAts L lv ∗ recvRes (F := F) c l ch ∗ owes (c : Thread nD τ) O W)
      ⊢ iprop((((∃ W', owes (c : Thread nD τ) O W') ∗ recvDone m c l ch)
            -∗ WP c (kont (landedVal m c l ch 1) (landedVal m c l ch 3) (landedVal m c l ch 4) (landedVal m c l ch 2) (landedVal m c l ch 5) (landedVal m c l ch 7) (landedVal m c l ch 6)) Q)
          -∗ WP c
              (.op (.waitDma2 (recvSem l ch 1) (slotM l ch 0) (slotM l ch 1) hs1 hd1) fun _ =>
                .op (.load commM (slotR l ch 1).toLoadRect hl1) fun v1 =>
                .op (.waitDma2 (recvSem l ch 3) (slotM l ch 0) (slotM l ch 3) hs3 hd3) fun _ =>
                .op (.load commM (slotR l ch 3).toLoadRect hl3) fun v3 =>
                .op (.waitDma2 (recvSem l ch 4) (slotM l ch 0) (slotM l ch 4) hs4 hd4) fun _ =>
                .op (.load commM (slotR l ch 4).toLoadRect hl4) fun v4 =>
                .op (.waitDma2 (recvSem l ch 2) (slotM l ch 0) (slotM l ch 2) hs2 hd2) fun _ =>
                .op (.load commM (slotR l ch 2).toLoadRect hl2) fun v2 =>
                .op (.waitDma2 (recvSem l ch 5) (slotM l ch 0) (slotM l ch 5) hs5 hd5) fun _ =>
                .op (.load commM (slotR l ch 5).toLoadRect hl5) fun v5 =>
                .op (.waitDma2 (recvSem l ch 7) (slotM l ch 0) (slotM l ch 7) hs7 hd7) fun _ =>
                .op (.load commM (slotR l ch 7).toLoadRect hl7) fun v7 =>
                .op (.waitDma2 (recvSem l ch 6) (slotM l ch 0) (slotM l ch 6) hs6 hd6) fun _ =>
                .op (.load commM (slotR l ch 6).toLoadRect hl6) fun v6 =>
                kont v1 v3 v4 v2 v5 v7 v6) Q) := by
  subst hO
  unfold recvRes recvDone
  rw [peers_recv, peers_recv]
  iintro ⟨#Hrec, #Hlev, ⟨⟨Hc1, Hat1⟩, ⟨Hc3, Hat3⟩, ⟨Hc4, Hat4⟩, ⟨Hc2, Hat2⟩, ⟨Hc5, Hat5⟩, ⟨Hc7, Hat7⟩, ⟨Hc6, Hat6⟩⟩, Ho⟩ Hk
  iapply (wp_recv_load m K c l ch 1 (by decide) n hn _) $$ [Hc1 Hat1 Ho]
  · iframe # ∗
  iintro ⟨Ho, Hd1⟩
  iapply (wp_recv_load m K c l ch 3 (by decide) n hn _) $$ [Hc3 Hat3 Ho]
  · iframe # ∗
  iintro ⟨Ho, Hd3⟩
  iapply (wp_recv_load m K c l ch 4 (by decide) n hn _) $$ [Hc4 Hat4 Ho]
  · iframe # ∗
  iintro ⟨Ho, Hd4⟩
  iapply (wp_recv_load m K c l ch 2 (by decide) n hn _) $$ [Hc2 Hat2 Ho]
  · iframe # ∗
  iintro ⟨Ho, Hd2⟩
  iapply (wp_recv_load m K c l ch 5 (by decide) n hn _) $$ [Hc5 Hat5 Ho]
  · iframe # ∗
  iintro ⟨Ho, Hd5⟩
  iapply (wp_recv_load m K c l ch 7 (by decide) n hn _) $$ [Hc7 Hat7 Ho]
  · iframe # ∗
  iintro ⟨Ho, Hd7⟩
  iapply (wp_recv_load m K c l ch 6 (by decide) n hn _) $$ [Hc6 Hat6 Ho]
  · iframe # ∗
  iintro ⟨Ho, Hd6⟩
  iapply Hk
  isplitl [Ho]; · iexists _; iexact Ho
  iframe

end Cert.KernelIdeal.Hand

end
-- ==== Proof.BodyLemmas.lean ====
import proofs.«900998_g7700000000000999_dist_mlpseq_tp1d_rep_rep_b128_d128_h256_v7x_i8_f32_1_alg».proof.Proof.Ghost
import proofs.«900998_g7700000000000999_dist_mlpseq_tp1d_rep_rep_b128_d128_h256_v7x_i8_f32_1_alg».proof.Proof.Slots
import proofs.«900998_g7700000000000999_dist_mlpseq_tp1d_rep_rep_b128_d128_h256_v7x_i8_f32_1_alg».proof.Proof.Levels
import Idealize.ShloMosaic.Lib.Pipeline.Value
import Idealize.ShloMosaic.Lib.ValueIdx

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

variable (c : Dev nD)

theorem wp_slot_load (l : Fin 3) (ch : Fin 4) (k : Fin 8) (q : PosShare TreeShare)
    (f : Buf (Elt F) ((slotM l ch k).view.loc (c : Thread nD τ)))
    {hl : LA l ch k}
    {α : Type} {Q : α → sProp 𝕄} {kont : LV F l ch k → Prog (TpuEff nD τ sig (Elt F) Λ₀ .tc) α} :
    (slotPts c l ch k q f : sProp 𝕄)
      ⊢ iprop((slotPts c l ch k q f -∗ WP c
              (kont (commM.view.readAt (Elt F) (slotR l ch k).toLoadRect f)) Q)
          -∗ WP c (.op (.load commM (slotR l ch k).toLoadRect hl) kont) Q) := by
  unfold slotPts
  exact wp_load 𝒱₀ (c : Thread nD τ) none Set.univ (m := commM) (slot_setOn l ch k)

theorem wp_own_store (l : Fin 3) (ch : Fin 4) (f : Buf (Elt F) ((slotM l ch 0).view.loc (c : Thread nD τ)))
    (w : (slotR l ch 0).shape.Idx → Elt F .bf16) (p : FVec F S32x128 .f32) (hw : w = pack p)
    {hx : (commM.access (slotR l ch 0)).Stores Finset.univ} {hm : Finset.univ = Finset.univ ∨ ∀ a, (slotR l ch 0).stride a = 1}
    {α : Type} {Q : α → sProp 𝕄} {kont : PUnit → Prog (TpuEff nD τ sig (Elt F) Λ₀ .tc) α} :
    (slotPts c l ch 0 fullShare f : sProp 𝕄)
      ⊢ iprop((slotPts c l ch 0 fullShare (slotBuf l ch 0 (tr p)) -∗ WP c (kont ⟨⟩) Q)
          -∗ WP c
              (.op (.store commM (slotR l ch 0) w Finset.univ hx hm) kont) Q) := by
  subst hw
  have e : shapeCast S32x128 (pack p) shapeCasts_S1x1x1x32x128_S32x128 = tr p := shapeCast_shapeCast _ _ _
  have hst := slotPts_store (F := F) c l ch 0 fullShare f (pack p)
  rw [e] at hst
  rw [← hst]
  unfold slotPts
  exact wp_store 𝒱₀ (c : Thread nD τ) none Set.univ (m := commM) (r := slotR l ch 0) (Mk := Finset.univ)
    (Eq.subset (by rw [View.setOn_univ, slot_access_set]))

theorem hz2 : (![0, 0] : Fin 2 → Nat) = fun _ => 0 := funext fun a => by fin_cases a <;> rfl

theorem read_w1 (f : (cc0_stg1_0 : Ref sig .tc).ty.Contents (Elt F)) :
    (Memref.whole cc0_stg1_0).view.readAt (Elt F) (Rect.unit (s := S128x256) ![0, 0] S128x256.size inb_S128x256_S128x256_0_0).toLoadRect f = f :=
  Memref.readAt_unit_zero (Elt F) cc0_stg1_0 hz2 _ f
theorem read_w2 (f : (cc0_stg2_0 : Ref sig .tc).ty.Contents (Elt F)) :
    (Memref.whole cc0_stg2_0).view.readAt (Elt F) (Rect.unit (s := S256x128) ![0, 0] S256x128.size inb_S256x128_S256x128_0_0).toLoadRect f = f :=
  Memref.readAt_unit_zero (Elt F) cc0_stg2_0 hz2 _ f
theorem read_w3 (f : (cc0_stg3_0 : Ref sig .tc).ty.Contents (Elt F)) :
    (Memref.whole cc0_stg3_0).view.readAt (Elt F) (Rect.unit (s := S128x256) ![0, 0] S128x256.size inb_S128x256_S128x256_0_0).toLoadRect f = f :=
  Memref.readAt_unit_zero (Elt F) cc0_stg3_0 hz2 _ f
theorem read_w4 (f : (cc0_stg4_0 : Ref sig .tc).ty.Contents (Elt F)) :
    (Memref.whole cc0_stg4_0).view.readAt (Elt F) (Rect.unit (s := S256x128) ![0, 0] S256x128.size inb_S256x128_S256x128_0_0).toLoadRect f = f :=
  Memref.readAt_unit_zero (Elt F) cc0_stg4_0 hz2 _ f
theorem read_w5 (f : (cc0_stg5_0 : Ref sig .tc).ty.Contents (Elt F)) :
    (Memref.whole cc0_stg5_0).view.readAt (Elt F) (Rect.unit (s := S128x256) ![0, 0] S128x256.size inb_S128x256_S128x256_0_0).toLoadRect f = f :=
  Memref.readAt_unit_zero (Elt F) cc0_stg5_0 hz2 _ f
theorem read_w6 (f : (cc0_stg6_0 : Ref sig .tc).ty.Contents (Elt F)) :
    (Memref.whole cc0_stg6_0).view.readAt (Elt F) (Rect.unit (s := S256x128) ![0, 0] S256x128.size inb_S256x128_S256x128_0_0).toLoadRect f = f :=
  Memref.readAt_unit_zero (Elt F) cc0_stg6_0 hz2 _ f

theorem chunk_write_apply (k : Fin 4) (g : (cc0_stg7_0 : Ref sig .tc).ty.Contents (Elt F)) (a : FVec F S32x128 .f32)
    (i : (⟨2, ![128, 128]⟩ : Shape).Idx) :
    ((Memref.whole cc0_stg7_0).access (chunkR k)).write (Elt F) g a Finset.univ i
      = if (i 0).val / 32 = k.val then
          a (ValueIdx.ix2 (n0 := 32) (n1 := 128) ⟨(i 0).val % 32, Nat.mod_lt _ (by decide)⟩ ⟨(i 1).val, ValueIdx.idx2_lt1 (n0 := 128) (n1 := 128) i⟩)
        else g i := by
  have hi0 : (i 0).val < 128 := ValueIdx.idx2_lt0 (n0 := 128) (n1 := 128) i
  have hi1 : (i 1).val < 128 := ValueIdx.idx2_lt1 (n0 := 128) (n1 := 128) i
  have hk4 : k.val < 4 := k.isLt
  have h := View.write_whole_slice_unit (Val := Elt F) cc0_stg7_0 ![32 * k.val, 0] S32x128.size (chunk_inb k) g a
  rw [show ((Memref.whole cc0_stg7_0).access (chunkR k)).write (Elt F) g a Finset.univ = _ from h]
  by_cases hk : (i 0).val / 32 = k.val
  · rw [if_pos hk]
    unfold updateSlice
    split
    · next hin =>
      congr 1; funext b
      match b with
      | ⟨0, _⟩ => exact Fin.ext (show (i 0).val - 32 * k.val = (i 0).val % 32 by omega)
      | ⟨1, _⟩ => exact Fin.ext (show (i 1).val - 0 = (i 1).val by omega)
    · next hout =>
      exact absurd (Fin.forall_fin_two.mpr
        ⟨(show 32 * k.val ≤ (i 0).val ∧ (i 0).val < 32 * k.val + 32 by omega),
         (show 0 ≤ (i 1).val ∧ (i 1).val < 0 + 128 by omega)⟩) hout
  · rw [if_neg hk]
    unfold updateSlice
    split
    · next hin =>
      exfalso
      have h0 : 32 * k.val ≤ (i 0).val ∧ (i 0).val < 32 * k.val + 32 := hin 0
      omega
    · rfl

theorem sel4 {β : Type} (b0 b1 b2 b3 : β) (n : ℕ) (hn : n < 4) :
    (match (⟨n, hn⟩ : Fin 4) with | 0 => b0 | 1 => b1 | 2 => b2 | 3 => b3)
      = if n = 3 then b3 else if n = 2 then b2 else if n = 1 then b1 else b0 := by
  match n, hn with
  | 0, _ => rfl
  | 1, _ => rfl
  | 2, _ => rfl
  | 3, _ => rfl
  | n + 4, h => exact absurd h (by omega)

theorem sel4_fn {β : Type} (g : Fin 4 → β) (n : ℕ) (hn : n < 4) :
    (match (⟨n, hn⟩ : Fin 4) with | 0 => g 0 | 1 => g 1 | 2 => g 2 | 3 => g 3) = g ⟨n, hn⟩ := by
  match n, hn with
  | 0, _ => rfl
  | 1, _ => rfl
  | 2, _ => rfl
  | 3, _ => rfl
  | n + 4, h => exact absurd h (by omega)

theorem out_writes (f : (cc0_stg7_0 : Ref sig .tc).ty.Contents (Elt F)) (a0 a1 a2 a3 : FVec F S32x128 .f32) :
    ((Memref.whole cc0_stg7_0).access (chunkR 3)).write (Elt F)
        (((Memref.whole cc0_stg7_0).access (chunkR 2)).write (Elt F)
          (((Memref.whole cc0_stg7_0).access (chunkR 1)).write (Elt F)
            (((Memref.whole cc0_stg7_0).access (chunkR 0)).write (Elt F) f a0 Finset.univ) a1 Finset.univ) a2 Finset.univ) a3 Finset.univ
      = fun i => (match (⟨(i 0).val / 32, by have := ValueIdx.idx2_lt0 (n0 := 128) (n1 := 128) i; omega⟩ : Fin 4) with
          | 0 => a0 | 1 => a1 | 2 => a2 | 3 => a3)
          (ValueIdx.ix2 (n0 := 32) (n1 := 128) ⟨(i 0).val % 32, Nat.mod_lt _ (by decide)⟩ ⟨(i 1).val, ValueIdx.idx2_lt1 (n0 := 128) (n1 := 128) i⟩) := by
  funext i
  have hi0 : (i 0).val < 128 := ValueIdx.idx2_lt0 (n0 := 128) (n1 := 128) i
  rw [chunk_write_apply, chunk_write_apply, chunk_write_apply, chunk_write_apply]
  refine Eq.trans ?_ (congrFun (sel4 a0 a1 a2 a3 ((i 0).val / 32) (by omega)).symm _)
  have hn : (i 0).val / 32 = 0 ∨ (i 0).val / 32 = 1 ∨ (i 0).val / 32 = 2 ∨ (i 0).val / 32 = 3 := by omega
  rcases hn with h | h | h | h <;> simp [h]

theorem out_writes_act (f : (cc0_stg7_0 : Ref sig .tc).ty.Contents (Elt F)) :
    ((Memref.whole cc0_stg7_0).access (chunkR 3)).write (Elt F)
        (((Memref.whole cc0_stg7_0).access (chunkR 2)).write (Elt F)
          (((Memref.whole cc0_stg7_0).access (chunkR 1)).write (Elt F)
            (((Memref.whole cc0_stg7_0).access (chunkR 0)).write (Elt F) f (act m 3 c 0) Finset.univ) (act m 3 c 1) Finset.univ)
          (act m 3 c 2) Finset.univ) (act m 3 c 3) Finset.univ
      = outStg m c := by
  rw [out_writes]
  funext i
  have hi0 : (i 0).val < 128 := ValueIdx.idx2_lt0 (n0 := 128) (n1 := 128) i
  exact congrFun (sel4_fn (fun ch => act m 3 c ch) ((i 0).val / 32) (by omega)) _

end Cert.KernelIdeal.Hand

end
-- ==== Proof.Body.lean ====
import proofs.«900998_g7700000000000999_dist_mlpseq_tp1d_rep_rep_b128_d128_h256_v7x_i8_f32_1_alg».proof.Proof.BodyDefs
import proofs.«900998_g7700000000000999_dist_mlpseq_tp1d_rep_rep_b128_d128_h256_v7x_i8_f32_1_alg».proof.Proof.Blocks
import proofs.«900998_g7700000000000999_dist_mlpseq_tp1d_rep_rep_b128_d128_h256_v7x_i8_f32_1_alg».proof.Proof.BlockStepsA
import proofs.«900998_g7700000000000999_dist_mlpseq_tp1d_rep_rep_b128_d128_h256_v7x_i8_f32_1_alg».proof.Proof.BlockStepsB
import proofs.«900998_g7700000000000999_dist_mlpseq_tp1d_rep_rep_b128_d128_h256_v7x_i8_f32_1_alg».proof.Proof.BodyLemmas
import proofs.«900998_g7700000000000999_dist_mlpseq_tp1d_rep_rep_b128_d128_h256_v7x_i8_f32_1_alg».proof.Proof.Rejoin
import proofs.«900998_g7700000000000999_dist_mlpseq_tp1d_rep_rep_b128_d128_h256_v7x_i8_f32_1_alg».proof.Proof.Levels

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536 in
set_option maxHeartbeats 40000000 in

theorem sound_body (K : Dev nD × CK → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ (bodyProg (F := F)) Kt := by
  unfold bodyProg
  simp only [cc0_body_eq_skeleton]; unfold cc0_body_skel
  simp only [k0_part135_eq_skeleton, k0_part136_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton]
  unfold k0_part135_skel k0_part136_skel k0_part121_skel k0_part122_skel k0_part123_skel k0_part124_skel k0_part125_skel k0_part126_skel k0_part127_skel k0_part128_skel k0_part129_skel k0_part130_skel k0_part131_skel k0_part132_skel k0_part133_skel k0_part134_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel k0_part69_skel k0_part70_skel k0_part71_skel k0_part72_skel k0_part73_skel k0_part74_skel k0_part75_skel k0_part76_skel k0_part77_skel k0_part78_skel k0_part79_skel k0_part80_skel k0_part81_skel k0_part82_skel k0_part83_skel k0_part84_skel k0_part85_skel k0_part86_skel k0_part87_skel k0_part88_skel k0_part89_skel k0_part90_skel k0_part91_skel k0_part92_skel k0_part93_skel k0_part94_skel k0_part95_skel k0_part96_skel k0_part97_skel k0_part98_skel k0_part99_skel k0_part100_skel k0_part101_skel k0_part102_skel k0_part103_skel k0_part104_skel k0_part105_skel k0_part106_skel k0_part107_skel k0_part108_skel k0_part109_skel k0_part110_skel k0_part111_skel k0_part112_skel k0_part113_skel k0_part114_skel k0_part115_skel k0_part116_skel k0_part117_skel k0_part118_skel k0_part119_skel k0_part120_skel
  simp (config := { maxSteps := 400000000 }) only [semSignalWord, semWaitWord, Prog.lift, Prog.bind_op, Prog.bind_ret, Prog.pure_eq_ret, wp_deviceId]
  unfold bodyPre ghost
  iintro ⟨⟨⟨#HR, Hlin, Htok⟩, Hcr, #Hlev, Hcomm, Ho, ⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%X7, %g7, %hg7, H7⟩⟩, Hk⟩
  subst hg0 hg1 hg2 hg3 hg4 hg5 hg6 hg7
  unfold Dat.owesAt Pipeline.owesWithin
  icases Ho with ⟨%W0, %hW0, HO⟩
  rw [show (dats m ρ 0 c).owed t0_0.castSucc = O₀ c from rfl]
  ihave Hs := (start_regroup (F := F) c) $$ [Hlin Htok Hcr]
  · iframe # ∗
  icases Hs with ⟨HaB, HtB, HcB, Hblk⟩
  ihave Hblk' := (Entails.of_eq (bigSep_lc _)) $$ Hblk
  icases Hblk' with ⟨⟨Hst00, Hrr00, Hsp00, Hid00⟩, ⟨Hst01, Hrr01, Hsp01, Hid01⟩, ⟨Hst02, Hrr02, Hsp02, Hid02⟩, ⟨Hst03, Hrr03, Hsp03, Hid03⟩, ⟨Hst10, Hrr10, Hsp10, Hid10⟩, ⟨Hst11, Hrr11, Hsp11, Hid11⟩, ⟨Hst12, Hrr12, Hsp12, Hid12⟩, ⟨Hst13, Hrr13, Hsp13, Hid13⟩, ⟨Hst20, Hrr20, Hsp20, Hid20⟩, ⟨Hst21, Hrr21, Hsp21, Hid21⟩, ⟨Hst22, Hrr22, Hsp22, Hid22⟩, ⟨Hst23, Hrr23, Hsp23, Hid23⟩⟩
  ihave Hd := (comm_deal (F := F) c) $$ Hcomm
  icases Hd with ⟨Hown, Hpeer⟩
  ihave Hown' := (Entails.of_eq (bigSep_lc _)) $$ Hown
  icases Hown' with ⟨⟨%f00, Hs00⟩, ⟨%f01, Hs01⟩, ⟨%f02, Hs02⟩, ⟨%f03, Hs03⟩, ⟨%f10, Hs10⟩, ⟨%f11, Hs11⟩, ⟨%f12, Hs12⟩, ⟨%f13, Hs13⟩, ⟨%f20, Hs20⟩, ⟨%f21, Hs21⟩, ⟨%f22, Hs22⟩, ⟨%f23, Hs23⟩⟩
  iapply (bar_block m K c (dev_eq k0_dev1_lt 1 c) (dev_eq k0_dev2_lt 2 c) (dev_eq k0_dev3_lt 3 c) (dev_eq k0_dev4_lt 4 c) (dev_eq k0_dev5_lt 5 c) (dev_eq k0_dev6_lt 6 c) (dev_eq k0_dev7_lt 7 c) (lcOrder.flatMap (paySend c)) W0) $$ [HO HtB Hpeer HcB HaB]
  · isplitr; · iexact HR
    isplitl [HO]; · iexact HO
    isplitl [HtB]; · iexact HtB
    isplitl [Hpeer]; · iexact Hpeer
    isplitl [HcB]; · iexact HcB
    isplitr; · iapply (mayWait_bar (F := F) c); iexact Hlev
    iexact HaB
  iintro ⟨HO, Hland⟩
  ihave Hland' := (Entails.of_eq (bigSep_lc _)) $$ Hland
  icases Hland' with ⟨Hl00, Hl01, Hl02, Hl03, Hl10, Hl11, Hl12, Hl13, Hl20, Hl21, Hl22, Hl23⟩
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg1_0) (Finset.subset_univ _)) $$ H1; iintro H1
  rw [read_w1]
  iapply (wp_load 𝒱₀ (c : Thread nD τ) none Set.univ (m := Memref.whole cc0_stg2_0) (Finset.subset_univ _)) $$ H2; iintro H2
  rw [read_w2]
  iapply (wp_slot_load c 0 0 0 fullShare f00) $$ Hs00; iintro Hs00
  generalize hW00 : k0_pay2 (F := F) _ _ _ = w00
  have hw00 : w00 = pack (part m 0 c 0) := by
    rw [← hW00]; rfl
  iapply (wp_own_store c 0 0 f00 w00 (part m 0 c 0) hw00) $$ Hs00; iintro Hs00
  iapply (send_block m K c 0 0 (dev_eq k0_dev8_lt 6 c) (dev_eq k0_dev9_lt 2 c) (dev_eq k0_dev10_lt 5 c) (dev_eq k0_dev11_lt 7 c) (dev_eq k0_dev12_lt 1 c) (dev_eq k0_dev13_lt 3 c) (dev_eq k0_dev14_lt 4 c) ((lcOrder.drop 1).flatMap (paySend c)) (insert (SemLoc.reg barS, ()) W0)) $$ [Hs00 Hst00 Hl00 HO]
  · iframe HR Hst00 Hl00
    isplitl [Hs00]; · iexact Hs00
    iexact HO
  iintro ⟨Hsc00, HO⟩
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg1_0) (Finset.subset_univ _)) $$ H1; iintro H1
  rw [read_w1]
  iapply (wp_load 𝒱₀ (c : Thread nD τ) none Set.univ (m := Memref.whole cc0_stg2_0) (Finset.subset_univ _)) $$ H2; iintro H2
  rw [read_w2]
  iapply (wp_slot_load c 0 1 0 fullShare f01) $$ Hs01; iintro Hs01
  generalize hW01 : k0_pay4 (F := F) _ _ _ = w01
  have hw01 : w01 = pack (part m 0 c 1) := by
    rw [← hW01]; rfl
  iapply (wp_own_store c 0 1 f01 w01 (part m 0 c 1) hw01) $$ Hs01; iintro Hs01
  iapply (send_block m K c 0 1 (dev_eq k0_dev15_lt 6 c) (dev_eq k0_dev16_lt 2 c) (dev_eq k0_dev17_lt 5 c) (dev_eq k0_dev18_lt 7 c) (dev_eq k0_dev19_lt 1 c) (dev_eq k0_dev20_lt 3 c) (dev_eq k0_dev21_lt 4 c) ((lcOrder.drop 2).flatMap (paySend c)) (insert (SemLoc.reg barS, ()) W0)) $$ [Hs01 Hst01 Hl01 HO]
  · iframe HR Hst01 Hl01
    isplitl [Hs01]; · iexact Hs01
    iexact HO
  iintro ⟨Hsc01, HO⟩
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg1_0) (Finset.subset_univ _)) $$ H1; iintro H1
  rw [read_w1]
  iapply (wp_load 𝒱₀ (c : Thread nD τ) none Set.univ (m := Memref.whole cc0_stg2_0) (Finset.subset_univ _)) $$ H2; iintro H2
  rw [read_w2]
  iapply (wp_slot_load c 0 2 0 fullShare f02) $$ Hs02; iintro Hs02
  generalize hW02 : k0_pay6 (F := F) _ _ _ = w02
  have hw02 : w02 = pack (part m 0 c 2) := by
    rw [← hW02]; rfl
  iapply (wp_own_store c 0 2 f02 w02 (part m 0 c 2) hw02) $$ Hs02; iintro Hs02
  iapply (send_block m K c 0 2 (dev_eq k0_dev22_lt 6 c) (dev_eq k0_dev23_lt 2 c) (dev_eq k0_dev24_lt 5 c) (dev_eq k0_dev25_lt 7 c) (dev_eq k0_dev26_lt 1 c) (dev_eq k0_dev27_lt 3 c) (dev_eq k0_dev28_lt 4 c) ((lcOrder.drop 3).flatMap (paySend c)) (insert (SemLoc.reg barS, ()) W0)) $$ [Hs02 Hst02 Hl02 HO]
  · iframe HR Hst02 Hl02
    isplitl [Hs02]; · iexact Hs02
    iexact HO
  iintro ⟨Hsc02, HO⟩
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg1_0) (Finset.subset_univ _)) $$ H1; iintro H1
  rw [read_w1]
  iapply (wp_load 𝒱₀ (c : Thread nD τ) none Set.univ (m := Memref.whole cc0_stg2_0) (Finset.subset_univ _)) $$ H2; iintro H2
  rw [read_w2]
  iapply (wp_slot_load c 0 3 0 fullShare f03) $$ Hs03; iintro Hs03
  generalize hW03 : k0_pay8 (F := F) _ _ _ = w03
  have hw03 : w03 = pack (part m 0 c 3) := by
    rw [← hW03]; rfl
  iapply (wp_own_store c 0 3 f03 w03 (part m 0 c 3) hw03) $$ Hs03; iintro Hs03
  iapply (send_block m K c 0 3 (dev_eq k0_dev29_lt 6 c) (dev_eq k0_dev30_lt 2 c) (dev_eq k0_dev31_lt 5 c) (dev_eq k0_dev32_lt 7 c) (dev_eq k0_dev33_lt 1 c) (dev_eq k0_dev34_lt 3 c) (dev_eq k0_dev35_lt 4 c) ((lcOrder.drop 4).flatMap (paySend c)) (insert (SemLoc.reg barS, ()) W0)) $$ [Hs03 Hst03 Hl03 HO]
  · iframe HR Hst03 Hl03
    isplitl [Hs03]; · iexact Hs03
    iexact HO
  iintro ⟨Hsc03, HO⟩
  iapply (recv_block m K c 0 0 _ (insert (SemLoc.reg barS, ()) W0) 4 (by decide) rfl) $$ [Hrr00 HO]
  · iframe # ∗
  iintro ⟨⟨%W1, HO⟩, Hrd00⟩
  iapply (wp_load 𝒱₀ (c : Thread nD τ) none Set.univ (m := Memref.whole cc0_stg3_0) (Finset.subset_univ _)) $$ H3; iintro H3
  rw [read_w3]
  iapply (wp_load 𝒱₀ (c : Thread nD τ) none Set.univ (m := Memref.whole cc0_stg4_0) (Finset.subset_univ _)) $$ H4; iintro H4
  rw [read_w4]
  iapply (wp_slot_load c 1 0 0 fullShare f10) $$ Hs10; iintro Hs10
  generalize hW10 : k0_pay14 (F := F) _ = w10
  have hw10 : w10 = pack (part m 1 c 0) := by
    rw [← hW10]; rfl
  iapply (wp_own_store c 1 0 f10 w10 (part m 1 c 0) hw10) $$ Hs10; iintro Hs10
  iapply (send_block m K c 1 0 (dev_eq k0_dev36_lt 6 c) (dev_eq k0_dev37_lt 2 c) (dev_eq k0_dev38_lt 5 c) (dev_eq k0_dev39_lt 7 c) (dev_eq k0_dev40_lt 1 c) (dev_eq k0_dev41_lt 3 c) (dev_eq k0_dev42_lt 4 c) ((lcOrder.drop 5).flatMap (paySend c)) W1) $$ [Hs10 Hst10 Hl10 HO]
  · iframe HR Hst10 Hl10
    isplitl [Hs10]; · iexact Hs10
    iexact HO
  iintro ⟨Hsc10, HO⟩
  iapply (recv_block m K c 0 1 _ W1 5 (by decide) rfl) $$ [Hrr01 HO]
  · iframe # ∗
  iintro ⟨⟨%W2, HO⟩, Hrd01⟩
  iapply (wp_load 𝒱₀ (c : Thread nD τ) none Set.univ (m := Memref.whole cc0_stg3_0) (Finset.subset_univ _)) $$ H3; iintro H3
  rw [read_w3]
  iapply (wp_load 𝒱₀ (c : Thread nD τ) none Set.univ (m := Memref.whole cc0_stg4_0) (Finset.subset_univ _)) $$ H4; iintro H4
  rw [read_w4]
  iapply (wp_slot_load c 1 1 0 fullShare f11) $$ Hs11; iintro Hs11
  generalize hW11 : k0_pay21 (F := F) _ _ _ = w11
  have hw11 : w11 = pack (part m 1 c 1) := by
    rw [← hW11]; rfl
  iapply (wp_own_store c 1 1 f11 w11 (part m 1 c 1) hw11) $$ Hs11; iintro Hs11
  iapply (send_block m K c 1 1 (dev_eq k0_dev43_lt 6 c) (dev_eq k0_dev44_lt 2 c) (dev_eq k0_dev45_lt 5 c) (dev_eq k0_dev46_lt 7 c) (dev_eq k0_dev47_lt 1 c) (dev_eq k0_dev48_lt 3 c) (dev_eq k0_dev49_lt 4 c) ((lcOrder.drop 6).flatMap (paySend c)) W2) $$ [Hs11 Hst11 Hl11 HO]
  · iframe HR Hst11 Hl11
    isplitl [Hs11]; · iexact Hs11
    iexact HO
  iintro ⟨Hsc11, HO⟩
  iapply (recv_block m K c 0 2 _ W2 6 (by decide) rfl) $$ [Hrr02 HO]
  · iframe # ∗
  iintro ⟨⟨%W3, HO⟩, Hrd02⟩
  iapply (wp_load 𝒱₀ (c : Thread nD τ) none Set.univ (m := Memref.whole cc0_stg3_0) (Finset.subset_univ _)) $$ H3; iintro H3
  rw [read_w3]
  iapply (wp_load 𝒱₀ (c : Thread nD τ) none Set.univ (m := Memref.whole cc0_stg4_0) (Finset.subset_univ _)) $$ H4; iintro H4
  rw [read_w4]
  iapply (wp_slot_load c 1 2 0 fullShare f12) $$ Hs12; iintro Hs12
  generalize hW12 : k0_pay27 (F := F) _ _ _ _ = w12
  have hw12 : w12 = pack (part m 1 c 2) := by
    rw [← hW12]; rfl
  iapply (wp_own_store c 1 2 f12 w12 (part m 1 c 2) hw12) $$ Hs12; iintro Hs12
  iapply (send_block m K c 1 2 (dev_eq k0_dev50_lt 6 c) (dev_eq k0_dev51_lt 2 c) (dev_eq k0_dev52_lt 5 c) (dev_eq k0_dev53_lt 7 c) (dev_eq k0_dev54_lt 1 c) (dev_eq k0_dev55_lt 3 c) (dev_eq k0_dev56_lt 4 c) ((lcOrder.drop 7).flatMap (paySend c)) W3) $$ [Hs12 Hst12 Hl12 HO]
  · iframe HR Hst12 Hl12
    isplitl [Hs12]; · iexact Hs12
    iexact HO
  iintro ⟨Hsc12, HO⟩
  iapply (recv_block m K c 0 3 _ W3 7 (by decide) rfl) $$ [Hrr03 HO]
  · iframe # ∗
  iintro ⟨⟨%W4, HO⟩, Hrd03⟩
  iapply (wp_load 𝒱₀ (c : Thread nD τ) none Set.univ (m := Memref.whole cc0_stg3_0) (Finset.subset_univ _)) $$ H3; iintro H3
  rw [read_w3]
  iapply (wp_load 𝒱₀ (c : Thread nD τ) none Set.univ (m := Memref.whole cc0_stg4_0) (Finset.subset_univ _)) $$ H4; iintro H4
  rw [read_w4]
  iapply (wp_slot_load c 1 3 0 fullShare f13) $$ Hs13; iintro Hs13
  generalize hW13 : k0_pay33 (F := F) _ _ _ _ = w13
  have hw13 : w13 = pack (part m 1 c 3) := by
    rw [← hW13]; rfl
  iapply (wp_own_store c 1 3 f13 w13 (part m 1 c 3) hw13) $$ Hs13; iintro Hs13
  iapply (send_block m K c 1 3 (dev_eq k0_dev57_lt 6 c) (dev_eq k0_dev58_lt 2 c) (dev_eq k0_dev59_lt 5 c) (dev_eq k0_dev60_lt 7 c) (dev_eq k0_dev61_lt 1 c) (dev_eq k0_dev62_lt 3 c) (dev_eq k0_dev63_lt 4 c) ((lcOrder.drop 8).flatMap (paySend c)) W4) $$ [Hs13 Hst13 Hl13 HO]
  · iframe HR Hst13 Hl13
    isplitl [Hs13]; · iexact Hs13
    iexact HO
  iintro ⟨Hsc13, HO⟩
  iapply (recv_block m K c 1 0 _ W4 8 (by decide) rfl) $$ [Hrr10 HO]
  · iframe # ∗
  iintro ⟨⟨%W5, HO⟩, Hrd10⟩
  iapply (wp_load 𝒱₀ (c : Thread nD τ) none Set.univ (m := Memref.whole cc0_stg5_0) (Finset.subset_univ _)) $$ H5; iintro H5
  rw [read_w5]
  iapply (wp_load 𝒱₀ (c : Thread nD τ) none Set.univ (m := Memref.whole cc0_stg6_0) (Finset.subset_univ _)) $$ H6; iintro H6
  rw [read_w6]
  iapply (wp_slot_load c 2 0 0 fullShare f20) $$ Hs20; iintro Hs20
  generalize hW20 : k0_pay41 (F := F) _ = w20
  have hw20 : w20 = pack (part m 2 c 0) := by
    rw [← hW20]; rfl
  iapply (wp_own_store c 2 0 f20 w20 (part m 2 c 0) hw20) $$ Hs20; iintro Hs20
  iapply (send_block m K c 2 0 (dev_eq k0_dev64_lt 6 c) (dev_eq k0_dev65_lt 2 c) (dev_eq k0_dev66_lt 5 c) (dev_eq k0_dev67_lt 7 c) (dev_eq k0_dev68_lt 1 c) (dev_eq k0_dev69_lt 3 c) (dev_eq k0_dev70_lt 4 c) ((lcOrder.drop 9).flatMap (paySend c)) W5) $$ [Hs20 Hst20 Hl20 HO]
  · iframe HR Hst20 Hl20
    isplitl [Hs20]; · iexact Hs20
    iexact HO
  iintro ⟨Hsc20, HO⟩
  iapply (recv_block m K c 1 1 _ W5 9 (by decide) rfl) $$ [Hrr11 HO]
  · iframe # ∗
  iintro ⟨⟨%W6, HO⟩, Hrd11⟩
  iapply (wp_load 𝒱₀ (c : Thread nD τ) none Set.univ (m := Memref.whole cc0_stg5_0) (Finset.subset_univ _)) $$ H5; iintro H5
  rw [read_w5]
  iapply (wp_load 𝒱₀ (c : Thread nD τ) none Set.univ (m := Memref.whole cc0_stg6_0) (Finset.subset_univ _)) $$ H6; iintro H6
  rw [read_w6]
  iapply (wp_slot_load c 2 1 0 fullShare f21) $$ Hs21; iintro Hs21
  generalize hW21 : k0_pay48 (F := F) _ _ _ = w21
  have hw21 : w21 = pack (part m 2 c 1) := by
    rw [← hW21]; rfl
  iapply (wp_own_store c 2 1 f21 w21 (part m 2 c 1) hw21) $$ Hs21; iintro Hs21
  iapply (send_block m K c 2 1 (dev_eq k0_dev71_lt 6 c) (dev_eq k0_dev72_lt 2 c) (dev_eq k0_dev73_lt 5 c) (dev_eq k0_dev74_lt 7 c) (dev_eq k0_dev75_lt 1 c) (dev_eq k0_dev76_lt 3 c) (dev_eq k0_dev77_lt 4 c) ((lcOrder.drop 10).flatMap (paySend c)) W6) $$ [Hs21 Hst21 Hl21 HO]
  · iframe HR Hst21 Hl21
    isplitl [Hs21]; · iexact Hs21
    iexact HO
  iintro ⟨Hsc21, HO⟩
  iapply (recv_block m K c 1 2 _ W6 10 (by decide) rfl) $$ [Hrr12 HO]
  · iframe # ∗
  iintro ⟨⟨%W7, HO⟩, Hrd12⟩
  iapply (wp_load 𝒱₀ (c : Thread nD τ) none Set.univ (m := Memref.whole cc0_stg5_0) (Finset.subset_univ _)) $$ H5; iintro H5
  rw [read_w5]
  iapply (wp_load 𝒱₀ (c : Thread nD τ) none Set.univ (m := Memref.whole cc0_stg6_0) (Finset.subset_univ _)) $$ H6; iintro H6
  rw [read_w6]
  iapply (wp_slot_load c 2 2 0 fullShare f22) $$ Hs22; iintro Hs22
  generalize hW22 : k0_pay54 (F := F) _ _ _ _ = w22
  have hw22 : w22 = pack (part m 2 c 2) := by
    rw [← hW22]; rfl
  iapply (wp_own_store c 2 2 f22 w22 (part m 2 c 2) hw22) $$ Hs22; iintro Hs22
  iapply (send_block m K c 2 2 (dev_eq k0_dev78_lt 6 c) (dev_eq k0_dev79_lt 2 c) (dev_eq k0_dev80_lt 5 c) (dev_eq k0_dev81_lt 7 c) (dev_eq k0_dev82_lt 1 c) (dev_eq k0_dev83_lt 3 c) (dev_eq k0_dev84_lt 4 c) ((lcOrder.drop 11).flatMap (paySend c)) W7) $$ [Hs22 Hst22 Hl22 HO]
  · iframe HR Hst22 Hl22
    isplitl [Hs22]; · iexact Hs22
    iexact HO
  iintro ⟨Hsc22, HO⟩
  iapply (recv_block m K c 1 3 _ W7 11 (by decide) rfl) $$ [Hrr13 HO]
  · iframe # ∗
  iintro ⟨⟨%W8, HO⟩, Hrd13⟩
  iapply (wp_load 𝒱₀ (c : Thread nD τ) none Set.univ (m := Memref.whole cc0_stg5_0) (Finset.subset_univ _)) $$ H5; iintro H5
  rw [read_w5]
  iapply (wp_load 𝒱₀ (c : Thread nD τ) none Set.univ (m := Memref.whole cc0_stg6_0) (Finset.subset_univ _)) $$ H6; iintro H6
  rw [read_w6]
  iapply (wp_slot_load c 2 3 0 fullShare f23) $$ Hs23; iintro Hs23
  generalize hW23 : k0_pay60 (F := F) _ _ _ _ = w23
  have hw23 : w23 = pack (part m 2 c 3) := by
    rw [← hW23]; rfl
  iapply (wp_own_store c 2 3 f23 w23 (part m 2 c 3) hw23) $$ Hs23; iintro Hs23
  iapply (send_block m K c 2 3 (dev_eq k0_dev85_lt 6 c) (dev_eq k0_dev86_lt 2 c) (dev_eq k0_dev87_lt 5 c) (dev_eq k0_dev88_lt 7 c) (dev_eq k0_dev89_lt 1 c) (dev_eq k0_dev90_lt 3 c) (dev_eq k0_dev91_lt 4 c) ((lcOrder.drop 12).flatMap (paySend c)) W8) $$ [Hs23 Hst23 Hl23 HO]
  · iframe HR Hst23 Hl23
    isplitl [Hs23]; · iexact Hs23
    iexact HO
  iintro ⟨Hsc23, HO⟩
  iapply (recv_block m K c 2 0 _ W8 12 (by decide) rfl) $$ [Hrr20 HO]
  · iframe # ∗
  iintro ⟨⟨%W9, HO⟩, Hrd20⟩
  iapply (wp_load 𝒱₀ (c : Thread nD τ) none Set.univ (m := Memref.whole cc0_stg7_0) (Finset.subset_univ _)) $$ H7; iintro H7
  generalize hA0 : k0_pay65 (F := F) _ _ = a0
  have ha0 : a0 = act m 3 c 0 := by
    rw [← hA0]; rfl
  iapply (wp_store 𝒱₀ (c : Thread nD τ) none Set.univ (m := Memref.whole cc0_stg7_0) (r := chunkR 0) (Mk := Finset.univ) (Finset.subset_univ _)) $$ H7; iintro H7
  iapply (recv_block m K c 2 1 _ W9 13 (by decide) rfl) $$ [Hrr21 HO]
  · iframe # Hrr21
    iexact HO
  iintro ⟨⟨%W10, HO⟩, Hrd21⟩
  iapply (wp_load 𝒱₀ (c : Thread nD τ) none Set.univ (m := Memref.whole cc0_stg7_0) (Finset.subset_univ _)) $$ H7; iintro H7
  generalize hA1 : k0_pay70 (F := F) _ _ _ = a1
  have ha1 : a1 = act m 3 c 1 := by
    rw [← hA1]; rfl
  iapply (wp_store 𝒱₀ (c : Thread nD τ) none Set.univ (m := Memref.whole cc0_stg7_0) (r := chunkR 1) (Mk := Finset.univ) (Finset.subset_univ _)) $$ H7; iintro H7
  iapply (recv_block m K c 2 2 _ W10 14 (by decide) rfl) $$ [Hrr22 HO]
  · iframe # Hrr22
    iexact HO
  iintro ⟨⟨%W11, HO⟩, Hrd22⟩
  iapply (wp_load 𝒱₀ (c : Thread nD τ) none Set.univ (m := Memref.whole cc0_stg7_0) (Finset.subset_univ _)) $$ H7; iintro H7
  generalize hA2 : k0_pay75 (F := F) _ _ = a2
  have ha2 : a2 = act m 3 c 2 := by
    rw [← hA2]; rfl
  iapply (wp_store 𝒱₀ (c : Thread nD τ) none Set.univ (m := Memref.whole cc0_stg7_0) (r := chunkR 2) (Mk := Finset.univ) (Finset.subset_univ _)) $$ H7; iintro H7
  iapply (recv_block m K c 2 3 _ W11 15 (by decide) rfl) $$ [Hrr23 HO]
  · iframe # Hrr23
    iexact HO
  iintro ⟨⟨%W12, HO⟩, Hrd23⟩
  iapply (wp_load 𝒱₀ (c : Thread nD τ) none Set.univ (m := Memref.whole cc0_stg7_0) (Finset.subset_univ _)) $$ H7; iintro H7
  generalize hA3 : k0_pay80 (F := F) _ _ = a3
  have ha3 : a3 = act m 3 c 3 := by
    rw [← hA3]; rfl
  iapply (wp_store 𝒱₀ (c : Thread nD τ) none Set.univ (m := Memref.whole cc0_stg7_0) (r := chunkR 3) (Mk := Finset.univ) (Finset.subset_univ _)) $$ H7; iintro H7
  subst ha0 ha1 ha2 ha3
  iapply (sendwait_block m K c 0 0 W12) $$ [Hsc00 Hsp00 HO]
  · isplitr; · iexact HR
    isplitl [Hsc00]; · iexact Hsc00
    isplitl [Hsp00]; · iexact Hsp00
    iexact HO
  iintro ⟨⟨%W13, HO⟩, Hsd00⟩
  iapply (sendwait_block m K c 0 1 W13) $$ [Hsc01 Hsp01 HO]
  · iframe # ∗
  iintro ⟨⟨%W14, HO⟩, Hsd01⟩
  iapply (sendwait_block m K c 0 2 W14) $$ [Hsc02 Hsp02 HO]
  · iframe # ∗
  iintro ⟨⟨%W15, HO⟩, Hsd02⟩
  iapply (sendwait_block m K c 0 3 W15) $$ [Hsc03 Hsp03 HO]
  · iframe # ∗
  iintro ⟨⟨%W16, HO⟩, Hsd03⟩
  iapply (sendwait_block m K c 1 0 W16) $$ [Hsc10 Hsp10 HO]
  · iframe # ∗
  iintro ⟨⟨%W17, HO⟩, Hsd10⟩
  iapply (sendwait_block m K c 1 1 W17) $$ [Hsc11 Hsp11 HO]
  · iframe # ∗
  iintro ⟨⟨%W18, HO⟩, Hsd11⟩
  iapply (sendwait_block m K c 1 2 W18) $$ [Hsc12 Hsp12 HO]
  · iframe # ∗
  iintro ⟨⟨%W19, HO⟩, Hsd12⟩
  iapply (sendwait_block m K c 1 3 W19) $$ [Hsc13 Hsp13 HO]
  · iframe # ∗
  iintro ⟨⟨%W20, HO⟩, Hsd13⟩
  iapply (sendwait_block m K c 2 0 W20) $$ [Hsc20 Hsp20 HO]
  · iframe # ∗
  iintro ⟨⟨%W21, HO⟩, Hsd20⟩
  iapply (sendwait_block m K c 2 1 W21) $$ [Hsc21 Hsp21 HO]
  · iframe # ∗
  iintro ⟨⟨%W22, HO⟩, Hsd21⟩
  iapply (sendwait_block m K c 2 2 W22) $$ [Hsc22 Hsp22 HO]
  · iframe # ∗
  iintro ⟨⟨%W23, HO⟩, Hsd22⟩
  iapply (sendwait_block m K c 2 3 W23) $$ [Hsc23 Hsp23 HO]
  · iframe # ∗
  iintro ⟨⟨%W24, HO⟩, Hsd23⟩
  ihave He := (end_regroup m c) $$ [Hrd00 Hsd00 Hid00 Hrd01 Hsd01 Hid01 Hrd02 Hsd02 Hid02 Hrd03 Hsd03 Hid03 Hrd10 Hsd10 Hid10 Hrd11 Hsd11 Hid11 Hrd12 Hsd12 Hid12 Hrd13 Hsd13 Hid13 Hrd20 Hsd20 Hid20 Hrd21 Hsd21 Hid21 Hrd22 Hsd22 Hid22 Hrd23 Hsd23 Hid23]
  · rw [bigSep_lc]; iframe
  icases He with ⟨Hpos, Hsps, Hrps⟩
  imod (close_all m K c) $$ [Hpos] with Hz
  · iframe # ∗
  ihave Hcomm := (comm_collect m c) $$ [Hsps Hrps]
  · iframe # ∗
  rw [wp_ret]; imodintro
  iapply Hk
  unfold bodyPost Φ₁ Dat.owesAt Pipeline.owesWithin
  rw [show (dats m ρ 0 c).owed t0_0.succ = 0 from rfl]
  isplitl [Hcomm Hz]
  · isplitl [Hcomm]; · iexact Hcomm
    iexact Hz
  isplitl [HO]
  · iexists W24
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  isplitl [H5]
  · iexists _; isplitr; · (ipureintro; rfl)
    iexact H5
  isplitl [H6]
  · iexists _; isplitr; · (ipureintro; rfl)
    iexact H6
  iexists _; isplitr; · (ipureintro; exact out_writes_act m c g7)
  iexact H7

end Cert.KernelIdeal.Hand

end
-- ==== Proof.Arr.lean ====
import proofs.«900998_g7700000000000999_dist_mlpseq_tp1d_rep_rep_b128_d128_h256_v7x_i8_f32_1_alg».proof.Proof.Ghost
import Idealize.ShloMosaic.Lib.Pipeline.Cells
import Idealize.ShloMosaic.Lib.Pipeline.Frame
import proofs.«900998_g7700000000000999_dist_mlpseq_tp1d_rep_rep_b128_d128_h256_v7x_i8_f32_1_alg».proof.Proof.Gen.KernelIdeal.Points

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ)

theorem arrAt_result (c : Dev nD) (dat : Dat τ (Elt F) Unit ℕ UU ℕ cfg0 c)
    (hafter : ∀ t, dat.after 7 t = outStg m c) :
    dat.arrAt 7 cfg0.N = (show Buf (Elt F) ((cfg0.win 7).arr.view.loc (c : Thread nD τ)) from outStg m c) := by
  have hs := dat.arrAt_succ 7 t0_0
  rw [flush0_7 t0_0, if_pos rfl] at hs
  refine Eq.trans hs ?_
  have hfl : dat.flushed 7 t0_0 = outStg m c := hafter t0_0
  rw [hfl]
  exact Memref.write_access_unit_zero_univ (Elt F) main_v1 (funext fun a => Nat.zero_mul _) _ _ _

theorem arrAt_input (c : Dev nD) (dat : Dat τ (Elt F) Unit ℕ UU ℕ cfg0 c) (w : Fin cfg0.W) (hw : w ≠ 7) :
    dat.arrAt w cfg0.N = dat.A w := by
  have hin : (cfg0.win w).isOut = false := by
    revert w; decide
  exact dat.arrAt_in w hin _

end Cert.KernelIdeal.Hand

end
-- ==== Proof.KOps.lean ====
import proofs.«900998_g7700000000000999_dist_mlpseq_tp1d_rep_rep_b128_d128_h256_v7x_i8_f32_1_alg».proof.Proof.Vals
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

theorem lhs_hid_0 (i : S32x256.Idx) (q : dot_S32x128_S128x256_S32x256_1_0_0_1_n_n.contr.Idx) :
    (dot_S32x128_S128x256_S32x256_1_0_0_1_n_n.lhsIdx i q 0).val = (i 0).val := by
  unfold DotDims.lhsIdx
  rw [dif_neg (show ¬(0 : Fin S32x128.rank) ∈ dot_S32x128_S128x256_S32x256_1_0_0_1_n_n.lhsBatch by decide), dif_pos (show (0 : Fin S32x128.rank) ∈ dot_S32x128_S128x256_S32x256_1_0_0_1_n_n.lhsNonContracting by decide)]
  rfl
theorem lhs_hid_1 (i : S32x256.Idx) (q : dot_S32x128_S128x256_S32x256_1_0_0_1_n_n.contr.Idx) :
    (dot_S32x128_S128x256_S32x256_1_0_0_1_n_n.lhsIdx i q 1).val = (q ⟨0, by decide⟩).val :=
  dot_S32x128_S128x256_S32x256_1_0_0_1_n_n.lhsIdx_val_of_single rfl i q
theorem rhs_hid_0 (i : S32x256.Idx) (q : dot_S32x128_S128x256_S32x256_1_0_0_1_n_n.contr.Idx) :
    (dot_S32x128_S128x256_S32x256_1_0_0_1_n_n.rhsIdx i q 0).val = (q ⟨0, by decide⟩).val :=
  dot_S32x128_S128x256_S32x256_1_0_0_1_n_n.rhsIdx_val_of_single rfl i q
theorem rhs_hid_1 (i : S32x256.Idx) (q : dot_S32x128_S128x256_S32x256_1_0_0_1_n_n.contr.Idx) :
    (dot_S32x128_S128x256_S32x256_1_0_0_1_n_n.rhsIdx i q 1).val = (i 1).val := by
  unfold DotDims.rhsIdx
  rw [dif_neg (show ¬(1 : Fin S128x256.rank) ∈ dot_S32x128_S128x256_S32x256_1_0_0_1_n_n.rhsBatch by decide), dif_pos (show (1 : Fin S128x256.rank) ∈ dot_S32x128_S128x256_S32x256_1_0_0_1_n_n.rhsNonContracting by decide)]
  rfl

theorem hid_apply (x : FVec Ideal S32x128 .f32) (y : FVec Ideal S128x256 .f32) (r : Fin 32) (t : Fin 256) :
    (show EReal from matmul (F := Ideal) dot_S32x128_S128x256_S32x256_1_0_0_1_n_n none x y (constant S32x256 .f32 0x00000000#32) (ix2 r t))
      = ∑ k : Fin 128, (show EReal from x (ix2 r k)) * (show EReal from y (ix2 k t)) := by
  refine (Ideal.matmul_constant_zero_apply dot_S32x128_S128x256_S32x256_1_0_0_1_n_n none x y (ix2 r t)).trans ?_
  rw [← Equiv.sum_comp (contrEquiv1 dot_S32x128_S128x256_S32x256_1_0_0_1_n_n 128 rfl rfl).symm]
  refine Finset.sum_congr rfl fun k _ => ?_
  have hk := contrEquiv1_symm_val dot_S32x128_S128x256_S32x256_1_0_0_1_n_n 128 rfl rfl k
  have el : dot_S32x128_S128x256_S32x256_1_0_0_1_n_n.lhsIdx (ix2 r t) ((contrEquiv1 dot_S32x128_S128x256_S32x256_1_0_0_1_n_n 128 rfl rfl).symm k) = ix2 r k := funext fun a => Fin.ext (by
    match a with
    | ⟨0, _⟩ => exact lhs_hid_0 _ _
    | ⟨1, _⟩ => exact (lhs_hid_1 _ _).trans hk)
  have er : dot_S32x128_S128x256_S32x256_1_0_0_1_n_n.rhsIdx (ix2 r t) ((contrEquiv1 dot_S32x128_S128x256_S32x256_1_0_0_1_n_n 128 rfl rfl).symm k) = ix2 k t := funext fun a => Fin.ext (by
    match a with
    | ⟨0, _⟩ => exact (rhs_hid_0 _ _).trans hk
    | ⟨1, _⟩ => exact rhs_hid_1 _ _)
  rw [el, er]

theorem lhs_out_0 (i : S32x128.Idx) (q : dot_S32x256_S256x128_S32x128_1_0_0_1_n_n.contr.Idx) :
    (dot_S32x256_S256x128_S32x128_1_0_0_1_n_n.lhsIdx i q 0).val = (i 0).val := by
  unfold DotDims.lhsIdx
  rw [dif_neg (show ¬(0 : Fin S32x256.rank) ∈ dot_S32x256_S256x128_S32x128_1_0_0_1_n_n.lhsBatch by decide), dif_pos (show (0 : Fin S32x256.rank) ∈ dot_S32x256_S256x128_S32x128_1_0_0_1_n_n.lhsNonContracting by decide)]
  rfl
theorem lhs_out_1 (i : S32x128.Idx) (q : dot_S32x256_S256x128_S32x128_1_0_0_1_n_n.contr.Idx) :
    (dot_S32x256_S256x128_S32x128_1_0_0_1_n_n.lhsIdx i q 1).val = (q ⟨0, by decide⟩).val :=
  dot_S32x256_S256x128_S32x128_1_0_0_1_n_n.lhsIdx_val_of_single rfl i q
theorem rhs_out_0 (i : S32x128.Idx) (q : dot_S32x256_S256x128_S32x128_1_0_0_1_n_n.contr.Idx) :
    (dot_S32x256_S256x128_S32x128_1_0_0_1_n_n.rhsIdx i q 0).val = (q ⟨0, by decide⟩).val :=
  dot_S32x256_S256x128_S32x128_1_0_0_1_n_n.rhsIdx_val_of_single rfl i q
theorem rhs_out_1 (i : S32x128.Idx) (q : dot_S32x256_S256x128_S32x128_1_0_0_1_n_n.contr.Idx) :
    (dot_S32x256_S256x128_S32x128_1_0_0_1_n_n.rhsIdx i q 1).val = (i 1).val := by
  unfold DotDims.rhsIdx
  rw [dif_neg (show ¬(1 : Fin S256x128.rank) ∈ dot_S32x256_S256x128_S32x128_1_0_0_1_n_n.rhsBatch by decide), dif_pos (show (1 : Fin S256x128.rank) ∈ dot_S32x256_S256x128_S32x128_1_0_0_1_n_n.rhsNonContracting by decide)]
  rfl

theorem out_apply (x : FVec Ideal S32x256 .f32) (y : FVec Ideal S256x128 .f32) (r : Fin 32) (t : Fin 128) :
    (show EReal from matmul (F := Ideal) dot_S32x256_S256x128_S32x128_1_0_0_1_n_n none x y (constant S32x128 .f32 0x00000000#32) (ix2 r t))
      = ∑ k : Fin 256, (show EReal from x (ix2 r k)) * (show EReal from y (ix2 k t)) := by
  refine (Ideal.matmul_constant_zero_apply dot_S32x256_S256x128_S32x128_1_0_0_1_n_n none x y (ix2 r t)).trans ?_
  rw [← Equiv.sum_comp (contrEquiv1 dot_S32x256_S256x128_S32x128_1_0_0_1_n_n 256 rfl rfl).symm]
  refine Finset.sum_congr rfl fun k _ => ?_
  have hk := contrEquiv1_symm_val dot_S32x256_S256x128_S32x128_1_0_0_1_n_n 256 rfl rfl k
  have el : dot_S32x256_S256x128_S32x128_1_0_0_1_n_n.lhsIdx (ix2 r t) ((contrEquiv1 dot_S32x256_S256x128_S32x128_1_0_0_1_n_n 256 rfl rfl).symm k) = ix2 r k := funext fun a => Fin.ext (by
    match a with
    | ⟨0, _⟩ => exact lhs_out_0 _ _
    | ⟨1, _⟩ => exact (lhs_out_1 _ _).trans hk)
  have er : dot_S32x256_S256x128_S32x128_1_0_0_1_n_n.rhsIdx (ix2 r t) ((contrEquiv1 dot_S32x256_S256x128_S32x128_1_0_0_1_n_n 256 rfl rfl).symm k) = ix2 k t := funext fun a => Fin.ext (by
    match a with
    | ⟨0, _⟩ => exact (rhs_out_0 _ _).trans hk
    | ⟨1, _⟩ => exact rhs_out_1 _ _)
  rw [el, er]

theorem mlp'_apply (a : Vec Ideal S32x128 .f32) (wi : Vec Ideal S128x256 .f32) (wo : Vec Ideal S256x128 .f32) (r : Fin 32) (q : Fin 128) :
    (show EReal from mlp' (F := Ideal) a wi wo (ix2 r q))
      = ∑ t : Fin 256, max (∑ j : Fin 128, (show EReal from a (ix2 r j)) * (show EReal from wi (ix2 j t))) 0 * (show EReal from wo (ix2 t q)) := by
  unfold mlp'
  rw [shapeCast_self, shapeCast_self]
  refine (out_apply _ wo r q).trans ?_
  refine Finset.sum_congr rfl fun t _ => ?_
  congr 1
  show max (show EReal from matmul (F := Ideal) dot_S32x128_S128x256_S32x256_1_0_0_1_n_n none a wi (constant S32x256 .f32 0x00000000#32) (ix2 r t)) (Ideal.ofBits .f32 0x00000000#32) = _
  rw [hid_apply, Ideal.ofBits_zero_f32]

theorem mlp_apply (a : Vec Ideal S32x128 .f32) (wi : Vec Ideal S128x256 .f32) (wo : Vec Ideal S256x128 .f32) (r : Fin 32) (q : Fin 128) :
    (show EReal from mlp (F := Ideal) a wi wo (ix2 r q))
      = ∑ t : Fin 256, max (∑ j : Fin 128, (show EReal from a (ix2 r j)) * (show EReal from wi (ix2 j t))) 0 * (show EReal from wo (ix2 t q)) := by
  rw [mlp_eq_mlp', shapeCast_self]
  exact mlp'_apply a wi wo r q

theorem lay_apply (l : ℕ) (a : Vec Ideal S32x128 .f32) (wi : Vec Ideal S128x256 .f32) (wo : Vec Ideal S256x128 .f32) (r : Fin 32) (q : Fin 128) :
    (show EReal from lay (F := Ideal) l a wi wo (ix2 r q))
      = ∑ t : Fin 256, max (∑ j : Fin 128, (show EReal from a (ix2 r j)) * (show EReal from wi (ix2 j t))) 0 * (show EReal from wo (ix2 t q)) := by
  cases l with
  | zero => exact mlp_apply a wi wo r q
  | succ n => exact mlp'_apply a wi wo r q

theorem unpackAdd_pack_apply (a p : FVec Ideal S32x128 .f32) (r : Fin 32) (q : Fin 128) :
    (show EReal from unpackAdd (F := Ideal) a (pack p) (ix2 r q)) = (show EReal from a (ix2 r q)) + (show EReal from p (ix2 r q)) := by
  unfold unpackAdd pack
  rw [shapeCast_shapeCast]
  rfl

variable {F : FTy → Type} [FloatOps F]
variable (m : (ℓ : Loc nD τ sig) → Buf (Elt F) ℓ)

theorem iblk_arg0 (c : Dev nD) : iblk m c 0 t0_0 = m ((c : Thread nD τ).loc main_arg0) := by
  unfold iblk
  exact Memref.read_access_unit_zero (Elt F) main_arg0 (funext fun _ => Nat.zero_mul _) _ _
theorem iblk_arg1 (c : Dev nD) : iblk m c 1 t0_0 = m ((c : Thread nD τ).loc main_arg1) := by
  unfold iblk
  exact Memref.read_access_unit_zero (Elt F) main_arg1 (funext fun _ => Nat.zero_mul _) _ _
theorem iblk_arg2 (c : Dev nD) : iblk m c 2 t0_0 = m ((c : Thread nD τ).loc main_arg2) := by
  unfold iblk
  exact Memref.read_access_unit_zero (Elt F) main_arg2 (funext fun _ => Nat.zero_mul _) _ _
theorem iblk_arg3 (c : Dev nD) : iblk m c 3 t0_0 = m ((c : Thread nD τ).loc main_arg3) := by
  unfold iblk
  exact Memref.read_access_unit_zero (Elt F) main_arg3 (funext fun _ => Nat.zero_mul _) _ _
theorem iblk_arg4 (c : Dev nD) : iblk m c 4 t0_0 = m ((c : Thread nD τ).loc main_arg4) := by
  unfold iblk
  exact Memref.read_access_unit_zero (Elt F) main_arg4 (funext fun _ => Nat.zero_mul _) _ _
theorem iblk_arg5 (c : Dev nD) : iblk m c 5 t0_0 = m ((c : Thread nD τ).loc main_arg5) := by
  unfold iblk
  exact Memref.read_access_unit_zero (Elt F) main_arg5 (funext fun _ => Nat.zero_mul _) _ _
theorem iblk_arg6 (c : Dev nD) : iblk m c 6 t0_0 = m ((c : Thread nD τ).loc main_arg6) := by
  unfold iblk
  exact Memref.read_access_unit_zero (Elt F) main_arg6 (funext fun _ => Nat.zero_mul _) _ _

theorem chunkR_idx (ch : Fin 4) (r : Fin 32) (q : Fin 128) :
    (chunkR ch).toLoadRect.idx (ix2 r q)
      = ix2 (n0 := 128) (n1 := 128) ⟨32 * ch.val + r.val, by have := ch.isLt; have := r.isLt; omega⟩ q := by
  funext a
  refine Fin.ext ?_
  match a with
  | ⟨0, _⟩ => show 32 * ch.val + 1 * r.val = 32 * ch.val + r.val; omega
  | ⟨1, _⟩ => show 0 + 1 * q.val = q.val; omega

theorem xin_apply (c : Dev nD) (ch : Fin 4) (r : Fin 32) (q : Fin 128) :
    xin m c ch (ix2 r q)
      = m ((c : Thread nD τ).loc main_arg0) (ix2 (n0 := 128) (n1 := 128) ⟨32 * ch.val + r.val, by have := ch.isLt; have := r.isLt; omega⟩ q) := by
  unfold xin
  rw [iblk_arg0, View.readAt_apply]
  exact congrArg (m ((c : Thread nD τ).loc main_arg0)) (chunkR_idx ch r q)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx in

def cur {n0 n1 : ℕ} (X : (⟨2, ![n0, n1]⟩ : Idealize.ShloMosaic.Shape).Idx → Idealize.ShloMosaic.Elt Idealize.ShloMosaic.Ideal .f32) : Fin n0 → Fin n1 → EReal :=
  fun r q => (show EReal from X (Idealize.ShloMosaic.ValueIdx.ix2 r q))

def layer (a : Fin 128 → Fin 128 → EReal) (W : Fin 128 → Fin 2048 → EReal) (V : Fin 2048 → Fin 128 → EReal) :
    Fin 128 → Fin 128 → EReal :=
  fun r q => ∑ k : Fin 2048, max (∑ j : Fin 128, a r j * W j k) 0 * V k q

def net (x : Fin 128 → Fin 128 → EReal)
    (W0 : Fin 128 → Fin 2048 → EReal) (V0 : Fin 2048 → Fin 128 → EReal)
    (W1 : Fin 128 → Fin 2048 → EReal) (V1 : Fin 2048 → Fin 128 → EReal)
    (W2 : Fin 128 → Fin 2048 → EReal) (V2 : Fin 2048 → Fin 128 → EReal) : Fin 128 → Fin 128 → EReal :=
  layer (layer (layer x W0 V0) W1 V1) W2 V2

def hid (p : Fin 8) (t : Fin 256) : Fin 2048 := ⟨256 * p.val + t.val, by have := p.isLt; have := t.isLt; omega⟩

theorem layer_blocks (a : Fin 128 → Fin 128 → EReal) (W : Fin 128 → Fin 2048 → EReal) (V : Fin 2048 → Fin 128 → EReal)
    (r q : Fin 128) :
    layer a W V r q = ∑ p : Fin 8, ∑ t : Fin 256, max (∑ j : Fin 128, a r j * W j (hid p t)) 0 * V (hid p t) q := by
  have hbij : Function.Bijective (fun x : Fin 8 × Fin 256 => hid x.1 x.2) := by
    rw [Fintype.bijective_iff_injective_and_card]
    refine ⟨?_, by simp⟩
    rintro ⟨p, t⟩ ⟨p', t'⟩ h
    have h' : 256 * p.val + t.val = 256 * p'.val + t'.val := congrArg Fin.val h
    have := t.isLt
    have := t'.isLt
    have hp : p = p' := Fin.ext (by omega)
    have ht : t = t' := Fin.ext (by omega)
    rw [hp, ht]
  unfold layer
  rw [← Fintype.sum_prod_type']
  exact (Fintype.sum_bijective _ hbij _ _ (fun x => rfl)).symm

end Cert.Spec

end
-- ==== Proof.KValue.lean ====
import proofs.«900998_g7700000000000999_dist_mlpseq_tp1d_rep_rep_b128_d128_h256_v7x_i8_f32_1_alg».proof.Proof.KOps
import proofs.«900998_g7700000000000999_dist_mlpseq_tp1d_rep_rep_b128_d128_h256_v7x_i8_f32_1_alg».proof.Proof.Spec
import Idealize.ShloMosaic.Lib.Layout

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

def row (ch : Fin 4) (r : Fin 32) : Fin 128 := ⟨32 * ch.val + r.val, by have := ch.isLt; have := r.isLt; omega⟩

section Net

variable (X : (⟨2, ![128, 128]⟩ : Shape).Idx → Elt Ideal .f32)
  (W0 : (⟨2, ![128, 2048]⟩ : Shape).Idx → Elt Ideal .f32) (V0 : (⟨2, ![2048, 128]⟩ : Shape).Idx → Elt Ideal .f32)
  (W1 : (⟨2, ![128, 2048]⟩ : Shape).Idx → Elt Ideal .f32) (V1 : (⟨2, ![2048, 128]⟩ : Shape).Idx → Elt Ideal .f32)
  (W2 : (⟨2, ![128, 2048]⟩ : Shape).Idx → Elt Ideal .f32) (V2 : (⟨2, ![2048, 128]⟩ : Shape).Idx → Elt Ideal .f32)

def WN : ℕ → Fin 128 → Fin 2048 → EReal
  | 0 => Cert.Spec.cur W0
  | 1 => Cert.Spec.cur W1
  | _ => Cert.Spec.cur W2

def VN : ℕ → Fin 2048 → Fin 128 → EReal
  | 0 => Cert.Spec.cur V0
  | 1 => Cert.Spec.cur V1
  | _ => Cert.Spec.cur V2

def A : ℕ → Fin 128 → Fin 128 → EReal
  | 0 => Cert.Spec.cur X
  | l + 1 => Cert.Spec.layer (A l) (WN W0 W1 W2 l) (VN V0 V1 V2 l)

end Net

theorem colBlock_apply (W : (⟨2, ![128, 2048]⟩ : Shape).Idx → Elt Ideal .f32) (d : Fin 8) (j : Fin 128) (t : Fin 256) :
    (Layout.block ⟨2, ![128, 256]⟩ ⟨2, ![128, 2048]⟩ 1 8 d W) (ix2 j t) = W (ix2 j (Cert.Spec.hid d t)) := by
  rw [Layout.block_apply]
  congr 1
  funext a
  match a with
  | ⟨0, _⟩ => rfl
  | ⟨1, _⟩ =>
    apply Fin.ext
    show d.val * 256 + t.val = 256 * d.val + t.val
    omega

theorem rowBlock_apply (V : (⟨2, ![2048, 128]⟩ : Shape).Idx → Elt Ideal .f32) (d : Fin 8) (t : Fin 256) (q : Fin 128) :
    (Layout.block ⟨2, ![256, 128]⟩ ⟨2, ![2048, 128]⟩ 0 8 d V) (ix2 t q) = V (ix2 (Cert.Spec.hid d t) q) := by
  rw [Layout.block_apply]
  congr 1
  funext a
  match a with
  | ⟨0, _⟩ =>
    apply Fin.ext
    show d.val * 256 + t.val = 256 * d.val + t.val
    omega
  | ⟨1, _⟩ => rfl

theorem sum_peers (f : Fin 8 → EReal) (c : Dev nD) :
    f c + f (peer c 1) + f (peer c 3) + f (peer c 4) + f (peer c 2) + f (peer c 5) + f (peer c 7) + f (peer c 6)
      = ∑ p : Fin 8, f p := by
  have hbij : Function.Bijective (fun k : Fin 8 => peer c k) :=
    Finite.injective_iff_bijective.mp (fun k k' h => peer_inj c k k' h)
  rw [← Fintype.sum_bijective _ hbij (fun k => f (peer c k)) f (fun _ => rfl), Fin.sum_univ_eight, peer_zero]
  ac_rfl

section Inv

variable (m : (ℓ : Loc nD τ sig) → Buf (Elt Ideal) ℓ)
  (X : (⟨2, ![128, 128]⟩ : Shape).Idx → Elt Ideal .f32)
  (W0 : (⟨2, ![128, 2048]⟩ : Shape).Idx → Elt Ideal .f32) (V0 : (⟨2, ![2048, 128]⟩ : Shape).Idx → Elt Ideal .f32)
  (W1 : (⟨2, ![128, 2048]⟩ : Shape).Idx → Elt Ideal .f32) (V1 : (⟨2, ![2048, 128]⟩ : Shape).Idx → Elt Ideal .f32)
  (W2 : (⟨2, ![128, 2048]⟩ : Shape).Idx → Elt Ideal .f32) (V2 : (⟨2, ![2048, 128]⟩ : Shape).Idx → Elt Ideal .f32)
  (h0 : ∀ c : Dev nD, m ((c.tc : Thread nD τ).loc main_arg0) = X)
  (h1 : ∀ c : Dev nD, m ((c.tc : Thread nD τ).loc main_arg1) = Layout.block ⟨2, ![128, 256]⟩ ⟨2, ![128, 2048]⟩ 1 8 c W0)
  (h2 : ∀ c : Dev nD, m ((c.tc : Thread nD τ).loc main_arg2) = Layout.block ⟨2, ![256, 128]⟩ ⟨2, ![2048, 128]⟩ 0 8 c V0)
  (h3 : ∀ c : Dev nD, m ((c.tc : Thread nD τ).loc main_arg3) = Layout.block ⟨2, ![128, 256]⟩ ⟨2, ![128, 2048]⟩ 1 8 c W1)
  (h4 : ∀ c : Dev nD, m ((c.tc : Thread nD τ).loc main_arg4) = Layout.block ⟨2, ![256, 128]⟩ ⟨2, ![2048, 128]⟩ 0 8 c V1)
  (h5 : ∀ c : Dev nD, m ((c.tc : Thread nD τ).loc main_arg5) = Layout.block ⟨2, ![128, 256]⟩ ⟨2, ![128, 2048]⟩ 1 8 c W2)
  (h6 : ∀ c : Dev nD, m ((c.tc : Thread nD τ).loc main_arg6) = Layout.block ⟨2, ![256, 128]⟩ ⟨2, ![2048, 128]⟩ 0 8 c V2)

include h1 h3 h5 in

theorem wiN_apply (l : ℕ) (d : Dev nD) (j : Fin 128) (t : Fin 256) :
    (show EReal from wiN (F := Ideal) m d l (ix2 j t)) = WN W0 W1 W2 l j (Cert.Spec.hid d t) := by
  match l with
  | 0 =>
    show (show EReal from iblk m d 1 t0_0 (ix2 j t)) = _
    rw [iblk_arg1, h1, colBlock_apply]; rfl
  | 1 =>
    show (show EReal from iblk m d 3 t0_0 (ix2 j t)) = _
    rw [iblk_arg3, h3, colBlock_apply]; rfl
  | (l + 2) =>
    show (show EReal from iblk m d 5 t0_0 (ix2 j t)) = _
    rw [iblk_arg5, h5, colBlock_apply]; rfl

include h2 h4 h6 in

theorem woN_apply (l : ℕ) (d : Dev nD) (t : Fin 256) (q : Fin 128) :
    (show EReal from woN (F := Ideal) m d l (ix2 t q)) = VN V0 V1 V2 l (Cert.Spec.hid d t) q := by
  match l with
  | 0 =>
    show (show EReal from iblk m d 2 t0_0 (ix2 t q)) = _
    rw [iblk_arg2, h2, rowBlock_apply]; rfl
  | 1 =>
    show (show EReal from iblk m d 4 t0_0 (ix2 t q)) = _
    rw [iblk_arg4, h4, rowBlock_apply]; rfl
  | (l + 2) =>
    show (show EReal from iblk m d 6 t0_0 (ix2 t q)) = _
    rw [iblk_arg6, h6, rowBlock_apply]; rfl

include h1 h2 h3 h4 h5 h6 in

theorem part_apply (l : ℕ)
    (IH : ∀ (c : Dev nD) (ch : Fin 4) (r : Fin 32) (q : Fin 128),
      (show EReal from act (F := Ideal) m l c ch (ix2 r q)) = A X W0 V0 W1 V1 W2 V2 l (row ch r) q)
    (d : Dev nD) (ch : Fin 4) (r : Fin 32) (q : Fin 128) :
    (show EReal from part (F := Ideal) m l d ch (ix2 r q))
      = ∑ t : Fin 256, max (∑ j : Fin 128, A X W0 V0 W1 V1 W2 V2 l (row ch r) j * WN W0 W1 W2 l j (Cert.Spec.hid d t)) 0
          * VN V0 V1 V2 l (Cert.Spec.hid d t) q := by
  show (show EReal from lay (F := Ideal) l (act m l d ch) (wiN m d l) (woN m d l) (ix2 r q)) = _
  rw [lay_apply]
  refine Finset.sum_congr rfl (fun t _ => ?_)
  rw [woN_apply m V0 V1 V2 h2 h4 h6]
  congr 2
  refine Finset.sum_congr rfl (fun j _ => ?_)
  rw [IH, wiN_apply m W0 W1 W2 h1 h3 h5]

include h0 h1 h2 h3 h4 h5 h6 in

theorem act_eq : ∀ (l : ℕ) (c : Dev nD) (ch : Fin 4) (r : Fin 32) (q : Fin 128),
    (show EReal from act (F := Ideal) m l c ch (ix2 r q)) = A X W0 V0 W1 V1 W2 V2 l (row ch r) q
  | 0, c, ch, r, q => by
    show (show EReal from xin m c ch (ix2 r q)) = _
    rw [xin_apply, h0]; rfl
  | l + 1, c, ch, r, q => by
    have IH := act_eq l
    have hp := part_apply m X W0 V0 W1 V1 W2 V2 h1 h2 h3 h4 h5 h6 l IH
    rw [act_succ]
    simp only [waitOrder, List.foldl]
    refine Eq.trans (unpackAdd_pack_apply _ _ r q) ?_
    rw [unpackAdd_pack_apply, unpackAdd_pack_apply, unpackAdd_pack_apply, unpackAdd_pack_apply, unpackAdd_pack_apply,
      unpackAdd_pack_apply]
    rw [hp c, hp (peer c 1), hp (peer c 3), hp (peer c 4), hp (peer c 2), hp (peer c 5), hp (peer c 7), hp (peer c 6)]
    refine Eq.trans ?_ (Cert.Spec.layer_blocks _ _ _ _ _).symm
    exact sum_peers (fun p => ∑ t : Fin 256,
      max (∑ j : Fin 128, A X W0 V0 W1 V1 W2 V2 l (row ch r) j * WN W0 W1 W2 l j (Cert.Spec.hid p t)) 0
        * VN V0 V1 V2 l (Cert.Spec.hid p t) q) c

include h0 h1 h2 h3 h4 h5 h6 in
theorem outStg_eq_net (c : Dev nD) (r q : Fin 128) :
    (show EReal from outStg (F := Ideal) m c (ix2 r q))
      = Cert.Spec.net (Cert.Spec.cur X) (Cert.Spec.cur W0) (Cert.Spec.cur V0) (Cert.Spec.cur W1) (Cert.Spec.cur V1)
          (Cert.Spec.cur W2) (Cert.Spec.cur V2) r q := by
  have hr : row ⟨r.val / 32, by have := r.isLt; omega⟩ ⟨r.val % 32, Nat.mod_lt _ (by decide)⟩ = r :=
    Fin.ext (Nat.div_add_mod r.val 32)
  have hinv := act_eq m X W0 V0 W1 V1 W2 V2 h0 h1 h2 h3 h4 h5 h6 3 c ⟨r.val / 32, by have := r.isLt; omega⟩
    ⟨r.val % 32, Nat.mod_lt _ (by decide)⟩ q
  rw [hr] at hinv
  exact hinv

end Inv

end Cert.KernelIdeal.Hand

end
-- ==== Proof.RefRun.lean ====
import proofs.«900998_g7700000000000999_dist_mlpseq_tp1d_rep_rep_b128_d128_h256_v7x_i8_f32_1_alg».proof.Defs
import proofs.«900998_g7700000000000999_dist_mlpseq_tp1d_rep_rep_b128_d128_h256_v7x_i8_f32_1_alg».proof.Proof.Gen.ReferenceIdeal.Run
import proofs.«900998_g7700000000000999_dist_mlpseq_tp1d_rep_rep_b128_d128_h256_v7x_i8_f32_1_alg».proof.Proof.Gen.ReferenceIdeal.Read
import proofs.«900998_g7700000000000999_dist_mlpseq_tp1d_rep_rep_b128_d128_h256_v7x_i8_f32_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

def cur {n0 n1 : ℕ} (X : (⟨2, ![n0, n1]⟩ : Shape).Idx → Elt Ideal .f32) : Fin n0 → Fin n1 → EReal :=
  fun r q => (show EReal from X (ix2 r q))

theorem lidx_v0_ix (r : Fin 128) (k : Fin 2048) (j : Fin 128) : lidx_main_v0 (ix2 r k) j = ix2 r j :=
  funext fun a => match a with | ⟨0, _⟩ => rfl | ⟨1, _⟩ => rfl

theorem ridx_v0_ix (r : Fin 128) (k : Fin 2048) (j : Fin 128) : ridx_main_v0 (ix2 r k) j = ix2 j k :=
  funext fun a => match a with | ⟨0, _⟩ => rfl | ⟨1, _⟩ => rfl

theorem lidx_v3_ix (r q : Fin 128) (k : Fin 2048) : lidx_main_v3 (ix2 r q) k = ix2 r k :=
  funext fun a => match a with | ⟨0, _⟩ => rfl | ⟨1, _⟩ => rfl

theorem ridx_v3_ix (r q : Fin 128) (k : Fin 2048) : ridx_main_v3 (ix2 r q) k = ix2 k q :=
  funext fun a => match a with | ⟨0, _⟩ => rfl | ⟨1, _⟩ => rfl

theorem hidden_apply (a : (⟨S128x128, .f32⟩ : BufTy).Contents (Elt Ideal)) (W : (⟨S128x2048, .f32⟩ : BufTy).Contents (Elt Ideal))
    (r : Fin 128) (k : Fin 2048) :
    (show EReal from val_main_v2 (F := Ideal) a W (ix2 r k)) = max (∑ j : Fin 128, cur a r j * cur W j k) 0 := by
  rw [val_main_v2_apply, val_main_v0_apply, val_main_v1_apply, val_main_cst_apply]
  simp only [lidx_v0_ix, ridx_v0_ix]
  show max _ (Ideal.ofBits .f32 0x00000000#32) = _
  rw [Ideal.ofBits_zero_f32]
  rfl

theorem layer_apply (a : (⟨S128x128, .f32⟩ : BufTy).Contents (Elt Ideal)) (W : (⟨S128x2048, .f32⟩ : BufTy).Contents (Elt Ideal))
    (V : (⟨S2048x128, .f32⟩ : BufTy).Contents (Elt Ideal)) (r q : Fin 128) :
    (show EReal from val_main_v3 (F := Ideal) a W V (ix2 r q)) = Cert.Spec.layer (cur a) (cur W) (cur V) r q := by
  rw [val_main_v3_apply]
  simp only [lidx_v3_ix, ridx_v3_ix]
  unfold Cert.Spec.layer
  refine Finset.sum_congr rfl fun k _ => ?_
  exact congrArg (· * cur V k q) (hidden_apply a W r k)

theorem cur_layer (a : (⟨S128x128, .f32⟩ : BufTy).Contents (Elt Ideal)) (W : (⟨S128x2048, .f32⟩ : BufTy).Contents (Elt Ideal))
    (V : (⟨S2048x128, .f32⟩ : BufTy).Contents (Elt Ideal)) :
    cur (val_main_v3 (F := Ideal) a W V) = Cert.Spec.layer (cur a) (cur W) (cur V) :=
  funext fun r => funext fun q => layer_apply a W V r q

theorem val_v7_eq_layer (x0 : (⟨S128x128, .f32⟩ : BufTy).Contents (Elt Ideal)) (x1 : (⟨S128x2048, .f32⟩ : BufTy).Contents (Elt Ideal))
    (x2 : (⟨S2048x128, .f32⟩ : BufTy).Contents (Elt Ideal)) (x3 : (⟨S128x2048, .f32⟩ : BufTy).Contents (Elt Ideal))
    (x4 : (⟨S2048x128, .f32⟩ : BufTy).Contents (Elt Ideal)) :
    val_main_v7 (F := Ideal) x0 x1 x2 x3 x4 = val_main_v3 (F := Ideal) (val_main_v3 (F := Ideal) x0 x1 x2) x3 x4 := rfl

theorem val_v11_eq_layer (x0 : (⟨S128x128, .f32⟩ : BufTy).Contents (Elt Ideal)) (x1 : (⟨S128x2048, .f32⟩ : BufTy).Contents (Elt Ideal))
    (x2 : (⟨S2048x128, .f32⟩ : BufTy).Contents (Elt Ideal)) (x3 : (⟨S128x2048, .f32⟩ : BufTy).Contents (Elt Ideal))
    (x4 : (⟨S2048x128, .f32⟩ : BufTy).Contents (Elt Ideal)) (x5 : (⟨S128x2048, .f32⟩ : BufTy).Contents (Elt Ideal))
    (x6 : (⟨S2048x128, .f32⟩ : BufTy).Contents (Elt Ideal)) :
    val_main_v11 (F := Ideal) x0 x1 x2 x3 x4 x5 x6
      = val_main_v3 (F := Ideal) (val_main_v7 (F := Ideal) x0 x1 x2 x3 x4) x5 x6 := rfl

theorem val_eq_net (x0 : (⟨S128x128, .f32⟩ : BufTy).Contents (Elt Ideal)) (x1 : (⟨S128x2048, .f32⟩ : BufTy).Contents (Elt Ideal))
    (x2 : (⟨S2048x128, .f32⟩ : BufTy).Contents (Elt Ideal)) (x3 : (⟨S128x2048, .f32⟩ : BufTy).Contents (Elt Ideal))
    (x4 : (⟨S2048x128, .f32⟩ : BufTy).Contents (Elt Ideal)) (x5 : (⟨S128x2048, .f32⟩ : BufTy).Contents (Elt Ideal))
    (x6 : (⟨S2048x128, .f32⟩ : BufTy).Contents (Elt Ideal)) (r q : Fin 128) :
    (show EReal from val_main_v11 (F := Ideal) x0 x1 x2 x3 x4 x5 x6 (ix2 r q))
      = Cert.Spec.net (cur x0) (cur x1) (cur x2) (cur x3) (cur x4) (cur x5) (cur x6) r q := by
  rw [val_v11_eq_layer, layer_apply, val_v7_eq_layer, cur_layer, cur_layer]
  rfl

def refBuf (m' : (ℓ : Loc nD τ sig) → Buf (Elt Ideal) ℓ) (c : Dev nD) : Buf (Elt Ideal) ((c.tc : Thread nD τ).loc main_v11) :=
  val_main_v11 (F := Ideal) (m' ((c.tc : Thread nD τ).loc main_arg0)) (m' ((c.tc : Thread nD τ).loc main_arg1))
    (m' ((c.tc : Thread nD τ).loc main_arg2)) (m' ((c.tc : Thread nD τ).loc main_arg3)) (m' ((c.tc : Thread nD τ).loc main_arg4))
    (m' ((c.tc : Thread nD τ).loc main_arg5)) (m' ((c.tc : Thread nD τ).loc main_arg6))

theorem run_ref (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v11) = refBuf m' c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) :=
  (θ_run (defs (F := Ideal)) _ _).mono
    (fun _ h c => ⟨(h c).1.trans (val_main_v11_eq _ _ _ _ _ _ _), (h c).2⟩)
    (Cert.ReferenceIdeal.Value.run (F := Ideal) m' ρ')

end Cert.ReferenceIdeal.RefValue

end
-- ==== Proof.Final.lean ====
import proofs.«900998_g7700000000000999_dist_mlpseq_tp1d_rep_rep_b128_d128_h256_v7x_i8_f32_1_alg».proof.Proof.KValue
import proofs.«900998_g7700000000000999_dist_mlpseq_tp1d_rep_rep_b128_d128_h256_v7x_i8_f32_1_alg».proof.Proof.RefRun
import Idealize.ShloMosaic.Lib.Pipeline.Cells
import Idealize.ShloMosaic.Lib.Pipeline.Frame

noncomputable section

namespace Cert.Proof.Bridge

open Idealize.ShloMosaic Idealize.ShloMosaic.TcCoe Idealize.ShloMosaic.ValueIdx
open Idealize.SL Idealize.SL.Sem

theorem kernel_eq_ref
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree :
      (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg6))))
    (c : Dev Cert.KernelIdeal.nD) :
    (show Buf (Elt Ideal) ((c.tc : Thread Cert.KernelIdeal.nD Cert.KernelIdeal.τ).loc Cert.KernelIdeal.main_v1) from
        Cert.KernelIdeal.Hand.outStg (F := Ideal) m c)
      = Cert.ReferenceIdeal.RefValue.refBuf m' 0 := by
  funext i
  have hi : i = ix2 (n0 := 128) (n1 := 128) (i 0) (i 1) := eq_ix2 (n0 := 128) (n1 := 128) i
  rw [hi]
  have hk := Cert.KernelIdeal.Hand.outStg_eq_net m _ _ _ _ _ _ _
    (fun d => (hagree d).1) (fun d => (hagree d).2.1) (fun d => (hagree d).2.2.1) (fun d => (hagree d).2.2.2.1)
    (fun d => (hagree d).2.2.2.2.1) (fun d => (hagree d).2.2.2.2.2.1) (fun d => (hagree d).2.2.2.2.2.2) c (i 0) (i 1)
  exact hk.trans (Cert.ReferenceIdeal.RefValue.val_eq_net _ _ _ _ _ _ _ (i 0) (i 1)).symm

end Cert.Proof.Bridge

end
-- ==== Proof.Bits.Names.lean ====
import proofs.«900998_g7700000000000999_dist_mlpseq_tp1d_rep_rep_b128_d128_h256_v7x_i8_f32_1_alg».proof.Proof.Gen.Kernel
import proofs.«900998_g7700000000000999_dist_mlpseq_tp1d_rep_rep_b128_d128_h256_v7x_i8_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

def peer (c : Dev nD) (m : Fin 8) : Dev nD := ⟨(c.val ^^^ m.val) % 8, Nat.mod_lt _ (by decide)⟩

theorem peer_peer (c : Dev nD) (m : Fin 8) : peer (peer c m) m = c := by revert c m; decide
theorem peer_zero (c : Dev nD) : peer c 0 = c := by revert c; decide
theorem peer_inj (c : Dev nD) (m m' : Fin 8) (h : peer c m = peer c m') : m = m' := by revert c m m'; decide

abbrev commM : Memref sig .tc .vmem S3x4x8x32x128 .bf16 := Memref.whole cc0_scratch0

theorem slot_inb (l : Fin 3) (ch : Fin 4) (m : Fin 8) :
    ∀ a, (![l.val, ch.val, m.val, 0, 0] : Fin 5 → Nat) a + S1x1x1x32x128.size a ≤ S3x4x8x32x128.size a := by
  revert l ch m; decide

abbrev slotR (l : Fin 3) (ch : Fin 4) (m : Fin 8) : Rect S3x4x8x32x128 :=
  Rect.unit (s := S3x4x8x32x128) ![l.val, ch.val, m.val, 0, 0] S1x1x1x32x128.size (slot_inb l ch m)

abbrev slotM (l : Fin 3) (ch : Fin 4) (m : Fin 8) : Memref sig .tc .vmem S32x128 .bf16 :=
  (commM.slice (slotR l ch m) (fun _ => rfl)).squeeze S32x128 squeezes_S1x1x1x32x128_S32x128

def slotPts (c : Dev nD) (l : Fin 3) (ch : Fin 4) (m : Fin 8) (q : PosShare TreeShare)
    (f : Buf (Elt F) ((slotM l ch m).view.loc (c : Thread nD τ))) : sProp 𝕄 :=
  (slotM l ch m).view.loc (c : Thread nD τ) ↦[(slotM l ch m).view.set]{q} f

theorem sem_inb (l : Fin 3) (ch : Fin 4) (m : Fin 8) :
    ∀ a, (![l.val, ch.val, m.val] : Fin 3 → Nat) a + S1x1x1.size a ≤ S3x4x8.size a := by
  revert l ch m; decide

abbrev barS : Sem sig := (SemArray.scalar (sig.barrier 0 rfl) : Sems sig S_).sem

abbrev sendSem (l : Fin 3) (ch : Fin 4) (m : Fin 8) : DmaSem sig :=
  ((cc0_scratch1.slice (Rect.unit (s := S3x4x8) ![l.val, ch.val, m.val] S1x1x1.size (sem_inb l ch m))).squeeze S_ squeezes_S1x1x1_S_).sem
abbrev recvSem (l : Fin 3) (ch : Fin 4) (m : Fin 8) : DmaSem sig :=
  ((cc0_scratch2.slice (Rect.unit (s := S3x4x8) ![l.val, ch.val, m.val] S1x1x1.size (sem_inb l ch m))).squeeze S_ squeezes_S1x1x1_S_).sem

theorem sendSem_val (l : Fin 3) (ch : Fin 4) (m : Fin 8) : (sendSem l ch m).val = 8 + (l.val * 32 + ch.val * 8 + m.val) := by
  revert l ch m; decide
theorem recvSem_val (l : Fin 3) (ch : Fin 4) (m : Fin 8) : (recvSem l ch m).val = 104 + (l.val * 32 + ch.val * 8 + m.val) := by
  revert l ch m; decide

abbrev barCell (c : Dev nD) : GSem nD τ sig := ((c : Thread nD τ), .reg barS)
abbrev sendCell (c : Dev nD) (l : Fin 3) (ch : Fin 4) (m : Fin 8) : GSem nD τ sig := ((c : Thread nD τ), .dma (sendSem l ch m))
abbrev recvCell (c : Dev nD) (l : Fin 3) (ch : Fin 4) (m : Fin 8) : GSem nD τ sig := ((c : Thread nD τ), .dma (recvSem l ch m))

abbrev N : ℕ := (slotM 0 0 1).view.dmaCredit
theorem N_pos : 0 < N := View.dmaCredit_pos _ (by decide)

def shareOf : Fin 8 → PosShare TreeShare
  | ⟨0, _⟩ => fullShare
  | ⟨1, _⟩ => fullShare.left
  | ⟨2, _⟩ => fullShare.right.left
  | ⟨3, _⟩ => fullShare.right.right.left
  | ⟨4, _⟩ => fullShare.right.right.right.left
  | ⟨5, _⟩ => fullShare.right.right.right.right.left
  | ⟨6, _⟩ => fullShare.right.right.right.right.right.left
  | ⟨7, _⟩ => fullShare.right.right.right.right.right.right

theorem bigSep_bool (Φ : Bool → sProp 𝕄) : bigSep Finset.univ Φ = iprop(Φ true ∗ Φ false) :=
  bigSep_univ_eq_bigSepL [true, false] (by decide) (by decide) Φ

theorem bigSep_option {α : Type} [Fintype α] (Φ : Option α → sProp 𝕄) :
    bigSep Finset.univ Φ = iprop(Φ none ∗ bigSep Finset.univ fun a => Φ (some a)) := by
  classical
  have h : (Finset.univ : Finset (Option α)) = insert none (Finset.univ.map Function.Embedding.some) := by
    ext o; cases o <;> simp
  rw [h, bigSep_insert (by simp), bigSep_map]; rfl

abbrev LA (l : Fin 3) (ch : Fin 4) (k : Fin 8) : Prop := commM.view.LoadsAt (slotR l ch k).toLoadRect
abbrev LV (F : FTy → Type) (l : Fin 3) (ch : Fin 4) (k : Fin 8) : Type := (slotR l ch k).toLoadRect.shape.Idx → Elt F .bf16
abbrev WX (l : Fin 3) (ch : Fin 4) (k : Fin 8) : Prop := (slotM l ch k : Memref sig .tc .vmem S32x128 .bf16).view.WordExact
abbrev NoSc (n : Dev nD) (l : Fin 3) (ch : Fin 4) (k : Fin 8) : Prop :=
  (slotM l ch k : Memref sig (Dev.tc n : Thread nD τ).2.kind .vmem S32x128 .bf16).view.ref.isScScratch = false
abbrev SemOk (n : Dev nD) (l : Fin 3) (ch : Fin 4) (k : Fin 8) (h : NoSc n l ch k) : Prop :=
  DmaTarget.Typed .vmem (.dma (recvSem l ch k))
    (.remote (Dev.tc n : Thread nD τ) (slotM l ch k : Memref sig .tc .vmem S32x128 .bf16) (.dma (sendSem l ch k)) h
      : DmaTarget nD τ sig (.tc : Proc τ) .vmem S32x128 .bf16)

/-- A function of a device's index that flips the bits of `k` in it names peer `k`: decided over the eight devices. -/
theorem dev_eq {f : Dev nD → ℕ} (h : ∀ d, f d < nD) (k : Fin 8) (c : Dev nD)
    (e : ∀ d : Dev nD, f d = (peer d k).val := by decide +kernel) : (⟨f c, h c⟩ : Dev nD) = peer c k :=
  Fin.ext (e c)

end Cert.Kernel.Hand

end
-- ==== Proof.Bits.Vals.lean ====
import proofs.«900998_g7700000000000999_dist_mlpseq_tp1d_rep_rep_b128_d128_h256_v7x_i8_f32_1_alg».proof.Proof.Bits.Names
import proofs.«900998_g7700000000000999_dist_mlpseq_tp1d_rep_rep_b128_d128_h256_v7x_i8_f32_1_alg».proof.Proof.Gen.Kernel.Frame
import Idealize.ShloMosaic.Lib.ValueIdx

noncomputable section

namespace Cert.Kernel.Hand

open Cert.Kernel Cert.Kernel.Gen
open Idealize.ShloMosaic Idealize.ShloMosaic.TcCoe
open Idealize.SL Idealize.SL.Sem

variable {F : FTy → Type} [FloatOps F]

def mlp' (a : Vec F S32x128 .f32) (wi : Vec F S128x256 .f32) (wo : Vec F S256x128 .f32) : FVec F S32x128 .f32 :=
  matmul dot_S32x256_S256x128_S32x128_1_0_0_1_n_n none
    (maximumf
      (matmul dot_S32x128_S128x256_S32x256_1_0_0_1_n_n none a
        (shapeCast S128x256 wi shapeCasts_S128x256_S128x256) (constant S32x256 .f32 0x00000000#32))
      (broadcast S32x256 (Scalar.ofBits .f32 0x00000000#32)))
    (shapeCast S256x128 wo shapeCasts_S256x128_S256x128) (constant S32x128 .f32 0x00000000#32)

def mlp (a : Vec F S32x128 .f32) (wi : Vec F S128x256 .f32) (wo : Vec F S256x128 .f32) : FVec F S32x128 .f32 :=
  mlp' (shapeCast S32x128 a shapeCasts_S32x128_S32x128) wi wo

theorem mlp_eq_mlp' (a : Vec F S32x128 .f32) (wi : Vec F S128x256 .f32) (wo : Vec F S256x128 .f32) :
    mlp a wi wo = mlp' (shapeCast S32x128 a shapeCasts_S32x128_S32x128) wi wo := rfl

def lay : ℕ → Vec F S32x128 .f32 → Vec F S128x256 .f32 → Vec F S256x128 .f32 → FVec F S32x128 .f32
  | 0 => mlp
  | _ + 1 => mlp'

def pack (p : FVec F S32x128 .f32) : FVec F S1x1x1x32x128 .bf16 :=
  shapeCast S1x1x1x32x128 (truncf .bf16 p bitsLt_bf16_f32) shapeCasts_S32x128_S1x1x1x32x128

def unpackAdd (a : FVec F S32x128 .f32) (s : Vec F S1x1x1x32x128 .bf16) : FVec F S32x128 .f32 :=
  addf a (extf .f32 (shapeCast S32x128 s shapeCasts_S1x1x1x32x128_S32x128) bitsLt_bf16_f32)

section
variable (m : (ℓ : Loc nD τ sig) → Buf (Elt F) ℓ)

theorem chunk_inb (ch : Fin 4) : ∀ a, (![32 * ch.val, 0] : Fin 2 → Nat) a + S32x128.size a ≤ S128x128.size a := by
  revert ch; decide

abbrev chunkR (ch : Fin 4) : Rect S128x128 := Rect.unit (s := S128x128) ![32 * ch.val, 0] S32x128.size (chunk_inb ch)

def xin (c : Dev nD) (ch : Fin 4) : Vec F S32x128 .f32 :=
  (Memref.whole cc0_stg0_0).view.readAt (Elt F) (chunkR ch).toLoadRect (iblk m c 0 t0_0)

def wiN (c : Dev nD) : ℕ → Vec F S128x256 .f32
  | 0 => iblk m c 1 t0_0
  | 1 => iblk m c 3 t0_0
  | _ => iblk m c 5 t0_0
def woN (c : Dev nD) : ℕ → Vec F S256x128 .f32
  | 0 => iblk m c 2 t0_0
  | 1 => iblk m c 4 t0_0
  | _ => iblk m c 6 t0_0

def waitOrder : List (Fin 8) := [1, 3, 4, 2, 5, 7, 6]

def act : ℕ → Dev nD → Fin 4 → FVec F S32x128 .f32
  | 0, c, ch => xin m c ch
  | l + 1, c, ch =>
    waitOrder.foldl (fun a k => unpackAdd a (pack (lay l (act l (peer c k) ch) (wiN m (peer c k) l) (woN m (peer c k) l))))
      (lay l (act l c ch) (wiN m c l) (woN m c l))

def part (l : ℕ) (c : Dev nD) (ch : Fin 4) : FVec F S32x128 .f32 := lay l (act m l c ch) (wiN m c l) (woN m c l)

theorem act_succ (l : ℕ) (c : Dev nD) (ch : Fin 4) :
    act m (l + 1) c ch = waitOrder.foldl (fun a k => unpackAdd a (pack (part m l (peer c k) ch))) (part m l c ch) := rfl

def outStg (c : Dev nD) : Vec F S128x128 .f32 := fun i =>
  act m 3 c ⟨(i 0).val / 32, by have := ValueIdx.idx2_lt0 (n0 := 128) (n1 := 128) i; omega⟩
    (ValueIdx.ix2 (n0 := 32) (n1 := 128) ⟨(i 0).val % 32, Nat.mod_lt _ (by decide)⟩ ⟨(i 1).val, ValueIdx.idx2_lt1 (n0 := 128) (n1 := 128) i⟩)

end

end Cert.Kernel.Hand

end
-- ==== Proof.Bits.Sched.lean ====
import proofs.«900998_g7700000000000999_dist_mlpseq_tp1d_rep_rep_b128_d128_h256_v7x_i8_f32_1_alg».proof.Proof.Bits.Names
import proofs.«900998_g7700000000000999_dist_mlpseq_tp1d_rep_rep_b128_d128_h256_v7x_i8_f32_1_alg».proof.Proof.Bits.Vals

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

def tr (p : FVec F S32x128 .f32) : FVec F S32x128 .bf16 := truncf .bf16 p bitsLt_bf16_f32

instance : Nonempty ((cc0_scratch0 : Ref sig .tc).ty.Contents (Elt F)) := ⟨fun _ => Classical.choice inferInstance⟩

def slotBuf (l : Fin 3) (ch : Fin 4) (k : Fin 8) (v : Vec F S32x128 .bf16) : (cc0_scratch0 : Ref sig .tc).ty.Contents (Elt F) :=
  (slotM l ch k).view.write (Elt F) (Classical.choice inferInstance) v Finset.univ

def barPay (c : Dev nD) (k : Fin 8) : sProp 𝕄 :=
  bigSep (Finset.univ : Finset (Fin 3 × Fin 4)) fun lc => iprop(∃ f, slotPts (peer c k) lc.1 lc.2 k fullShare f)

def sendPay (c : Dev nD) (l : Fin 3) (ch : Fin 4) (k : Fin 8) : sProp 𝕄 :=
  slotPts c l ch 0 (shareOf k) (slotBuf l ch 0 (tr (part m l.val c ch)))

def recvPay (c : Dev nD) (l : Fin 3) (ch : Fin 4) (k : Fin 8) : sProp 𝕄 :=
  slotPts c l ch k fullShare (slotBuf l ch k (tr (part m l.val (peer c k) ch)))

def slotL (n : ℕ) : Fin 3 := ⟨n / 32 % 3, Nat.mod_lt _ (by decide)⟩
def slotC (n : ℕ) : Fin 4 := ⟨n / 8 % 4, Nat.mod_lt _ (by decide)⟩
def slotK (n : ℕ) : Fin 8 := ⟨n % 8, Nat.mod_lt _ (by decide)⟩

def Rd : Rounds.Schedule (GSem nD τ sig) (Fin 8) 𝕄 where
  duties g r :=
    if r = 0 ∧ g.1.2 = .tc then
      match g.2 with
      | .reg _ => Finset.univ.erase 0
      | .dma s => if 8 ≤ s.val ∧ s.val % 8 ≠ 0 then {0} else ∅
    else ∅
  unitless _ := False
  amount g _ _ := match g.2 with | .reg _ => 1 | .dma _ => N
  payload g _ d :=
    match g.2 with
    | .reg _ => barPay g.1.1 d
    | .dma s => if s.val < 104 then sendPay m g.1.1 (slotL (s.val - 8)) (slotC (s.val - 8)) (slotK (s.val - 8))
        else recvPay m g.1.1 (slotL (s.val - 104)) (slotC (s.val - 104)) (slotK (s.val - 104))
  amount_pos g _ _ _ := by
    cases g.2 with
    | reg _ => exact Nat.one_pos
    | dma _ => exact N_pos

instance Rd_payload_storable (g : GSem nD τ sig) (r : ℕ) (d : Fin 8) :
    BI.Storable (upEmb : UEmb _ 𝕄) ((Rd (F := F) m).payload g r d) := by
  show BI.Storable upEmb (match g.2 with
    | .reg _ => barPay g.1.1 d
    | .dma s => if s.val < 104 then sendPay m g.1.1 (slotL (s.val - 8)) (slotC (s.val - 8)) (slotK (s.val - 8))
        else recvPay m g.1.1 (slotL (s.val - 104)) (slotC (s.val - 104)) (slotK (s.val - 104)))
  unfold barPay sendPay recvPay slotPts
  cases g.2 with
  | reg _ => dsimp only; infer_instance
  | dma s => dsimp only; split <;> infer_instance

def L (g : GSem nD τ sig) : Finset Unit := if g.1.2 = .tc then {()} else ∅

def lv (g : GSem nD τ sig) (_ : Unit) : ℕ :=
  match g.2 with
  | .reg _ => 1
  | .dma s => if 104 ≤ s.val then 2 + 4 * ((s.val - 104) / 32) + (s.val - 104) / 8 % 4 else 0

end Cert.Kernel.Hand

end
-- ==== Proof.Bits.Proto.lean ====
import proofs.«900998_g7700000000000999_dist_mlpseq_tp1d_rep_rep_b128_d128_h256_v7x_i8_f32_1_alg».proof.Proof.Bits.Sched

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem slotL_eq (l : Fin 3) (ch : Fin 4) (k : Fin 8) : slotL (l.val * 32 + ch.val * 8 + k.val) = l := by revert l ch k; decide
theorem slotC_eq (l : Fin 3) (ch : Fin 4) (k : Fin 8) : slotC (l.val * 32 + ch.val * 8 + k.val) = ch := by revert l ch k; decide
theorem slotK_eq (l : Fin 3) (ch : Fin 4) (k : Fin 8) : slotK (l.val * 32 + ch.val * 8 + k.val) = k := by revert l ch k; decide

section Tables
variable (c : Dev nD) (l : Fin 3) (ch : Fin 4) (k : Fin 8)

theorem duties_bar : (Rd (F := F) m).duties (barCell c) 0 = Finset.univ.erase 0 := by
  dsimp only [Rd]; exact if_pos ⟨rfl, rfl⟩
theorem duties_send (hk : k ≠ 0) : (Rd (F := F) m).duties (sendCell c l ch k) 0 = {0} := by
  dsimp only [Rd]; rw [if_pos ⟨rfl, rfl⟩]
  refine if_pos ⟨?_, ?_⟩
  · rw [sendSem_val]; omega
  · rw [sendSem_val]; intro h; apply hk; apply Fin.ext; have := k.isLt; show k.val = 0; omega
theorem duties_recv (hk : k ≠ 0) : (Rd (F := F) m).duties (recvCell c l ch k) 0 = {0} := by
  dsimp only [Rd]; rw [if_pos ⟨rfl, rfl⟩]
  refine if_pos ⟨?_, ?_⟩
  · rw [recvSem_val]; omega
  · rw [recvSem_val]; intro h; apply hk; apply Fin.ext; have := k.isLt; show k.val = 0; omega
theorem duties_later (g : GSem nD τ sig) : ∀ r, 1 ≤ r → (Rd (F := F) m).duties g r = ∅ :=
  fun r hr => by dsimp only [Rd]; rw [if_neg fun h => by omega]

theorem amount_bar (d : Fin 8) : (Rd (F := F) m).amount (barCell c) 0 d = 1 := rfl
theorem amount_send (d : Fin 8) : (Rd (F := F) m).amount (sendCell c l ch k) 0 d = N := rfl
theorem amount_recv (d : Fin 8) : (Rd (F := F) m).amount (recvCell c l ch k) 0 d = N := rfl

theorem expect_bar : (Rd (F := F) m).expect (barCell c) 0 = 7 := by
  unfold Schedule.expect Schedule.amountOf
  rw [duties_bar, Finset.sum_congr rfl fun d _ => amount_bar m c d, Finset.sum_const, smul_eq_mul, Nat.mul_one]
  decide
theorem expect_send (hk : k ≠ 0) : (Rd (F := F) m).expect (sendCell c l ch k) 0 = N := by
  unfold Schedule.expect Schedule.amountOf; rw [duties_send m c l ch k hk, Finset.sum_singleton, amount_send]
theorem expect_recv (hk : k ≠ 0) : (Rd (F := F) m).expect (recvCell c l ch k) 0 = N := by
  unfold Schedule.expect Schedule.amountOf; rw [duties_recv m c l ch k hk, Finset.sum_singleton, amount_recv]

theorem payload_bar (d : Fin 8) : (Rd (F := F) m).payload (barCell c) 0 d = barPay c d := rfl
theorem payload_send (d : Fin 8) : (Rd (F := F) m).payload (sendCell c l ch k) 0 d = sendPay m c l ch k := by
  dsimp only [Rd]
  rw [if_pos (by rw [sendSem_val]; have := l.isLt; have := ch.isLt; have := k.isLt; omega)]
  have e : (sendSem l ch k).val - 8 = l.val * 32 + ch.val * 8 + k.val := by rw [sendSem_val]; omega
  rw [e, slotL_eq, slotC_eq, slotK_eq]
theorem payload_recv (d : Fin 8) : (Rd (F := F) m).payload (recvCell c l ch k) 0 d = recvPay m c l ch k := by
  dsimp only [Rd]
  rw [if_neg (by rw [recvSem_val]; omega)]
  have e : (recvSem l ch k).val - 104 = l.val * 32 + ch.val * 8 + k.val := by rw [recvSem_val]; omega
  rw [e, slotL_eq, slotC_eq, slotK_eq]

theorem rest_send (hk : k ≠ 0) :
    bigSep ((Rd (F := F) m).duties (sendCell c l ch k) 0 \ ∅) (fun d => (Rd (F := F) m).payload (sendCell c l ch k) 0 d) = sendPay m c l ch k := by
  rw [Finset.sdiff_empty, duties_send m c l ch k hk, bigSep_singleton, payload_send]
theorem rest_recv (hk : k ≠ 0) :
    bigSep ((Rd (F := F) m).duties (recvCell c l ch k) 0 \ ∅) (fun d => (Rd (F := F) m).payload (recvCell c l ch k) 0 d) = recvPay m c l ch k := by
  rw [Finset.sdiff_empty, duties_recv m c l ch k hk, bigSep_singleton, payload_recv]

theorem rest_bar :
    bigSep ((Rd (F := F) m).duties (barCell c) 0 \ ∅) (fun d => (Rd (F := F) m).payload (barCell c) 0 d)
      = bigSep ((Finset.univ : Finset (Fin 8)).erase 0) (fun d => barPay (F := F) c d) := by
  rw [Finset.sdiff_empty, duties_bar]; rfl

end Tables

end Cert.Kernel.Hand

end
-- ==== Proof.Bits.Ghost.lean ====
import proofs.«900998_g7700000000000999_dist_mlpseq_tp1d_rep_rep_b128_d128_h256_v7x_i8_f32_1_alg».proof.Proof.Bits.Proto

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev SlotCell : Type := Bool × Fin 3 × Fin 4 × Fin 8

abbrev CK : Type := Option SlotCell

def dcell (c : Dev nD) (i : SlotCell) : GSem nD τ sig :=
  if i.1 then recvCell c i.2.1 i.2.2.1 i.2.2.2 else sendCell c i.2.1 i.2.2.1 i.2.2.2
def gcell (c : Dev nD) : CK → GSem nD τ sig
  | none => barCell c
  | some i => dcell c i

def xfer : Finset (Fin 3 × Fin 4 × Fin 8) := Finset.univ.filter fun i => i.2.2 ≠ 0

def sendOrder : List (Fin 8) := [6, 2, 5, 7, 1, 3, 4]
def lcOrder : List (Fin 3 × Fin 4) := [(0, 0), (0, 1), (0, 2), (0, 3), (1, 0), (1, 1), (1, 2), (1, 3), (2, 0), (2, 1), (2, 2), (2, 3)]

def owedOf : List (CellTallies nD τ sig Unit) → CellTallies nD τ sig Unit
  | [] => 0
  | t :: L => owedOf L + t

def payBar (c : Dev nD) : List (CellTallies nD τ sig Unit) :=
  ([1, 2, 3, 4, 5, 6, 7] : List (Fin 8)).map fun k => tallyAt (barCell (peer c k)) () 1
def paySend (c : Dev nD) (lc : Fin 3 × Fin 4) : List (CellTallies nD τ sig Unit) :=
  sendOrder.map fun k => tallyAt (recvCell (peer c k) lc.1 lc.2 k) () N
def payAll (c : Dev nD) : List (CellTallies nD τ sig Unit) := payBar c ++ lcOrder.flatMap (paySend c)

def O₀ (c : Dev nD) : CellTallies nD τ sig Unit := owedOf (payAll c)

def records (K : Dev nD × CK → ℕ) : sProp 𝕄 :=
  iprop((bigSep Finset.univ fun x : Dev nD × CK => cellInv ER (Rd m) (K x) (gcell x.1 x.2))
    ∗ bigSep Finset.univ fun x : Dev nD × CK => reached ER (gcell x.1 x.2) 0)

instance records_persistent (K : Dev nD × CK → ℕ) : BI.Persistent (records m K) := by unfold records; infer_instance

def payToks (c : Dev nD) : sProp 𝕄 :=
  iprop((bigSep ((Finset.univ : Finset (Fin 8)).erase 0) fun k => dutyTok ER (barCell (peer c k)) 0 k)
    ∗ bigSep xfer fun i => iprop(dutyTok ER (recvCell (peer c i.2.2) i.1 i.2.1 i.2.2) 0 0 ∗ dutyTok ER (sendCell c i.1 i.2.1 i.2.2) 0 0))

def linear (c : Dev nD) : sProp 𝕄 := bigSep Finset.univ fun x : CK => atPos ER (gcell c x) 0 ∅ 0

def ghost (K : Dev nD × CK → ℕ) (c : Dev nD) : sProp 𝕄 := iprop(records m K ∗ linear c ∗ payToks c)

def creds (c : Dev nD) : sProp 𝕄 :=
  iprop(cred (tallyAt (barCell c) () 7) ∗ bigSep xfer fun i => cred (tallyAt (recvCell c i.1 i.2.1 i.2.2) () N))

def start (c : Dev nD) : sProp 𝕄 := iprop((∃ K, ghost m K c) ∗ creds c ∗ levAts L lv)

def commAny (c : Dev nD) : sProp 𝕄 :=
  iprop(∃ f : Buf (Elt F) ((c : Thread nD τ).loc cc0_scratch0), ((c : Thread nD τ).loc cc0_scratch0) ↦{fullShare} f)

def Φ₀ (c : Dev nD) : sProp 𝕄 := iprop(start m c ∗ commAny c)

def Φ₁ (c : Dev nD) : sProp 𝕄 := iprop(commAny c ∗ bigSep Finset.univ fun i : SlotCell => semVal (dcell c i) 0)

abbrev 𝒱₀ : Variants := Variants.none

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => iblk m c 0 t0_0
    | ⟨1, _⟩ => iblk m c 1 t0_0
    | ⟨2, _⟩ => iblk m c 2 t0_0
    | ⟨3, _⟩ => iblk m c 3 t0_0
    | ⟨4, _⟩ => iblk m c 4 t0_0
    | ⟨5, _⟩ => iblk m c 5 t0_0
    | ⟨6, _⟩ => iblk m c 6 t0_0
    | ⟨7, _⟩ => outStg m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.Kernel.Hand

end
-- ==== Proof.Bits.Launch.lean ====
import proofs.«900998_g7700000000000999_dist_mlpseq_tp1d_rep_rep_b128_d128_h256_v7x_i8_f32_1_alg».proof.Proof.Bits.Ghost
import proofs.«900998_g7700000000000999_dist_mlpseq_tp1d_rep_rep_b128_d128_h256_v7x_i8_f32_1_alg».proof.Proof.Gen.Kernel.Skeleton
import proofs.«900998_g7700000000000999_dist_mlpseq_tp1d_rep_rep_b128_d128_h256_v7x_i8_f32_1_alg».proof.Proof.Gen.Kernel.Points

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def osem (i : SlotCell) : SemLoc sig :=
  if i.1 then .dma (recvSem i.2.1 i.2.2.1 i.2.2.2) else .dma (sendSem i.2.1 i.2.2.1 i.2.2.2)

theorem dcell_eq (c : Dev nD) (i : SlotCell) : dcell c i = ((c : Thread nD τ), osem i) := by
  unfold dcell osem; split <;> rfl

def osemNo (i : SlotCell) : ℕ := (if i.1 then 104 else 8) + (i.2.1.val * 32 + i.2.2.1.val * 8 + i.2.2.2.val)

theorem osem_eq (i : SlotCell) : ∃ s : DmaSem sig, osem i = .dma s ∧ s.val = osemNo i := by
  obtain ⟨b, l, ch, k⟩ := i
  cases b
  · exact ⟨sendSem l ch k, if_neg Bool.false_ne_true, (sendSem_val l ch k).trans (by unfold osemNo; rw [if_neg Bool.false_ne_true])⟩
  · exact ⟨recvSem l ch k, if_pos rfl, (recvSem_val l ch k).trans (by unfold osemNo; rw [if_pos rfl])⟩

theorem osemNo_injective : Function.Injective osemNo := by
  rintro ⟨b, l, ch, k⟩ ⟨b', l', ch', k'⟩ h
  unfold osemNo at h
  have := l.isLt; have := ch.isLt; have := k.isLt; have := l'.isLt; have := ch'.isLt; have := k'.isLt
  cases b <;> cases b' <;> simp only [Bool.false_eq_true, if_false, if_true] at h <;>
    first
    | (have h1 : l = l' := Fin.ext (by omega)
       have h2 : ch = ch' := Fin.ext (by omega)
       have h3 : k = k' := Fin.ext (by omega)
       subst h1 h2 h3; rfl)
    | (exfalso; omega)

theorem osem_injective : Function.Injective osem := fun i j h => by
  obtain ⟨s, hs, hv⟩ := osem_eq i
  obtain ⟨s', hs', hv'⟩ := osem_eq j
  rw [hs, hs'] at h
  have : s = s' := by cases h; rfl
  exact osemNo_injective (hv.symm.trans ((congrArg Fin.val this).trans hv'))

theorem osemNo_range (i : SlotCell) : 8 ≤ osemNo i ∧ osemNo i < 200 := by
  obtain ⟨b, l, ch, k⟩ := i
  unfold osemNo
  have := l.isLt; have := ch.isLt; have := k.isLt
  cases b <;> simp only [Bool.false_eq_true, if_false, if_true] <;> omega

theorem stage_sem_lt : ∀ (w : Fin 8) (s : Fin (spec0 w).nbuf), ((spec0 w).sem s).val < 8 := by decide

theorem scoped_from_8 : ∀ s : DmaSem sig, 8 ≤ s.val → (SemLoc.dma s : SemLoc sig).isScoped .tc = true := by decide

theorem ownSemFacts : Pipeline.OwnSemFacts cfg0.spec osem where
  isScoped i := by
    obtain ⟨s, hs, hv⟩ := osem_eq i
    rw [hs]; exact scoped_from_8 s (by rw [hv]; exact (osemNo_range i).1)
  inj := osem_injective
  disj i w s h := by
    obtain ⟨s', hs, hv⟩ := osem_eq i
    rw [hs] at h
    have e : s' = (cfg0.spec w).sem s := by cases h; rfl
    have h1 : ((cfg0.spec w).sem s).val < 8 := stage_sem_lt w s
    have h2 := (osemNo_range i).1
    rw [← hv, e] at h2
    exact absurd h1 (by omega)

theorem share_eq (c : Dev nD) (w : Fin cfg0.W) : (dats m ρ 0 c).share w = fullShare := by unfold Dat.share; split <;> rfl

def csem : CK → SemLoc sig
  | none => .reg barS
  | some i => osem i

theorem gcell_eq (c : Dev nD) (x : CK) : gcell c x = ((c : Thread nD τ), csem x) := by
  cases x with
  | none => rfl
  | some i => exact dcell_eq c i

theorem csem_injective : Function.Injective csem := by
  intro x y h
  cases x with
  | none =>
    cases y with
    | none => rfl
    | some j => obtain ⟨s, hs, -⟩ := osem_eq j; rw [show csem (some j) = osem j from rfl, hs] at h; cases h
  | some i =>
    cases y with
    | none => obtain ⟨s, hs, -⟩ := osem_eq i; rw [show csem (some i) = osem i from rfl, hs] at h; cases h
    | some j => exact congrArg some (osem_injective h)

theorem gcell_injective : Function.Injective (fun x : Dev nD × CK => gcell x.1 x.2) := by
  rintro ⟨c, x⟩ ⟨c', x'⟩ h
  simp only [gcell_eq] at h
  have h1 : c = c' := congrArg (fun g : GSem nD τ sig => g.1.1) h
  have h2 : csem x = csem x' := congrArg Prod.snd h
  rw [h1, csem_injective h2]

def protoCells : Finset (GSem nD τ sig) := Finset.univ.map ⟨fun x : Dev nD × CK => gcell x.1 x.2, gcell_injective⟩

abbrev XK : Type := {i : Fin 3 × Fin 4 × Fin 8 // i.2.2 ≠ 0}

abbrev TK : Type := {k : Fin 8 // k ≠ 0} ⊕ (Bool × XK)
def tokCell : TK → CK
  | .inl _ => none
  | .inr p => some (p.1, p.2.1)
def tokDuty : TK → Fin 8
  | .inl k => k.1
  | .inr _ => 0
def tokOf (x : Dev nD × TK) : GSem nD τ sig × ℕ × Fin 8 := (gcell x.1 (tokCell x.2), 0, tokDuty x.2)

theorem tokOf_injective : Function.Injective (tokOf : Dev nD × TK → GSem nD τ sig × ℕ × Fin 8) := by
  rintro ⟨c, t⟩ ⟨c', t'⟩ h
  have hg : (fun x : Dev nD × CK => gcell x.1 x.2) (c, tokCell t) = (fun x : Dev nD × CK => gcell x.1 x.2) (c', tokCell t') :=
    congrArg (fun y : GSem nD τ sig × ℕ × Fin 8 => y.1) h
  have hd : tokDuty t = tokDuty t' := congrArg (fun y : GSem nD τ sig × ℕ × Fin 8 => y.2.2) h
  have hx := gcell_injective hg
  have h1 : c = c' := congrArg Prod.fst hx
  have h2 : tokCell t = tokCell t' := congrArg Prod.snd hx
  subst h1
  have : t = t' := by
    rcases t with k | ⟨b, i⟩ <;> rcases t' with k' | ⟨b', i'⟩
    · exact congrArg Sum.inl (Subtype.ext hd)
    · cases h2
    · cases h2
    · have h3 : (b, i.1) = (b', i'.1) := Option.some.inj h2
      have h4 : b = b' := congrArg Prod.fst h3
      have h5 : i = i' := Subtype.ext (congrArg Prod.snd h3)
      rw [h4, h5]
  rw [this]

def protoToks : Finset (GSem nD τ sig × ℕ × Fin 8) := Finset.univ.map ⟨tokOf, tokOf_injective⟩

def u₀ : UU :=
  (initOf (Pipeline.cells cfgs cellOf_inj) (Pipeline.launchToks cfgs cellOf_inj), initOf protoCells protoToks)

def toks (c : Dev nD) : sProp 𝕄 :=
  iprop((bigSep ((Finset.univ : Finset (Fin 8)).erase 0) fun k => dutyTok ER (barCell c) 0 k)
    ∗ bigSep xfer fun i => iprop(dutyTok ER (recvCell c i.1 i.2.1 i.2.2) 0 0 ∗ dutyTok ER (sendCell c i.1 i.2.1 i.2.2) 0 0))

def G (c : Dev nD) : sProp 𝕄 :=
  iprop((bigSep Finset.univ fun x : CK => roundState ER (Rd m) (gcell c x) 0)
    ∗ (bigSep Finset.univ fun x : CK => iprop(atPos ER (gcell c x) 0 ∅ 0 ∗ reached ER (gcell c x) 0)) ∗ toks c)

def G' (c : Dev nD) : sProp 𝕄 := iprop(∃ K, ghost m K c)

theorem toks_eq (c : Dev nD) :
    (bigSep Finset.univ fun t : TK => (dutyTok ER (gcell c (tokCell t)) 0 (tokDuty t) : sProp 𝕄)) = toks c := by
  have e1 := bigSep_subtype_ne (0 : Fin 8) (fun k => (dutyTok ER (barCell c) 0 k : sProp 𝕄))
  have e2 := bigSep_subtype (fun i : Fin 3 × Fin 4 × Fin 8 => i.2.2 ≠ 0) (fun i => (dutyTok ER (recvCell c i.1 i.2.1 i.2.2) 0 0 : sProp 𝕄))
  have e3 := bigSep_subtype (fun i : Fin 3 × Fin 4 × Fin 8 => i.2.2 ≠ 0) (fun i => (dutyTok ER (sendCell c i.1 i.2.1 i.2.2) 0 0 : sProp 𝕄))
  unfold toks xfer
  rw [bigSep_univ_sum, bigSep_univ_prod, bigSep_bool, bigSep_sep', ← e1, ← e2, ← e3]
  rfl

def payer (c : Dev nD) : TK → Dev nD
  | .inl k => peer c k.1
  | .inr p => bif p.1 then peer c p.2.1.2.2 else c

theorem payer_payer (c : Dev nD) (t : TK) : payer (payer c t) t = c := by
  rcases t with k | ⟨b, i⟩
  · exact peer_peer c k.1
  · cases b
    · rfl
    · exact peer_peer c i.1.2.2

def payerEquiv (t : TK) : Dev nD ≃ Dev nD := ⟨fun c => payer c t, fun c => payer c t, fun c => payer_payer c t, fun c => payer_payer c t⟩

theorem payToks_eq (c : Dev nD) :
    (bigSep Finset.univ fun t : TK => (dutyTok ER (gcell (payer c t) (tokCell t)) 0 (tokDuty t) : sProp 𝕄)) = payToks c := by
  have e1 := bigSep_subtype_ne (0 : Fin 8) (fun k => (dutyTok ER (barCell (peer c k)) 0 k : sProp 𝕄))
  have e2 := bigSep_subtype (fun i : Fin 3 × Fin 4 × Fin 8 => i.2.2 ≠ 0) (fun i => (dutyTok ER (recvCell (peer c i.2.2) i.1 i.2.1 i.2.2) 0 0 : sProp 𝕄))
  have e3 := bigSep_subtype (fun i : Fin 3 × Fin 4 × Fin 8 => i.2.2 ≠ 0) (fun i => (dutyTok ER (sendCell c i.1 i.2.1 i.2.2) 0 0 : sProp 𝕄))
  unfold payToks xfer
  rw [bigSep_univ_sum, bigSep_univ_prod, bigSep_bool, bigSep_sep', ← e1, ← e2, ← e3]
  rfl

theorem toks_around : (bigSep Finset.univ fun c : Dev nD => (toks c : sProp 𝕄)) = bigSep Finset.univ fun c : Dev nD => payToks c := by
  rw [← bigSep_congr (s := Finset.univ) fun (c : Dev nD) _ => toks_eq (F := F) c,
    ← bigSep_congr (s := Finset.univ) fun (c : Dev nD) _ => payToks_eq (F := F) c,
    bigSep_univ_comm, bigSep_univ_comm (fun (c : Dev nD) (t : TK) => (dutyTok ER (gcell (payer c t) (tokCell t)) 0 (tokDuty t) : sProp 𝕄))]
  exact bigSep_congr fun t _ => bigSep_univ_equiv (payerEquiv t) (fun c : Dev nD => (dutyTok ER (gcell c (tokCell t)) 0 (tokDuty t) : sProp 𝕄))

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun x : CK => Φ (gcell c x) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => toks_eq c
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

theorem ownSems0_eq (c : Dev nD) : (Pipeline.ownSems0 (Ix := Unit) (Name := ℕ) (U := UU) (Lvl := ℕ) (Val := Elt F) (τ := τ) osem c : sProp 𝕄)
    = bigSep Finset.univ fun i : SlotCell => semVal (dcell c i) 0 := by
  unfold Pipeline.ownSems0
  exact bigSep_congr fun i _ => by rw [dcell_eq]

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CK => semVal (gcell c x) 0 : sProp 𝕄) := by
  rw [ownSems0_eq, unscopedSems0_eq, bigSep_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CK => iprop(∃ κ : ℕ, cellInv ER (Rd m) κ (gcell c x)))
          ∗ (bigSep Finset.univ fun x : CK => iprop(atPos ER (gcell c x) 0 ∅ 0 ∗ reached ER (gcell c x) 0)) ∗ toks c) := by
  unfold G
  iintro ⟨Hos, Hus, Hst, Hat, Htok⟩
  ihave Hv := (sems0_eq (F := F) c) $$ [Hos Hus]
  · iframe
  imod (show iprop((bigSep Finset.univ fun x : CK => semVal (gcell c x) 0) ∗ bigSep Finset.univ fun x : CK => roundState ER (Rd m) (gcell c x) 0)
      ⊢ (|={Set.univ}=> bigSep Finset.univ fun x : CK => iprop(∃ κ : ℕ, cellInv ER (Rd m) κ (gcell c x)) : sProp 𝕄) from by
        rw [← bigSep_sep']
        exact (bigSep_mono fun x _ => (Rounds.body_intro ER (Rd m) (gcell c x)).trans inv_alloc).trans (bigSep_fupd _ _)) $$ [Hv Hst] with Hinv
  · iframe
  imodintro
  iframe

theorem ghost_intro (K : Dev nD × CK → ℕ) (c : Dev nD) : iprop(records m K ∗ linear c ∗ payToks c) ⊢ G' m c := by
  unfold G' ghost
  iintro H; iexists K; iexact H

theorem regroup :
    (bigSep Finset.univ fun c : Dev nD => iprop((bigSep Finset.univ fun x : CK => iprop(∃ κ : ℕ, cellInv ER (Rd m) κ (gcell c x)))
          ∗ (bigSep Finset.univ fun x : CK => iprop(atPos ER (gcell c x) 0 ∅ 0 ∗ reached ER (gcell c x) 0)) ∗ toks c) : sProp 𝕄)
      ⊢ bigSep Finset.univ (G' m) := by
  rw [bigSep_sep', bigSep_sep', ← bigSep_univ_prod (fun x : Dev nD × CK => iprop(∃ κ : ℕ, cellInv ER (Rd m) κ (gcell x.1 x.2))),
    bigSep_congr (s := Finset.univ) (fun (c : Dev nD) _ => bigSep_sep' Finset.univ (fun x : CK => (atPos ER (gcell c x) 0 ∅ 0 : sProp 𝕄)) (fun x => reached ER (gcell c x) 0)),
    bigSep_sep', ← bigSep_univ_prod (fun x : Dev nD × CK => (reached ER (gcell x.1 x.2) 0 : sProp 𝕄)), toks_around]
  iintro ⟨HI, ⟨Hat, #HR⟩, Htok⟩
  ihave HK := (BI.bigSep_exists_pi Finset.univ (fun (x : Dev nD × CK) (κ : ℕ) => (cellInv ER (Rd m) κ (gcell x.1 x.2) : sProp 𝕄))) $$ HI
  icases HK with ⟨%K, #HI⟩
  iapply (bigSep_with_persistent (R := records m K) fun c _ => ghost_intro m K c)
  isplitr
  · unfold records; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem owedOf_append (A B : List (CellTallies nD τ sig Unit)) : owedOf (A ++ B) = owedOf A + owedOf B := by
  induction A with
  | nil => exact (zero_add _).symm
  | cons t A ih => show owedOf (A ++ B) + t = owedOf A + t + owedOf B; rw [ih, add_right_comm]

theorem owedOf_map {α : Type} [DecidableEq α] (l : List α) (hl : l.Nodup) (f : α → CellTallies nD τ sig Unit) :
    owedOf (l.map f) = ∑ x ∈ l.toFinset, f x := by
  induction l with
  | nil => rfl
  | cons a l ih =>
    obtain ⟨ha, hl⟩ := List.nodup_cons.mp hl
    show owedOf (l.map f) + f a = _
    rw [ih hl, List.toFinset_cons, Finset.sum_insert (fun h => ha (List.mem_toFinset.mp h)), add_comm]

theorem owedOf_flatMap {α : Type} [DecidableEq α] (l : List α) (hl : l.Nodup) (f : α → List (CellTallies nD τ sig Unit)) :
    owedOf (l.flatMap f) = ∑ x ∈ l.toFinset, owedOf (f x) := by
  induction l with
  | nil => rfl
  | cons a l ih =>
    obtain ⟨ha, hl⟩ := List.nodup_cons.mp hl
    rw [List.flatMap_cons, owedOf_append, ih hl, List.toFinset_cons, Finset.sum_insert (fun h => ha (List.mem_toFinset.mp h))]

theorem O₀_eq (d : Dev nD) :
    O₀ d = (∑ k ∈ (Finset.univ : Finset (Fin 8)).erase 0, tallyAt (barCell (peer d k)) () 1)
      + ∑ lc : Fin 3 × Fin 4, ∑ k ∈ (Finset.univ : Finset (Fin 8)).erase 0, tallyAt (recvCell (peer d k) lc.1 lc.2 k) () N := by
  unfold O₀ payAll payBar
  rw [owedOf_append, owedOf_map _ (by decide), owedOf_flatMap _ (by decide),
    show ([1, 2, 3, 4, 5, 6, 7] : List (Fin 8)).toFinset = (Finset.univ : Finset (Fin 8)).erase 0 from by decide,
    show lcOrder.toFinset = (Finset.univ : Finset (Fin 3 × Fin 4)) from by decide]
  refine congrArg₂ (· + ·) rfl (Finset.sum_congr rfl fun lc _ => ?_)
  unfold paySend
  rw [owedOf_map _ (by decide), show sendOrder.toFinset = (Finset.univ : Finset (Fin 8)).erase 0 from by decide]

def T₀ (c : Dev nD) : CellTallies nD τ sig Unit :=
  tallyAt (barCell c) () 7 + ∑ i ∈ xfer, tallyAt (recvCell c i.1 i.2.1 i.2.2) () N

def peerEquiv (k : Fin 8) : Dev nD ≃ Dev nD := ⟨fun c => peer c k, fun c => peer c k, fun c => peer_peer c k, fun c => peer_peer c k⟩

theorem nsmul_tallyAt (g : GSem nD τ sig) (n a : ℕ) : n • (tallyAt g () a : CellTallies nD τ sig Unit) = tallyAt g () (n * a) := by
  induction n with
  | zero => rw [zero_nsmul, Nat.zero_mul, tallyAt_zero]
  | succ n ih => rw [succ_nsmul, ih, tallyAt_add, Nat.succ_mul]

theorem sum_xfer {M : Type} [AddCommMonoid M] (h : Fin 3 × Fin 4 × Fin 8 → M) :
    ∑ i ∈ xfer, h i = ∑ lc : Fin 3 × Fin 4, ∑ k ∈ (Finset.univ : Finset (Fin 8)).erase 0, h (lc.1, lc.2, k) := by
  unfold xfer
  rw [Finset.sum_filter]
  simp only [Fintype.sum_prod_type]
  refine Finset.sum_congr rfl fun l _ => Finset.sum_congr rfl fun ch _ => ?_
  rw [← Finset.filter_ne' Finset.univ (0 : Fin 8), Finset.sum_filter]

theorem sum_O₀ : (∑ d : Dev nD, O₀ d) = ∑ d : Dev nD, T₀ d := by
  simp only [O₀_eq, T₀, Finset.sum_add_distrib]
  refine congrArg₂ (· + ·) ?_ ?_
  · calc (∑ d : Dev nD, ∑ k ∈ (Finset.univ : Finset (Fin 8)).erase 0, (tallyAt (barCell (peer d k)) () 1 : CellTallies nD τ sig Unit))
        = ∑ k ∈ (Finset.univ : Finset (Fin 8)).erase 0, ∑ d : Dev nD, tallyAt (barCell (peer d k)) () 1 := Finset.sum_comm
      _ = ∑ k ∈ (Finset.univ : Finset (Fin 8)).erase 0, ∑ d : Dev nD, tallyAt (barCell d) () 1 :=
          Finset.sum_congr rfl fun k _ => (peerEquiv k).sum_comp fun d : Dev nD => (tallyAt (barCell d) () 1 : CellTallies nD τ sig Unit)
      _ = ∑ d : Dev nD, ∑ k ∈ (Finset.univ : Finset (Fin 8)).erase 0, tallyAt (barCell d) () 1 := Finset.sum_comm
      _ = ∑ d : Dev nD, tallyAt (barCell d) () 7 := Finset.sum_congr rfl fun d _ => by
          rw [Finset.sum_const, nsmul_tallyAt, show ((Finset.univ : Finset (Fin 8)).erase 0).card * 1 = 7 from by decide]
  · let f : Dev nD → Fin 3 × Fin 4 → Fin 8 → CellTallies nD τ sig Unit := fun d lc k => tallyAt (recvCell d lc.1 lc.2 k) () N
    have swap : ∀ g : Dev nD → Fin 3 × Fin 4 → Fin 8 → CellTallies nD τ sig Unit,
        (∑ d : Dev nD, ∑ lc : Fin 3 × Fin 4, ∑ k ∈ (Finset.univ : Finset (Fin 8)).erase 0, g d lc k)
          = ∑ lc : Fin 3 × Fin 4, ∑ k ∈ (Finset.univ : Finset (Fin 8)).erase 0, ∑ d : Dev nD, g d lc k :=
      fun g => Finset.sum_comm.trans (Finset.sum_congr rfl fun lc _ => Finset.sum_comm)
    calc (∑ d : Dev nD, ∑ lc : Fin 3 × Fin 4, ∑ k ∈ (Finset.univ : Finset (Fin 8)).erase 0, f (peer d k) lc k)
        = ∑ lc : Fin 3 × Fin 4, ∑ k ∈ (Finset.univ : Finset (Fin 8)).erase 0, ∑ d : Dev nD, f (peer d k) lc k := swap fun d lc k => f (peer d k) lc k
      _ = ∑ lc : Fin 3 × Fin 4, ∑ k ∈ (Finset.univ : Finset (Fin 8)).erase 0, ∑ d : Dev nD, f d lc k :=
          Finset.sum_congr rfl fun lc _ => Finset.sum_congr rfl fun k _ => (peerEquiv k).sum_comp fun d : Dev nD => f d lc k
      _ = ∑ d : Dev nD, ∑ lc : Fin 3 × Fin 4, ∑ k ∈ (Finset.univ : Finset (Fin 8)).erase 0, f d lc k := (swap f).symm
      _ = ∑ d : Dev nD, ∑ i ∈ xfer, tallyAt (recvCell d i.1 i.2.1 i.2.2) () N :=
          Finset.sum_congr rfl fun d _ => (sum_xfer fun i => (tallyAt (recvCell d i.1 i.2.1 i.2.2) () N : CellTallies nD τ sig Unit)).symm

theorem T₀_core (d : Dev nD) (g : GSem nD τ sig) (h : T₀ d g ≠ 0) : g.1 = (d : Thread nD τ) := by
  by_contra hg
  apply h
  unfold T₀
  rw [Pi.add_apply, Finset.sum_apply, tallyAt_ne_cell (fun e => hg (congrArg Prod.fst e)), zero_add]
  exact Finset.sum_eq_zero fun i _ => tallyAt_ne_cell (fun e => hg (congrArg Prod.fst e)) () N

theorem creds_intro (c : Dev nD) : (Pipeline.launchCred O₀ c : sProp 𝕄) ⊢ creds c := by
  rw [Pipeline.launchCred_of_sum O₀ T₀ sum_O₀ T₀_core c]
  unfold T₀ creds
  exact (cred_add _ _).1.trans (sep_mono_right (Entails.of_eq (Pipeline.cred_finsetSum xfer _)))

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) : g.1.2 = .tc ∧ 0 < lv g u := by
  rw [O₀_eq] at h
  rcases Pipeline.add_pos_cases h with h | h
  · obtain ⟨k, -, hk⟩ := Pipeline.sum_pos_exists h
    obtain ⟨rfl, -⟩ := Pipeline.tallyAt_pos hk
    exact ⟨rfl, Nat.one_pos⟩
  · obtain ⟨lc, -, h⟩ := Pipeline.sum_pos_exists h
    obtain ⟨k, -, hk⟩ := Pipeline.sum_pos_exists h
    obtain ⟨rfl, -⟩ := Pipeline.tallyAt_pos hk
    refine ⟨rfl, ?_⟩
    show 0 < (if 104 ≤ (recvSem lc.1 lc.2 k).val then 2 + 4 * (((recvSem lc.1 lc.2 k).val - 104) / 32) + ((recvSem lc.1 lc.2 k).val - 104) / 8 % 4 else 0)
    rw [if_pos (by rw [recvSem_val]; omega)]; omega

theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by unfold L; rw [if_pos (O₀_pos hg).1]; exact Finset.mem_singleton_self _)
      (fun p hp => by
        rw [Finset.mem_singleton.mp hp]
        show (if 104 ≤ q.val then 2 + 4 * ((q.val - 104) / 32) + (q.val - 104) / 8 % 4 else 0) ≤ 0
        rw [if_neg (by omega)])
      (fun g u hg => (O₀_pos hg).2)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sem_lt w s) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    iframe
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ commAny
  iintro ⟨Hs, -, Hr⟩
  iframe

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ commAny
  iintro ⟨Hr, Hz⟩
  isplitr; · iempintro
  iframe

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.Kernel.Hand

end
-- ==== Proof.Bits.Slots.lean ====
import proofs.«900998_g7700000000000999_dist_mlpseq_tp1d_rep_rep_b128_d128_h256_v7x_i8_f32_1_alg».proof.Proof.Bits.Sched
import Idealize.ShloMosaic.Lib.Pipeline.Value

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem read_slotBuf (l : Fin 3) (ch : Fin 4) (k : Fin 8) (v : Vec F S32x128 .bf16) :
    (slotM l ch k).view.read (Elt F) (slotBuf l ch k v) = v := by
  unfold slotBuf
  exact View.read_write_univ _ _

theorem slotPts_write (c : Dev nD) (l : Fin 3) (ch : Fin 4) (k : Fin 8) (q : PosShare TreeShare)
    (fd : Buf (Elt F) ((slotM l ch k).view.loc (c : Thread nD τ))) (v : Vec F S32x128 .bf16) :
    (slotPts c l ch k q ((slotM l ch k).view.write (Elt F) fd v Finset.univ) : sProp 𝕄) = slotPts c l ch k q (slotBuf l ch k v) := by
  unfold slotPts slotBuf
  refine pointsTo_congr fun i hi => ?_
  obtain ⟨y, rfl⟩ := View.exists_emb_of_mem_set _ hi
  rw [View.write_emb_of_mem _ _ (Finset.mem_univ y), View.write_emb_of_mem _ _ (Finset.mem_univ y)]

theorem slotPts_store (c : Dev nD) (l : Fin 3) (ch : Fin 4) (k : Fin 8) (q : PosShare TreeShare)
    (f : Buf (Elt F) ((slotM l ch k).view.loc (c : Thread nD τ))) (w : Vec F S1x1x1x32x128 .bf16) :
    (slotPts c l ch k q ((commM.access (slotR l ch k)).write (Elt F) f w Finset.univ) : sProp 𝕄)
      = slotPts c l ch k q (slotBuf l ch k (shapeCast S32x128 w shapeCasts_S1x1x1x32x128_S32x128)) := by
  unfold slotPts slotBuf
  refine pointsTo_congr fun i hi => ?_
  obtain ⟨y, rfl⟩ := View.exists_emb_of_mem_set _ hi
  rw [View.write_emb_of_mem _ _ (Finset.mem_univ y)]
  exact View.write_emb_of_mem (v := commM.access (slotR l ch k)) f w
    (Finset.mem_univ (Shape.reshapeEquiv squeezes_S1x1x1x32x128_S32x128.numel_eq y))

theorem readAt_slotBuf (l : Fin 3) (ch : Fin 4) (k : Fin 8) (v : Vec F S32x128 .bf16) :
    commM.view.readAt (Elt F) (slotR l ch k).toLoadRect (slotBuf l ch k v)
      = shapeCast S1x1x1x32x128 v shapeCasts_S32x128_S1x1x1x32x128 := by
  have h : v = shapeCast S32x128 (commM.view.readAt (Elt F) (slotR l ch k).toLoadRect (slotBuf l ch k v))
      shapeCasts_S1x1x1x32x128_S32x128 := (read_slotBuf l ch k v).symm
  calc commM.view.readAt (Elt F) (slotR l ch k).toLoadRect (slotBuf l ch k v)
      = shapeCast S1x1x1x32x128 (shapeCast S32x128 (commM.view.readAt (Elt F) (slotR l ch k).toLoadRect (slotBuf l ch k v))
          shapeCasts_S1x1x1x32x128_S32x128) shapeCasts_S32x128_S1x1x1x32x128 := (shapeCast_shapeCast _ _ _).symm
    _ = shapeCast S1x1x1x32x128 v shapeCasts_S32x128_S1x1x1x32x128 :=
        congrArg (fun u => shapeCast S1x1x1x32x128 u shapeCasts_S32x128_S1x1x1x32x128) h.symm

theorem slot_access_set (l : Fin 3) (ch : Fin 4) (k : Fin 8) : (commM.access (slotR l ch k)).set = (slotM l ch k).view.set :=
  (View.set_reshape _ _).symm
theorem slot_setOn (l : Fin 3) (ch : Fin 4) (k : Fin 8) :
    commM.view.setOn (slotR l ch k).toLoadRect.set ⊆ (slotM l ch k).view.set := by
  rw [← slot_access_set, View.set_slice]
  exact Finset.Subset.refl _

end Cert.Kernel.Hand

end
-- ==== Proof.Bits.BodyDefs.lean ====
import proofs.«900998_g7700000000000999_dist_mlpseq_tp1d_rep_rep_b128_d128_h256_v7x_i8_f32_1_alg».proof.Proof.Bits.Ghost
import proofs.«900998_g7700000000000999_dist_mlpseq_tp1d_rep_rep_b128_d128_h256_v7x_i8_f32_1_alg».proof.Proof.Bits.Slots
import proofs.«900998_g7700000000000999_dist_mlpseq_tp1d_rep_rep_b128_d128_h256_v7x_i8_f32_1_alg».proof.Proof.Gen.Kernel.Frame
import proofs.«900998_g7700000000000999_dist_mlpseq_tp1d_rep_rep_b128_d128_h256_v7x_i8_f32_1_alg».proof.Proof.Gen.Kernel.Skeleton
import proofs.«900998_g7700000000000999_dist_mlpseq_tp1d_rep_rep_b128_d128_h256_v7x_i8_f32_1_alg».proof.Proof.Gen.Kernel.Points

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyProg : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) cc0_scratch1 cc0_scratch2

def bodyPre (K : Dev nD × CK → ℕ) (c : Dev nD) : sProp 𝕄 :=
  iprop(ghost m K c ∗ creds c ∗ levAts L lv ∗ commAny c ∗ (dats m ρ 0 c).owesAt () t0_0.castSucc
    ∗ stg c cc0_stg0_0 (iblk m c 0 t0_0) ∗ stg c cc0_stg1_0 (iblk m c 1 t0_0) ∗ stg c cc0_stg2_0 (iblk m c 2 t0_0) ∗ stg c cc0_stg3_0 (iblk m c 3 t0_0) ∗ stg c cc0_stg4_0 (iblk m c 4 t0_0) ∗ stg c cc0_stg5_0 (iblk m c 5 t0_0) ∗ stg c cc0_stg6_0 (iblk m c 6 t0_0)
    ∗ (∃ X, stg c cc0_stg7_0 X))

def bodyPost (c : Dev nD) : sProp 𝕄 :=
  iprop(Φ₁ c ∗ (dats m ρ 0 c).owesAt () t0_0.succ
    ∗ stg c cc0_stg0_0 (iblk m c 0 t0_0) ∗ stg c cc0_stg1_0 (iblk m c 1 t0_0) ∗ stg c cc0_stg2_0 (iblk m c 2 t0_0) ∗ stg c cc0_stg3_0 (iblk m c 3 t0_0) ∗ stg c cc0_stg4_0 (iblk m c 4 t0_0) ∗ stg c cc0_stg5_0 (iblk m c 5 t0_0) ∗ stg c cc0_stg6_0 (iblk m c 6 t0_0)
    ∗ stg c cc0_stg7_0 (outStg m c))

omit [FloatOps F] in

theorem owns_whole_stg (c : Dev nD) (b : Ref sig .tc) (X : b.ty.Contents (Elt F)) :
    (owns (Ix := Unit) (Name := ℕ) (U := UU) (Lvl := ℕ) (c : Thread nD τ) (Memref.whole b) fullShare X : sProp 𝕄)
      = stg c b X := by
  unfold owns; simp only [Memref.view_whole, View.read_whole, View.set_whole]

theorem dats_before_0 (c : Dev nD) (d) : (dats (F := F) m ρ 0 c).before 0 t0_0 d = iblk m c 0 t0_0 := by
  unfold Dat.before; rw [if_pos (fetch0_0 t0_0)]; rfl

theorem dats_before_1 (c : Dev nD) (d) : (dats (F := F) m ρ 0 c).before 1 t0_0 d = iblk m c 1 t0_0 := by
  unfold Dat.before; rw [if_pos (fetch0_1 t0_0)]; rfl

theorem dats_before_2 (c : Dev nD) (d) : (dats (F := F) m ρ 0 c).before 2 t0_0 d = iblk m c 2 t0_0 := by
  unfold Dat.before; rw [if_pos (fetch0_2 t0_0)]; rfl

theorem dats_before_3 (c : Dev nD) (d) : (dats (F := F) m ρ 0 c).before 3 t0_0 d = iblk m c 3 t0_0 := by
  unfold Dat.before; rw [if_pos (fetch0_3 t0_0)]; rfl

theorem dats_before_4 (c : Dev nD) (d) : (dats (F := F) m ρ 0 c).before 4 t0_0 d = iblk m c 4 t0_0 := by
  unfold Dat.before; rw [if_pos (fetch0_4 t0_0)]; rfl

theorem dats_before_5 (c : Dev nD) (d) : (dats (F := F) m ρ 0 c).before 5 t0_0 d = iblk m c 5 t0_0 := by
  unfold Dat.before; rw [if_pos (fetch0_5 t0_0)]; rfl

theorem dats_before_6 (c : Dev nD) (d) : (dats (F := F) m ρ 0 c).before 6 t0_0 d = iblk m c 6 t0_0 := by
  unfold Dat.before; rw [if_pos (fetch0_6 t0_0)]; rfl

theorem bodyProg_eq : defs₀ (F := F) Proc.tc 0 (t0_0, cfg0.slots t0_0) = bodyProg (F := F) := by
  unfold bodyProg; rfl

theorem bodyPost_eq (c : Dev nD) : iprop((dats (F := F) m ρ 0 c).Φ t0_0.succ ∗
          (dats m ρ 0 c).owesAt () t0_0.succ ∗
            stg c cc0_stg0_0 ((dats m ρ 0 c).after 0 t0_0) ∗
              stg c cc0_stg1_0 ((dats m ρ 0 c).after 1 t0_0) ∗
                stg c cc0_stg2_0 ((dats m ρ 0 c).after 2 t0_0) ∗
                  stg c cc0_stg3_0 ((dats m ρ 0 c).after 3 t0_0) ∗
                    stg c cc0_stg4_0 ((dats m ρ 0 c).after 4 t0_0) ∗
                      stg c cc0_stg5_0 ((dats m ρ 0 c).after 5 t0_0) ∗
                        stg c cc0_stg6_0 ((dats m ρ 0 c).after 6 t0_0) ∗ stg c cc0_stg7_0 ((dats m ρ 0 c).after 7 t0_0))
    = bodyPost m ρ c := by
  unfold bodyPost; rfl

theorem body_obligation
    (hsound : ∀ (K : Dev nD × CK → ℕ) (c : Dev nD) (Kt : PUnit → sProp 𝕄),
      iprop(bodyPre m ρ K c ∗ (bodyPost m ρ c -∗ Kt ⟨⟩))
        ⊢ wp frame (wpE (defs₀ (F := F)) 𝒱₀ c none) Set.univ (bodyProg (F := F)) Kt)
    (c : Dev nD) : BodyObligation (dats (F := F) m ρ 0 c) (defs₀ (F := F)) 𝒱₀ () Set.univ := by
  intro t
  rw [fin_N0 t]
  rw [bigSep_W0, bigSep_W0]
  simp only [owns_whole_stg, dats_before_0, dats_before_1, dats_before_2, dats_before_3, dats_before_4, dats_before_5, dats_before_6]
  have hΦ : (dats (F := F) m ρ 0 c).Φ t0_0.castSucc = Φ₀ m c := rfl
  rw [bodyProg_eq, bodyPost_eq m ρ c, hΦ]
  unfold Φ₀ start
  iintro ⟨⟨⟨⟨%K, Hg⟩, Hcr, Hlv⟩, Hcomm⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (hsound K c fun _ => bodyPost m ρ c)
  unfold bodyPre
  isplitr []
  · isplitl [Hg]; · iexact Hg
    isplitl [Hcr]; · iexact Hcr
    isplitl [Hlv]; · iexact Hlv
    isplitl [Hcomm]; · iexact Hcomm
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · iintro H; iexact H

end Cert.Kernel.Hand

end
-- ==== Proof.Bits.Levels.lean ====
import proofs.«900998_g7700000000000999_dist_mlpseq_tp1d_rep_rep_b128_d128_h256_v7x_i8_f32_1_alg».proof.Proof.Bits.Ghost

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem owedOf_pos {Lst : List (CellTallies nD τ sig Unit)} {g : GSem nD τ sig} {u : Unit} (h : 0 < owedOf Lst g u) :
    ∃ t ∈ Lst, 0 < t g u := by
  induction Lst with
  | nil => exact absurd h (Nat.lt_irrefl 0)
  | cons t Lst ih =>
    rw [show owedOf (t :: Lst) = owedOf Lst + t from rfl, Pi.add_apply, Finsupp.add_apply] at h
    rcases (by omega : 0 < owedOf Lst g u ∨ 0 < t g u) with h' | h'
    · obtain ⟨t', ht', hp⟩ := ih h'
      exact ⟨t', List.mem_cons_of_mem _ ht', hp⟩
    · exact ⟨t, List.mem_cons_self, h'⟩

theorem lcOrder_drop_pos (n : ℕ) : ∀ lc ∈ lcOrder.drop n, n ≤ 4 * lc.1.val + lc.2.val := by
  by_cases hn : n < 12
  · interval_cases n <;> decide
  · intro lc h
    rw [List.drop_eq_nil_of_le (show lcOrder.length ≤ n from Nat.le_of_not_lt hn)] at h
    exact absurd h List.not_mem_nil

theorem owed_drop_pos (c : Dev nD) (n : ℕ) {g : GSem nD τ sig} {u : Unit}
    (h : 0 < owedOf ((lcOrder.drop n).flatMap (paySend c)) g u) :
    ∃ (l' : Fin 3) (ch' : Fin 4) (k' : Fin 8), g = recvCell (peer c k') l' ch' k' ∧ n ≤ 4 * l'.val + ch'.val := by
  obtain ⟨t, ht, hpos⟩ := owedOf_pos h
  obtain ⟨lc, hlc, ht⟩ := List.mem_flatMap.mp ht
  obtain ⟨k', -, rfl⟩ := List.mem_map.mp ht
  rw [tallyAt_apply] at hpos
  by_cases hg : g = recvCell (peer c k') lc.1 lc.2 k' ∧ u = ()
  · exact ⟨lc.1, lc.2, k', hg.1, lcOrder_drop_pos n lc hlc⟩
  · rw [if_neg hg] at hpos; exact absurd hpos (Nat.lt_irrefl 0)

theorem lv_recv (c : Dev nD) (l : Fin 3) (ch : Fin 4) (k : Fin 8) : lv (recvCell c l ch k) () = 2 + 4 * l.val + ch.val := by
  show (if 104 ≤ (recvSem l ch k).val
      then 2 + 4 * (((recvSem l ch k).val - 104) / 32) + ((recvSem l ch k).val - 104) / 8 % 4 else 0) = _
  rw [recvSem_val]
  have := l.isLt; have := ch.isLt; have := k.isLt
  rw [if_pos (by omega)]
  omega

omit [FloatOps F] in

theorem mayWait_cut (c : Dev nD) (sm : SemLoc sig) (n : ℕ) (O : CellTallies nD τ sig Unit)
    (hsm : lv ((c : Thread nD τ), sm) () ≤ n) (hO : ∀ g u, 0 < O g u → g.1.2 = .tc ∧ n < lv g u) :
    (levAts L lv : sProp 𝕄) ⊢ MayWait (c : Thread nD τ) sm () O :=
  MayOwe.of_cut (L := L) (lev := lv) n
    (fun p hp => by rw [Finset.mem_singleton.mp hp]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

omit [FloatOps F] in

theorem mayWait_bar (c : Dev nD) :
    (levAts L lv : sProp 𝕄) ⊢ MayWait (c : Thread nD τ) (.reg barS) () (owedOf (lcOrder.flatMap (paySend c))) :=
  mayWait_cut c (.reg barS) 1 _ (Nat.le_refl 1) fun g u hg => by
    obtain ⟨l', ch', k', rfl, -⟩ := owed_drop_pos c 0 (by rw [List.drop_zero]; exact hg)
    refine ⟨rfl, ?_⟩
    rw [lv_recv]; omega

omit [FloatOps F] in

theorem mayWait_recv (c : Dev nD) (l : Fin 3) (ch : Fin 4) (k : Fin 8) (n : ℕ) (hn : 4 * (l.val + 1) + ch.val ≤ n) :
    (levAts L lv : sProp 𝕄)
      ⊢ MayWait (c : Thread nD τ) (.dma (recvSem l ch k)) () (owedOf ((lcOrder.drop n).flatMap (paySend c))) :=
  mayWait_cut c (.dma (recvSem l ch k)) (2 + 4 * l.val + ch.val) _ (Nat.le_of_eq (lv_recv c l ch k)) fun g u hg => by
    obtain ⟨l', ch', k', rfl, hle⟩ := owed_drop_pos c n hg
    refine ⟨rfl, ?_⟩
    rw [lv_recv]; omega

end Cert.Kernel.Hand

end
-- ==== Proof.Bits.RulesBar.lean ====
import proofs.«900998_g7700000000000999_dist_mlpseq_tp1d_rep_rep_b128_d128_h256_v7x_i8_f32_1_alg».proof.Proof.Bits.Ghost
import proofs.«900998_g7700000000000999_dist_mlpseq_tp1d_rep_rep_b128_d128_h256_v7x_i8_f32_1_alg».proof.Proof.Bits.Slots
import proofs.«900998_g7700000000000999_dist_mlpseq_tp1d_rep_rep_b128_d128_h256_v7x_i8_f32_1_alg».proof.Proof.Bits.Levels

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

theorem inv_at (x : Dev nD × CK) : (records m K : sProp 𝕄) ⊢ cellInv ER (Rd m) (K x) (gcell x.1 x.2) := by
  unfold records
  exact (BI.sep_and.trans BI.and_elimL).trans (bigSep_elim (Finset.mem_univ x))
theorem reached_at (x : Dev nD × CK) : (records m K : sProp 𝕄) ⊢ reached ER (gcell x.1 x.2) 0 := by
  unfold records
  exact (BI.sep_and.trans BI.and_elimR).trans (bigSep_elim (Finset.mem_univ x))

theorem wp_sig (c : Dev nD) (k : Fin 8) (hk : k ≠ 0) (n : Dev nD) (hn : n = peer c k)
    (Lst : List (CellTallies nD τ sig Unit)) (W : Waits sig Unit)
    {α : Type} {Q : α → sProp 𝕄} {kont : PUnit → Prog (TpuEff nD τ sig (Elt F) Λ₀ .tc) α} :
    iprop(records m K ∗ owes (c : Thread nD τ) (owedOf (tallyAt (barCell (peer c k)) () 1 :: Lst)) W
        ∗ dutyTok ER (barCell (peer c k)) 0 k
        ∗ bigSep (Finset.univ : Finset (Fin 3 × Fin 4)) fun lc => iprop(∃ f, slotPts (F := F) c lc.1 lc.2 k fullShare f))
      ⊢ iprop((owes (c : Thread nD τ) (owedOf Lst) W -∗ WP c (kont ⟨⟩) Q)
          -∗ WP c
              (.op (.semSignal (Dev.tc n : Thread nD τ) barS (1#32 : BitVec 32).toNat) kont) Q) := by
  subst hn
  iintro ⟨#Hrec, HO, Htok, Hslots⟩
  iapply (Rounds.wp_signal 𝒱₀ ER (Rd m) (c : Thread nD τ) none (dst := (peer c k : Thread nD τ)) (sem := barS)
      (κ := K (peer c k, none)) (r := 0) (d := k)
      (by rw [duties_bar]; exact Finset.mem_erase.mpr ⟨hk, Finset.mem_univ _⟩)
      ((amount_bar m (peer c k) k).trans (by decide)) () (owedOf Lst) rfl) $$ [HO Htok Hslots]
  isplitr; · iapply (inv_at m K (peer c k, none)); iexact Hrec
  isplitl [HO]; · iexact HO
  isplitl [Htok]; · iexact Htok
  isplitl [Hslots]
  · rw [payload_bar]; unfold barPay; rw [peer_peer]; iexact Hslots
  · iapply (reached_at m K (peer c k, none)); iexact Hrec

theorem wp_barwait (c : Dev nD) (O : CellTallies nD τ sig Unit) (W : Waits sig Unit)
    {α : Type} {Q : α → sProp 𝕄} {kont : PUnit → Prog (TpuEff nD τ sig (Elt F) Λ₀ .tc) α} :
    iprop(records m K ∗ cred (tallyAt (barCell c) () 7) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0
              ∗ bigSep ((Finset.univ : Finset (Fin 8)).erase 0) (fun d => barPay (F := F) c d))
            -∗ WP c (kont ⟨⟩) Q)
          -∗ WP c
              (.op (.semWait barS (7#32 : BitVec 32).toNat) kont) Q) := by
  iintro ⟨#Hrec, Hc, HO, Hmw, Hat⟩ Hk
  iapply (Rounds.wp_wait_rest_token 𝒱₀ ER (Rd m) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hmw Hat]
  · isplitr; · iapply (inv_at m K (c, none)); iexact Hrec
    isplitl [Hc]; · iexact Hc
    isplitl [HO]; · iexact HO
    isplitl [Hmw]; · iexact Hmw
    iexact Hat
  iintro ⟨HO, Hat, -, Hpay⟩
  iapply Hk
  isplitl [HO]; · iexact HO
  isplitl [Hat]; · iexact Hat
  iapply (Entails.of_eq (rest_bar m c)); iexact Hpay

theorem duties_none_send (c : Dev nD) (l : Fin 3) (ch : Fin 4) (k : Fin 8) (hk : k = 0) :
    (Rd (F := F) m).duties (sendCell c l ch k) 0 = ∅ := by
  dsimp only [Rd]; rw [if_pos ⟨rfl, rfl⟩]
  refine if_neg fun h => h.2 ?_
  rw [sendSem_val]
  have h0 : k.val = 0 := by rw [hk]; rfl
  omega

theorem duties_none_recv (c : Dev nD) (l : Fin 3) (ch : Fin 4) (k : Fin 8) (hk : k = 0) :
    (Rd (F := F) m).duties (recvCell c l ch k) 0 = ∅ := by
  dsimp only [Rd]; rw [if_pos ⟨rfl, rfl⟩]
  refine if_neg fun h => h.2 ?_
  rw [recvSem_val]
  have h0 : k.val = 0 := by rw [hk]; rfl
  omega

theorem duties_dcell_done (c : Dev nD) (i : SlotCell) :
    ∀ r, (if i.2.2.2 = 0 then 0 else 1) ≤ r → (Rd (F := F) m).duties (dcell c i) r = ∅ := by
  intro r hr
  rcases Nat.eq_zero_or_pos r with rfl | hpos
  · have hk : i.2.2.2 = 0 := by
      by_contra h; rw [if_neg h] at hr; omega
    obtain ⟨b, l, ch, k⟩ := i
    cases b
    · exact duties_none_send m c l ch k hk
    · exact duties_none_recv m c l ch k hk
  · exact duties_later m _ r hpos

theorem close_all (c : Dev nD) :
    iprop(records m K ∗ bigSep Finset.univ fun i : SlotCell => atPos ER (dcell c i) (if i.2.2.2 = 0 then 0 else 1) ∅ 0)
      ⊢ (|={Set.univ}=> bigSep Finset.univ fun i : SlotCell => semVal (dcell c i) 0 : sProp 𝕄) := by
  refine (bigSep_with_persistent (R := records m K)
    (Ψ := fun i : SlotCell => iprop(|={Set.univ}=> semVal (dcell c i) 0)) fun i _ => ?_).trans (bigSep_fupd _ _)
  iintro ⟨#Hrec, Hat⟩
  iapply (Rounds.cell_close ER (Rd m) (Set.mem_univ (K (c, some i))) (fun h => h) (R := if i.2.2.2 = 0 then 0 else 1)
    (duties_dcell_done m c i))
  isplitr; · iapply (inv_at m K (c, some i)); iexact Hrec
  iexact Hat

end Cert.Kernel.Hand

end
-- ==== Proof.Bits.RulesDma.lean ====
import proofs.«900998_g7700000000000999_dist_mlpseq_tp1d_rep_rep_b128_d128_h256_v7x_i8_f32_1_alg».proof.Proof.Bits.Ghost
import proofs.«900998_g7700000000000999_dist_mlpseq_tp1d_rep_rep_b128_d128_h256_v7x_i8_f32_1_alg».proof.Proof.Bits.Slots
import proofs.«900998_g7700000000000999_dist_mlpseq_tp1d_rep_rep_b128_d128_h256_v7x_i8_f32_1_alg».proof.Proof.Bits.Levels

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

theorem records_cell (x : Dev nD × CK) :
    records m K ⊢ iprop(cellInv ER (Rd m) (K x) (gcell x.1 x.2) ∗ reached ER (gcell x.1 x.2) 0) := by
  unfold records
  exact BI.sep_mono (BI.bigSep_elim (Finset.mem_univ x)) (BI.bigSep_elim (Finset.mem_univ x))

theorem records_send (c : Dev nD) (l : Fin 3) (ch : Fin 4) (k : Fin 8) :
    records m K ⊢ iprop(cellInv ER (Rd m) (K (c, some (false, l, ch, k))) (sendCell c l ch k) ∗ reached ER (sendCell c l ch k) 0) :=
  records_cell m K (c, some (false, l, ch, k))

theorem records_recv (c : Dev nD) (l : Fin 3) (ch : Fin 4) (k : Fin 8) :
    records m K ⊢ iprop(cellInv ER (Rd m) (K (c, some (true, l, ch, k))) (recvCell c l ch k) ∗ reached ER (recvCell c l ch k) 0) :=
  records_cell m K (c, some (true, l, ch, k))

theorem slot_credit (l : Fin 3) (ch : Fin 4) (k : Fin 8) : (slotM l ch k).view.dmaCredit = N := rfl

theorem wp_send_slot (c : Dev nD) (l : Fin 3) (ch : Fin 4) (k : Fin 8) (hk : k ≠ 0) (n : Dev nD) (hn : n = peer c k)
    (fn : Buf (Elt F) ((slotM l ch k).view.loc (peer c k : Thread nD τ)))
    (Lst : List (CellTallies nD τ sig Unit)) (W : Waits sig Unit)
    {hsc : NoSc n l ch k}
    {hsrc : WX l ch 0}
    {hdst : WX l ch k}
    {hsem : SemOk n l ch k hsc}
    {α : Type} {Q : α → sProp 𝕄} {kont : PUnit → Prog (TpuEff nD τ sig (Elt F) Λ₀ .tc) α} :
    iprop(records m K
        ∗ slotPts c l ch 0 (shareOf k) (slotBuf l ch 0 (tr (part m l.val c ch)))
        ∗ slotPts (peer c k) l ch k fullShare fn
        ∗ owes (c : Thread nD τ) (owedOf (tallyAt (recvCell (peer c k) l ch k) () N :: Lst)) W
        ∗ dutyTok ER (sendCell c l ch k) 0 0 ∗ dutyTok ER (recvCell (peer c k) l ch k) 0 0)
      ⊢ iprop(((cred (tallyAt (sendCell c l ch k) () N) ∗ owes (c : Thread nD τ) (owedOf Lst) W)
            -∗ WP c (kont ⟨⟩) Q)
          -∗ WP c
              (.op (.enqueueDma (slotM l ch 0) (.remote (Dev.tc n : Thread nD τ) (slotM l ch k) (.dma (sendSem l ch k)) hsc)
                (.dma (recvSem l ch k)) hsrc hdst hsem) kont) Q) := by
  subst hn
  have hpay₂ : ((slotM l ch k).view.loc (peer c k : Thread nD τ) ↦[(slotM l ch k).view.set]{fullShare}
        ((slotM l ch k).view.write (Elt F) fn ((slotM l ch 0).view.read (Elt F) (slotBuf l ch 0 (tr (part m l.val c ch)))) Finset.univ)
          : sProp 𝕄) ⊢ (Rd (F := F) m).payload (recvCell (peer c k) l ch k) 0 0 := by
    rw [payload_recv, read_slotBuf]
    unfold recvPay
    rw [peer_peer, ← slotPts_write (peer c k) l ch k fullShare fn]
    unfold slotPts
    exact BI.Entails.refl _
  have hpay₁ : ((slotM l ch 0).view.loc (c : Thread nD τ) ↦[(slotM l ch 0).view.set]{shareOf k}
        (slotBuf l ch 0 (tr (part m l.val c ch))) : sProp 𝕄) ⊢ (Rd (F := F) m).payload (sendCell c l ch k) 0 0 := by
    rw [payload_send]
    unfold sendPay slotPts
    exact BI.Entails.refl _
  iintro ⟨#Hrec, Hsrc, Hdst, Ho, Ht₁, Ht₂⟩
  ihave Hs := (records_send m K c l ch k) $$ Hrec
  icases Hs with ⟨Hi₁, Hr₁⟩
  ihave Hr := (records_recv m K (peer c k) l ch k) $$ Hrec
  icases Hr with ⟨Hi₂, Hr₂⟩
  unfold slotPts
  iapply (Rounds.wp_send_pointsTo 𝒱₀ ER (Rd (F := F) m) (c : Thread nD τ) none
    (c' := (peer c k : Thread nD τ)) (src := slotM l ch 0) (dst := slotM l ch k)
    (sS := .dma (sendSem l ch k)) (sem := .dma (recvSem l ch k))
    (q := shareOf k) (fs := slotBuf l ch 0 (tr (part m l.val c ch))) (fd := fn)
    (κ₁ := K (c, some (false, l, ch, k))) (κ₂ := K (peer c k, some (true, l, ch, k)))
    (r₁ := 0) (r₂ := 0) (d₁ := 0) (d₂ := 0)
    (by rw [duties_send m c l ch k hk]; exact Finset.mem_singleton_self _)
    (by rw [duties_recv m (peer c k) l ch k hk]; exact Finset.mem_singleton_self _)
    () () N (slot_credit l ch k) (amount_send m c l ch k 0) (amount_recv m (peer c k) l ch k 0)
    (owedOf Lst) rfl (W := W) hpay₁ hpay₂) $$ [Hsrc Hdst Ho Ht₁ Ht₂]
  isplitr; · iexact Hi₁
  isplitr; · iexact Hi₂
  isplitl [Hsrc]; · iexact Hsrc
  isplitl [Hdst]; · iexact Hdst
  isplitl [Ho]; · iexact Ho
  isplitl [Ht₁]; · iexact Ht₁
  isplitr; · iexact Hr₁
  isplitl [Ht₂]; · iexact Ht₂
  iexact Hr₂

theorem wp_recv_wait (c : Dev nD) (l : Fin 3) (ch : Fin 4) (k : Fin 8) (hk : k ≠ 0)
    (O : CellTallies nD τ sig Unit) (W : Waits sig Unit)
    {sp' : Space} {s' : Shape} {e' : EltTy} {src : Memref sig .tc sp' s' e'} {hs : src.view.WordExact}
    {hd : WX l ch k}
    {α : Type} {Q : α → sProp 𝕄} {kont : PUnit → Prog (TpuEff nD τ sig (Elt F) Λ₀ .tc) α} :
    iprop(records m K ∗ cred (tallyAt (recvCell c l ch k) () N) ∗ owes (c : Thread nD τ) O W
        ∗ MayWait (c : Thread nD τ) (.dma (recvSem l ch k)) () O ∗ atPos ER (recvCell c l ch k) 0 ∅ 0)
      ⊢ iprop(((owes (c : Thread nD τ) O (insert (SemLoc.dma (recvSem l ch k), ()) W) ∗ atPos ER (recvCell c l ch k) 1 ∅ 0
              ∗ recvPay m c l ch k)
            -∗ WP c (kont ⟨⟩) Q)
          -∗ WP c
              (.op (.waitDma2 (recvSem l ch k) src (slotM l ch k) hs hd) kont) Q) := by
  iintro ⟨#Hrec, Hc, Ho, Hmw, Hat⟩ Hk
  ihave Hr := (records_recv m K c l ch k) $$ Hrec
  icases Hr with ⟨Hi, -⟩
  iapply (Rounds.wp_wait_rest_token 𝒱₀ ER (Rd (F := F) m) (c : Thread nD τ) none (κ := K (c, some (true, l, ch, k)))
    (w := .waitDma2 (recvSem l ch k) src (slotM l ch k) hs hd) (wpE_waitDma2_eq 𝒱₀ (c : Thread nD τ) none Set.univ)
    (Set.mem_univ _) () (O := O) (W := W) (R := 0) (T := ∅) (m := 0)
    (by rw [expect_recv m c l ch k hk, Nat.zero_add, slot_credit])) $$ [Hc Ho Hmw Hat]
  · isplitr; · iexact Hi
    isplitl [Hc]; · rw [slot_credit]; iexact Hc
    iframe
  rw [rest_recv m c l ch k hk]
  iintro ⟨Ho, Hat, -, Hpay⟩
  iapply Hk
  iframe

theorem wp_send_wait (c : Dev nD) (l : Fin 3) (ch : Fin 4) (k : Fin 8) (hk : k ≠ 0) (W : Waits sig Unit)
    {sp' : Space} {s' : Shape} {e' : EltTy} {src : Memref sig .tc sp' s' e'} {hs : src.view.WordExact}
    {hd : WX l ch 0}
    {α : Type} {Q : α → sProp 𝕄} {kont : PUnit → Prog (TpuEff nD τ sig (Elt F) Λ₀ .tc) α} :
    iprop(records m K ∗ cred (tallyAt (sendCell c l ch k) () N) ∗ owes (c : Thread nD τ) 0 W
        ∗ atPos ER (sendCell c l ch k) 0 ∅ 0)
      ⊢ iprop(((owes (c : Thread nD τ) 0 (insert (SemLoc.dma (sendSem l ch k), ()) W) ∗ atPos ER (sendCell c l ch k) 1 ∅ 0
              ∗ sendPay m c l ch k)
            -∗ WP c (kont ⟨⟩) Q)
          -∗ WP c
              (.op (.waitDma2 (sendSem l ch k) src (slotM l ch 0) hs hd) kont) Q) := by
  iintro ⟨#Hrec, Hc, Ho, Hat⟩ Hk
  ihave Hs := (records_send m K c l ch k) $$ Hrec
  icases Hs with ⟨Hi, -⟩
  iapply (Rounds.wp_wait_rest_token 𝒱₀ ER (Rd (F := F) m) (c : Thread nD τ) none (κ := K (c, some (false, l, ch, k)))
    (w := .waitDma2 (sendSem l ch k) src (slotM l ch 0) hs hd) (wpE_waitDma2_eq 𝒱₀ (c : Thread nD τ) none Set.univ)
    (Set.mem_univ _) () (O := 0) (W := W) (R := 0) (T := ∅) (m := 0)
    (by rw [expect_send m c l ch k hk, Nat.zero_add, slot_credit])) $$ [Hc Ho Hat]
  · isplitr; · iexact Hi
    isplitl [Hc]; · rw [slot_credit]; iexact Hc
    isplitl [Ho]; · iexact Ho
    isplitr; · rw [MayWait_zero]; iempintro
    iexact Hat
  rw [rest_send m c l ch k hk]
  iintro ⟨Ho, Hat, -, Hpay⟩
  iapply Hk
  iframe

end Cert.Kernel.Hand

end
-- ==== Proof.Bits.SlotSplit.lean ====
import proofs.«900998_g7700000000000999_dist_mlpseq_tp1d_rep_rep_b128_d128_h256_v7x_i8_f32_1_alg».proof.Proof.Bits.Sched
import Idealize.ShloMosaic.Lib.Pipeline.Value

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem pointsTo_left_right {ℓ : Loc nD τ sig} (I : Finset (Idx ℓ)) (q : PosShare TreeShare) (f : Buf (Elt F) ℓ) :
    (ℓ ↦[I]{q} f : sProp 𝕄) = iprop((ℓ ↦[I]{q.left} f) ∗ ℓ ↦[I]{q.right} f) :=
  BI.equiv_iff.mp ⟨(pointsTo_share (PosShare.mem_left_op_right q)).1, (pointsTo_share (PosShare.mem_left_op_right q)).2⟩

theorem slot_view_set (l : Fin 3) (ch : Fin 4) (k : Fin 8) : (slotM l ch k).view.set = (slotR l ch k).set := by
  rw [Memref.set_view_squeeze]
  exact View.set_slice_whole cc0_scratch0 (slotR l ch k)

theorem mem_slotR_iff (l : Fin 3) (ch : Fin 4) (k : Fin 8) (i : S3x4x8x32x128.Idx) :
    i ∈ (slotR l ch k).set ↔ ((i 0 : ℕ) = l.val ∧ (i 1 : ℕ) = ch.val ∧ (i 2 : ℕ) = k.val) := by
  rw [Rect.mem_set_unit]
  constructor
  · intro h
    have h0 : l.val ≤ (i 0 : ℕ) ∧ (i 0 : ℕ) < l.val + 1 := h 0
    have h1 : ch.val ≤ (i 1 : ℕ) ∧ (i 1 : ℕ) < ch.val + 1 := h 1
    have h2 : k.val ≤ (i 2 : ℕ) ∧ (i 2 : ℕ) < k.val + 1 := h 2
    omega
  · rintro ⟨e0, e1, e2⟩
    have h3 : (i 3 : ℕ) < 32 := (i 3).isLt
    have h4 : (i 4 : ℕ) < 128 := (i 4).isLt
    refine Fin.forall_fin_succ.mpr ⟨?_, Fin.forall_fin_succ.mpr ⟨?_, Fin.forall_fin_succ.mpr ⟨?_,
      Fin.forall_fin_succ.mpr ⟨?_, Fin.forall_fin_succ.mpr ⟨?_, fun a => a.elim0⟩⟩⟩⟩⟩
    · show l.val ≤ (i 0 : ℕ) ∧ (i 0 : ℕ) < l.val + 1; omega
    · show ch.val ≤ (i 1 : ℕ) ∧ (i 1 : ℕ) < ch.val + 1; omega
    · show k.val ≤ (i 2 : ℕ) ∧ (i 2 : ℕ) < k.val + 1; omega
    · show 0 ≤ (i 3 : ℕ) ∧ (i 3 : ℕ) < 0 + 32; omega
    · show 0 ≤ (i 4 : ℕ) ∧ (i 4 : ℕ) < 0 + 128; omega

theorem slotR_cover : (Finset.univ : Finset S3x4x8x32x128.Idx)
    = Finset.univ.biUnion fun t : Fin 3 × Fin 4 × Fin 8 => (slotR t.1 t.2.1 t.2.2).set := by
  symm; rw [Finset.eq_univ_iff_forall]; intro i
  rw [Finset.mem_biUnion]
  refine ⟨((i 0 : Fin 3), (i 1 : Fin 4), (i 2 : Fin 8)), Finset.mem_univ _, ?_⟩
  rw [mem_slotR_iff]; exact ⟨rfl, rfl, rfl⟩

theorem slotR_disjoint (t t' : Fin 3 × Fin 4 × Fin 8) (h : t ≠ t') :
    Disjoint (slotR t.1 t.2.1 t.2.2).set (slotR t'.1 t'.2.1 t'.2.2).set := by
  rw [Finset.disjoint_left]; intro i hi hi'
  have e := (mem_slotR_iff _ _ _ i).mp hi
  have e' := (mem_slotR_iff _ _ _ i).mp hi'
  apply h
  obtain ⟨l, ch, k⟩ := t; obtain ⟨l', ch', k'⟩ := t'
  have a : l = l' := Fin.ext (e.1.symm.trans e'.1)
  have b : ch = ch' := Fin.ext (e.2.1.symm.trans e'.2.1)
  have d : k = k' := Fin.ext (e.2.2.symm.trans e'.2.2)
  rw [a, b, d]

theorem comm_split (c : Dev nD) :
    (iprop(∃ f : Buf (Elt F) ((c : Thread nD τ).loc cc0_scratch0), ((c : Thread nD τ).loc cc0_scratch0) ↦{fullShare} f) : sProp 𝕄)
      ⊣⊢ bigSep (Finset.univ : Finset (Fin 3 × Fin 4 × Fin 8))
          fun i => iprop(∃ f, slotPts c i.1 i.2.1 i.2.2 fullShare f) := by
  have hd : ∀ t ∈ (Finset.univ : Finset (Fin 3 × Fin 4 × Fin 8)), ∀ t' ∈ (Finset.univ : Finset (Fin 3 × Fin 4 × Fin 8)), t ≠ t' →
      Disjoint (slotM t.1 t.2.1 t.2.2).view.set (slotM t'.1 t'.2.1 t'.2.2).view.set := fun t _ t' _ h => by
    rw [slot_view_set, slot_view_set]; exact slotR_disjoint t t' h
  have hc : (Finset.univ : Finset (Idx ((c : Thread nD τ).loc cc0_scratch0)))
      = Finset.univ.biUnion fun t : Fin 3 × Fin 4 × Fin 8 => (slotM t.1 t.2.1 t.2.2).view.set := by
    refine slotR_cover.trans (Finset.biUnion_congr rfl fun t _ => (slot_view_set _ _ _).symm)
  have e (f : Buf (Elt F) ((c : Thread nD τ).loc cc0_scratch0)) :
      (((c : Thread nD τ).loc cc0_scratch0) ↦{fullShare} f : sProp 𝕄)
        = bigSep (Finset.univ : Finset (Fin 3 × Fin 4 × Fin 8)) fun t => slotPts c t.1 t.2.1 t.2.2 fullShare f := by
    show (((c : Thread nD τ).loc cc0_scratch0) ↦[Finset.univ]{fullShare} f : sProp 𝕄) = _
    rw [hc]; exact pointsTo_biUnion _ _ hd
  haveI hne : Nonempty (Buf (Elt F) ((c : Thread nD τ).loc cc0_scratch0)) :=
    (inferInstance : Nonempty ((cc0_scratch0 : Ref sig .tc).ty.Contents (Elt F)))
  constructor
  ·
    refine exists_elim fun f => ?_
    rw [e f]
    exact bigSep_mono fun t _ => exists_intro (Φ := fun f => slotPts c t.1 t.2.1 t.2.2 fullShare f) f
  ·
    haveI : ∀ i : Fin 3 × Fin 4 × Fin 8, Nonempty (Buf (Elt F) ((slotM i.1 i.2.1 i.2.2).view.loc (c : Thread nD τ))) := fun _ => hne
    have hj (fs : (i : Fin 3 × Fin 4 × Fin 8) → Buf (Elt F) ((slotM i.1 i.2.1 i.2.2).view.loc (c : Thread nD τ))) :
        (bigSep (Finset.univ : Finset (Fin 3 × Fin 4 × Fin 8)) fun i => slotPts c i.1 i.2.1 i.2.2 fullShare (fs i) : sProp 𝕄)
          ⊢ iprop(∃ g : Buf (Elt F) ((c : Thread nD τ).loc cc0_scratch0), ((c : Thread nD τ).loc cc0_scratch0) ↦{fullShare} g) := by
      refine (pointsTo_biUnion_join (ℓ := (c : Thread nD τ).loc cc0_scratch0) (q := fullShare) (Finset.univ : Finset (Fin 3 × Fin 4 × Fin 8))
        (fun t => (slotM t.1 t.2.1 t.2.2).view.set) fs (Classical.choice hne) hd).trans ?_
      iintro ⟨%g, %hg, H⟩
      iexists g
      rw [← hc]
      iexact H
    exact (bigSep_exists_pi (Finset.univ : Finset (Fin 3 × Fin 4 × Fin 8))
      (fun i (f : Buf (Elt F) ((slotM i.1 i.2.1 i.2.2).view.loc (c : Thread nD τ))) => slotPts c i.1 i.2.1 i.2.2 fullShare f)).trans
      (exists_elim fun fs => hj fs)

theorem slot_shares (c : Dev nD) (l : Fin 3) (ch : Fin 4) (f : Buf (Elt F) ((slotM l ch 0).view.loc (c : Thread nD τ))) :
    (slotPts c l ch 0 fullShare f : sProp 𝕄)
      ⊣⊢ bigSep ((Finset.univ : Finset (Fin 8)).erase 0) fun k => slotPts c l ch 0 (shareOf k) f := by
  have e : ((Finset.univ : Finset (Fin 8)).erase 0) = {1, 2, 3, 4, 5, 6, 7} := by decide
  rw [e, bigSep_insert (by decide), bigSep_insert (by decide), bigSep_insert (by decide), bigSep_insert (by decide),
    bigSep_insert (by decide), bigSep_insert (by decide), bigSep_singleton]
  unfold slotPts
  have e1 : shareOf 1 = fullShare.left := rfl
  have e2 : shareOf 2 = fullShare.right.left := rfl
  have e3 : shareOf 3 = fullShare.right.right.left := rfl
  have e4 : shareOf 4 = fullShare.right.right.right.left := rfl
  have e5 : shareOf 5 = fullShare.right.right.right.right.left := rfl
  have e6 : shareOf 6 = fullShare.right.right.right.right.right.left := rfl
  have e7 : shareOf 7 = fullShare.right.right.right.right.right.right := rfl
  rw [e1, e2, e3, e4, e5, e6, e7,
    pointsTo_left_right _ fullShare f, pointsTo_left_right _ fullShare.right f, pointsTo_left_right _ fullShare.right.right f,
    pointsTo_left_right _ fullShare.right.right.right f, pointsTo_left_right _ fullShare.right.right.right.right f,
    pointsTo_left_right _ fullShare.right.right.right.right.right f]
  exact ⟨.rfl, .rfl⟩

end Cert.Kernel.Hand

end
-- ==== Proof.Bits.Rejoin.lean ====
import proofs.«900998_g7700000000000999_dist_mlpseq_tp1d_rep_rep_b128_d128_h256_v7x_i8_f32_1_alg».proof.Proof.Bits.Ghost
import proofs.«900998_g7700000000000999_dist_mlpseq_tp1d_rep_rep_b128_d128_h256_v7x_i8_f32_1_alg».proof.Proof.Bits.Slots
import proofs.«900998_g7700000000000999_dist_mlpseq_tp1d_rep_rep_b128_d128_h256_v7x_i8_f32_1_alg».proof.Proof.Bits.SlotSplit

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

theorem bigSep_slots_by_peer (Φ : Fin 3 × Fin 4 × Fin 8 → sProp 𝕄) :
    bigSep Finset.univ Φ
      = bigSep (Finset.univ : Finset (Fin 8)) fun k => bigSep (Finset.univ : Finset (Fin 3 × Fin 4)) fun lc => Φ (lc.1, lc.2, k) := by
  rw [bigSep_univ_equiv ((Equiv.prodComm (Fin 8) (Fin 3 × Fin 4)).trans (Equiv.prodAssoc (Fin 3) (Fin 4) (Fin 8))) Φ,
    bigSep_univ_prod]
  rfl

theorem bigSep_slots_by_chunk (Φ : Fin 3 × Fin 4 × Fin 8 → sProp 𝕄) :
    bigSep Finset.univ Φ
      = bigSep (Finset.univ : Finset (Fin 3 × Fin 4)) fun lc => bigSep (Finset.univ : Finset (Fin 8)) fun k => Φ (lc.1, lc.2, k) := by
  rw [bigSep_univ_equiv (Equiv.prodAssoc (Fin 3) (Fin 4) (Fin 8)) Φ, bigSep_univ_prod]
  rfl

theorem bigSep_xfer (Φ : Fin 3 × Fin 4 × Fin 8 → sProp 𝕄) :
    bigSep xfer Φ
      = bigSep (Finset.univ : Finset (Fin 3 × Fin 4)) fun lc =>
          bigSep ((Finset.univ : Finset (Fin 8)).erase 0) fun k => Φ (lc.1, lc.2, k) := by
  unfold xfer
  rw [bigSep_filter, bigSep_slots_by_chunk]
  refine bigSep_congr fun lc _ => ?_
  rw [← Finset.filter_ne' Finset.univ (0 : Fin 8), bigSep_filter]

theorem comm_deal (c : Dev nD) :
    (commAny (F := F) c : sProp 𝕄)
      ⊢ iprop((bigSep (Finset.univ : Finset (Fin 3 × Fin 4)) fun lc => iprop(∃ f, slotPts (F := F) c lc.1 lc.2 0 fullShare f))
          ∗ bigSep ((Finset.univ : Finset (Fin 8)).erase 0) fun k =>
              bigSep (Finset.univ : Finset (Fin 3 × Fin 4)) fun lc => iprop(∃ f, slotPts (F := F) c lc.1 lc.2 k fullShare f)) := by
  have e := (bigSep_slots_by_peer (F := F) fun i => iprop(∃ f, slotPts (F := F) c i.1 i.2.1 i.2.2 fullShare f)).trans
    (bigSep_univ_at _ (0 : Fin 8))
  unfold commAny
  exact (comm_split c).1.trans (Entails.of_eq e)

theorem slots_collect (c : Dev nD) (l : Fin 3) (ch : Fin 4) :
    iprop((bigSep ((Finset.univ : Finset (Fin 8)).erase 0) fun k => sendPay m c l ch k)
        ∗ bigSep ((Finset.univ : Finset (Fin 8)).erase 0) fun k => recvPay m c l ch k)
      ⊢ bigSep (Finset.univ : Finset (Fin 8)) fun k => iprop(∃ f, slotPts (F := F) c l ch k fullShare f) := by
  rw [bigSep_univ_at _ (0 : Fin 8)]
  iintro ⟨Hs, Hr⟩
  isplitl [Hs]
  · unfold sendPay
    iexists (slotBuf l ch 0 (tr (part m l.val c ch)))
    iapply (slot_shares c l ch (slotBuf l ch 0 (tr (part m l.val c ch)))).2
    iexact Hs
  · have h : (bigSep ((Finset.univ : Finset (Fin 8)).erase 0) fun k => recvPay m c l ch k)
        ⊢ bigSep ((Finset.univ : Finset (Fin 8)).erase 0) fun k => iprop(∃ f, slotPts (F := F) c l ch k fullShare f) :=
      bigSep_mono fun k _ => by
        unfold recvPay
        exact exists_intro (Φ := fun f => slotPts (F := F) c l ch k fullShare f) (slotBuf l ch k (tr (part m l.val (peer c k) ch)))
    iapply h
    iexact Hr

theorem comm_collect (c : Dev nD) :
    iprop((bigSep xfer fun i => sendPay m c i.1 i.2.1 i.2.2) ∗ (bigSep xfer fun i => recvPay m c i.1 i.2.1 i.2.2))
      ⊢ (commAny (F := F) c : sProp 𝕄) := by
  rw [bigSep_xfer, bigSep_xfer, ← bigSep_sep']
  unfold commAny
  refine BIBase.Entails.trans ?_ (comm_split c).2
  rw [bigSep_slots_by_chunk]
  exact bigSep_mono fun lc _ => slots_collect m c lc.1 lc.2

end Cert.Kernel.Hand

end
-- ==== Proof.Bits.Blocks.lean ====
import proofs.«900998_g7700000000000999_dist_mlpseq_tp1d_rep_rep_b128_d128_h256_v7x_i8_f32_1_alg».proof.Proof.Bits.Ghost
import proofs.«900998_g7700000000000999_dist_mlpseq_tp1d_rep_rep_b128_d128_h256_v7x_i8_f32_1_alg».proof.Proof.Bits.Slots
import proofs.«900998_g7700000000000999_dist_mlpseq_tp1d_rep_rep_b128_d128_h256_v7x_i8_f32_1_alg».proof.Proof.Bits.Levels
import proofs.«900998_g7700000000000999_dist_mlpseq_tp1d_rep_rep_b128_d128_h256_v7x_i8_f32_1_alg».proof.Proof.Bits.RulesBar
import proofs.«900998_g7700000000000999_dist_mlpseq_tp1d_rep_rep_b128_d128_h256_v7x_i8_f32_1_alg».proof.Proof.Bits.RulesDma
import proofs.«900998_g7700000000000999_dist_mlpseq_tp1d_rep_rep_b128_d128_h256_v7x_i8_f32_1_alg».proof.Proof.Bits.Rejoin

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

abbrev peers : Finset (Fin 8) := (Finset.univ : Finset (Fin 8)).erase 0

def sendToks (c : Dev nD) (l : Fin 3) (ch : Fin 4) : sProp 𝕄 :=
  bigSep peers fun k => iprop(dutyTok ER (sendCell c l ch k) 0 0 ∗ dutyTok ER (recvCell (peer c k) l ch k) 0 0)

def landing (c : Dev nD) (l : Fin 3) (ch : Fin 4) : sProp 𝕄 :=
  bigSep peers fun k => iprop(∃ f, slotPts (F := F) (peer c k) l ch k fullShare f)

def sendCreds (c : Dev nD) (l : Fin 3) (ch : Fin 4) : sProp 𝕄 :=
  bigSep peers fun k => cred (tallyAt (sendCell c l ch k) () N)

def recvRes (c : Dev nD) (l : Fin 3) (ch : Fin 4) : sProp 𝕄 :=
  bigSep peers fun k => iprop(cred (tallyAt (recvCell c l ch k) () N) ∗ atPos ER (recvCell c l ch k) 0 ∅ 0)

def recvDone (c : Dev nD) (l : Fin 3) (ch : Fin 4) : sProp 𝕄 :=
  bigSep peers fun k => iprop(atPos ER (recvCell c l ch k) 1 ∅ 0 ∗ recvPay m c l ch k)

def sendPos (c : Dev nD) (l : Fin 3) (ch : Fin 4) : sProp 𝕄 :=
  bigSep peers fun k => atPos ER (sendCell c l ch k) 0 ∅ 0

def sendDone (c : Dev nD) (l : Fin 3) (ch : Fin 4) : sProp 𝕄 :=
  bigSep peers fun k => iprop(atPos ER (sendCell c l ch k) 1 ∅ 0 ∗ sendPay m c l ch k)

def idlePos (c : Dev nD) (l : Fin 3) (ch : Fin 4) : sProp 𝕄 :=
  iprop(atPos ER (sendCell c l ch 0) 0 ∅ 0 ∗ atPos ER (recvCell c l ch 0) 0 ∅ 0)

def landedVal (c : Dev nD) (l : Fin 3) (ch : Fin 4) (k : Fin 8) : Vec F S1x1x1x32x128 .bf16 :=
  pack (part m l.val (peer c k) ch)

theorem bigSep_lc (Φ : Fin 3 × Fin 4 → sProp 𝕄) :
    bigSep (Finset.univ : Finset (Fin 3 × Fin 4)) Φ
      = iprop(Φ (0, 0) ∗ Φ (0, 1) ∗ Φ (0, 2) ∗ Φ (0, 3) ∗ Φ (1, 0) ∗ Φ (1, 1) ∗ Φ (1, 2) ∗ Φ (1, 3) ∗ Φ (2, 0) ∗ Φ (2, 1) ∗ Φ (2, 2) ∗ Φ (2, 3)) :=
  bigSep_univ_eq_bigSepL [((0 : Fin 3), (0 : Fin 4)), (0, 1), (0, 2), (0, 3), (1, 0), (1, 1), (1, 2), (1, 3), (2, 0), (2, 1), (2, 2), (2, 3)] (by decide) (by decide) Φ

theorem dcell_recv (c : Dev nD) (i : Fin 3 × Fin 4 × Fin 8) : dcell c (true, i) = recvCell c i.1 i.2.1 i.2.2 := by
  unfold dcell; exact if_pos rfl
theorem dcell_send (c : Dev nD) (i : Fin 3 × Fin 4 × Fin 8) : dcell c (false, i) = sendCell c i.1 i.2.1 i.2.2 := by
  unfold dcell; exact if_neg Bool.false_ne_true
theorem gcell_recv (c : Dev nD) (i : Fin 3 × Fin 4 × Fin 8) : gcell c (some (true, i)) = recvCell c i.1 i.2.1 i.2.2 := dcell_recv c i
theorem gcell_send (c : Dev nD) (i : Fin 3 × Fin 4 × Fin 8) : gcell c (some (false, i)) = sendCell c i.1 i.2.1 i.2.2 := dcell_send c i

theorem bigSep_cells (c : Dev nD) (Φ : GSem nD τ sig → sProp 𝕄) :
    (bigSep Finset.univ fun x : CK => Φ (gcell c x))
      = iprop(Φ (barCell c)
          ∗ (bigSep (Finset.univ : Finset (Fin 3 × Fin 4)) fun lc => iprop(Φ (recvCell c lc.1 lc.2 0) ∗ bigSep peers fun k => Φ (recvCell c lc.1 lc.2 k)))
          ∗ (bigSep (Finset.univ : Finset (Fin 3 × Fin 4)) fun lc => iprop(Φ (sendCell c lc.1 lc.2 0) ∗ bigSep peers fun k => Φ (sendCell c lc.1 lc.2 k)))) := by
  rw [bigSep_option, bigSep_univ_prod, bigSep_bool, bigSep_slots_by_chunk, bigSep_slots_by_chunk]
  refine congrArg₂ _ rfl (congrArg₂ _ (bigSep_congr fun lc _ => ?_) (bigSep_congr fun lc _ => ?_))
  · rw [bigSep_univ_at _ (0 : Fin 8)]
    simp only [gcell_recv]
  · rw [bigSep_univ_at _ (0 : Fin 8)]
    simp only [gcell_send]

theorem bigSep_comm_sets {A B : Type} (s : Finset A) (t : Finset B) (Φ : A → B → sProp 𝕄) :
    (bigSep s fun a => bigSep t fun b => Φ a b) = bigSep t fun b => bigSep s fun a => Φ a b := by
  classical
  induction s using Finset.induction_on with
  | empty => simp only [bigSep_empty]; exact (bigSep_emp_const t).symm
  | insert a s ha ih =>
    rw [bigSep_insert ha, ih, ← bigSep_sep]
    exact bigSep_congr fun b _ => (bigSep_insert (M := 𝕄) ha (Φ := fun a => Φ a b)).symm

theorem block_start (c : Dev nD) (l : Fin 3) (ch : Fin 4) :
    iprop((atPos ER (recvCell c l ch 0) 0 ∅ 0 ∗ bigSep peers fun k => atPos ER (recvCell c l ch k) 0 ∅ 0)
        ∗ (atPos ER (sendCell c l ch 0) 0 ∅ 0 ∗ bigSep peers fun k => atPos ER (sendCell c l ch k) 0 ∅ 0)
        ∗ (bigSep peers fun k => iprop(dutyTok ER (recvCell (peer c k) l ch k) 0 0 ∗ dutyTok ER (sendCell c l ch k) 0 0))
        ∗ (bigSep peers fun k => cred (tallyAt (recvCell c l ch k) () N)))
      ⊢ (iprop(sendToks (F := F) c l ch ∗ recvRes (F := F) c l ch ∗ sendPos (F := F) c l ch ∗ idlePos (F := F) c l ch) : sProp 𝕄) := by
  unfold sendToks recvRes sendPos idlePos
  simp only [bigSep_sep']
  iintro ⟨⟨Hr0, Hr⟩, ⟨Hs0, Hs⟩, ⟨HtR, HtS⟩, Hc⟩
  iframe

theorem start_regroup (c : Dev nD) :
    iprop(linear (F := F) c ∗ payToks (F := F) c ∗ creds (F := F) c)
      ⊢ iprop(atPos ER (barCell c) 0 ∅ 0 ∗ (bigSep peers fun k => dutyTok ER (barCell (peer c k)) 0 k)
          ∗ cred (tallyAt (barCell c) () 7)
          ∗ bigSep (Finset.univ : Finset (Fin 3 × Fin 4)) fun lc =>
              iprop(sendToks (F := F) c lc.1 lc.2 ∗ recvRes (F := F) c lc.1 lc.2 ∗ sendPos (F := F) c lc.1 lc.2 ∗ idlePos (F := F) c lc.1 lc.2)) := by
  unfold linear payToks creds
  rw [bigSep_cells c (fun g => (atPos ER g 0 ∅ 0 : sProp 𝕄)), bigSep_xfer, bigSep_xfer]
  refine BIBase.Entails.trans ?_ (sep_mono_right (sep_mono_right (sep_mono_right
    (bigSep_mono (s := (Finset.univ : Finset (Fin 3 × Fin 4))) fun lc _ => block_start (F := F) c lc.1 lc.2))))
  simp only [bigSep_sep']
  iintro ⟨⟨Hb, Hr, Hs⟩, ⟨Htb, Ht⟩, ⟨Hcb, Hc⟩⟩
  iframe

theorem bar_regroup (c : Dev nD) :
    (bigSep peers fun d => barPay (F := F) c d)
      ⊢ (bigSep (Finset.univ : Finset (Fin 3 × Fin 4)) fun lc => landing (F := F) c lc.1 lc.2) := by
  unfold barPay landing
  exact Entails.of_eq (bigSep_comm_sets peers Finset.univ fun d (lc : Fin 3 × Fin 4) => iprop(∃ f, slotPts (F := F) (peer c d) lc.1 lc.2 d fullShare f))

theorem block_end (c : Dev nD) (l : Fin 3) (ch : Fin 4) :
    iprop(recvDone m c l ch ∗ sendDone m c l ch ∗ idlePos (F := F) c l ch)
      ⊢ (iprop((atPos ER (recvCell c l ch 0) 0 ∅ 0 ∗ bigSep peers fun k => atPos ER (recvCell c l ch k) 1 ∅ 0)
          ∗ (atPos ER (sendCell c l ch 0) 0 ∅ 0 ∗ bigSep peers fun k => atPos ER (sendCell c l ch k) 1 ∅ 0)
          ∗ (bigSep peers fun k => sendPay m c l ch k) ∗ (bigSep peers fun k => recvPay m c l ch k)) : sProp 𝕄) := by
  unfold recvDone sendDone idlePos
  simp only [bigSep_sep']
  iintro ⟨⟨Hr, Hrp⟩, ⟨Hs, Hsp⟩, Hs0, Hr0⟩
  iframe

theorem bigSep_endPos (c : Dev nD) :
    (bigSep Finset.univ fun i : SlotCell => (atPos ER (dcell c i) (if i.2.2.2 = 0 then 0 else 1) ∅ 0 : sProp 𝕄))
      = iprop((bigSep (Finset.univ : Finset (Fin 3 × Fin 4)) fun lc =>
            iprop(atPos ER (recvCell c lc.1 lc.2 0) 0 ∅ 0 ∗ bigSep peers fun k => atPos ER (recvCell c lc.1 lc.2 k) 1 ∅ 0))
          ∗ (bigSep (Finset.univ : Finset (Fin 3 × Fin 4)) fun lc =>
            iprop(atPos ER (sendCell c lc.1 lc.2 0) 0 ∅ 0 ∗ bigSep peers fun k => atPos ER (sendCell c lc.1 lc.2 k) 1 ∅ 0))) := by
  rw [bigSep_univ_prod, bigSep_bool, bigSep_slots_by_chunk, bigSep_slots_by_chunk]
  refine congrArg₂ _ (bigSep_congr fun lc _ => ?_) (bigSep_congr fun lc _ => ?_)
  · rw [bigSep_univ_at _ (0 : Fin 8)]
    refine congrArg₂ _ ?_ (bigSep_congr fun k hk => ?_)
    · show (atPos ER (dcell c (true, lc.1, lc.2, 0)) (if (0 : Fin 8) = 0 then 0 else 1) ∅ 0 : sProp 𝕄) = _
      rw [if_pos rfl, dcell_recv]
    · show (atPos ER (dcell c (true, lc.1, lc.2, k)) (if k = 0 then 0 else 1) ∅ 0 : sProp 𝕄) = _
      rw [if_neg (Finset.ne_of_mem_erase hk), dcell_recv]
  · rw [bigSep_univ_at _ (0 : Fin 8)]
    refine congrArg₂ _ ?_ (bigSep_congr fun k hk => ?_)
    · show (atPos ER (dcell c (false, lc.1, lc.2, 0)) (if (0 : Fin 8) = 0 then 0 else 1) ∅ 0 : sProp 𝕄) = _
      rw [if_pos rfl, dcell_send]
    · show (atPos ER (dcell c (false, lc.1, lc.2, k)) (if k = 0 then 0 else 1) ∅ 0 : sProp 𝕄) = _
      rw [if_neg (Finset.ne_of_mem_erase hk), dcell_send]

theorem end_regroup (c : Dev nD) :
    (bigSep (Finset.univ : Finset (Fin 3 × Fin 4)) fun lc =>
        iprop(recvDone m c lc.1 lc.2 ∗ sendDone m c lc.1 lc.2 ∗ idlePos (F := F) c lc.1 lc.2))
      ⊢ iprop((bigSep Finset.univ fun i : SlotCell => atPos ER (dcell c i) (if i.2.2.2 = 0 then 0 else 1) ∅ 0)
          ∗ (bigSep xfer fun i => sendPay m c i.1 i.2.1 i.2.2) ∗ (bigSep xfer fun i => recvPay m c i.1 i.2.1 i.2.2)) := by
  rw [bigSep_endPos, bigSep_xfer, bigSep_xfer]
  refine BIBase.Entails.trans (bigSep_mono (s := (Finset.univ : Finset (Fin 3 × Fin 4))) fun lc _ => block_end m c lc.1 lc.2) ?_
  simp only [bigSep_sep']
  iintro ⟨Hr, Hs, Hsp, Hrp⟩
  iframe

end Cert.Kernel.Hand

end
-- ==== Proof.Bits.BlockStepsA.lean ====
import proofs.«900998_g7700000000000999_dist_mlpseq_tp1d_rep_rep_b128_d128_h256_v7x_i8_f32_1_alg».proof.Proof.Bits.Ghost
import proofs.«900998_g7700000000000999_dist_mlpseq_tp1d_rep_rep_b128_d128_h256_v7x_i8_f32_1_alg».proof.Proof.Bits.Slots
import proofs.«900998_g7700000000000999_dist_mlpseq_tp1d_rep_rep_b128_d128_h256_v7x_i8_f32_1_alg».proof.Proof.Bits.Blocks

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

theorem bigSep_peers (Φ : Fin 8 → sProp 𝕄) :
    bigSep peers Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ

theorem bar_block (c : Dev nD) {n1 n2 n3 n4 n5 n6 n7 : Dev nD}
    (h1 : n1 = peer c 1) (h2 : n2 = peer c 2) (h3 : n3 = peer c 3) (h4 : n4 = peer c 4) (h5 : n5 = peer c 5) (h6 : n6 = peer c 6) (h7 : n7 = peer c 7)
    (Rest : List (CellTallies nD τ sig Unit)) (W : Waits sig Unit)
    {α : Type} {Q : α → sProp 𝕄} {kont : PUnit → Prog (TpuEff nD τ sig (Elt F) Λ₀ .tc) α} :
    iprop(records m K ∗ owes (c : Thread nD τ) (owedOf (payBar c ++ Rest)) W
        ∗ (bigSep peers fun k => dutyTok ER (barCell (peer c k)) 0 k)
        ∗ (bigSep peers fun k => bigSep (Finset.univ : Finset (Fin 3 × Fin 4)) fun lc => iprop(∃ f, slotPts (F := F) c lc.1 lc.2 k fullShare f))
        ∗ cred (tallyAt (barCell c) () 7) ∗ MayWait (c : Thread nD τ) (.reg barS) () (owedOf Rest) ∗ atPos ER (barCell c) 0 ∅ 0)
      ⊢ iprop(((owes (c : Thread nD τ) (owedOf Rest) (insert (SemLoc.reg barS, ()) W)
              ∗ bigSep (Finset.univ : Finset (Fin 3 × Fin 4)) fun lc => landing (F := F) c lc.1 lc.2)
            -∗ WP c (kont ⟨⟩) Q)
          -∗ WP c
              (.op (.semSignal (Dev.tc n1 : Thread nD τ) barS (1#32 : BitVec 32).toNat) fun _ =>
                .op (.semSignal (Dev.tc n2 : Thread nD τ) barS (1#32 : BitVec 32).toNat) fun _ =>
                .op (.semSignal (Dev.tc n3 : Thread nD τ) barS (1#32 : BitVec 32).toNat) fun _ =>
                .op (.semSignal (Dev.tc n4 : Thread nD τ) barS (1#32 : BitVec 32).toNat) fun _ =>
                .op (.semSignal (Dev.tc n5 : Thread nD τ) barS (1#32 : BitVec 32).toNat) fun _ =>
                .op (.semSignal (Dev.tc n6 : Thread nD τ) barS (1#32 : BitVec 32).toNat) fun _ =>
                .op (.semSignal (Dev.tc n7 : Thread nD τ) barS (1#32 : BitVec 32).toNat) fun _ =>
                .op (.semWait barS (7#32 : BitVec 32).toNat) kont) Q) := by
  subst h1 h2 h3 h4 h5 h6 h7
  rw [bigSep_peers, bigSep_peers]
  iintro ⟨#Hrec, HO, ⟨T1, T2, T3, T4, T5, T6, T7⟩, ⟨S1, S2, S3, S4, S5, S6, S7⟩, Hc, Hmw, Hat⟩ Hk
  iapply (wp_sig m K c 1 (by decide) (peer c 1) rfl _ W) $$ [HO T1 S1]
  · iframe # T1 S1
    iexact HO
  iintro HO
  iapply (wp_sig m K c 2 (by decide) (peer c 2) rfl _ W) $$ [HO T2 S2]
  · iframe # T2 S2
    iexact HO
  iintro HO
  iapply (wp_sig m K c 3 (by decide) (peer c 3) rfl _ W) $$ [HO T3 S3]
  · iframe # T3 S3
    iexact HO
  iintro HO
  iapply (wp_sig m K c 4 (by decide) (peer c 4) rfl _ W) $$ [HO T4 S4]
  · iframe # T4 S4
    iexact HO
  iintro HO
  iapply (wp_sig m K c 5 (by decide) (peer c 5) rfl _ W) $$ [HO T5 S5]
  · iframe # T5 S5
    iexact HO
  iintro HO
  iapply (wp_sig m K c 6 (by decide) (peer c 6) rfl _ W) $$ [HO T6 S6]
  · iframe # T6 S6
    iexact HO
  iintro HO
  iapply (wp_sig m K c 7 (by decide) (peer c 7) rfl _ W) $$ [HO T7 S7]
  · iframe # T7 S7
    iexact HO
  iintro HO
  iapply (wp_barwait m K c (owedOf Rest) W) $$ [Hc HO Hmw Hat]
  · iframe # Hc Hmw Hat
    iexact HO
  iintro ⟨HO, -, Hpay⟩
  iapply Hk
  isplitl [HO]; · iexact HO
  iapply (bar_regroup (F := F) c)
  iexact Hpay

theorem sendwait_block (c : Dev nD) (l : Fin 3) (ch : Fin 4) (W : Waits sig Unit)
    {hs1 : WX l ch 1} {hd1 : WX l ch 0}
    {hs3 : WX l ch 3} {hd3 : WX l ch 0}
    {hs4 : WX l ch 4} {hd4 : WX l ch 0}
    {hs2 : WX l ch 2} {hd2 : WX l ch 0}
    {hs5 : WX l ch 5} {hd5 : WX l ch 0}
    {hs7 : WX l ch 7} {hd7 : WX l ch 0}
    {hs6 : WX l ch 6} {hd6 : WX l ch 0}
    {α : Type} {Q : α → sProp 𝕄} {kont : PUnit → Prog (TpuEff nD τ sig (Elt F) Λ₀ .tc) α} :
    iprop(records m K ∗ sendCreds (F := F) c l ch ∗ sendPos (F := F) c l ch ∗ owes (c : Thread nD τ) 0 W)
      ⊢ iprop((((∃ W', owes (c : Thread nD τ) 0 W') ∗ sendDone m c l ch)
            -∗ WP c (kont ⟨⟩) Q)
          -∗ WP c
              (.op (.waitDma2 (sendSem l ch 1) (slotM l ch 1) (slotM l ch 0) hs1 hd1) fun _ =>
                .op (.waitDma2 (sendSem l ch 3) (slotM l ch 3) (slotM l ch 0) hs3 hd3) fun _ =>
                .op (.waitDma2 (sendSem l ch 4) (slotM l ch 4) (slotM l ch 0) hs4 hd4) fun _ =>
                .op (.waitDma2 (sendSem l ch 2) (slotM l ch 2) (slotM l ch 0) hs2 hd2) fun _ =>
                .op (.waitDma2 (sendSem l ch 5) (slotM l ch 5) (slotM l ch 0) hs5 hd5) fun _ =>
                .op (.waitDma2 (sendSem l ch 7) (slotM l ch 7) (slotM l ch 0) hs7 hd7) fun _ =>
                .op (.waitDma2 (sendSem l ch 6) (slotM l ch 6) (slotM l ch 0) hs6 hd6) kont) Q) := by
  unfold sendCreds sendPos
  rw [bigSep_peers, bigSep_peers]
  iintro ⟨#Hrec, ⟨C1, C2, C3, C4, C5, C6, C7⟩, ⟨P1, P2, P3, P4, P5, P6, P7⟩, HO⟩ Hk
  iapply (wp_send_wait m K c l ch 1 (by decide) _) $$ [C1 HO P1]
  · iframe # ∗
  iintro ⟨HO, A1, D1⟩
  iapply (wp_send_wait m K c l ch 3 (by decide) _) $$ [C3 HO P3]
  · iframe # ∗
  iintro ⟨HO, A3, D3⟩
  iapply (wp_send_wait m K c l ch 4 (by decide) _) $$ [C4 HO P4]
  · iframe # ∗
  iintro ⟨HO, A4, D4⟩
  iapply (wp_send_wait m K c l ch 2 (by decide) _) $$ [C2 HO P2]
  · iframe # ∗
  iintro ⟨HO, A2, D2⟩
  iapply (wp_send_wait m K c l ch 5 (by decide) _) $$ [C5 HO P5]
  · iframe # ∗
  iintro ⟨HO, A5, D5⟩
  iapply (wp_send_wait m K c l ch 7 (by decide) _) $$ [C7 HO P7]
  · iframe # ∗
  iintro ⟨HO, A7, D7⟩
  iapply (wp_send_wait m K c l ch 6 (by decide) _) $$ [C6 HO P6]
  · iframe # ∗
  iintro ⟨HO, A6, D6⟩
  iapply Hk
  isplitl [HO]; · iexists _; iexact HO
  unfold sendDone
  rw [bigSep_peers]
  iframe

end Cert.Kernel.Hand

end
-- ==== Proof.Bits.BlockStepsB.lean ====
import proofs.«900998_g7700000000000999_dist_mlpseq_tp1d_rep_rep_b128_d128_h256_v7x_i8_f32_1_alg».proof.Proof.Bits.Ghost
import proofs.«900998_g7700000000000999_dist_mlpseq_tp1d_rep_rep_b128_d128_h256_v7x_i8_f32_1_alg».proof.Proof.Bits.Slots
import proofs.«900998_g7700000000000999_dist_mlpseq_tp1d_rep_rep_b128_d128_h256_v7x_i8_f32_1_alg».proof.Proof.Bits.Blocks
import proofs.«900998_g7700000000000999_dist_mlpseq_tp1d_rep_rep_b128_d128_h256_v7x_i8_f32_1_alg».proof.Proof.Bits.SlotSplit

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

omit [FloatOps F] in

theorem peers_send (Φ : Fin 8 → sProp 𝕄) : bigSep peers Φ = iprop(Φ 6 ∗ Φ 2 ∗ Φ 5 ∗ Φ 7 ∗ Φ 1 ∗ Φ 3 ∗ Φ 4) := by
  rw [bigSep_eq_bigSepL_of_eq [6, 2, 5, 7, 1, 3, 4] (by decide) (by decide)]; rfl

omit [FloatOps F] in

theorem peers_recv (Φ : Fin 8 → sProp 𝕄) : bigSep peers Φ = iprop(Φ 1 ∗ Φ 3 ∗ Φ 4 ∗ Φ 2 ∗ Φ 5 ∗ Φ 7 ∗ Φ 6) := by
  rw [bigSep_eq_bigSepL_of_eq [1, 3, 4, 2, 5, 7, 6] (by decide) (by decide)]; rfl

theorem own_shares (c : Dev nD) (l : Fin 3) (ch : Fin 4) (f : Buf (Elt F) ((slotM l ch 0).view.loc (c : Thread nD τ))) :
    (slotPts c l ch 0 fullShare f : sProp 𝕄)
      ⊢ iprop(slotPts c l ch 0 (shareOf 6) f ∗ slotPts c l ch 0 (shareOf 2) f ∗ slotPts c l ch 0 (shareOf 5) f
          ∗ slotPts c l ch 0 (shareOf 7) f ∗ slotPts c l ch 0 (shareOf 1) f ∗ slotPts c l ch 0 (shareOf 3) f
          ∗ slotPts c l ch 0 (shareOf 4) f) := by
  rw [← peers_send (fun k => slotPts c l ch 0 (shareOf k) f)]
  exact (slot_shares c l ch f).1

abbrev due (c : Dev nD) (l : Fin 3) (ch : Fin 4) (k : Fin 8) : CellTallies nD τ sig Unit :=
  tallyAt (recvCell (peer c k) l ch k) () N

theorem owed_block (c : Dev nD) (l : Fin 3) (ch : Fin 4) (Rest : List (CellTallies nD τ sig Unit)) :
    owedOf (paySend c (l, ch) ++ Rest)
      = owedOf (due c l ch 6 :: due c l ch 2 :: due c l ch 5 :: due c l ch 7 :: due c l ch 1 :: due c l ch 3 :: due c l ch 4 :: Rest) := rfl

theorem wp_load_slot (c : Dev nD) (l : Fin 3) (ch : Fin 4) (k : Fin 8) {hl : LA l ch k}
    {α : Type} {Q : α → sProp 𝕄}
    {kont : LV F l ch k → Prog (TpuEff nD τ sig (Elt F) Λ₀ .tc) α} :
    recvPay m c l ch k
      ⊢ iprop((recvPay m c l ch k -∗ WP c (kont (landedVal m c l ch k)) Q)
          -∗ WP c (.op (.load commM (slotR l ch k).toLoadRect hl) kont) Q) := by
  have h := wp_load (defs := defs₀ (F := F)) 𝒱₀ (c : Thread nD τ) none (Γ := .empty) Set.univ (Q := Q) (m := commM)
    (r := (slotR l ch k).toLoadRect) (hl := hl) (k := kont) (q := fullShare)
    (f := slotBuf l ch k (tr (part m l.val (peer c k) ch))) (S := (slotM l ch k).view.set) (slot_setOn l ch k)
  rw [readAt_slotBuf] at h
  exact h

theorem wp_recv_load (c : Dev nD) (l : Fin 3) (ch : Fin 4) (k : Fin 8) (hk : k ≠ 0) (n : ℕ) (hn : 4 * (l.val + 1) + ch.val ≤ n)
    (W : Waits sig Unit)
    {hs : WX l ch 0}
    {hd : WX l ch k}
    {hl : LA l ch k}
    {α : Type} {Q : α → sProp 𝕄}
    {kont : LV F l ch k → Prog (TpuEff nD τ sig (Elt F) Λ₀ .tc) α} :
    iprop(records m K ∗ levAts L lv ∗ cred (tallyAt (recvCell c l ch k) () N) ∗ atPos ER (recvCell c l ch k) 0 ∅ 0
        ∗ owes (c : Thread nD τ) (owedOf ((lcOrder.drop n).flatMap (paySend c))) W)
      ⊢ iprop(((owes (c : Thread nD τ) (owedOf ((lcOrder.drop n).flatMap (paySend c))) (insert (SemLoc.dma (recvSem l ch k), ()) W)
              ∗ atPos ER (recvCell c l ch k) 1 ∅ 0 ∗ recvPay m c l ch k)
            -∗ WP c (kont (landedVal m c l ch k)) Q)
          -∗ WP c
              (.op (.waitDma2 (recvSem l ch k) (slotM l ch 0) (slotM l ch k) hs hd) fun _ =>
                .op (.load commM (slotR l ch k).toLoadRect hl) kont) Q) := by
  iintro ⟨#Hrec, #Hlev, Hc, Hat, Ho⟩ Hk
  ihave Hmw := (mayWait_recv c l ch k n hn) $$ Hlev
  iapply (wp_recv_wait m K c l ch k hk (owedOf ((lcOrder.drop n).flatMap (paySend c))) W) $$ [Hc Hat Ho Hmw]
  · iframe # ∗
  iintro ⟨Ho, Hat, Hpay⟩
  iapply (wp_load_slot m c l ch k) $$ Hpay
  iintro Hpay
  iapply Hk
  iframe

theorem send_block (c : Dev nD) (l : Fin 3) (ch : Fin 4) {n6 n2 n5 n7 n1 n3 n4 : Dev nD}
    (h6 : n6 = peer c 6) (h2 : n2 = peer c 2) (h5 : n5 = peer c 5) (h7 : n7 = peer c 7) (h1 : n1 = peer c 1) (h3 : n3 = peer c 3) (h4 : n4 = peer c 4)
    (Rest : List (CellTallies nD τ sig Unit)) (W : Waits sig Unit)
    {hsc6 : NoSc n6 l ch 6}
    {hsrc6 : WX l ch 0} {hdst6 : WX l ch 6}
    {hsem6 : SemOk n6 l ch 6 hsc6}
    {hsc2 : NoSc n2 l ch 2}
    {hsrc2 : WX l ch 0} {hdst2 : WX l ch 2}
    {hsem2 : SemOk n2 l ch 2 hsc2}
    {hsc5 : NoSc n5 l ch 5}
    {hsrc5 : WX l ch 0} {hdst5 : WX l ch 5}
    {hsem5 : SemOk n5 l ch 5 hsc5}
    {hsc7 : NoSc n7 l ch 7}
    {hsrc7 : WX l ch 0} {hdst7 : WX l ch 7}
    {hsem7 : SemOk n7 l ch 7 hsc7}
    {hsc1 : NoSc n1 l ch 1}
    {hsrc1 : WX l ch 0} {hdst1 : WX l ch 1}
    {hsem1 : SemOk n1 l ch 1 hsc1}
    {hsc3 : NoSc n3 l ch 3}
    {hsrc3 : WX l ch 0} {hdst3 : WX l ch 3}
    {hsem3 : SemOk n3 l ch 3 hsc3}
    {hsc4 : NoSc n4 l ch 4}
    {hsrc4 : WX l ch 0} {hdst4 : WX l ch 4}
    {hsem4 : SemOk n4 l ch 4 hsc4}
    {α : Type} {Q : α → sProp 𝕄} {kont : PUnit → Prog (TpuEff nD τ sig (Elt F) Λ₀ .tc) α} :
    iprop(records m K ∗ slotPts c l ch 0 fullShare (slotBuf l ch 0 (tr (part m l.val c ch)))
        ∗ sendToks (F := F) c l ch ∗ landing (F := F) c l ch
        ∗ owes (c : Thread nD τ) (owedOf (paySend c (l, ch) ++ Rest)) W)
      ⊢ iprop(((sendCreds (F := F) c l ch ∗ owes (c : Thread nD τ) (owedOf Rest) W)
            -∗ WP c (kont ⟨⟩) Q)
          -∗ WP c
              (.op (.enqueueDma (slotM l ch 0) (.remote (Dev.tc n6 : Thread nD τ) (slotM l ch 6) (.dma (sendSem l ch 6)) hsc6) (.dma (recvSem l ch 6)) hsrc6 hdst6 hsem6) fun _ =>
                .op (.enqueueDma (slotM l ch 0) (.remote (Dev.tc n2 : Thread nD τ) (slotM l ch 2) (.dma (sendSem l ch 2)) hsc2) (.dma (recvSem l ch 2)) hsrc2 hdst2 hsem2) fun _ =>
                .op (.enqueueDma (slotM l ch 0) (.remote (Dev.tc n5 : Thread nD τ) (slotM l ch 5) (.dma (sendSem l ch 5)) hsc5) (.dma (recvSem l ch 5)) hsrc5 hdst5 hsem5) fun _ =>
                .op (.enqueueDma (slotM l ch 0) (.remote (Dev.tc n7 : Thread nD τ) (slotM l ch 7) (.dma (sendSem l ch 7)) hsc7) (.dma (recvSem l ch 7)) hsrc7 hdst7 hsem7) fun _ =>
                .op (.enqueueDma (slotM l ch 0) (.remote (Dev.tc n1 : Thread nD τ) (slotM l ch 1) (.dma (sendSem l ch 1)) hsc1) (.dma (recvSem l ch 1)) hsrc1 hdst1 hsem1) fun _ =>
                .op (.enqueueDma (slotM l ch 0) (.remote (Dev.tc n3 : Thread nD τ) (slotM l ch 3) (.dma (sendSem l ch 3)) hsc3) (.dma (recvSem l ch 3)) hsrc3 hdst3 hsem3) fun _ =>
                .op (.enqueueDma (slotM l ch 0) (.remote (Dev.tc n4 : Thread nD τ) (slotM l ch 4) (.dma (sendSem l ch 4)) hsc4) (.dma (recvSem l ch 4)) hsrc4 hdst4 hsem4) kont) Q) := by
  subst h6 h2 h5 h7 h1 h3 h4
  unfold sendToks landing sendCreds
  rw [peers_send, peers_send, peers_send, owed_block]
  iintro ⟨#Hrec, Hown, ⟨⟨Hs6, Hr6⟩, ⟨Hs2, Hr2⟩, ⟨Hs5, Hr5⟩, ⟨Hs7, Hr7⟩, ⟨Hs1, Hr1⟩, ⟨Hs3, Hr3⟩, ⟨Hs4, Hr4⟩⟩,
    ⟨⟨%f6, Hl6⟩, ⟨%f2, Hl2⟩, ⟨%f5, Hl5⟩, ⟨%f7, Hl7⟩, ⟨%f1, Hl1⟩, ⟨%f3, Hl3⟩, ⟨%f4, Hl4⟩⟩, Ho⟩ Hk
  ihave Hsh := (own_shares c l ch _) $$ Hown
  icases Hsh with ⟨Hq6, Hq2, Hq5, Hq7, Hq1, Hq3, Hq4⟩
  iapply (wp_send_slot m K c l ch 6 (by decide) (peer c 6) rfl f6 _ W) $$ [Hq6 Hl6 Ho Hs6 Hr6]
  · iframe # ∗
  iintro ⟨Hc6, Ho⟩
  iapply (wp_send_slot m K c l ch 2 (by decide) (peer c 2) rfl f2 _ W) $$ [Hq2 Hl2 Ho Hs2 Hr2]
  · iframe # ∗
  iintro ⟨Hc2, Ho⟩
  iapply (wp_send_slot m K c l ch 5 (by decide) (peer c 5) rfl f5 _ W) $$ [Hq5 Hl5 Ho Hs5 Hr5]
  · iframe # ∗
  iintro ⟨Hc5, Ho⟩
  iapply (wp_send_slot m K c l ch 7 (by decide) (peer c 7) rfl f7 _ W) $$ [Hq7 Hl7 Ho Hs7 Hr7]
  · iframe # ∗
  iintro ⟨Hc7, Ho⟩
  iapply (wp_send_slot m K c l ch 1 (by decide) (peer c 1) rfl f1 _ W) $$ [Hq1 Hl1 Ho Hs1 Hr1]
  · iframe # ∗
  iintro ⟨Hc1, Ho⟩
  iapply (wp_send_slot m K c l ch 3 (by decide) (peer c 3) rfl f3 _ W) $$ [Hq3 Hl3 Ho Hs3 Hr3]
  · iframe # ∗
  iintro ⟨Hc3, Ho⟩
  iapply (wp_send_slot m K c l ch 4 (by decide) (peer c 4) rfl f4 _ W) $$ [Hq4 Hl4 Ho Hs4 Hr4]
  · iframe # ∗
  iintro ⟨Hc4, Ho⟩
  iapply Hk
  iframe

theorem recv_block (c : Dev nD) (l : Fin 3) (ch : Fin 4) (O : CellTallies nD τ sig Unit) (W : Waits sig Unit)
    (n : ℕ) (hn : 4 * (l.val + 1) + ch.val ≤ n) (hO : O = owedOf ((lcOrder.drop n).flatMap (paySend c)))
    {hs1 : WX l ch 0} {hd1 : WX l ch 1}
    {hl1 : LA l ch 1}
    {hs3 : WX l ch 0} {hd3 : WX l ch 3}
    {hl3 : LA l ch 3}
    {hs4 : WX l ch 0} {hd4 : WX l ch 4}
    {hl4 : LA l ch 4}
    {hs2 : WX l ch 0} {hd2 : WX l ch 2}
    {hl2 : LA l ch 2}
    {hs5 : WX l ch 0} {hd5 : WX l ch 5}
    {hl5 : LA l ch 5}
    {hs7 : WX l ch 0} {hd7 : WX l ch 7}
    {hl7 : LA l ch 7}
    {hs6 : WX l ch 0} {hd6 : WX l ch 6}
    {hl6 : LA l ch 6}
    {α : Type} {Q : α → sProp 𝕄}
    {kont : LV F l ch 1 → LV F l ch 3 → LV F l ch 4 → LV F l ch 2 → LV F l ch 5 → LV F l ch 7 → LV F l ch 6 → Prog (TpuEff nD τ sig (Elt F) Λ₀ .tc) α} :
    iprop(records m K ∗ levAts L lv ∗ recvRes (F := F) c l ch ∗ owes (c : Thread nD τ) O W)
      ⊢ iprop((((∃ W', owes (c : Thread nD τ) O W') ∗ recvDone m c l ch)
            -∗ WP c (kont (landedVal m c l ch 1) (landedVal m c l ch 3) (landedVal m c l ch 4) (landedVal m c l ch 2) (landedVal m c l ch 5) (landedVal m c l ch 7) (landedVal m c l ch 6)) Q)
          -∗ WP c
              (.op (.waitDma2 (recvSem l ch 1) (slotM l ch 0) (slotM l ch 1) hs1 hd1) fun _ =>
                .op (.load commM (slotR l ch 1).toLoadRect hl1) fun v1 =>
                .op (.waitDma2 (recvSem l ch 3) (slotM l ch 0) (slotM l ch 3) hs3 hd3) fun _ =>
                .op (.load commM (slotR l ch 3).toLoadRect hl3) fun v3 =>
                .op (.waitDma2 (recvSem l ch 4) (slotM l ch 0) (slotM l ch 4) hs4 hd4) fun _ =>
                .op (.load commM (slotR l ch 4).toLoadRect hl4) fun v4 =>
                .op (.waitDma2 (recvSem l ch 2) (slotM l ch 0) (slotM l ch 2) hs2 hd2) fun _ =>
                .op (.load commM (slotR l ch 2).toLoadRect hl2) fun v2 =>
                .op (.waitDma2 (recvSem l ch 5) (slotM l ch 0) (slotM l ch 5) hs5 hd5) fun _ =>
                .op (.load commM (slotR l ch 5).toLoadRect hl5) fun v5 =>
                .op (.waitDma2 (recvSem l ch 7) (slotM l ch 0) (slotM l ch 7) hs7 hd7) fun _ =>
                .op (.load commM (slotR l ch 7).toLoadRect hl7) fun v7 =>
                .op (.waitDma2 (recvSem l ch 6) (slotM l ch 0) (slotM l ch 6) hs6 hd6) fun _ =>
                .op (.load commM (slotR l ch 6).toLoadRect hl6) fun v6 =>
                kont v1 v3 v4 v2 v5 v7 v6) Q) := by
  subst hO
  unfold recvRes recvDone
  rw [peers_recv, peers_recv]
  iintro ⟨#Hrec, #Hlev, ⟨⟨Hc1, Hat1⟩, ⟨Hc3, Hat3⟩, ⟨Hc4, Hat4⟩, ⟨Hc2, Hat2⟩, ⟨Hc5, Hat5⟩, ⟨Hc7, Hat7⟩, ⟨Hc6, Hat6⟩⟩, Ho⟩ Hk
  iapply (wp_recv_load m K c l ch 1 (by decide) n hn _) $$ [Hc1 Hat1 Ho]
  · iframe # ∗
  iintro ⟨Ho, Hd1⟩
  iapply (wp_recv_load m K c l ch 3 (by decide) n hn _) $$ [Hc3 Hat3 Ho]
  · iframe # ∗
  iintro ⟨Ho, Hd3⟩
  iapply (wp_recv_load m K c l ch 4 (by decide) n hn _) $$ [Hc4 Hat4 Ho]
  · iframe # ∗
  iintro ⟨Ho, Hd4⟩
  iapply (wp_recv_load m K c l ch 2 (by decide) n hn _) $$ [Hc2 Hat2 Ho]
  · iframe # ∗
  iintro ⟨Ho, Hd2⟩
  iapply (wp_recv_load m K c l ch 5 (by decide) n hn _) $$ [Hc5 Hat5 Ho]
  · iframe # ∗
  iintro ⟨Ho, Hd5⟩
  iapply (wp_recv_load m K c l ch 7 (by decide) n hn _) $$ [Hc7 Hat7 Ho]
  · iframe # ∗
  iintro ⟨Ho, Hd7⟩
  iapply (wp_recv_load m K c l ch 6 (by decide) n hn _) $$ [Hc6 Hat6 Ho]
  · iframe # ∗
  iintro ⟨Ho, Hd6⟩
  iapply Hk
  isplitl [Ho]; · iexists _; iexact Ho
  iframe

end Cert.Kernel.Hand

end
-- ==== Proof.Bits.BodyLemmas.lean ====
import proofs.«900998_g7700000000000999_dist_mlpseq_tp1d_rep_rep_b128_d128_h256_v7x_i8_f32_1_alg».proof.Proof.Bits.Ghost
import proofs.«900998_g7700000000000999_dist_mlpseq_tp1d_rep_rep_b128_d128_h256_v7x_i8_f32_1_alg».proof.Proof.Bits.Slots
import proofs.«900998_g7700000000000999_dist_mlpseq_tp1d_rep_rep_b128_d128_h256_v7x_i8_f32_1_alg».proof.Proof.Bits.Levels
import Idealize.ShloMosaic.Lib.Pipeline.Value
import Idealize.ShloMosaic.Lib.ValueIdx

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

variable (c : Dev nD)

theorem wp_slot_load (l : Fin 3) (ch : Fin 4) (k : Fin 8) (q : PosShare TreeShare)
    (f : Buf (Elt F) ((slotM l ch k).view.loc (c : Thread nD τ)))
    {hl : LA l ch k}
    {α : Type} {Q : α → sProp 𝕄} {kont : LV F l ch k → Prog (TpuEff nD τ sig (Elt F) Λ₀ .tc) α} :
    (slotPts c l ch k q f : sProp 𝕄)
      ⊢ iprop((slotPts c l ch k q f -∗ WP c
              (kont (commM.view.readAt (Elt F) (slotR l ch k).toLoadRect f)) Q)
          -∗ WP c (.op (.load commM (slotR l ch k).toLoadRect hl) kont) Q) := by
  unfold slotPts
  exact wp_load 𝒱₀ (c : Thread nD τ) none Set.univ (m := commM) (slot_setOn l ch k)

theorem wp_own_store (l : Fin 3) (ch : Fin 4) (f : Buf (Elt F) ((slotM l ch 0).view.loc (c : Thread nD τ)))
    (w : (slotR l ch 0).shape.Idx → Elt F .bf16) (p : FVec F S32x128 .f32) (hw : w = pack p)
    {hx : (commM.access (slotR l ch 0)).Stores Finset.univ} {hm : Finset.univ = Finset.univ ∨ ∀ a, (slotR l ch 0).stride a = 1}
    {α : Type} {Q : α → sProp 𝕄} {kont : PUnit → Prog (TpuEff nD τ sig (Elt F) Λ₀ .tc) α} :
    (slotPts c l ch 0 fullShare f : sProp 𝕄)
      ⊢ iprop((slotPts c l ch 0 fullShare (slotBuf l ch 0 (tr p)) -∗ WP c (kont ⟨⟩) Q)
          -∗ WP c
              (.op (.store commM (slotR l ch 0) w Finset.univ hx hm) kont) Q) := by
  subst hw
  have e : shapeCast S32x128 (pack p) shapeCasts_S1x1x1x32x128_S32x128 = tr p := shapeCast_shapeCast _ _ _
  have hst := slotPts_store (F := F) c l ch 0 fullShare f (pack p)
  rw [e] at hst
  rw [← hst]
  unfold slotPts
  exact wp_store 𝒱₀ (c : Thread nD τ) none Set.univ (m := commM) (r := slotR l ch 0) (Mk := Finset.univ)
    (Eq.subset (by rw [View.setOn_univ, slot_access_set]))

theorem hz2 : (![0, 0] : Fin 2 → Nat) = fun _ => 0 := funext fun a => by fin_cases a <;> rfl

theorem read_w1 (f : (cc0_stg1_0 : Ref sig .tc).ty.Contents (Elt F)) :
    (Memref.whole cc0_stg1_0).view.readAt (Elt F) (Rect.unit (s := S128x256) ![0, 0] S128x256.size inb_S128x256_S128x256_0_0).toLoadRect f = f :=
  Memref.readAt_unit_zero (Elt F) cc0_stg1_0 hz2 _ f
theorem read_w2 (f : (cc0_stg2_0 : Ref sig .tc).ty.Contents (Elt F)) :
    (Memref.whole cc0_stg2_0).view.readAt (Elt F) (Rect.unit (s := S256x128) ![0, 0] S256x128.size inb_S256x128_S256x128_0_0).toLoadRect f = f :=
  Memref.readAt_unit_zero (Elt F) cc0_stg2_0 hz2 _ f
theorem read_w3 (f : (cc0_stg3_0 : Ref sig .tc).ty.Contents (Elt F)) :
    (Memref.whole cc0_stg3_0).view.readAt (Elt F) (Rect.unit (s := S128x256) ![0, 0] S128x256.size inb_S128x256_S128x256_0_0).toLoadRect f = f :=
  Memref.readAt_unit_zero (Elt F) cc0_stg3_0 hz2 _ f
theorem read_w4 (f : (cc0_stg4_0 : Ref sig .tc).ty.Contents (Elt F)) :
    (Memref.whole cc0_stg4_0).view.readAt (Elt F) (Rect.unit (s := S256x128) ![0, 0] S256x128.size inb_S256x128_S256x128_0_0).toLoadRect f = f :=
  Memref.readAt_unit_zero (Elt F) cc0_stg4_0 hz2 _ f
theorem read_w5 (f : (cc0_stg5_0 : Ref sig .tc).ty.Contents (Elt F)) :
    (Memref.whole cc0_stg5_0).view.readAt (Elt F) (Rect.unit (s := S128x256) ![0, 0] S128x256.size inb_S128x256_S128x256_0_0).toLoadRect f = f :=
  Memref.readAt_unit_zero (Elt F) cc0_stg5_0 hz2 _ f
theorem read_w6 (f : (cc0_stg6_0 : Ref sig .tc).ty.Contents (Elt F)) :
    (Memref.whole cc0_stg6_0).view.readAt (Elt F) (Rect.unit (s := S256x128) ![0, 0] S256x128.size inb_S256x128_S256x128_0_0).toLoadRect f = f :=
  Memref.readAt_unit_zero (Elt F) cc0_stg6_0 hz2 _ f

theorem chunk_write_apply (k : Fin 4) (g : (cc0_stg7_0 : Ref sig .tc).ty.Contents (Elt F)) (a : FVec F S32x128 .f32)
    (i : (⟨2, ![128, 128]⟩ : Shape).Idx) :
    ((Memref.whole cc0_stg7_0).access (chunkR k)).write (Elt F) g a Finset.univ i
      = if (i 0).val / 32 = k.val then
          a (ValueIdx.ix2 (n0 := 32) (n1 := 128) ⟨(i 0).val % 32, Nat.mod_lt _ (by decide)⟩ ⟨(i 1).val, ValueIdx.idx2_lt1 (n0 := 128) (n1 := 128) i⟩)
        else g i := by
  have hi0 : (i 0).val < 128 := ValueIdx.idx2_lt0 (n0 := 128) (n1 := 128) i
  have hi1 : (i 1).val < 128 := ValueIdx.idx2_lt1 (n0 := 128) (n1 := 128) i
  have hk4 : k.val < 4 := k.isLt
  have h := View.write_whole_slice_unit (Val := Elt F) cc0_stg7_0 ![32 * k.val, 0] S32x128.size (chunk_inb k) g a
  rw [show ((Memref.whole cc0_stg7_0).access (chunkR k)).write (Elt F) g a Finset.univ = _ from h]
  by_cases hk : (i 0).val / 32 = k.val
  · rw [if_pos hk]
    unfold updateSlice
    split
    · next hin =>
      congr 1; funext b
      match b with
      | ⟨0, _⟩ => exact Fin.ext (show (i 0).val - 32 * k.val = (i 0).val % 32 by omega)
      | ⟨1, _⟩ => exact Fin.ext (show (i 1).val - 0 = (i 1).val by omega)
    · next hout =>
      exact absurd (Fin.forall_fin_two.mpr
        ⟨(show 32 * k.val ≤ (i 0).val ∧ (i 0).val < 32 * k.val + 32 by omega),
         (show 0 ≤ (i 1).val ∧ (i 1).val < 0 + 128 by omega)⟩) hout
  · rw [if_neg hk]
    unfold updateSlice
    split
    · next hin =>
      exfalso
      have h0 : 32 * k.val ≤ (i 0).val ∧ (i 0).val < 32 * k.val + 32 := hin 0
      omega
    · rfl

theorem sel4 {β : Type} (b0 b1 b2 b3 : β) (n : ℕ) (hn : n < 4) :
    (match (⟨n, hn⟩ : Fin 4) with | 0 => b0 | 1 => b1 | 2 => b2 | 3 => b3)
      = if n = 3 then b3 else if n = 2 then b2 else if n = 1 then b1 else b0 := by
  match n, hn with
  | 0, _ => rfl
  | 1, _ => rfl
  | 2, _ => rfl
  | 3, _ => rfl
  | n + 4, h => exact absurd h (by omega)

theorem sel4_fn {β : Type} (g : Fin 4 → β) (n : ℕ) (hn : n < 4) :
    (match (⟨n, hn⟩ : Fin 4) with | 0 => g 0 | 1 => g 1 | 2 => g 2 | 3 => g 3) = g ⟨n, hn⟩ := by
  match n, hn with
  | 0, _ => rfl
  | 1, _ => rfl
  | 2, _ => rfl
  | 3, _ => rfl
  | n + 4, h => exact absurd h (by omega)

theorem out_writes (f : (cc0_stg7_0 : Ref sig .tc).ty.Contents (Elt F)) (a0 a1 a2 a3 : FVec F S32x128 .f32) :
    ((Memref.whole cc0_stg7_0).access (chunkR 3)).write (Elt F)
        (((Memref.whole cc0_stg7_0).access (chunkR 2)).write (Elt F)
          (((Memref.whole cc0_stg7_0).access (chunkR 1)).write (Elt F)
            (((Memref.whole cc0_stg7_0).access (chunkR 0)).write (Elt F) f a0 Finset.univ) a1 Finset.univ) a2 Finset.univ) a3 Finset.univ
      = fun i => (match (⟨(i 0).val / 32, by have := ValueIdx.idx2_lt0 (n0 := 128) (n1 := 128) i; omega⟩ : Fin 4) with
          | 0 => a0 | 1 => a1 | 2 => a2 | 3 => a3)
          (ValueIdx.ix2 (n0 := 32) (n1 := 128) ⟨(i 0).val % 32, Nat.mod_lt _ (by decide)⟩ ⟨(i 1).val, ValueIdx.idx2_lt1 (n0 := 128) (n1 := 128) i⟩) := by
  funext i
  have hi0 : (i 0).val < 128 := ValueIdx.idx2_lt0 (n0 := 128) (n1 := 128) i
  rw [chunk_write_apply, chunk_write_apply, chunk_write_apply, chunk_write_apply]
  refine Eq.trans ?_ (congrFun (sel4 a0 a1 a2 a3 ((i 0).val / 32) (by omega)).symm _)
  have hn : (i 0).val / 32 = 0 ∨ (i 0).val / 32 = 1 ∨ (i 0).val / 32 = 2 ∨ (i 0).val / 32 = 3 := by omega
  rcases hn with h | h | h | h <;> simp [h]

theorem out_writes_act (f : (cc0_stg7_0 : Ref sig .tc).ty.Contents (Elt F)) :
    ((Memref.whole cc0_stg7_0).access (chunkR 3)).write (Elt F)
        (((Memref.whole cc0_stg7_0).access (chunkR 2)).write (Elt F)
          (((Memref.whole cc0_stg7_0).access (chunkR 1)).write (Elt F)
            (((Memref.whole cc0_stg7_0).access (chunkR 0)).write (Elt F) f (act m 3 c 0) Finset.univ) (act m 3 c 1) Finset.univ)
          (act m 3 c 2) Finset.univ) (act m 3 c 3) Finset.univ
      = outStg m c := by
  rw [out_writes]
  funext i
  have hi0 : (i 0).val < 128 := ValueIdx.idx2_lt0 (n0 := 128) (n1 := 128) i
  exact congrFun (sel4_fn (fun ch => act m 3 c ch) ((i 0).val / 32) (by omega)) _

end Cert.Kernel.Hand

end
-- ==== Proof.Bits.Body.lean ====
import proofs.«900998_g7700000000000999_dist_mlpseq_tp1d_rep_rep_b128_d128_h256_v7x_i8_f32_1_alg».proof.Proof.Bits.BodyDefs
import proofs.«900998_g7700000000000999_dist_mlpseq_tp1d_rep_rep_b128_d128_h256_v7x_i8_f32_1_alg».proof.Proof.Bits.Blocks
import proofs.«900998_g7700000000000999_dist_mlpseq_tp1d_rep_rep_b128_d128_h256_v7x_i8_f32_1_alg».proof.Proof.Bits.BlockStepsA
import proofs.«900998_g7700000000000999_dist_mlpseq_tp1d_rep_rep_b128_d128_h256_v7x_i8_f32_1_alg».proof.Proof.Bits.BlockStepsB
import proofs.«900998_g7700000000000999_dist_mlpseq_tp1d_rep_rep_b128_d128_h256_v7x_i8_f32_1_alg».proof.Proof.Bits.BodyLemmas
import proofs.«900998_g7700000000000999_dist_mlpseq_tp1d_rep_rep_b128_d128_h256_v7x_i8_f32_1_alg».proof.Proof.Bits.Rejoin
import proofs.«900998_g7700000000000999_dist_mlpseq_tp1d_rep_rep_b128_d128_h256_v7x_i8_f32_1_alg».proof.Proof.Bits.Levels

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536 in
set_option maxHeartbeats 40000000 in

theorem sound_body (K : Dev nD × CK → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ (bodyProg (F := F)) Kt := by
  unfold bodyProg
  simp only [cc0_body_eq_skeleton]; unfold cc0_body_skel
  simp only [k0_part135_eq_skeleton, k0_part136_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton]
  unfold k0_part135_skel k0_part136_skel k0_part121_skel k0_part122_skel k0_part123_skel k0_part124_skel k0_part125_skel k0_part126_skel k0_part127_skel k0_part128_skel k0_part129_skel k0_part130_skel k0_part131_skel k0_part132_skel k0_part133_skel k0_part134_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel k0_part69_skel k0_part70_skel k0_part71_skel k0_part72_skel k0_part73_skel k0_part74_skel k0_part75_skel k0_part76_skel k0_part77_skel k0_part78_skel k0_part79_skel k0_part80_skel k0_part81_skel k0_part82_skel k0_part83_skel k0_part84_skel k0_part85_skel k0_part86_skel k0_part87_skel k0_part88_skel k0_part89_skel k0_part90_skel k0_part91_skel k0_part92_skel k0_part93_skel k0_part94_skel k0_part95_skel k0_part96_skel k0_part97_skel k0_part98_skel k0_part99_skel k0_part100_skel k0_part101_skel k0_part102_skel k0_part103_skel k0_part104_skel k0_part105_skel k0_part106_skel k0_part107_skel k0_part108_skel k0_part109_skel k0_part110_skel k0_part111_skel k0_part112_skel k0_part113_skel k0_part114_skel k0_part115_skel k0_part116_skel k0_part117_skel k0_part118_skel k0_part119_skel k0_part120_skel
  simp (config := { maxSteps := 400000000 }) only [semSignalWord, semWaitWord, Prog.lift, Prog.bind_op, Prog.bind_ret, Prog.pure_eq_ret, wp_deviceId]
  unfold bodyPre ghost
  iintro ⟨⟨⟨#HR, Hlin, Htok⟩, Hcr, #Hlev, Hcomm, Ho, ⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%X7, %g7, %hg7, H7⟩⟩, Hk⟩
  subst hg0 hg1 hg2 hg3 hg4 hg5 hg6 hg7
  unfold Dat.owesAt Pipeline.owesWithin
  icases Ho with ⟨%W0, %hW0, HO⟩
  rw [show (dats m ρ 0 c).owed t0_0.castSucc = O₀ c from rfl]
  ihave Hs := (start_regroup (F := F) c) $$ [Hlin Htok Hcr]
  · iframe # ∗
  icases Hs with ⟨HaB, HtB, HcB, Hblk⟩
  ihave Hblk' := (Entails.of_eq (bigSep_lc _)) $$ Hblk
  icases Hblk' with ⟨⟨Hst00, Hrr00, Hsp00, Hid00⟩, ⟨Hst01, Hrr01, Hsp01, Hid01⟩, ⟨Hst02, Hrr02, Hsp02, Hid02⟩, ⟨Hst03, Hrr03, Hsp03, Hid03⟩, ⟨Hst10, Hrr10, Hsp10, Hid10⟩, ⟨Hst11, Hrr11, Hsp11, Hid11⟩, ⟨Hst12, Hrr12, Hsp12, Hid12⟩, ⟨Hst13, Hrr13, Hsp13, Hid13⟩, ⟨Hst20, Hrr20, Hsp20, Hid20⟩, ⟨Hst21, Hrr21, Hsp21, Hid21⟩, ⟨Hst22, Hrr22, Hsp22, Hid22⟩, ⟨Hst23, Hrr23, Hsp23, Hid23⟩⟩
  ihave Hd := (comm_deal (F := F) c) $$ Hcomm
  icases Hd with ⟨Hown, Hpeer⟩
  ihave Hown' := (Entails.of_eq (bigSep_lc _)) $$ Hown
  icases Hown' with ⟨⟨%f00, Hs00⟩, ⟨%f01, Hs01⟩, ⟨%f02, Hs02⟩, ⟨%f03, Hs03⟩, ⟨%f10, Hs10⟩, ⟨%f11, Hs11⟩, ⟨%f12, Hs12⟩, ⟨%f13, Hs13⟩, ⟨%f20, Hs20⟩, ⟨%f21, Hs21⟩, ⟨%f22, Hs22⟩, ⟨%f23, Hs23⟩⟩
  iapply (bar_block m K c (dev_eq k0_dev1_lt 1 c) (dev_eq k0_dev2_lt 2 c) (dev_eq k0_dev3_lt 3 c) (dev_eq k0_dev4_lt 4 c) (dev_eq k0_dev5_lt 5 c) (dev_eq k0_dev6_lt 6 c) (dev_eq k0_dev7_lt 7 c) (lcOrder.flatMap (paySend c)) W0) $$ [HO HtB Hpeer HcB HaB]
  · isplitr; · iexact HR
    isplitl [HO]; · iexact HO
    isplitl [HtB]; · iexact HtB
    isplitl [Hpeer]; · iexact Hpeer
    isplitl [HcB]; · iexact HcB
    isplitr; · iapply (mayWait_bar (F := F) c); iexact Hlev
    iexact HaB
  iintro ⟨HO, Hland⟩
  ihave Hland' := (Entails.of_eq (bigSep_lc _)) $$ Hland
  icases Hland' with ⟨Hl00, Hl01, Hl02, Hl03, Hl10, Hl11, Hl12, Hl13, Hl20, Hl21, Hl22, Hl23⟩
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg1_0) (Finset.subset_univ _)) $$ H1; iintro H1
  rw [read_w1]
  iapply (wp_load 𝒱₀ (c : Thread nD τ) none Set.univ (m := Memref.whole cc0_stg2_0) (Finset.subset_univ _)) $$ H2; iintro H2
  rw [read_w2]
  iapply (wp_slot_load c 0 0 0 fullShare f00) $$ Hs00; iintro Hs00
  generalize hW00 : k0_pay2 (F := F) _ _ _ = w00
  have hw00 : w00 = pack (part m 0 c 0) := by
    rw [← hW00]; rfl
  iapply (wp_own_store c 0 0 f00 w00 (part m 0 c 0) hw00) $$ Hs00; iintro Hs00
  iapply (send_block m K c 0 0 (dev_eq k0_dev8_lt 6 c) (dev_eq k0_dev9_lt 2 c) (dev_eq k0_dev10_lt 5 c) (dev_eq k0_dev11_lt 7 c) (dev_eq k0_dev12_lt 1 c) (dev_eq k0_dev13_lt 3 c) (dev_eq k0_dev14_lt 4 c) ((lcOrder.drop 1).flatMap (paySend c)) (insert (SemLoc.reg barS, ()) W0)) $$ [Hs00 Hst00 Hl00 HO]
  · iframe HR Hst00 Hl00
    isplitl [Hs00]; · iexact Hs00
    iexact HO
  iintro ⟨Hsc00, HO⟩
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg1_0) (Finset.subset_univ _)) $$ H1; iintro H1
  rw [read_w1]
  iapply (wp_load 𝒱₀ (c : Thread nD τ) none Set.univ (m := Memref.whole cc0_stg2_0) (Finset.subset_univ _)) $$ H2; iintro H2
  rw [read_w2]
  iapply (wp_slot_load c 0 1 0 fullShare f01) $$ Hs01; iintro Hs01
  generalize hW01 : k0_pay4 (F := F) _ _ _ = w01
  have hw01 : w01 = pack (part m 0 c 1) := by
    rw [← hW01]; rfl
  iapply (wp_own_store c 0 1 f01 w01 (part m 0 c 1) hw01) $$ Hs01; iintro Hs01
  iapply (send_block m K c 0 1 (dev_eq k0_dev15_lt 6 c) (dev_eq k0_dev16_lt 2 c) (dev_eq k0_dev17_lt 5 c) (dev_eq k0_dev18_lt 7 c) (dev_eq k0_dev19_lt 1 c) (dev_eq k0_dev20_lt 3 c) (dev_eq k0_dev21_lt 4 c) ((lcOrder.drop 2).flatMap (paySend c)) (insert (SemLoc.reg barS, ()) W0)) $$ [Hs01 Hst01 Hl01 HO]
  · iframe HR Hst01 Hl01
    isplitl [Hs01]; · iexact Hs01
    iexact HO
  iintro ⟨Hsc01, HO⟩
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg1_0) (Finset.subset_univ _)) $$ H1; iintro H1
  rw [read_w1]
  iapply (wp_load 𝒱₀ (c : Thread nD τ) none Set.univ (m := Memref.whole cc0_stg2_0) (Finset.subset_univ _)) $$ H2; iintro H2
  rw [read_w2]
  iapply (wp_slot_load c 0 2 0 fullShare f02) $$ Hs02; iintro Hs02
  generalize hW02 : k0_pay6 (F := F) _ _ _ = w02
  have hw02 : w02 = pack (part m 0 c 2) := by
    rw [← hW02]; rfl
  iapply (wp_own_store c 0 2 f02 w02 (part m 0 c 2) hw02) $$ Hs02; iintro Hs02
  iapply (send_block m K c 0 2 (dev_eq k0_dev22_lt 6 c) (dev_eq k0_dev23_lt 2 c) (dev_eq k0_dev24_lt 5 c) (dev_eq k0_dev25_lt 7 c) (dev_eq k0_dev26_lt 1 c) (dev_eq k0_dev27_lt 3 c) (dev_eq k0_dev28_lt 4 c) ((lcOrder.drop 3).flatMap (paySend c)) (insert (SemLoc.reg barS, ()) W0)) $$ [Hs02 Hst02 Hl02 HO]
  · iframe HR Hst02 Hl02
    isplitl [Hs02]; · iexact Hs02
    iexact HO
  iintro ⟨Hsc02, HO⟩
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg1_0) (Finset.subset_univ _)) $$ H1; iintro H1
  rw [read_w1]
  iapply (wp_load 𝒱₀ (c : Thread nD τ) none Set.univ (m := Memref.whole cc0_stg2_0) (Finset.subset_univ _)) $$ H2; iintro H2
  rw [read_w2]
  iapply (wp_slot_load c 0 3 0 fullShare f03) $$ Hs03; iintro Hs03
  generalize hW03 : k0_pay8 (F := F) _ _ _ = w03
  have hw03 : w03 = pack (part m 0 c 3) := by
    rw [← hW03]; rfl
  iapply (wp_own_store c 0 3 f03 w03 (part m 0 c 3) hw03) $$ Hs03; iintro Hs03
  iapply (send_block m K c 0 3 (dev_eq k0_dev29_lt 6 c) (dev_eq k0_dev30_lt 2 c) (dev_eq k0_dev31_lt 5 c) (dev_eq k0_dev32_lt 7 c) (dev_eq k0_dev33_lt 1 c) (dev_eq k0_dev34_lt 3 c) (dev_eq k0_dev35_lt 4 c) ((lcOrder.drop 4).flatMap (paySend c)) (insert (SemLoc.reg barS, ()) W0)) $$ [Hs03 Hst03 Hl03 HO]
  · iframe HR Hst03 Hl03
    isplitl [Hs03]; · iexact Hs03
    iexact HO
  iintro ⟨Hsc03, HO⟩
  iapply (recv_block m K c 0 0 _ (insert (SemLoc.reg barS, ()) W0) 4 (by decide) rfl) $$ [Hrr00 HO]
  · iframe # ∗
  iintro ⟨⟨%W1, HO⟩, Hrd00⟩
  iapply (wp_load 𝒱₀ (c : Thread nD τ) none Set.univ (m := Memref.whole cc0_stg3_0) (Finset.subset_univ _)) $$ H3; iintro H3
  rw [read_w3]
  iapply (wp_load 𝒱₀ (c : Thread nD τ) none Set.univ (m := Memref.whole cc0_stg4_0) (Finset.subset_univ _)) $$ H4; iintro H4
  rw [read_w4]
  iapply (wp_slot_load c 1 0 0 fullShare f10) $$ Hs10; iintro Hs10
  generalize hW10 : k0_pay14 (F := F) _ = w10
  have hw10 : w10 = pack (part m 1 c 0) := by
    rw [← hW10]; rfl
  iapply (wp_own_store c 1 0 f10 w10 (part m 1 c 0) hw10) $$ Hs10; iintro Hs10
  iapply (send_block m K c 1 0 (dev_eq k0_dev36_lt 6 c) (dev_eq k0_dev37_lt 2 c) (dev_eq k0_dev38_lt 5 c) (dev_eq k0_dev39_lt 7 c) (dev_eq k0_dev40_lt 1 c) (dev_eq k0_dev41_lt 3 c) (dev_eq k0_dev42_lt 4 c) ((lcOrder.drop 5).flatMap (paySend c)) W1) $$ [Hs10 Hst10 Hl10 HO]
  · iframe HR Hst10 Hl10
    isplitl [Hs10]; · iexact Hs10
    iexact HO
  iintro ⟨Hsc10, HO⟩
  iapply (recv_block m K c 0 1 _ W1 5 (by decide) rfl) $$ [Hrr01 HO]
  · iframe # ∗
  iintro ⟨⟨%W2, HO⟩, Hrd01⟩
  iapply (wp_load 𝒱₀ (c : Thread nD τ) none Set.univ (m := Memref.whole cc0_stg3_0) (Finset.subset_univ _)) $$ H3; iintro H3
  rw [read_w3]
  iapply (wp_load 𝒱₀ (c : Thread nD τ) none Set.univ (m := Memref.whole cc0_stg4_0) (Finset.subset_univ _)) $$ H4; iintro H4
  rw [read_w4]
  iapply (wp_slot_load c 1 1 0 fullShare f11) $$ Hs11; iintro Hs11
  generalize hW11 : k0_pay21 (F := F) _ _ _ = w11
  have hw11 : w11 = pack (part m 1 c 1) := by
    rw [← hW11]; rfl
  iapply (wp_own_store c 1 1 f11 w11 (part m 1 c 1) hw11) $$ Hs11; iintro Hs11
  iapply (send_block m K c 1 1 (dev_eq k0_dev43_lt 6 c) (dev_eq k0_dev44_lt 2 c) (dev_eq k0_dev45_lt 5 c) (dev_eq k0_dev46_lt 7 c) (dev_eq k0_dev47_lt 1 c) (dev_eq k0_dev48_lt 3 c) (dev_eq k0_dev49_lt 4 c) ((lcOrder.drop 6).flatMap (paySend c)) W2) $$ [Hs11 Hst11 Hl11 HO]
  · iframe HR Hst11 Hl11
    isplitl [Hs11]; · iexact Hs11
    iexact HO
  iintro ⟨Hsc11, HO⟩
  iapply (recv_block m K c 0 2 _ W2 6 (by decide) rfl) $$ [Hrr02 HO]
  · iframe # ∗
  iintro ⟨⟨%W3, HO⟩, Hrd02⟩
  iapply (wp_load 𝒱₀ (c : Thread nD τ) none Set.univ (m := Memref.whole cc0_stg3_0) (Finset.subset_univ _)) $$ H3; iintro H3
  rw [read_w3]
  iapply (wp_load 𝒱₀ (c : Thread nD τ) none Set.univ (m := Memref.whole cc0_stg4_0) (Finset.subset_univ _)) $$ H4; iintro H4
  rw [read_w4]
  iapply (wp_slot_load c 1 2 0 fullShare f12) $$ Hs12; iintro Hs12
  generalize hW12 : k0_pay27 (F := F) _ _ _ _ = w12
  have hw12 : w12 = pack (part m 1 c 2) := by
    rw [← hW12]; rfl
  iapply (wp_own_store c 1 2 f12 w12 (part m 1 c 2) hw12) $$ Hs12; iintro Hs12
  iapply (send_block m K c 1 2 (dev_eq k0_dev50_lt 6 c) (dev_eq k0_dev51_lt 2 c) (dev_eq k0_dev52_lt 5 c) (dev_eq k0_dev53_lt 7 c) (dev_eq k0_dev54_lt 1 c) (dev_eq k0_dev55_lt 3 c) (dev_eq k0_dev56_lt 4 c) ((lcOrder.drop 7).flatMap (paySend c)) W3) $$ [Hs12 Hst12 Hl12 HO]
  · iframe HR Hst12 Hl12
    isplitl [Hs12]; · iexact Hs12
    iexact HO
  iintro ⟨Hsc12, HO⟩
  iapply (recv_block m K c 0 3 _ W3 7 (by decide) rfl) $$ [Hrr03 HO]
  · iframe # ∗
  iintro ⟨⟨%W4, HO⟩, Hrd03⟩
  iapply (wp_load 𝒱₀ (c : Thread nD τ) none Set.univ (m := Memref.whole cc0_stg3_0) (Finset.subset_univ _)) $$ H3; iintro H3
  rw [read_w3]
  iapply (wp_load 𝒱₀ (c : Thread nD τ) none Set.univ (m := Memref.whole cc0_stg4_0) (Finset.subset_univ _)) $$ H4; iintro H4
  rw [read_w4]
  iapply (wp_slot_load c 1 3 0 fullShare f13) $$ Hs13; iintro Hs13
  generalize hW13 : k0_pay33 (F := F) _ _ _ _ = w13
  have hw13 : w13 = pack (part m 1 c 3) := by
    rw [← hW13]; rfl
  iapply (wp_own_store c 1 3 f13 w13 (part m 1 c 3) hw13) $$ Hs13; iintro Hs13
  iapply (send_block m K c 1 3 (dev_eq k0_dev57_lt 6 c) (dev_eq k0_dev58_lt 2 c) (dev_eq k0_dev59_lt 5 c) (dev_eq k0_dev60_lt 7 c) (dev_eq k0_dev61_lt 1 c) (dev_eq k0_dev62_lt 3 c) (dev_eq k0_dev63_lt 4 c) ((lcOrder.drop 8).flatMap (paySend c)) W4) $$ [Hs13 Hst13 Hl13 HO]
  · iframe HR Hst13 Hl13
    isplitl [Hs13]; · iexact Hs13
    iexact HO
  iintro ⟨Hsc13, HO⟩
  iapply (recv_block m K c 1 0 _ W4 8 (by decide) rfl) $$ [Hrr10 HO]
  · iframe # ∗
  iintro ⟨⟨%W5, HO⟩, Hrd10⟩
  iapply (wp_load 𝒱₀ (c : Thread nD τ) none Set.univ (m := Memref.whole cc0_stg5_0) (Finset.subset_univ _)) $$ H5; iintro H5
  rw [read_w5]
  iapply (wp_load 𝒱₀ (c : Thread nD τ) none Set.univ (m := Memref.whole cc0_stg6_0) (Finset.subset_univ _)) $$ H6; iintro H6
  rw [read_w6]
  iapply (wp_slot_load c 2 0 0 fullShare f20) $$ Hs20; iintro Hs20
  generalize hW20 : k0_pay41 (F := F) _ = w20
  have hw20 : w20 = pack (part m 2 c 0) := by
    rw [← hW20]; rfl
  iapply (wp_own_store c 2 0 f20 w20 (part m 2 c 0) hw20) $$ Hs20; iintro Hs20
  iapply (send_block m K c 2 0 (dev_eq k0_dev64_lt 6 c) (dev_eq k0_dev65_lt 2 c) (dev_eq k0_dev66_lt 5 c) (dev_eq k0_dev67_lt 7 c) (dev_eq k0_dev68_lt 1 c) (dev_eq k0_dev69_lt 3 c) (dev_eq k0_dev70_lt 4 c) ((lcOrder.drop 9).flatMap (paySend c)) W5) $$ [Hs20 Hst20 Hl20 HO]
  · iframe HR Hst20 Hl20
    isplitl [Hs20]; · iexact Hs20
    iexact HO
  iintro ⟨Hsc20, HO⟩
  iapply (recv_block m K c 1 1 _ W5 9 (by decide) rfl) $$ [Hrr11 HO]
  · iframe # ∗
  iintro ⟨⟨%W6, HO⟩, Hrd11⟩
  iapply (wp_load 𝒱₀ (c : Thread nD τ) none Set.univ (m := Memref.whole cc0_stg5_0) (Finset.subset_univ _)) $$ H5; iintro H5
  rw [read_w5]
  iapply (wp_load 𝒱₀ (c : Thread nD τ) none Set.univ (m := Memref.whole cc0_stg6_0) (Finset.subset_univ _)) $$ H6; iintro H6
  rw [read_w6]
  iapply (wp_slot_load c 2 1 0 fullShare f21) $$ Hs21; iintro Hs21
  generalize hW21 : k0_pay48 (F := F) _ _ _ = w21
  have hw21 : w21 = pack (part m 2 c 1) := by
    rw [← hW21]; rfl
  iapply (wp_own_store c 2 1 f21 w21 (part m 2 c 1) hw21) $$ Hs21; iintro Hs21
  iapply (send_block m K c 2 1 (dev_eq k0_dev71_lt 6 c) (dev_eq k0_dev72_lt 2 c) (dev_eq k0_dev73_lt 5 c) (dev_eq k0_dev74_lt 7 c) (dev_eq k0_dev75_lt 1 c) (dev_eq k0_dev76_lt 3 c) (dev_eq k0_dev77_lt 4 c) ((lcOrder.drop 10).flatMap (paySend c)) W6) $$ [Hs21 Hst21 Hl21 HO]
  · iframe HR Hst21 Hl21
    isplitl [Hs21]; · iexact Hs21
    iexact HO
  iintro ⟨Hsc21, HO⟩
  iapply (recv_block m K c 1 2 _ W6 10 (by decide) rfl) $$ [Hrr12 HO]
  · iframe # ∗
  iintro ⟨⟨%W7, HO⟩, Hrd12⟩
  iapply (wp_load 𝒱₀ (c : Thread nD τ) none Set.univ (m := Memref.whole cc0_stg5_0) (Finset.subset_univ _)) $$ H5; iintro H5
  rw [read_w5]
  iapply (wp_load 𝒱₀ (c : Thread nD τ) none Set.univ (m := Memref.whole cc0_stg6_0) (Finset.subset_univ _)) $$ H6; iintro H6
  rw [read_w6]
  iapply (wp_slot_load c 2 2 0 fullShare f22) $$ Hs22; iintro Hs22
  generalize hW22 : k0_pay54 (F := F) _ _ _ _ = w22
  have hw22 : w22 = pack (part m 2 c 2) := by
    rw [← hW22]; rfl
  iapply (wp_own_store c 2 2 f22 w22 (part m 2 c 2) hw22) $$ Hs22; iintro Hs22
  iapply (send_block m K c 2 2 (dev_eq k0_dev78_lt 6 c) (dev_eq k0_dev79_lt 2 c) (dev_eq k0_dev80_lt 5 c) (dev_eq k0_dev81_lt 7 c) (dev_eq k0_dev82_lt 1 c) (dev_eq k0_dev83_lt 3 c) (dev_eq k0_dev84_lt 4 c) ((lcOrder.drop 11).flatMap (paySend c)) W7) $$ [Hs22 Hst22 Hl22 HO]
  · iframe HR Hst22 Hl22
    isplitl [Hs22]; · iexact Hs22
    iexact HO
  iintro ⟨Hsc22, HO⟩
  iapply (recv_block m K c 1 3 _ W7 11 (by decide) rfl) $$ [Hrr13 HO]
  · iframe # ∗
  iintro ⟨⟨%W8, HO⟩, Hrd13⟩
  iapply (wp_load 𝒱₀ (c : Thread nD τ) none Set.univ (m := Memref.whole cc0_stg5_0) (Finset.subset_univ _)) $$ H5; iintro H5
  rw [read_w5]
  iapply (wp_load 𝒱₀ (c : Thread nD τ) none Set.univ (m := Memref.whole cc0_stg6_0) (Finset.subset_univ _)) $$ H6; iintro H6
  rw [read_w6]
  iapply (wp_slot_load c 2 3 0 fullShare f23) $$ Hs23; iintro Hs23
  generalize hW23 : k0_pay60 (F := F) _ _ _ _ = w23
  have hw23 : w23 = pack (part m 2 c 3) := by
    rw [← hW23]; rfl
  iapply (wp_own_store c 2 3 f23 w23 (part m 2 c 3) hw23) $$ Hs23; iintro Hs23
  iapply (send_block m K c 2 3 (dev_eq k0_dev85_lt 6 c) (dev_eq k0_dev86_lt 2 c) (dev_eq k0_dev87_lt 5 c) (dev_eq k0_dev88_lt 7 c) (dev_eq k0_dev89_lt 1 c) (dev_eq k0_dev90_lt 3 c) (dev_eq k0_dev91_lt 4 c) ((lcOrder.drop 12).flatMap (paySend c)) W8) $$ [Hs23 Hst23 Hl23 HO]
  · iframe HR Hst23 Hl23
    isplitl [Hs23]; · iexact Hs23
    iexact HO
  iintro ⟨Hsc23, HO⟩
  iapply (recv_block m K c 2 0 _ W8 12 (by decide) rfl) $$ [Hrr20 HO]
  · iframe # ∗
  iintro ⟨⟨%W9, HO⟩, Hrd20⟩
  iapply (wp_load 𝒱₀ (c : Thread nD τ) none Set.univ (m := Memref.whole cc0_stg7_0) (Finset.subset_univ _)) $$ H7; iintro H7
  generalize hA0 : k0_pay65 (F := F) _ _ = a0
  have ha0 : a0 = act m 3 c 0 := by
    rw [← hA0]; rfl
  iapply (wp_store 𝒱₀ (c : Thread nD τ) none Set.univ (m := Memref.whole cc0_stg7_0) (r := chunkR 0) (Mk := Finset.univ) (Finset.subset_univ _)) $$ H7; iintro H7
  iapply (recv_block m K c 2 1 _ W9 13 (by decide) rfl) $$ [Hrr21 HO]
  · iframe # Hrr21
    iexact HO
  iintro ⟨⟨%W10, HO⟩, Hrd21⟩
  iapply (wp_load 𝒱₀ (c : Thread nD τ) none Set.univ (m := Memref.whole cc0_stg7_0) (Finset.subset_univ _)) $$ H7; iintro H7
  generalize hA1 : k0_pay70 (F := F) _ _ _ = a1
  have ha1 : a1 = act m 3 c 1 := by
    rw [← hA1]; rfl
  iapply (wp_store 𝒱₀ (c : Thread nD τ) none Set.univ (m := Memref.whole cc0_stg7_0) (r := chunkR 1) (Mk := Finset.univ) (Finset.subset_univ _)) $$ H7; iintro H7
  iapply (recv_block m K c 2 2 _ W10 14 (by decide) rfl) $$ [Hrr22 HO]
  · iframe # Hrr22
    iexact HO
  iintro ⟨⟨%W11, HO⟩, Hrd22⟩
  iapply (wp_load 𝒱₀ (c : Thread nD τ) none Set.univ (m := Memref.whole cc0_stg7_0) (Finset.subset_univ _)) $$ H7; iintro H7
  generalize hA2 : k0_pay75 (F := F) _ _ = a2
  have ha2 : a2 = act m 3 c 2 := by
    rw [← hA2]; rfl
  iapply (wp_store 𝒱₀ (c : Thread nD τ) none Set.univ (m := Memref.whole cc0_stg7_0) (r := chunkR 2) (Mk := Finset.univ) (Finset.subset_univ _)) $$ H7; iintro H7
  iapply (recv_block m K c 2 3 _ W11 15 (by decide) rfl) $$ [Hrr23 HO]
  · iframe # Hrr23
    iexact HO
  iintro ⟨⟨%W12, HO⟩, Hrd23⟩
  iapply (wp_load 𝒱₀ (c : Thread nD τ) none Set.univ (m := Memref.whole cc0_stg7_0) (Finset.subset_univ _)) $$ H7; iintro H7
  generalize hA3 : k0_pay80 (F := F) _ _ = a3
  have ha3 : a3 = act m 3 c 3 := by
    rw [← hA3]; rfl
  iapply (wp_store 𝒱₀ (c : Thread nD τ) none Set.univ (m := Memref.whole cc0_stg7_0) (r := chunkR 3) (Mk := Finset.univ) (Finset.subset_univ _)) $$ H7; iintro H7
  subst ha0 ha1 ha2 ha3
  iapply (sendwait_block m K c 0 0 W12) $$ [Hsc00 Hsp00 HO]
  · isplitr; · iexact HR
    isplitl [Hsc00]; · iexact Hsc00
    isplitl [Hsp00]; · iexact Hsp00
    iexact HO
  iintro ⟨⟨%W13, HO⟩, Hsd00⟩
  iapply (sendwait_block m K c 0 1 W13) $$ [Hsc01 Hsp01 HO]
  · iframe # ∗
  iintro ⟨⟨%W14, HO⟩, Hsd01⟩
  iapply (sendwait_block m K c 0 2 W14) $$ [Hsc02 Hsp02 HO]
  · iframe # ∗
  iintro ⟨⟨%W15, HO⟩, Hsd02⟩
  iapply (sendwait_block m K c 0 3 W15) $$ [Hsc03 Hsp03 HO]
  · iframe # ∗
  iintro ⟨⟨%W16, HO⟩, Hsd03⟩
  iapply (sendwait_block m K c 1 0 W16) $$ [Hsc10 Hsp10 HO]
  · iframe # ∗
  iintro ⟨⟨%W17, HO⟩, Hsd10⟩
  iapply (sendwait_block m K c 1 1 W17) $$ [Hsc11 Hsp11 HO]
  · iframe # ∗
  iintro ⟨⟨%W18, HO⟩, Hsd11⟩
  iapply (sendwait_block m K c 1 2 W18) $$ [Hsc12 Hsp12 HO]
  · iframe # ∗
  iintro ⟨⟨%W19, HO⟩, Hsd12⟩
  iapply (sendwait_block m K c 1 3 W19) $$ [Hsc13 Hsp13 HO]
  · iframe # ∗
  iintro ⟨⟨%W20, HO⟩, Hsd13⟩
  iapply (sendwait_block m K c 2 0 W20) $$ [Hsc20 Hsp20 HO]
  · iframe # ∗
  iintro ⟨⟨%W21, HO⟩, Hsd20⟩
  iapply (sendwait_block m K c 2 1 W21) $$ [Hsc21 Hsp21 HO]
  · iframe # ∗
  iintro ⟨⟨%W22, HO⟩, Hsd21⟩
  iapply (sendwait_block m K c 2 2 W22) $$ [Hsc22 Hsp22 HO]
  · iframe # ∗
  iintro ⟨⟨%W23, HO⟩, Hsd22⟩
  iapply (sendwait_block m K c 2 3 W23) $$ [Hsc23 Hsp23 HO]
  · iframe # ∗
  iintro ⟨⟨%W24, HO⟩, Hsd23⟩
  ihave He := (end_regroup m c) $$ [Hrd00 Hsd00 Hid00 Hrd01 Hsd01 Hid01 Hrd02 Hsd02 Hid02 Hrd03 Hsd03 Hid03 Hrd10 Hsd10 Hid10 Hrd11 Hsd11 Hid11 Hrd12 Hsd12 Hid12 Hrd13 Hsd13 Hid13 Hrd20 Hsd20 Hid20 Hrd21 Hsd21 Hid21 Hrd22 Hsd22 Hid22 Hrd23 Hsd23 Hid23]
  · rw [bigSep_lc]; iframe
  icases He with ⟨Hpos, Hsps, Hrps⟩
  imod (close_all m K c) $$ [Hpos] with Hz
  · iframe # ∗
  ihave Hcomm := (comm_collect m c) $$ [Hsps Hrps]
  · iframe # ∗
  rw [wp_ret]; imodintro
  iapply Hk
  unfold bodyPost Φ₁ Dat.owesAt Pipeline.owesWithin
  rw [show (dats m ρ 0 c).owed t0_0.succ = 0 from rfl]
  isplitl [Hcomm Hz]
  · isplitl [Hcomm]; · iexact Hcomm
    iexact Hz
  isplitl [HO]
  · iexists W24
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  isplitl [H5]
  · iexists _; isplitr; · (ipureintro; rfl)
    iexact H5
  isplitl [H6]
  · iexists _; isplitr; · (ipureintro; rfl)
    iexact H6
  iexists _; isplitr; · (ipureintro; exact out_writes_act m c g7)
  iexact H7

end Cert.Kernel.Hand

end
-- ==== Proof.Bits.Arr.lean ====
import proofs.«900998_g7700000000000999_dist_mlpseq_tp1d_rep_rep_b128_d128_h256_v7x_i8_f32_1_alg».proof.Proof.Bits.Ghost
import Idealize.ShloMosaic.Lib.Pipeline.Cells
import Idealize.ShloMosaic.Lib.Pipeline.Frame
import proofs.«900998_g7700000000000999_dist_mlpseq_tp1d_rep_rep_b128_d128_h256_v7x_i8_f32_1_alg».proof.Proof.Gen.Kernel.Points

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ)

theorem arrAt_result (c : Dev nD) (dat : Dat τ (Elt F) Unit ℕ UU ℕ cfg0 c)
    (hafter : ∀ t, dat.after 7 t = outStg m c) :
    dat.arrAt 7 cfg0.N = (show Buf (Elt F) ((cfg0.win 7).arr.view.loc (c : Thread nD τ)) from outStg m c) := by
  have hs := dat.arrAt_succ 7 t0_0
  rw [flush0_7 t0_0, if_pos rfl] at hs
  refine Eq.trans hs ?_
  have hfl : dat.flushed 7 t0_0 = outStg m c := hafter t0_0
  rw [hfl]
  exact Memref.write_access_unit_zero_univ (Elt F) main_v1 (funext fun a => Nat.zero_mul _) _ _ _

theorem arrAt_input (c : Dev nD) (dat : Dat τ (Elt F) Unit ℕ UU ℕ cfg0 c) (w : Fin cfg0.W) (hw : w ≠ 7) :
    dat.arrAt w cfg0.N = dat.A w := by
  have hin : (cfg0.win w).isOut = false := by
    revert w; decide
  exact dat.arrAt_in w hin _

end Cert.Kernel.Hand

end
-- ==== Proof.Claims.lean ====
import proofs.«900998_g7700000000000999_dist_mlpseq_tp1d_rep_rep_b128_d128_h256_v7x_i8_f32_1_alg».proof.Defs
import proofs.«900998_g7700000000000999_dist_mlpseq_tp1d_rep_rep_b128_d128_h256_v7x_i8_f32_1_alg».proof.Proof.Gen.KernelIdeal
import proofs.«900998_g7700000000000999_dist_mlpseq_tp1d_rep_rep_b128_d128_h256_v7x_i8_f32_1_alg».proof.Proof.Gen.ReferenceIdeal
import proofs.«900998_g7700000000000999_dist_mlpseq_tp1d_rep_rep_b128_d128_h256_v7x_i8_f32_1_alg».proof.Proof.Gen.Pre_finite_inputs_Kernel
import proofs.«900998_g7700000000000999_dist_mlpseq_tp1d_rep_rep_b128_d128_h256_v7x_i8_f32_1_alg».proof.Proof.Gen.Pre_finite_inputs_ReferenceIdeal
import proofs.«900998_g7700000000000999_dist_mlpseq_tp1d_rep_rep_b128_d128_h256_v7x_i8_f32_1_alg».proof.Proof.Launch
import proofs.«900998_g7700000000000999_dist_mlpseq_tp1d_rep_rep_b128_d128_h256_v7x_i8_f32_1_alg».proof.Proof.Body
import proofs.«900998_g7700000000000999_dist_mlpseq_tp1d_rep_rep_b128_d128_h256_v7x_i8_f32_1_alg».proof.Proof.BodyDefs
import proofs.«900998_g7700000000000999_dist_mlpseq_tp1d_rep_rep_b128_d128_h256_v7x_i8_f32_1_alg».proof.Proof.Arr
import proofs.«900998_g7700000000000999_dist_mlpseq_tp1d_rep_rep_b128_d128_h256_v7x_i8_f32_1_alg».proof.Proof.Final
import proofs.«900998_g7700000000000999_dist_mlpseq_tp1d_rep_rep_b128_d128_h256_v7x_i8_f32_1_alg».proof.Proof.RefRun
import proofs.«900998_g7700000000000999_dist_mlpseq_tp1d_rep_rep_b128_d128_h256_v7x_i8_f32_1_alg».proof.Proof.Gen.Kernel
import proofs.«900998_g7700000000000999_dist_mlpseq_tp1d_rep_rep_b128_d128_h256_v7x_i8_f32_1_alg».proof.Proof.Bits.Launch
import proofs.«900998_g7700000000000999_dist_mlpseq_tp1d_rep_rep_b128_d128_h256_v7x_i8_f32_1_alg».proof.Proof.Bits.Body
import proofs.«900998_g7700000000000999_dist_mlpseq_tp1d_rep_rep_b128_d128_h256_v7x_i8_f32_1_alg».proof.Proof.Bits.BodyDefs
import proofs.«900998_g7700000000000999_dist_mlpseq_tp1d_rep_rep_b128_d128_h256_v7x_i8_f32_1_alg».proof.Proof.Bits.Arr

noncomputable section

namespace Cert.Proof.Claims

open Idealize.ShloMosaic Idealize.ShloMosaic.TcCoe Idealize.SL.Sem

theorem run_ki {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) (Cert.KernelIdeal.Hand.s₀ m ρ)
      (Cert.KernelIdeal.Hand.QC m ρ) :=
  Cert.KernelIdeal.Hand.run_main m ρ fun c =>
    Cert.KernelIdeal.Hand.body_obligation m ρ (fun K c Kt => Cert.KernelIdeal.Hand.sound_body m ρ K c Kt) c

open Cert.KernelIdeal.Hand in
theorem frame_ki : Cert.frame_KernelIdeal := fun m ρ _ =>
  (θ_run Cert.KernelIdeal.defs _ _).mono (fun r h c =>
    ⟨((h c 0).trans ((arrAt_input c (dats m ρ 0 c) 0 (by decide)).trans rfl)),
      ((h c 1).trans ((arrAt_input c (dats m ρ 0 c) 1 (by decide)).trans rfl)),
      ((h c 2).trans ((arrAt_input c (dats m ρ 0 c) 2 (by decide)).trans rfl)),
      ((h c 3).trans ((arrAt_input c (dats m ρ 0 c) 3 (by decide)).trans rfl)),
      ((h c 4).trans ((arrAt_input c (dats m ρ 0 c) 4 (by decide)).trans rfl)),
      ((h c 5).trans ((arrAt_input c (dats m ρ 0 c) 5 (by decide)).trans rfl)),
      ((h c 6).trans ((arrAt_input c (dats m ρ 0 c) 6 (by decide)).trans rfl))⟩) (run_ki (F := Ideal) m ρ)

theorem run_k {F : FTy → Type} [FloatOps F]
    (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) (Cert.Kernel.Hand.s₀ m ρ)
      (Cert.Kernel.Hand.QC m ρ) :=
  Cert.Kernel.Hand.run_main m ρ fun c =>
    Cert.Kernel.Hand.body_obligation m ρ (fun K c Kt => Cert.Kernel.Hand.sound_body m ρ K c Kt) c

open Cert.Kernel.Hand in
theorem frame_k : Cert.frame_Kernel := fun m ρ _ =>
  (θ_run Cert.Kernel.defs _ _).mono (fun r h c =>
    ⟨((h c 0).trans ((arrAt_input c (dats m ρ 0 c) 0 (by decide)).trans rfl)),
      ((h c 1).trans ((arrAt_input c (dats m ρ 0 c) 1 (by decide)).trans rfl)),
      ((h c 2).trans ((arrAt_input c (dats m ρ 0 c) 2 (by decide)).trans rfl)),
      ((h c 3).trans ((arrAt_input c (dats m ρ 0 c) 3 (by decide)).trans rfl)),
      ((h c 4).trans ((arrAt_input c (dats m ρ 0 c) 4 (by decide)).trans rfl)),
      ((h c 5).trans ((arrAt_input c (dats m ρ 0 c) 5 (by decide)).trans rfl)),
      ((h c 6).trans ((arrAt_input c (dats m ρ 0 c) 6 (by decide)).trans rfl))⟩) (run_k (F := Bits) m ρ)

theorem frame_ri : Cert.frame_ReferenceIdeal := fun m' ρ' _ =>
  (θ_run Cert.ReferenceIdeal.defs _ _).mono (fun _ h c => (h c).2) (Cert.ReferenceIdeal.RefValue.run_ref m' ρ')

theorem preserves : Cert.preserves_Kernel_KernelIdeal := trivial

open Cert.KernelIdeal.Hand in
theorem algebraic : Cert.algebraic_KernelIdeal_ReferenceIdeal := by
  intro m ρ m' ρ' _ hagree
  refine ⟨Cert.ReferenceIdeal.RefValue.refBuf m' 0, ?_, ?_⟩
  · refine (θ_run Cert.KernelIdeal.defs _ _).mono (fun r h c => ⟨?_,
      ((h c 0).trans ((arrAt_input c (dats m ρ 0 c) 0 (by decide)).trans rfl)),
      ((h c 1).trans ((arrAt_input c (dats m ρ 0 c) 1 (by decide)).trans rfl)),
      ((h c 2).trans ((arrAt_input c (dats m ρ 0 c) 2 (by decide)).trans rfl)),
      ((h c 3).trans ((arrAt_input c (dats m ρ 0 c) 3 (by decide)).trans rfl)),
      ((h c 4).trans ((arrAt_input c (dats m ρ 0 c) 4 (by decide)).trans rfl)),
      ((h c 5).trans ((arrAt_input c (dats m ρ 0 c) 5 (by decide)).trans rfl)),
      ((h c 6).trans ((arrAt_input c (dats m ρ 0 c) 6 (by decide)).trans rfl))⟩) (run_ki (F := Ideal) m ρ)
    exact (h c 7).trans ((arrAt_result m c (dats m ρ 0 c) (fun _ => rfl)).trans
      (Cert.Proof.Bridge.kernel_eq_ref m m' hagree c))
  · exact (θ_run Cert.ReferenceIdeal.defs _ _).mono (fun _ h => h 0) (Cert.ReferenceIdeal.RefValue.run_ref m' ρ')

end Cert.Proof.Claims

end
-- ==== Proof.lean ====
import proofs.«900998_g7700000000000999_dist_mlpseq_tp1d_rep_rep_b128_d128_h256_v7x_i8_f32_1_alg».proof.Defs
import proofs.«900998_g7700000000000999_dist_mlpseq_tp1d_rep_rep_b128_d128_h256_v7x_i8_f32_1_alg».proof.Proof.Gen.Kernel
import proofs.«900998_g7700000000000999_dist_mlpseq_tp1d_rep_rep_b128_d128_h256_v7x_i8_f32_1_alg».proof.Proof.Gen.KernelIdeal
import proofs.«900998_g7700000000000999_dist_mlpseq_tp1d_rep_rep_b128_d128_h256_v7x_i8_f32_1_alg».proof.Proof.Gen.ReferenceIdeal
import proofs.«900998_g7700000000000999_dist_mlpseq_tp1d_rep_rep_b128_d128_h256_v7x_i8_f32_1_alg».proof.Proof.Gen.Pre_finite_inputs_Kernel
import proofs.«900998_g7700000000000999_dist_mlpseq_tp1d_rep_rep_b128_d128_h256_v7x_i8_f32_1_alg».proof.Proof.Gen.Pre_finite_inputs_ReferenceIdeal
import proofs.«900998_g7700000000000999_dist_mlpseq_tp1d_rep_rep_b128_d128_h256_v7x_i8_f32_1_alg».proof.Proof.Claims

noncomputable section

namespace Cert.Proof

/-- Eight devices' partial products of a three-layer network, added layer by layer, are the reference's products of the whole matrices. -/
theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Cert.Proof.Claims.frame_k, Cert.Proof.Claims.frame_ki, Cert.Proof.Claims.frame_ri, Cert.Proof.Claims.preserves,
    Cert.Proof.Claims.algebraic⟩

end Cert.Proof

end
